-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v179) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v247) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S2x800000 : Shape := ⟨2, ![2, 800000]⟩
abbrev S50000 : Shape := ⟨1, ![50000]⟩
abbrev S4x96x96 : Shape := ⟨3, ![4, 96, 96]⟩
abbrev S4x96 : Shape := ⟨2, ![4, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S4x96x96 : S_.BroadcastsInDim S4x96x96 (![] : Fin 0 → Fin S4x96x96.rank)
  reducesTo_S4x96x96_S_d0_1_2 : S4x96x96.ReducesTo [0, 1, 2] S_
  bcast_S_S4x96 : S_.BroadcastsInDim S4x96 (![] : Fin 0 → Fin S4x96.rank)
  reducesTo_S4x96_S_d0_1 : S4x96.ReducesTo [0, 1] S_

variable [Facts]

def fn_part1 {F : FTy → Type} [FloatOps F] (main_arg6 : FVec F S4x96 .f32) (main_v13 : IVec S_ 1) (main_v16 : IVec S4x96 1) : IVec S_ 1 :=
  let main_c_5 : IVec S_ 1 := constantI S_ 1 1#1
  let main_v17 : IVec S_ 1 := (fun x v => Host.reduce IntOp.andi x v reducesTo_S4x96_S_d0_1 h_S_) main_v16 main_c_5
  let main_v18 : IVec S_ 1 := andi main_v13 main_v17
  let main_v19 : FVec F S4x96 .f32 := Host.absf main_arg6
  let main_cst_6 : FVec F S_ .f32 := constant S_ .f32 0x7F800000#32
  let main_v20 : FVec F S4x96 .f32 := broadcastInDim S4x96 ![] bcast_S_S4x96 main_cst_6
  let main_v21 : IVec S4x96 1 := cmpf .olt main_v19 main_v20
  let main_c_7 : IVec S_ 1 := constantI S_ 1 1#1
  let main_v22 : IVec S_ 1 := (fun x v => Host.reduce IntOp.andi x v reducesTo_S4x96_S_d0_1 h_S_) main_v21 main_c_7
  let main_v23 : IVec S_ 1 := andi main_v18 main_v22
  main_v23

def fn {F : FTy → Type} [FloatOps F] (main_arg0 : FVec F S50000x96 .f32) (main_arg1 : IVec S2x800000 32) (main_arg2 : IVec S50000 32) (main_arg3 : FVec F S4x96x96 .f32) (main_arg4 : FVec F S4x96 .f32) (main_arg5 : FVec F S4x96 .f32) (main_arg6 : FVec F S4x96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S4x96x96 .f32 := Host.absf main_arg3
  let main_cst_0 : FVec F S_ .f32 := constant S_ .f32 0x7F800000#32
  let main_v5 : FVec F S4x96x96 .f32 := broadcastInDim S4x96x96 ![] bcast_S_S4x96x96 main_cst_0
  let main_v6 : IVec S4x96x96 1 := cmpf .olt main_v4 main_v5
  let main_c_1 : IVec S_ 1 := constantI S_ 1 1#1
  let main_v7 : IVec S_ 1 := (fun x v => Host.reduce IntOp.andi x v reducesTo_S4x96x96_S_d0_1_2 h_S_) main_v6 main_c_1
  let main_v8 : IVec S_ 1 := andi main_v3 main_v7
  let main_v9 : FVec F S4x96 .f32 := Host.absf main_arg4
  let main_cst_2 : FVec F S_ .f32 := constant S_ .f32 0x7F800000#32
  let main_v10 : FVec F S4x96 .f32 := broadcastInDim S4x96 ![] bcast_S_S4x96 main_cst_2
  let main_v11 : IVec S4x96 1 := cmpf .olt main_v9 main_v10
  let main_c_3 : IVec S_ 1 := constantI S_ 1 1#1
  let main_v12 : IVec S_ 1 := (fun x v => Host.reduce IntOp.andi x v reducesTo_S4x96_S_d0_1 h_S_) main_v11 main_c_3
  let main_v13 : IVec S_ 1 := andi main_v8 main_v12
  let main_v14 : FVec F S4x96 .f32 := Host.absf main_arg5
  let main_cst_4 : FVec F S_ .f32 := constant S_ .f32 0x7F800000#32
  let main_v15 : FVec F S4x96 .f32 := broadcastInDim S4x96 ![] bcast_S_S4x96 main_cst_4
  let main_v16 : IVec S4x96 1 := cmpf .olt main_v14 main_v15
  fn_part1 (F := F) main_arg6 main_v13 main_v16
-- ==== Kernel.lean ====
abbrev S50000x96 : Shape := ⟨2, ![50000, 96]⟩
abbrev S2x800000 : Shape := ⟨2, ![2, 800000]⟩
abbrev S50000 : Shape := ⟨1, ![50000]⟩
abbrev S4x96x96 : Shape := ⟨3, ![4, 96, 96]⟩
abbrev S4x96 : Shape := ⟨2, ![4, 96]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x96x96 : Shape := ⟨3, ![1, 96, 96]⟩
abbrev S96x96 : Shape := ⟨2, ![96, 96]⟩
abbrev S2000x96 : Shape := ⟨2, ![2000, 96]⟩
abbrev S850000x96 : Shape := ⟨2, ![850000, 96]⟩
abbrev S1x96 : Shape := ⟨2, ![1, 96]⟩
abbrev S96 : Shape := ⟨1, ![96]⟩
abbrev S50000x1 : Shape := ⟨2, ![50000, 1]⟩
abbrev S256x96 : Shape := ⟨2, ![256, 96]⟩
abbrev S2000x1 : Shape := ⟨2, ![2000, 1]⟩
abbrev S2000x256 : Shape := ⟨2, ![2000, 256]⟩
abbrev S256 : Shape := ⟨1, ![256]⟩
abbrev S256x1 : Shape := ⟨2, ![256, 1]⟩

abbrev nBuf : Space → Nat
  | .hbm => 225
  | .vmem => 82
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S4x96x96, .f32⟩
  | 4 => ⟨S4x96, .f32⟩
  | 5 => ⟨S4x96, .f32⟩
  | 6 => ⟨S4x96, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S850000x1, .f32⟩
  | 51 => ⟨S1x96x96, .f32⟩
  | 52 => ⟨S96x96, .f32⟩
  | 53 => ⟨S50000x96, .f32⟩
  | 54 => ⟨S_, .i32⟩
  | 55 => ⟨S850000, .i32⟩
  | 56 => ⟨S850000, .i1⟩
  | 57 => ⟨S_, .i32⟩
  | 58 => ⟨S850000, .i32⟩
  | 59 => ⟨S850000, .i32⟩
  | 60 => ⟨S850000, .i32⟩
  | 61 => ⟨S850000x1, .i32⟩
  | 62 => ⟨S850000x96, .f32⟩
  | 63 => ⟨S850000x96, .f32⟩
  | 64 => ⟨S850000x96, .f32⟩
  | 65 => ⟨S_, .f32⟩
  | 66 => ⟨S50000x96, .f32⟩
  | 67 => ⟨S850000x1, .i32⟩
  | 68 => ⟨S50000x96, .f32⟩
  | 69 => ⟨S1x96, .f32⟩
  | 70 => ⟨S96, .f32⟩
  | 71 => ⟨S1x96, .f32⟩
  | 72 => ⟨S50000x96, .f32⟩
  | 73 => ⟨S50000x96, .f32⟩
  | 74 => ⟨S1x96, .f32⟩
  | 75 => ⟨S1x96, .f32⟩
  | 76 => ⟨S_, .f32⟩
  | 77 => ⟨S1x96, .f32⟩
  | 78 => ⟨S1x96, .f32⟩
  | 79 => ⟨S_, .f32⟩
  | 80 => ⟨S1x96, .f32⟩
  | 81 => ⟨S1x96, .f32⟩
  | 82 => ⟨S1x96, .f32⟩
  | 83 => ⟨S1x96, .f32⟩
  | 84 => ⟨S1x96, .f32⟩
  | 85 => ⟨S96, .f32⟩
  | 86 => ⟨S1x96, .f32⟩
  | 87 => ⟨S96, .f32⟩
  | 88 => ⟨S1x96, .f32⟩
  | 89 => ⟨S1x96, .f32⟩
  | 90 => ⟨S50000x96, .f32⟩
  | 91 => ⟨S1x96x96, .f32⟩
  | 92 => ⟨S96x96, .f32⟩
  | 93 => ⟨S50000x96, .f32⟩
  | 94 => ⟨S_, .i32⟩
  | 95 => ⟨S850000, .i32⟩
  | 96 => ⟨S850000, .i1⟩
  | 97 => ⟨S_, .i32⟩
  | 98 => ⟨S850000, .i32⟩
  | 99 => ⟨S850000, .i32⟩
  | 100 => ⟨S850000, .i32⟩
  | 101 => ⟨S850000x1, .i32⟩
  | 102 => ⟨S850000x96, .f32⟩
  | 103 => ⟨S850000x96, .f32⟩
  | 104 => ⟨S850000x96, .f32⟩
  | 105 => ⟨S_, .f32⟩
  | 106 => ⟨S50000x96, .f32⟩
  | 107 => ⟨S850000x1, .i32⟩
  | 108 => ⟨S50000x96, .f32⟩
  | 109 => ⟨S1x96, .f32⟩
  | 110 => ⟨S96, .f32⟩
  | 111 => ⟨S1x96, .f32⟩
  | 112 => ⟨S50000x96, .f32⟩
  | 113 => ⟨S50000x96, .f32⟩
  | 114 => ⟨S1x96, .f32⟩
  | 115 => ⟨S1x96, .f32⟩
  | 116 => ⟨S_, .f32⟩
  | 117 => ⟨S1x96, .f32⟩
  | 118 => ⟨S1x96, .f32⟩
  | 119 => ⟨S_, .f32⟩
  | 120 => ⟨S1x96, .f32⟩
  | 121 => ⟨S1x96, .f32⟩
  | 122 => ⟨S1x96, .f32⟩
  | 123 => ⟨S1x96, .f32⟩
  | 124 => ⟨S1x96, .f32⟩
  | 125 => ⟨S96, .f32⟩
  | 126 => ⟨S1x96, .f32⟩
  | 127 => ⟨S96, .f32⟩
  | _ => ⟨S50000x96, .f32⟩

abbrev hbmTy0_1 (i : Nat) : BufTy := match i % 128 with
  | 0 => ⟨S1x96, .f32⟩
  | 1 => ⟨S1x96, .f32⟩
  | 2 => ⟨S50000x96, .f32⟩
  | 3 => ⟨S1x96x96, .f32⟩
  | 4 => ⟨S96x96, .f32⟩
  | 5 => ⟨S50000x96, .f32⟩
  | 6 => ⟨S_, .i32⟩
  | 7 => ⟨S850000, .i32⟩
  | 8 => ⟨S850000, .i1⟩
  | 9 => ⟨S_, .i32⟩
  | 10 => ⟨S850000, .i32⟩
  | 11 => ⟨S850000, .i32⟩
  | 12 => ⟨S850000, .i32⟩
  | 13 => ⟨S850000x1, .i32⟩
  | 14 => ⟨S850000x96, .f32⟩
  | 15 => ⟨S850000x96, .f32⟩
  | 16 => ⟨S850000x96, .f32⟩
  | 17 => ⟨S_, .f32⟩
  | 18 => ⟨S50000x96, .f32⟩
  | 19 => ⟨S850000x1, .i32⟩
  | 20 => ⟨S50000x96, .f32⟩
  | 21 => ⟨S1x96, .f32⟩
  | 22 => ⟨S96, .f32⟩
  | 23 => ⟨S1x96, .f32⟩
  | 24 => ⟨S50000x96, .f32⟩
  | 25 => ⟨S50000x96, .f32⟩
  | 26 => ⟨S1x96, .f32⟩
  | 27 => ⟨S1x96, .f32⟩
  | 28 => ⟨S_, .f32⟩
  | 29 => ⟨S1x96, .f32⟩
  | 30 => ⟨S1x96, .f32⟩
  | 31 => ⟨S_, .f32⟩
  | 32 => ⟨S1x96, .f32⟩
  | 33 => ⟨S1x96, .f32⟩
  | 34 => ⟨S1x96, .f32⟩
  | 35 => ⟨S1x96, .f32⟩
  | 36 => ⟨S1x96, .f32⟩
  | 37 => ⟨S96, .f32⟩
  | 38 => ⟨S1x96, .f32⟩
  | 39 => ⟨S96, .f32⟩
  | 40 => ⟨S1x96, .f32⟩
  | 41 => ⟨S1x96, .f32⟩
  | 42 => ⟨S50000x96, .f32⟩
  | 43 => ⟨S1x96x96, .f32⟩
  | 44 => ⟨S96x96, .f32⟩
  | 45 => ⟨S50000x96, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000x96, .f32⟩
  | 55 => ⟨S850000x96, .f32⟩
  | 56 => ⟨S850000x96, .f32⟩
  | 57 => ⟨S_, .f32⟩
  | 58 => ⟨S50000x96, .f32⟩
  | 59 => ⟨S850000x1, .i32⟩
  | 60 => ⟨S50000x96, .f32⟩
  | 61 => ⟨S1x96, .f32⟩
  | 62 => ⟨S96, .f32⟩
  | 63 => ⟨S1x96, .f32⟩
  | 64 => ⟨S50000x96, .f32⟩
  | 65 => ⟨S50000x96, .f32⟩
  | 66 => ⟨S1x96, .f32⟩
  | 67 => ⟨S1x96, .f32⟩
  | 68 => ⟨S_, .f32⟩
  | 69 => ⟨S1x96, .f32⟩
  | 70 => ⟨S1x96, .f32⟩
  | 71 => ⟨S_, .f32⟩
  | 72 => ⟨S1x96, .f32⟩
  | 73 => ⟨S1x96, .f32⟩
  | 74 => ⟨S1x96, .f32⟩
  | 75 => ⟨S1x96, .f32⟩
  | 76 => ⟨S1x96, .f32⟩
  | 77 => ⟨S96, .f32⟩
  | 78 => ⟨S1x96, .f32⟩
  | 79 => ⟨S96, .f32⟩
  | 80 => ⟨S1x96, .f32⟩
  | 81 => ⟨S1x96, .f32⟩
  | 82 => ⟨S50000x96, .f32⟩
  | 83 => ⟨S50000x1, .i32⟩
  | 84 => ⟨S256x96, .f32⟩
  | 85 => ⟨S_, .f32⟩
  | 86 => ⟨S50000, .f32⟩
  | 87 => ⟨S_, .f32⟩
  | 88 => ⟨S256, .f32⟩
  | 89 => ⟨S50000x1, .i32⟩
  | 90 => ⟨S256, .f32⟩
  | 91 => ⟨S_, .f32⟩
  | 92 => ⟨S256, .f32⟩
  | 93 => ⟨S256, .f32⟩
  | 94 => ⟨S256x1, .f32⟩
  | 95 => ⟨S256x96, .f32⟩
  | 96 => ⟨S256x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | .local _ .vmem, ⟨0, _⟩ => ⟨S2000x96, .f32⟩
  | .local _ .vmem, ⟨1, _⟩ => ⟨S2000x96, .f32⟩
  | .local _ .vmem, ⟨2, _⟩ => ⟨S96x96, .f32⟩
  | .local _ .vmem, ⟨3, _⟩ => ⟨S2000x96, .f32⟩
  | .local _ .vmem, ⟨4, _⟩ => ⟨S2000x96, .f32⟩
  | .local _ .vmem, ⟨5, _⟩ => ⟨S2000x96, .f32⟩
  | .local _ .vmem, ⟨6, _⟩ => ⟨S2000x96, .f32⟩
  | .local _ .vmem, ⟨7, _⟩ => ⟨S1x96, .f32⟩
  | .local _ .vmem, ⟨8, _⟩ => ⟨S1x96, .f32⟩
  | .local _ .vmem, ⟨9, _⟩ => ⟨S1x96, .f32⟩
  | .local _ .vmem, ⟨10, _⟩ => ⟨S1x96, .f32⟩
  | .local _ .vmem, ⟨11, _⟩ => ⟨S2000x96, .f32⟩
  | .local _ .vmem, ⟨12, _⟩ => ⟨S2000x96, .f32⟩
  | .local _ .vmem, ⟨13, _⟩ => ⟨S1x96, .f32⟩
  | .local _ .vmem, ⟨14, _⟩ => ⟨S1x96, .f32⟩
  | .local _ .vmem, ⟨15, _⟩ => ⟨S1x96, .f32⟩
  | .local _ .vmem, ⟨16, _⟩ => ⟨S1x96, .f32⟩
  | .local _ .vmem, ⟨17, _⟩ => ⟨S2000x96, .f32⟩
  | .local _ .vmem, ⟨18, _⟩ => ⟨S2000x96, .f32⟩
  | .local _ .vmem, ⟨19, _⟩ => ⟨S2000x96, .f32⟩
  | .local _ .vmem, ⟨20, _⟩ => ⟨S2000x96, .f32⟩
  | .local _ .vmem, ⟨21, _⟩ => ⟨S96x96, .f32⟩
  | .local _ .vmem, ⟨22, _⟩ => ⟨S2000x96, .f32⟩
  | .local _ .vmem, ⟨23, _⟩ => ⟨S2000x96, .f32⟩
  | .local _ .vmem, ⟨24, _⟩ => ⟨S2000x96, .f32⟩
  | .local _ .vmem, ⟨25, _⟩ => ⟨S2000x96, .f32⟩
  | .local _ .vmem, ⟨26, _⟩ => ⟨S1x96, .f32⟩
  | .local _ .vmem, ⟨27, _⟩ => ⟨S1x96, .f32⟩
  | .local _ .vmem, ⟨28, _⟩ => ⟨S1x96, .f32⟩
  | .local _ .vmem, ⟨29, _⟩ => ⟨S1x96, .f32⟩
  | .local _ .vmem, ⟨30, _⟩ => ⟨S2000x96, .f32⟩
  | .local _ .vmem, ⟨31, _⟩ => ⟨S2000x96, .f32⟩
  | .local _ .vmem, ⟨32, _⟩ => ⟨S1x96, .f32⟩
  | .local _ .vmem, ⟨33, _⟩ => ⟨S1x96, .f32⟩
  | .local _ .vmem, ⟨34, _⟩ => ⟨S1x96, .f32⟩
  | .local _ .vmem, ⟨35, _⟩ => ⟨S1x96, .f32⟩
  | .local _ .vmem, ⟨36, _⟩ => ⟨S2000x96, .f32⟩
  | .local _ .vmem, ⟨37, _⟩ => ⟨S2000x96, .f32⟩
  | .local _ .vmem, ⟨38, _⟩ => ⟨S2000x96, .f32⟩
  | .local _ .vmem, ⟨39, _⟩ => ⟨S2000x96, .f32⟩
  | .local _ .vmem, ⟨40, _⟩ => ⟨S96x96, .f32⟩
  | .local _ .vmem, ⟨41, _⟩ => ⟨S2000x96, .f32⟩
  | .local _ .vmem, ⟨42, _⟩ => ⟨S2000x96, .f32⟩
  | .local _ .vmem, ⟨43, _⟩ => ⟨S2000x96, .f32⟩
  | .local _ .vmem, ⟨44, _⟩ => ⟨S2000x96, .f32⟩
  | .local _ .vmem, ⟨45, _⟩ => ⟨S1x96, .f32⟩
  | .local _ .vmem, ⟨46, _⟩ => ⟨S1x96, .f32⟩
  | .local _ .vmem, ⟨47, _⟩ => ⟨S1x96, .f32⟩
  | .local _ .vmem, ⟨48, _⟩ => ⟨S1x96, .f32⟩
  | .local _ .vmem, ⟨49, _⟩ => ⟨S2000x96, .f32⟩
  | .local _ .vmem, ⟨50, _⟩ => ⟨S2000x96, .f32⟩
  | .local _ .vmem, ⟨51, _⟩ => ⟨S1x96, .f32⟩
  | .local _ .vmem, ⟨52, _⟩ => ⟨S1x96, .f32⟩
  | .local _ .vmem, ⟨53, _⟩ => ⟨S1x96, .f32⟩
  | .local _ .vmem, ⟨54, _⟩ => ⟨S1x96, .f32⟩
  | .local _ .vmem, ⟨55, _⟩ => ⟨S2000x96, .f32⟩
  | .local _ .vmem, ⟨56, _⟩ => ⟨S2000x96, .f32⟩
  | .local _ .vmem, ⟨57, _⟩ => ⟨S2000x96, .f32⟩
  | .local _ .vmem, ⟨58, _⟩ => ⟨S2000x96, .f32⟩
  | .local _ .vmem, ⟨59, _⟩ => ⟨S96x96, .f32⟩
  | .local _ .vmem, ⟨60, _⟩ => ⟨S2000x96, .f32⟩
  | .local _ .vmem, ⟨61, _⟩ => ⟨S2000x96, .f32⟩
  | .local _ .vmem, ⟨62, _⟩ => ⟨S2000x96, .f32⟩
  | .local _ .vmem, ⟨63, _⟩ => ⟨S2000x96, .f32⟩
  | .local _ .vmem, ⟨64, _⟩ => ⟨S1x96, .f32⟩
  | .local _ .vmem, ⟨65, _⟩ => ⟨S1x96, .f32⟩
  | .local _ .vmem, ⟨66, _⟩ => ⟨S1x96, .f32⟩
  | .local _ .vmem, ⟨67, _⟩ => ⟨S1x96, .f32⟩
  | .local _ .vmem, ⟨68, _⟩ => ⟨S2000x96, .f32⟩
  | .local _ .vmem, ⟨69, _⟩ => ⟨S2000x96, .f32⟩
  | .local _ .vmem, ⟨70, _⟩ => ⟨S1x96, .f32⟩
  | .local _ .vmem, ⟨71, _⟩ => ⟨S1x96, .f32⟩
  | .local _ .vmem, ⟨72, _⟩ => ⟨S1x96, .f32⟩
  | .local _ .vmem, ⟨73, _⟩ => ⟨S1x96, .f32⟩
  | .local _ .vmem, ⟨74, _⟩ => ⟨S2000x96, .f32⟩
  | .local _ .vmem, ⟨75, _⟩ => ⟨S2000x96, .f32⟩
  | .local _ .vmem, ⟨76, _⟩ => ⟨S2000x96, .f32⟩
  | .local _ .vmem, ⟨77, _⟩ => ⟨S2000x96, .f32⟩
  | .local _ .vmem, ⟨78, _⟩ => ⟨S2000x1, .i32⟩
  | .local _ .vmem, ⟨79, _⟩ => ⟨S2000x1, .i32⟩
  | .local _ .vmem, ⟨80, _⟩ => ⟨S256x96, .f32⟩
  | .local _ .vmem, ⟨81, _⟩ => ⟨S256x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | _, _ => false

abbrev semScoped : Fin 0 → Bool
  | ⟨_, h⟩ => absurd h (Nat.not_lt_zero _)

abbrev dmaSemScoped : Fin 73 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | _ => false

abbrev sig : RefSig :=
  ofTc nBuf bufTy 0 73 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_c_7 : Ref sig .tc := ⟨.hbm, 54, rfl⟩
abbrev main_v36 : Ref sig .tc := ⟨.hbm, 55, rfl⟩
abbrev main_v37 : Ref sig .tc := ⟨.hbm, 56, rfl⟩
abbrev main_c_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53_0 : Ref sig .tc := ⟨.hbm, 74, rfl⟩
abbrev main_v53_1 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_c_12 : Ref sig .tc := ⟨.hbm, 94, rfl⟩
abbrev main_v70 : Ref sig .tc := ⟨.hbm, 95, rfl⟩
abbrev main_v71 : Ref sig .tc := ⟨.hbm, 96, rfl⟩
abbrev main_c_13 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_cst_14 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87_0 : Ref sig .tc := ⟨.hbm, 114, rfl⟩
abbrev main_v87_1 : Ref sig .tc := ⟨.hbm, 115, rfl⟩
abbrev main_cst_15 : Ref sig .tc := ⟨.hbm, 116, rfl⟩
abbrev main_v88 : Ref sig .tc := ⟨.hbm, 117, rfl⟩
abbrev main_v89 : Ref sig .tc := ⟨.hbm, 118, rfl⟩
abbrev main_cst_16 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_c_17 : Ref sig .tc := ⟨.hbm, 134, rfl⟩
abbrev main_v104 : Ref sig .tc := ⟨.hbm, 135, rfl⟩
abbrev main_v105 : Ref sig .tc := ⟨.hbm, 136, rfl⟩
abbrev main_c_18 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_cst_19 : Ref sig .tc := ⟨.hbm, 145, rfl⟩
abbrev main_v113 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_v121_0 : Ref sig .tc := ⟨.hbm, 154, rfl⟩
abbrev main_v121_1 : Ref sig .tc := ⟨.hbm, 155, rfl⟩
abbrev main_cst_20 : Ref sig .tc := ⟨.hbm, 156, rfl⟩
abbrev main_v122 : Ref sig .tc := ⟨.hbm, 157, rfl⟩
abbrev main_v123 : Ref sig .tc := ⟨.hbm, 158, rfl⟩
abbrev main_cst_21 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_c_22 : Ref sig .tc := ⟨.hbm, 174, rfl⟩
abbrev main_v138 : Ref sig .tc := ⟨.hbm, 175, rfl⟩
abbrev main_v139 : Ref sig .tc := ⟨.hbm, 176, rfl⟩
abbrev main_c_23 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_cst_24 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_v154 : Ref sig .tc := ⟨.hbm, 193, rfl⟩
abbrev main_v155_0 : Ref sig .tc := ⟨.hbm, 194, rfl⟩
abbrev main_v155_1 : Ref sig .tc := ⟨.hbm, 195, rfl⟩
abbrev main_cst_25 : Ref sig .tc := ⟨.hbm, 196, rfl⟩
abbrev main_v156 : Ref sig .tc := ⟨.hbm, 197, rfl⟩
abbrev main_v157 : Ref sig .tc := ⟨.hbm, 198, rfl⟩
abbrev main_cst_26 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_cst_27 : Ref sig .tc := ⟨.hbm, 213, rfl⟩
abbrev main_v171 : Ref sig .tc := ⟨.hbm, 214, rfl⟩
abbrev main_cst_28 : Ref sig .tc := ⟨.hbm, 215, rfl⟩
abbrev main_v172 : Ref sig .tc := ⟨.hbm, 216, rfl⟩
abbrev main_v173 : Ref sig .tc := ⟨.hbm, 217, rfl⟩
abbrev main_v174 : Ref sig .tc := ⟨.hbm, 218, rfl⟩
abbrev main_cst_29 : Ref sig .tc := ⟨.hbm, 219, rfl⟩
abbrev main_v175 : Ref sig .tc := ⟨.hbm, 220, rfl⟩
abbrev main_v176 : Ref sig .tc := ⟨.hbm, 221, rfl⟩
abbrev main_v177 : Ref sig .tc := ⟨.hbm, 222, rfl⟩
abbrev main_v178 : Ref sig .tc := ⟨.hbm, 223, rfl⟩
abbrev main_v179 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_scratch0 : Ref sig .tc := ⟨.vmem, 28, rfl⟩
abbrev cc4_scratch1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg4_0 : Ref sig .tc := ⟨.vmem, 35, rfl⟩
abbrev cc5_stg5_0 : Ref sig .tc := ⟨.vmem, 36, rfl⟩
abbrev cc5_stg5_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg2_1 : Ref sig .tc := ⟨.vmem, 42, rfl⟩
abbrev cc7_stg0_0 : Ref sig .tc := ⟨.vmem, 43, rfl⟩
abbrev cc7_stg0_1 : Ref sig .tc := ⟨.vmem, 44, rfl⟩
abbrev cc7_stg1_0 : Ref sig .tc := ⟨.vmem, 45, rfl⟩
abbrev cc7_stg2_0 : Ref sig .tc := ⟨.vmem, 46, rfl⟩
abbrev cc7_scratch0 : Ref sig .tc := ⟨.vmem, 47, rfl⟩
abbrev cc7_scratch1 : Ref sig .tc := ⟨.vmem, 48, rfl⟩
abbrev cc8_stg0_0 : Ref sig .tc := ⟨.vmem, 49, rfl⟩
abbrev cc8_stg0_1 : Ref sig .tc := ⟨.vmem, 50, rfl⟩
abbrev cc8_stg1_0 : Ref sig .tc := ⟨.vmem, 51, rfl⟩
abbrev cc8_stg2_0 : Ref sig .tc := ⟨.vmem, 52, rfl⟩
abbrev cc8_stg3_0 : Ref sig .tc := ⟨.vmem, 53, rfl⟩
abbrev cc8_stg4_0 : Ref sig .tc := ⟨.vmem, 54, rfl⟩
abbrev cc8_stg5_0 : Ref sig .tc := ⟨.vmem, 55, rfl⟩
abbrev cc8_stg5_1 : Ref sig .tc := ⟨.vmem, 56, rfl⟩
abbrev cc9_stg0_0 : Ref sig .tc := ⟨.vmem, 57, rfl⟩
abbrev cc9_stg0_1 : Ref sig .tc := ⟨.vmem, 58, rfl⟩
abbrev cc9_stg1_0 : Ref sig .tc := ⟨.vmem, 59, rfl⟩
abbrev cc9_stg2_0 : Ref sig .tc := ⟨.vmem, 60, rfl⟩
abbrev cc9_stg2_1 : Ref sig .tc := ⟨.vmem, 61, rfl⟩
abbrev cc10_stg0_0 : Ref sig .tc := ⟨.vmem, 62, rfl⟩
abbrev cc10_stg0_1 : Ref sig .tc := ⟨.vmem, 63, rfl⟩
abbrev cc10_stg1_0 : Ref sig .tc := ⟨.vmem, 64, rfl⟩
abbrev cc10_stg2_0 : Ref sig .tc := ⟨.vmem, 65, rfl⟩
abbrev cc10_scratch0 : Ref sig .tc := ⟨.vmem, 66, rfl⟩
abbrev cc10_scratch1 : Ref sig .tc := ⟨.vmem, 67, rfl⟩
abbrev cc11_stg0_0 : Ref sig .tc := ⟨.vmem, 68, rfl⟩
abbrev cc11_stg0_1 : Ref sig .tc := ⟨.vmem, 69, rfl⟩
abbrev cc11_stg1_0 : Ref sig .tc := ⟨.vmem, 70, rfl⟩
abbrev cc11_stg2_0 : Ref sig .tc := ⟨.vmem, 71, rfl⟩
abbrev cc11_stg3_0 : Ref sig .tc := ⟨.vmem, 72, rfl⟩
abbrev cc11_stg4_0 : Ref sig .tc := ⟨.vmem, 73, rfl⟩
abbrev cc11_stg5_0 : Ref sig .tc := ⟨.vmem, 74, rfl⟩
abbrev cc11_stg5_1 : Ref sig .tc := ⟨.vmem, 75, rfl⟩
abbrev cc12_stg0_0 : Ref sig .tc := ⟨.vmem, 76, rfl⟩
abbrev cc12_stg0_1 : Ref sig .tc := ⟨.vmem, 77, rfl⟩
abbrev cc12_stg1_0 : Ref sig .tc := ⟨.vmem, 78, rfl⟩
abbrev cc12_stg1_1 : Ref sig .tc := ⟨.vmem, 79, rfl⟩
abbrev cc12_stg2_0 : Ref sig .tc := ⟨.vmem, 80, rfl⟩
abbrev cc12_scratch0 : Ref sig .tc := ⟨.vmem, 81, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc5_sem0_0 : DmaSem sig := 26
abbrev cc5_sem0_1 : DmaSem sig := 27
abbrev cc5_sem1_0 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem5_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem2_1 : DmaSem sig := 38
abbrev cc7_sem0_0 : DmaSem sig := 39
abbrev cc7_sem0_1 : DmaSem sig := 40
abbrev cc7_sem1_0 : DmaSem sig := 41
abbrev cc7_sem2_0 : DmaSem sig := 42
abbrev cc8_sem0_0 : DmaSem sig := 43
abbrev cc8_sem0_1 : DmaSem sig := 44
abbrev cc8_sem1_0 : DmaSem sig := 45
abbrev cc8_sem2_0 : DmaSem sig := 46
abbrev cc8_sem3_0 : DmaSem sig := 47
abbrev cc8_sem4_0 : DmaSem sig := 48
abbrev cc8_sem5_0 : DmaSem sig := 49
abbrev cc8_sem5_1 : DmaSem sig := 50
abbrev cc9_sem0_0 : DmaSem sig := 51
abbrev cc9_sem0_1 : DmaSem sig := 52
abbrev cc9_sem1_0 : DmaSem sig := 53
abbrev cc9_sem2_0 : DmaSem sig := 54
abbrev cc9_sem2_1 : DmaSem sig := 55
abbrev cc10_sem0_0 : DmaSem sig := 56
abbrev cc10_sem0_1 : DmaSem sig := 57
abbrev cc10_sem1_0 : DmaSem sig := 58
abbrev cc10_sem2_0 : DmaSem sig := 59
abbrev cc11_sem0_0 : DmaSem sig := 60
abbrev cc11_sem0_1 : DmaSem sig := 61
abbrev cc11_sem1_0 : DmaSem sig := 62
abbrev cc11_sem2_0 : DmaSem sig := 63
abbrev cc11_sem3_0 : DmaSem sig := 64
abbrev cc11_sem4_0 : DmaSem sig := 65
abbrev cc11_sem5_0 : DmaSem sig := 66
abbrev cc11_sem5_1 : DmaSem sig := 67
abbrev cc12_sem0_0 : DmaSem sig := 68
abbrev cc12_sem0_1 : DmaSem sig := 69
abbrev cc12_sem1_0 : DmaSem sig := 70
abbrev cc12_sem1_1 : DmaSem sig := 71
abbrev cc12_sem2_0 : DmaSem sig := 72

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x96 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S96x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def k1_cond2 (i : grid1.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x96 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x96 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x96 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x96 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x96 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x96 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x96 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x96 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S96x96 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x96 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S2000x96 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x96 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x96 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x96 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x96 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x96 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x96 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x96 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x96 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x96 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S96x96 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x96 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![25], ![false]⟩

def k7_cond2 (i : grid7.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S2000x96 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x96 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x96 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev grid8 : Pipeline.Grid := ⟨1, ![25], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S2000x96 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x96 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x96 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x96 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x96 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S2000x96 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![25], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S2000x96 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S96x96 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S2000x96 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![25], ![false]⟩

def k10_cond2 (i : grid10.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_11 : BitVec 32 := 0#32
  let v22 : BitVec 1 := Scalar.cmpi .ne v21 c0_i32_11
  v22

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S2000x96 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x96 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x96 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev grid11 : Pipeline.Grid := ⟨1, ![25], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S2000x96 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x96 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x96 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x96 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x96 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 2 → Memref sig .tc .vmem S2000x96 .f32 := fun | 0 => Memref.whole cc11_stg5_0 | 1 => Memref.whole cc11_stg5_1 | ⟨_ + 2, h⟩ => absurd h (Nat.not_lt.2 (Nat.le_add_left _ _))
abbrev sem11_5 : Fin 2 → DmaSem sig := fun | 0 => cc11_sem5_0 | 1 => cc11_sem5_1 | ⟨_ + 2, h⟩ => absurd h (Nat.not_lt.2 (Nat.le_add_left _ _))
abbrev reads11_5 : Fin grid11.rank → Bool := ![true]

abbrev grid12 : Pipeline.Grid := ⟨1, ![25], ![false]⟩

def k12_cond2 (i : grid12.Coords) : BitVec 1 :=
  let arg0 : BitVec 32 := BitVec.ofNat 32 (i 0).val
  let c24_i32 : BitVec 32 := 24#32
  let v20 : BitVec 1 := Scalar.cmpi .eq arg0 c24_i32
  let v21 : BitVec 32 := Scalar.extui v20
  let c0_i32_8 : BitVec 32 := 0#32
  let v22 : BitVec 1 := Scalar.cmpi .ne v21 c0_i32_8
  v22

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S2000x96 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S2000x1 .i32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S256x96 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x96x96_S1x96x96_0_0_0 : S4x96x96.Slices ![0, 0, 0] S1x96x96
  shapeCasts_S1x96x96_S96x96 : S1x96x96.ShapeCasts S96x96
  inb_S2000x96_S2000x96_0_0 : ∀ a, (![0, 0] : Fin 2 → Nat) a + S2000x96.size a ≤ S2000x96.size a
  h_S2000x96 : 0 < S2000x96.numel
  bitsLt_bf16_f32 : FTy.bits .bf16 < FTy.bits .f32
  inb_S96x96_S96x96_0_0 : ∀ a, (![0, 0] : Fin 2 → Nat) a + S96x96.size a ≤ S96x96.size a
  h_S96x96 : 0 < S96x96.numel
  shapeCasts_S96x96_S96x96 : S96x96.ShapeCasts S96x96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S4x96_S1x96_0_0 : S4x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  inb_S1x96_S1x96_0_0 : ∀ a, (![0, 0] : Fin 2 → Nat) a + S1x96.size a ≤ S1x96.size a
  h_S1x96 : 0 < S1x96.numel
  shapeCasts_S1x96_S1x96 : S1x96.ShapeCasts S1x96
  shapeCasts_S2000x96_S2000x96 : S2000x96.ShapeCasts S2000x96
  reduces_S2000x96_S96 : S2000x96.Reduces [0] S96
  shapeCasts_S96_S1x96 : S96.ShapeCasts S1x96
  bcast_S_S1x96 : S_.BroadcastsInDim S1x96 (![] : Fin 0 → Fin S1x96.rank)
  broadcasts_S1x96_S2000x96 : S1x96.Broadcasts S2000x96
  slices_S4x96x96_S1x96x96_1_0_0 : S4x96x96.Slices ![1, 0, 0] S1x96x96
  slices_S4x96_S1x96_1_0 : S4x96.Slices ![1, 0] S1x96
  slices_S4x96x96_S1x96x96_2_0_0 : S4x96x96.Slices ![2, 0, 0] S1x96x96
  slices_S4x96_S1x96_2_0 : S4x96.Slices ![2, 0] S1x96
  slices_S4x96x96_S1x96x96_3_0_0 : S4x96x96.Slices ![3, 0, 0] S1x96x96
  slices_S4x96_S1x96_3_0 : S4x96.Slices ![3, 0] S1x96
  shapeCasts_S50000_S50000x1 : S50000.ShapeCasts S50000x1
  inb_S256x96_S256x96_0_0 : ∀ a, (![0, 0] : Fin 2 → Nat) a + S256x96.size a ≤ S256x96.size a
  h_S256x96 : 0 < S256x96.numel
  shapeCasts_S256x96_S256x96 : S256x96.ShapeCasts S256x96
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x256_d1_w32 : S2000x256.Iotas .tc 32 [1]
  broadcasts_S2000x1_S2000x256 : S2000x1.Broadcasts S2000x256
  natLt_1_32 : 1 < 32
  bcast_S_S256 : S_.BroadcastsInDim S256 (![] : Fin 0 → Fin S256.rank)
  bcast_S50000_S50000x1_0 : S50000.BroadcastsInDim S50000x1 (![0] : Fin 1 → Fin S50000x1.rank)
  bcast_S256_S256x1_0 : S256.BroadcastsInDim S256x1 (![0] : Fin 1 → Fin S256x1.rank)
  bcast_S256x1_S256x96_0_1 : S256x1.BroadcastsInDim S256x96 (![0, 1] : Fin 2 → Fin S256x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x96_S96x96_S2000x96_1_0_0_1_n_n_wf : DotDims.WF S2000x96 S96x96 S2000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S2000x256_S2000x96_S256x96_0_0_1_1_n_n_wf : DotDims.WF S2000x256 S2000x96 S256x96 [0] [0] [1] [1] [] []
  scatter_S256_S50000x1_S50000_n_0_0_1_wf : ScatterDims.WF S256 S50000x1 S50000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x96.size a ≤ S50000x96.size a
  hwx0_0 : ∀ i : grid0.Coords, EltTy.bits .f32 = 32 ∨ (Rect.block (s := S50000x96) S2000x96.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S96x96.size a ≤ S96x96.size a
  hwx0_1 : ∀ i : grid0.Coords, EltTy.bits .f32 = 32 ∨ (Rect.block (s := S96x96) S96x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x96.size a ≤ S50000x96.size a
  hwx0_2 : ∀ i : grid0.Coords, EltTy.bits .f32 = 32 ∨ (Rect.block (s := S50000x96) S2000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x96.size a ≤ S1x96.size a
  hwx1_1 : ∀ i : grid1.Coords, EltTy.bits .f32 = 32 ∨ (Rect.block (s := S1x96) S1x96.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x96.size a ≤ S50000x96.size a
  hwx2_0 : ∀ i : grid2.Coords, EltTy.bits .f32 = 32 ∨ (Rect.block (s := S50000x96) S2000x96.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x96.size a ≤ S1x96.size a
  hwx2_1 : ∀ i : grid2.Coords, EltTy.bits .f32 = 32 ∨ (Rect.block (s := S1x96) S1x96.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x96.size a ≤ S1x96.size a
  hwx2_2 : ∀ i : grid2.Coords, EltTy.bits .f32 = 32 ∨ (Rect.block (s := S1x96) S1x96.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x96.size a ≤ S1x96.size a
  hwx2_3 : ∀ i : grid2.Coords, EltTy.bits .f32 = 32 ∨ (Rect.block (s := S1x96) S1x96.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x96.size a ≤ S1x96.size a
  hwx2_4 : ∀ i : grid2.Coords, EltTy.bits .f32 = 32 ∨ (Rect.block (s := S1x96) S1x96.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x96.size a ≤ S50000x96.size a
  hwx2_5 : ∀ i : grid2.Coords, EltTy.bits .f32 = 32 ∨ (Rect.block (s := S50000x96) S2000x96.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x96.size a ≤ S50000x96.size a
  hwx3_0 : ∀ i : grid3.Coords, EltTy.bits .f32 = 32 ∨ (Rect.block (s := S50000x96) S2000x96.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S96x96.size a ≤ S96x96.size a
  hwx3_1 : ∀ i : grid3.Coords, EltTy.bits .f32 = 32 ∨ (Rect.block (s := S96x96) S96x96.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x96.size a ≤ S50000x96.size a
  hwx3_2 : ∀ i : grid3.Coords, EltTy.bits .f32 = 32 ∨ (Rect.block (s := S50000x96) S2000x96.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x96.size a ≤ S50000x96.size a
  hwx4_0 : ∀ i : grid4.Coords, EltTy.bits .f32 = 32 ∨ (Rect.block (s := S50000x96) S2000x96.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x96.size a ≤ S1x96.size a
  hwx4_1 : ∀ i : grid4.Coords, EltTy.bits .f32 = 32 ∨ (Rect.block (s := S1x96) S1x96.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x96.size a ≤ S1x96.size a
  hwx4_2 : ∀ i : grid4.Coords, EltTy.bits .f32 = 32 ∨ (Rect.block (s := S1x96) S1x96.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x96.size a ≤ S50000x96.size a
  hwx5_0 : ∀ i : grid5.Coords, EltTy.bits .f32 = 32 ∨ (Rect.block (s := S50000x96) S2000x96.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x96.size a ≤ S1x96.size a
  hwx5_1 : ∀ i : grid5.Coords, EltTy.bits .f32 = 32 ∨ (Rect.block (s := S1x96) S1x96.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x96.size a ≤ S1x96.size a
  hwx5_2 : ∀ i : grid5.Coords, EltTy.bits .f32 = 32 ∨ (Rect.block (s := S1x96) S1x96.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x96.size a ≤ S1x96.size a
  hwx5_3 : ∀ i : grid5.Coords, EltTy.bits .f32 = 32 ∨ (Rect.block (s := S1x96) S1x96.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x96.size a ≤ S1x96.size a
  hwx5_4 : ∀ i : grid5.Coords, EltTy.bits .f32 = 32 ∨ (Rect.block (s := S1x96) S1x96.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x96.size a ≤ S50000x96.size a
  hwx5_5 : ∀ i : grid5.Coords, EltTy.bits .f32 = 32 ∨ (Rect.block (s := S50000x96) S2000x96.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x96.size a ≤ S50000x96.size a
  hwx6_0 : ∀ i : grid6.Coords, EltTy.bits .f32 = 32 ∨ (Rect.block (s := S50000x96) S2000x96.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S96x96.size a ≤ S96x96.size a
  hwx6_1 : ∀ i : grid6.Coords, EltTy.bits .f32 = 32 ∨ (Rect.block (s := S96x96) S96x96.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x96.size a ≤ S50000x96.size a
  hwx6_2 : ∀ i : grid6.Coords, EltTy.bits .f32 = 32 ∨ (Rect.block (s := S50000x96) S2000x96.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x96.size a ≤ S50000x96.size a
  hwx7_0 : ∀ i : grid7.Coords, EltTy.bits .f32 = 32 ∨ (Rect.block (s := S50000x96) S2000x96.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x96.size a ≤ S1x96.size a
  hwx7_1 : ∀ i : grid7.Coords, EltTy.bits .f32 = 32 ∨ (Rect.block (s := S1x96) S1x96.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x96.size a ≤ S1x96.size a
  hwx7_2 : ∀ i : grid7.Coords, EltTy.bits .f32 = 32 ∨ (Rect.block (s := S1x96) S1x96.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S2000x96.size a ≤ S50000x96.size a
  hwx8_0 : ∀ i : grid8.Coords, EltTy.bits .f32 = 32 ∨ (Rect.block (s := S50000x96) S2000x96.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x96.size a ≤ S1x96.size a
  hwx8_1 : ∀ i : grid8.Coords, EltTy.bits .f32 = 32 ∨ (Rect.block (s := S1x96) S1x96.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x96.size a ≤ S1x96.size a
  hwx8_2 : ∀ i : grid8.Coords, EltTy.bits .f32 = 32 ∨ (Rect.block (s := S1x96) S1x96.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x96.size a ≤ S1x96.size a
  hwx8_3 : ∀ i : grid8.Coords, EltTy.bits .f32 = 32 ∨ (Rect.block (s := S1x96) S1x96.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x96.size a ≤ S1x96.size a
  hwx8_4 : ∀ i : grid8.Coords, EltTy.bits .f32 = 32 ∨ (Rect.block (s := S1x96) S1x96.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S2000x96.size a ≤ S50000x96.size a
  hwx8_5 : ∀ i : grid8.Coords, EltTy.bits .f32 = 32 ∨ (Rect.block (s := S50000x96) S2000x96.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S2000x96.size a ≤ S50000x96.size a
  hwx9_0 : ∀ i : grid9.Coords, EltTy.bits .f32 = 32 ∨ (Rect.block (s := S50000x96) S2000x96.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S96x96.size a ≤ S96x96.size a
  hwx9_1 : ∀ i : grid9.Coords, EltTy.bits .f32 = 32 ∨ (Rect.block (s := S96x96) S96x96.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S2000x96.size a ≤ S50000x96.size a
  hwx9_2 : ∀ i : grid9.Coords, EltTy.bits .f32 = 32 ∨ (Rect.block (s := S50000x96) S2000x96.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S2000x96.size a ≤ S50000x96.size a
  hwx10_0 : ∀ i : grid10.Coords, EltTy.bits .f32 = 32 ∨ (Rect.block (s := S50000x96) S2000x96.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x96.size a ≤ S1x96.size a
  hwx10_1 : ∀ i : grid10.Coords, EltTy.bits .f32 = 32 ∨ (Rect.block (s := S1x96) S1x96.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x96.size a ≤ S1x96.size a
  hwx10_2 : ∀ i : grid10.Coords, EltTy.bits .f32 = 32 ∨ (Rect.block (s := S1x96) S1x96.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S2000x96.size a ≤ S50000x96.size a
  hwx11_0 : ∀ i : grid11.Coords, EltTy.bits .f32 = 32 ∨ (Rect.block (s := S50000x96) S2000x96.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x96.size a ≤ S1x96.size a
  hwx11_1 : ∀ i : grid11.Coords, EltTy.bits .f32 = 32 ∨ (Rect.block (s := S1x96) S1x96.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x96.size a ≤ S1x96.size a
  hwx11_2 : ∀ i : grid11.Coords, EltTy.bits .f32 = 32 ∨ (Rect.block (s := S1x96) S1x96.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x96.size a ≤ S1x96.size a
  hwx11_3 : ∀ i : grid11.Coords, EltTy.bits .f32 = 32 ∨ (Rect.block (s := S1x96) S1x96.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x96.size a ≤ S1x96.size a
  hwx11_4 : ∀ i : grid11.Coords, EltTy.bits .f32 = 32 ∨ (Rect.block (s := S1x96) S1x96.size (cc11_transform_4 i) (hinb11_4 i)).WholeWords (EltTy.packing .f32)
  hstage11_5 : ∀ j, (stage11_5 j).IsWhole
  nbuf11_5 : grid11.bufCount reads11_5 false = 2
  hreads11_5 : ∀ i i' : grid11.Coords, (∀ a, reads11_5 a = true → i a = i' a) → cc11_transform_5 i = cc11_transform_5 i'
  hinb11_5 : ∀ (i : grid11.Coords) a, (cc11_transform_5 i a + 1) * S2000x96.size a ≤ S50000x96.size a
  hwx11_5 : ∀ i : grid11.Coords, EltTy.bits .f32 = 32 ∨ (Rect.block (s := S50000x96) S2000x96.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S2000x96.size a ≤ S50000x96.size a
  hwx12_0 : ∀ i : grid12.Coords, EltTy.bits .f32 = 32 ∨ (Rect.block (s := S50000x96) S2000x96.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S2000x1.size a ≤ S50000x1.size a
  hwx12_1 : ∀ i : grid12.Coords, EltTy.bits .i32 = 32 ∨ (Rect.block (s := S50000x1) S2000x1.size (cc12_transform_1 i) (hinb12_1 i)).WholeWords (EltTy.packing .i32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S256x96.size a ≤ S256x96.size a
  hwx12_2 : ∀ i : grid12.Coords, EltTy.bits .f32 = 32 ∨ (Rect.block (s := S256x96) S256x96.size (cc12_transform_2 i) (hinb12_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S2000x256_S2000x96_S256x96_0_0_1_1_n_n : DotDims S2000x256 S2000x96 S256x96 where
  lhsContracting := [0]
  rhsContracting := [0]
  lhsNonContracting := [1]
  rhsNonContracting := [1]
  lhsBatch := []
  rhsBatch := []
  wf := dot_S2000x256_S2000x96_S256x96_0_0_1_1_n_n_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

abbrev win0_0 : Pipeline.Window sig grid0 :=
  Pipeline.Window.ofSpec (Memref.whole main_arg0) S2000x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S96x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v53_0) S1x96.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53_1) S1x96.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v52) S2000x96.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S1x96.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x96.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x96.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x96.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66) S2000x96.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v66) S2000x96.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S96x96.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S2000x96.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v86) S2000x96.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v87_0) S1x96.size cc4_transform_1 reads4_1 true true 1 stage4_1 sem4_1
    hrank4 hreads4_1 hinb4_1 nbuf4_1 (Memref.isWhole_whole _) hwx4_1 hstage4_1

abbrev win4_2 : Pipeline.Window sig grid4 :=
  Pipeline.Window.ofSpec (Memref.whole main_v87_1) S1x96.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun i => !(k4_cond2 i == 1#1) | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v86) S2000x96.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v89) S1x96.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v93) S1x96.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v98) S1x96.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v99) S1x96.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v100) S2000x96.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v100) S2000x96.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v102) S96x96.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v103) S2000x96.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v120) S2000x96.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v121_0) S1x96.size cc7_transform_1 reads7_1 true true 1 stage7_1 sem7_1
    hrank7 hreads7_1 hinb7_1 nbuf7_1 (Memref.isWhole_whole _) hwx7_1 hstage7_1

abbrev win7_2 : Pipeline.Window sig grid7 :=
  Pipeline.Window.ofSpec (Memref.whole main_v121_1) S1x96.size cc7_transform_2 reads7_2 true true 1 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev idle7 : Fin 3 → grid7.Coords → Bool := fun | 0 => fun _ => false | 1 => fun i => !(k7_cond2 i == 1#1) | 2 => fun i => !(k7_cond2 i == 1#1) | ⟨_ + 3, h⟩ => absurd h (Nat.not_lt.2 (Nat.le_add_left _ _))

abbrev win8_0 : Pipeline.Window sig grid8 :=
  Pipeline.Window.ofSpec (Memref.whole main_v120) S2000x96.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v123) S1x96.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v127) S1x96.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v132) S1x96.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v133) S1x96.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v134) S2000x96.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v134) S2000x96.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v136) S96x96.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v137) S2000x96.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v154) S2000x96.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v155_0) S1x96.size cc10_transform_1 reads10_1 true true 1 stage10_1 sem10_1
    hrank10 hreads10_1 hinb10_1 nbuf10_1 (Memref.isWhole_whole _) hwx10_1 hstage10_1

abbrev win10_2 : Pipeline.Window sig grid10 :=
  Pipeline.Window.ofSpec (Memref.whole main_v155_1) S1x96.size cc10_transform_2 reads10_2 true true 1 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev idle10 : Fin 3 → grid10.Coords → Bool := fun | 0 => fun _ => false | 1 => fun i => !(k10_cond2 i == 1#1) | 2 => fun i => !(k10_cond2 i == 1#1) | ⟨_ + 3, h⟩ => absurd h (Nat.not_lt.2 (Nat.le_add_left _ _))

abbrev win11_0 : Pipeline.Window sig grid11 :=
  Pipeline.Window.ofSpec (Memref.whole main_v154) S2000x96.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v157) S1x96.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v161) S1x96.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v166) S1x96.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v167) S1x96.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v168) S2000x96.size cc11_transform_5 reads11_5 true false 2 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v168) S2000x96.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v169) S2000x1.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v170) S256x96.size cc12_transform_2 reads12_2 true true 1 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev idle12 : Fin 3 → grid12.Coords → Bool := fun | 0 => fun _ => false | 1 => fun _ => false | 2 => fun i => !(k12_cond2 i == 1#1) | ⟨_ + 3, h⟩ => absurd h (Nat.not_lt.2 (Nat.le_add_left _ _))

class Facts : Prop extends Facts₀ where

variable [Facts]
-- ==== ReferenceIdeal.lean ====
abbrev S50000x96 : Shape := ⟨2, ![50000, 96]⟩
abbrev S2x800000 : Shape := ⟨2, ![2, 800000]⟩
abbrev S50000 : Shape := ⟨1, ![50000]⟩
abbrev S4x96x96 : Shape := ⟨3, ![4, 96, 96]⟩
abbrev S4x96 : Shape := ⟨2, ![4, 96]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x96x96 : Shape := ⟨3, ![1, 96, 96]⟩
abbrev S96x96 : Shape := ⟨2, ![96, 96]⟩
abbrev S850000x96 : Shape := ⟨2, ![850000, 96]⟩
abbrev S1x96 : Shape := ⟨2, ![1, 96]⟩
abbrev S96 : Shape := ⟨1, ![96]⟩
abbrev S256x96 : Shape := ⟨2, ![256, 96]⟩
abbrev S50000x1 : Shape := ⟨2, ![50000, 1]⟩
abbrev S256 : Shape := ⟨1, ![256]⟩
abbrev S256x1 : Shape := ⟨2, ![256, 1]⟩

abbrev nBuf : Space → Nat
  | .hbm => 310
  | .vmem => 0
  | .smem => 0
  | _ => 0

abbrev hbmTy0_0 (i : Nat) : BufTy := match i % 128 with
  | 0 => ⟨S50000x96, .f32⟩
  | 1 => ⟨S2x800000, .i32⟩
  | 2 => ⟨S50000, .i32⟩
  | 3 => ⟨S4x96x96, .f32⟩
  | 4 => ⟨S4x96, .f32⟩
  | 5 => ⟨S4x96, .f32⟩
  | 6 => ⟨S4x96, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S1x96x96, .f32⟩
  | 51 => ⟨S96x96, .f32⟩
  | 52 => ⟨S50000x96, .f32⟩
  | 53 => ⟨S_, .i32⟩
  | 54 => ⟨S850000, .i32⟩
  | 55 => ⟨S850000, .i1⟩
  | 56 => ⟨S_, .i32⟩
  | 57 => ⟨S850000, .i32⟩
  | 58 => ⟨S850000, .i32⟩
  | 59 => ⟨S850000, .i32⟩
  | 60 => ⟨S850000x1, .i32⟩
  | 61 => ⟨S850000x96, .f32⟩
  | 62 => ⟨S850000x1, .f32⟩
  | 63 => ⟨S850000x96, .f32⟩
  | 64 => ⟨S850000x96, .f32⟩
  | 65 => ⟨S_, .f32⟩
  | 66 => ⟨S50000x96, .f32⟩
  | 67 => ⟨S850000x1, .i32⟩
  | 68 => ⟨S50000x96, .f32⟩
  | 69 => ⟨S1x96, .f32⟩
  | 70 => ⟨S96, .f32⟩
  | 71 => ⟨S1x96, .f32⟩
  | 72 => ⟨S50000x96, .f32⟩
  | 73 => ⟨S50000x96, .f32⟩
  | 74 => ⟨S_, .f32⟩
  | 75 => ⟨S96, .f32⟩
  | 76 => ⟨S_, .f32⟩
  | 77 => ⟨S96, .f32⟩
  | 78 => ⟨S96, .f32⟩
  | 79 => ⟨S1x96, .f32⟩
  | 80 => ⟨S50000x96, .f32⟩
  | 81 => ⟨S50000x96, .f32⟩
  | 82 => ⟨S50000x96, .f32⟩
  | 83 => ⟨S_, .f32⟩
  | 84 => ⟨S96, .f32⟩
  | 85 => ⟨S_, .f32⟩
  | 86 => ⟨S96, .f32⟩
  | 87 => ⟨S96, .f32⟩
  | 88 => ⟨S1x96, .f32⟩
  | 89 => ⟨S50000x96, .f32⟩
  | 90 => ⟨S50000x96, .f32⟩
  | 91 => ⟨S_, .f32⟩
  | 92 => ⟨S96, .f32⟩
  | 93 => ⟨S96, .f32⟩
  | 94 => ⟨S96, .f32⟩
  | 95 => ⟨S1x96, .f32⟩
  | 96 => ⟨S50000x96, .f32⟩
  | 97 => ⟨S50000x96, .f32⟩
  | 98 => ⟨S1x96, .f32⟩
  | 99 => ⟨S96, .f32⟩
  | 100 => ⟨S1x96, .f32⟩
  | 101 => ⟨S50000x96, .f32⟩
  | 102 => ⟨S50000x96, .f32⟩
  | 103 => ⟨S1x96, .f32⟩
  | 104 => ⟨S96, .f32⟩
  | 105 => ⟨S1x96, .f32⟩
  | 106 => ⟨S50000x96, .f32⟩
  | 107 => ⟨S50000x96, .f32⟩
  | 108 => ⟨S_, .f32⟩
  | 109 => ⟨S50000x96, .f32⟩
  | 110 => ⟨S50000x96, .f32⟩
  | 111 => ⟨S1x96x96, .f32⟩
  | 112 => ⟨S96x96, .f32⟩
  | 113 => ⟨S50000x96, .f32⟩
  | 114 => ⟨S_, .i32⟩
  | 115 => ⟨S850000, .i32⟩
  | 116 => ⟨S850000, .i1⟩
  | 117 => ⟨S_, .i32⟩
  | 118 => ⟨S850000, .i32⟩
  | 119 => ⟨S850000, .i32⟩
  | 120 => ⟨S850000, .i32⟩
  | 121 => ⟨S850000x1, .i32⟩
  | 122 => ⟨S850000x96, .f32⟩
  | 123 => ⟨S850000x1, .f32⟩
  | 124 => ⟨S850000x96, .f32⟩
  | 125 => ⟨S850000x96, .f32⟩
  | 126 => ⟨S_, .f32⟩
  | 127 => ⟨S50000x96, .f32⟩
  | _ => ⟨S50000x96, .f32⟩

abbrev hbmTy0_1 (i : Nat) : BufTy := match i % 128 with
  | 0 => ⟨S850000x1, .i32⟩
  | 1 => ⟨S50000x96, .f32⟩
  | 2 => ⟨S1x96, .f32⟩
  | 3 => ⟨S96, .f32⟩
  | 4 => ⟨S1x96, .f32⟩
  | 5 => ⟨S50000x96, .f32⟩
  | 6 => ⟨S50000x96, .f32⟩
  | 7 => ⟨S_, .f32⟩
  | 8 => ⟨S96, .f32⟩
  | 9 => ⟨S_, .f32⟩
  | 10 => ⟨S96, .f32⟩
  | 11 => ⟨S96, .f32⟩
  | 12 => ⟨S1x96, .f32⟩
  | 13 => ⟨S50000x96, .f32⟩
  | 14 => ⟨S50000x96, .f32⟩
  | 15 => ⟨S50000x96, .f32⟩
  | 16 => ⟨S_, .f32⟩
  | 17 => ⟨S96, .f32⟩
  | 18 => ⟨S_, .f32⟩
  | 19 => ⟨S96, .f32⟩
  | 20 => ⟨S96, .f32⟩
  | 21 => ⟨S1x96, .f32⟩
  | 22 => ⟨S50000x96, .f32⟩
  | 23 => ⟨S50000x96, .f32⟩
  | 24 => ⟨S_, .f32⟩
  | 25 => ⟨S96, .f32⟩
  | 26 => ⟨S96, .f32⟩
  | 27 => ⟨S96, .f32⟩
  | 28 => ⟨S1x96, .f32⟩
  | 29 => ⟨S50000x96, .f32⟩
  | 30 => ⟨S50000x96, .f32⟩
  | 31 => ⟨S1x96, .f32⟩
  | 32 => ⟨S96, .f32⟩
  | 33 => ⟨S1x96, .f32⟩
  | 34 => ⟨S50000x96, .f32⟩
  | 35 => ⟨S50000x96, .f32⟩
  | 36 => ⟨S1x96, .f32⟩
  | 37 => ⟨S96, .f32⟩
  | 38 => ⟨S1x96, .f32⟩
  | 39 => ⟨S50000x96, .f32⟩
  | 40 => ⟨S50000x96, .f32⟩
  | 41 => ⟨S_, .f32⟩
  | 42 => ⟨S50000x96, .f32⟩
  | 43 => ⟨S50000x96, .f32⟩
  | 44 => ⟨S1x96x96, .f32⟩
  | 45 => ⟨S96x96, .f32⟩
  | 46 => ⟨S50000x96, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x96, .f32⟩
  | 56 => ⟨S850000x1, .f32⟩
  | 57 => ⟨S850000x96, .f32⟩
  | 58 => ⟨S850000x96, .f32⟩
  | 59 => ⟨S_, .f32⟩
  | 60 => ⟨S50000x96, .f32⟩
  | 61 => ⟨S850000x1, .i32⟩
  | 62 => ⟨S50000x96, .f32⟩
  | 63 => ⟨S1x96, .f32⟩
  | 64 => ⟨S96, .f32⟩
  | 65 => ⟨S1x96, .f32⟩
  | 66 => ⟨S50000x96, .f32⟩
  | 67 => ⟨S50000x96, .f32⟩
  | 68 => ⟨S_, .f32⟩
  | 69 => ⟨S96, .f32⟩
  | 70 => ⟨S_, .f32⟩
  | 71 => ⟨S96, .f32⟩
  | 72 => ⟨S96, .f32⟩
  | 73 => ⟨S1x96, .f32⟩
  | 74 => ⟨S50000x96, .f32⟩
  | 75 => ⟨S50000x96, .f32⟩
  | 76 => ⟨S50000x96, .f32⟩
  | 77 => ⟨S_, .f32⟩
  | 78 => ⟨S96, .f32⟩
  | 79 => ⟨S_, .f32⟩
  | 80 => ⟨S96, .f32⟩
  | 81 => ⟨S96, .f32⟩
  | 82 => ⟨S1x96, .f32⟩
  | 83 => ⟨S50000x96, .f32⟩
  | 84 => ⟨S50000x96, .f32⟩
  | 85 => ⟨S_, .f32⟩
  | 86 => ⟨S96, .f32⟩
  | 87 => ⟨S96, .f32⟩
  | 88 => ⟨S96, .f32⟩
  | 89 => ⟨S1x96, .f32⟩
  | 90 => ⟨S50000x96, .f32⟩
  | 91 => ⟨S50000x96, .f32⟩
  | 92 => ⟨S1x96, .f32⟩
  | 93 => ⟨S96, .f32⟩
  | 94 => ⟨S1x96, .f32⟩
  | 95 => ⟨S50000x96, .f32⟩
  | 96 => ⟨S50000x96, .f32⟩
  | 97 => ⟨S1x96, .f32⟩
  | 98 => ⟨S96, .f32⟩
  | 99 => ⟨S1x96, .f32⟩
  | 100 => ⟨S50000x96, .f32⟩
  | 101 => ⟨S50000x96, .f32⟩
  | 102 => ⟨S_, .f32⟩
  | 103 => ⟨S50000x96, .f32⟩
  | 104 => ⟨S50000x96, .f32⟩
  | 105 => ⟨S1x96x96, .f32⟩
  | 106 => ⟨S96x96, .f32⟩
  | 107 => ⟨S50000x96, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x96, .f32⟩
  | 117 => ⟨S850000x1, .f32⟩
  | 118 => ⟨S850000x96, .f32⟩
  | 119 => ⟨S850000x96, .f32⟩
  | 120 => ⟨S_, .f32⟩
  | 121 => ⟨S50000x96, .f32⟩
  | 122 => ⟨S850000x1, .i32⟩
  | 123 => ⟨S50000x96, .f32⟩
  | 124 => ⟨S1x96, .f32⟩
  | 125 => ⟨S96, .f32⟩
  | 126 => ⟨S1x96, .f32⟩
  | 127 => ⟨S50000x96, .f32⟩
  | _ => ⟨S50000x96, .f32⟩

abbrev hbmTy0_2 (i : Nat) : BufTy := match i % 128 with
  | 0 => ⟨S50000x96, .f32⟩
  | 1 => ⟨S_, .f32⟩
  | 2 => ⟨S96, .f32⟩
  | 3 => ⟨S_, .f32⟩
  | 4 => ⟨S96, .f32⟩
  | 5 => ⟨S96, .f32⟩
  | 6 => ⟨S1x96, .f32⟩
  | 7 => ⟨S50000x96, .f32⟩
  | 8 => ⟨S50000x96, .f32⟩
  | 9 => ⟨S50000x96, .f32⟩
  | 10 => ⟨S_, .f32⟩
  | 11 => ⟨S96, .f32⟩
  | 12 => ⟨S_, .f32⟩
  | 13 => ⟨S96, .f32⟩
  | 14 => ⟨S96, .f32⟩
  | 15 => ⟨S1x96, .f32⟩
  | 16 => ⟨S50000x96, .f32⟩
  | 17 => ⟨S50000x96, .f32⟩
  | 18 => ⟨S_, .f32⟩
  | 19 => ⟨S96, .f32⟩
  | 20 => ⟨S96, .f32⟩
  | 21 => ⟨S96, .f32⟩
  | 22 => ⟨S1x96, .f32⟩
  | 23 => ⟨S50000x96, .f32⟩
  | 24 => ⟨S50000x96, .f32⟩
  | 25 => ⟨S1x96, .f32⟩
  | 26 => ⟨S96, .f32⟩
  | 27 => ⟨S1x96, .f32⟩
  | 28 => ⟨S50000x96, .f32⟩
  | 29 => ⟨S50000x96, .f32⟩
  | 30 => ⟨S1x96, .f32⟩
  | 31 => ⟨S96, .f32⟩
  | 32 => ⟨S1x96, .f32⟩
  | 33 => ⟨S50000x96, .f32⟩
  | 34 => ⟨S50000x96, .f32⟩
  | 35 => ⟨S_, .f32⟩
  | 36 => ⟨S50000x96, .f32⟩
  | 37 => ⟨S50000x96, .f32⟩
  | 38 => ⟨S_, .f32⟩
  | 39 => ⟨S256x96, .f32⟩
  | 40 => ⟨S50000x1, .i32⟩
  | 41 => ⟨S256x96, .f32⟩
  | 42 => ⟨S_, .f32⟩
  | 43 => ⟨S50000, .f32⟩
  | 44 => ⟨S_, .f32⟩
  | 45 => ⟨S256, .f32⟩
  | 46 => ⟨S50000x1, .i32⟩
  | 47 => ⟨S256, .f32⟩
  | 48 => ⟨S_, .f32⟩
  | 49 => ⟨S256, .f32⟩
  | 50 => ⟨S256, .f32⟩
  | 51 => ⟨S256x1, .f32⟩
  | 52 => ⟨S256x96, .f32⟩
  | 53 => ⟨S256x96, .f32⟩
  | _ => ⟨S50000x96, .f32⟩

abbrev hbmTy (i : Nat) : BufTy := match i / 128 with
  | 0 => hbmTy0_0 i
  | 1 => hbmTy0_1 i
  | 2 => hbmTy0_2 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_v60 : Ref sig .tc := ⟨.hbm, 84, rfl⟩
abbrev main_cst_13 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_call1_cst : Ref sig .tc := ⟨.hbm, 108, rfl⟩
abbrev main_call1_v0 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_c_15 : Ref sig .tc := ⟨.hbm, 114, rfl⟩
abbrev main_v86 : Ref sig .tc := ⟨.hbm, 115, rfl⟩
abbrev main_v87 : Ref sig .tc := ⟨.hbm, 116, rfl⟩
abbrev main_c_16 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_17 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_18 : Ref sig .tc := ⟨.hbm, 135, rfl⟩
abbrev main_v104 : Ref sig .tc := ⟨.hbm, 136, rfl⟩
abbrev main_cst_19 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_20 : Ref sig .tc := ⟨.hbm, 144, rfl⟩
abbrev main_v111 : Ref sig .tc := ⟨.hbm, 145, rfl⟩
abbrev main_cst_21 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_cst_22 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_call2_cst : Ref sig .tc := ⟨.hbm, 169, rfl⟩
abbrev main_call2_v0 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_c_23 : Ref sig .tc := ⟨.hbm, 175, rfl⟩
abbrev main_v137 : Ref sig .tc := ⟨.hbm, 176, rfl⟩
abbrev main_v138 : Ref sig .tc := ⟨.hbm, 177, rfl⟩
abbrev main_c_24 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_cst_25 : Ref sig .tc := ⟨.hbm, 187, rfl⟩
abbrev main_v147 : Ref sig .tc := ⟨.hbm, 188, rfl⟩
abbrev main_v148 : Ref sig .tc := ⟨.hbm, 189, rfl⟩
abbrev main_v149 : Ref sig .tc := ⟨.hbm, 190, rfl⟩
abbrev main_v150 : Ref sig .tc := ⟨.hbm, 191, rfl⟩
abbrev main_v151 : Ref sig .tc := ⟨.hbm, 192, rfl⟩
abbrev main_v152 : Ref sig .tc := ⟨.hbm, 193, rfl⟩
abbrev main_v153 : Ref sig .tc := ⟨.hbm, 194, rfl⟩
abbrev main_v154 : Ref sig .tc := ⟨.hbm, 195, rfl⟩
abbrev main_cst_26 : Ref sig .tc := ⟨.hbm, 196, rfl⟩
abbrev main_v155 : Ref sig .tc := ⟨.hbm, 197, rfl⟩
abbrev main_cst_27 : Ref sig .tc := ⟨.hbm, 198, rfl⟩
abbrev main_v156 : Ref sig .tc := ⟨.hbm, 199, rfl⟩
abbrev main_v157 : Ref sig .tc := ⟨.hbm, 200, rfl⟩
abbrev main_v158 : Ref sig .tc := ⟨.hbm, 201, rfl⟩
abbrev main_v159 : Ref sig .tc := ⟨.hbm, 202, rfl⟩
abbrev main_v160 : Ref sig .tc := ⟨.hbm, 203, rfl⟩
abbrev main_v161 : Ref sig .tc := ⟨.hbm, 204, rfl⟩
abbrev main_cst_28 : Ref sig .tc := ⟨.hbm, 205, rfl⟩
abbrev main_v162 : Ref sig .tc := ⟨.hbm, 206, rfl⟩
abbrev main_cst_29 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_30 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_call3_cst : Ref sig .tc := ⟨.hbm, 230, rfl⟩
abbrev main_call3_v0 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_c_31 : Ref sig .tc := ⟨.hbm, 236, rfl⟩
abbrev main_v188 : Ref sig .tc := ⟨.hbm, 237, rfl⟩
abbrev main_v189 : Ref sig .tc := ⟨.hbm, 238, rfl⟩
abbrev main_c_32 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_cst_33 : Ref sig .tc := ⟨.hbm, 248, rfl⟩
abbrev main_v198 : Ref sig .tc := ⟨.hbm, 249, rfl⟩
abbrev main_v199 : Ref sig .tc := ⟨.hbm, 250, rfl⟩
abbrev main_v200 : Ref sig .tc := ⟨.hbm, 251, rfl⟩
abbrev main_v201 : Ref sig .tc := ⟨.hbm, 252, rfl⟩
abbrev main_v202 : Ref sig .tc := ⟨.hbm, 253, rfl⟩
abbrev main_v203 : Ref sig .tc := ⟨.hbm, 254, rfl⟩
abbrev main_v204 : Ref sig .tc := ⟨.hbm, 255, rfl⟩
abbrev main_v205 : Ref sig .tc := ⟨.hbm, 256, rfl⟩
abbrev main_cst_34 : Ref sig .tc := ⟨.hbm, 257, rfl⟩
abbrev main_v206 : Ref sig .tc := ⟨.hbm, 258, rfl⟩
abbrev main_cst_35 : Ref sig .tc := ⟨.hbm, 259, rfl⟩
abbrev main_v207 : Ref sig .tc := ⟨.hbm, 260, rfl⟩
abbrev main_v208 : Ref sig .tc := ⟨.hbm, 261, rfl⟩
abbrev main_v209 : Ref sig .tc := ⟨.hbm, 262, rfl⟩
abbrev main_v210 : Ref sig .tc := ⟨.hbm, 263, rfl⟩
abbrev main_v211 : Ref sig .tc := ⟨.hbm, 264, rfl⟩
abbrev main_v212 : Ref sig .tc := ⟨.hbm, 265, rfl⟩
abbrev main_cst_36 : Ref sig .tc := ⟨.hbm, 266, rfl⟩
abbrev main_v213 : Ref sig .tc := ⟨.hbm, 267, rfl⟩
abbrev main_cst_37 : Ref sig .tc := ⟨.hbm, 268, rfl⟩
abbrev main_v214 : Ref sig .tc := ⟨.hbm, 269, rfl⟩
abbrev main_v215 : Ref sig .tc := ⟨.hbm, 270, rfl⟩
abbrev main_v216 : Ref sig .tc := ⟨.hbm, 271, rfl⟩
abbrev main_v217 : Ref sig .tc := ⟨.hbm, 272, rfl⟩
abbrev main_v218 : Ref sig .tc := ⟨.hbm, 273, rfl⟩
abbrev main_cst_38 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_v232 : Ref sig .tc := ⟨.hbm, 288, rfl⟩
abbrev main_v233 : Ref sig .tc := ⟨.hbm, 289, rfl⟩
abbrev main_v234 : Ref sig .tc := ⟨.hbm, 290, rfl⟩
abbrev main_call4_cst : Ref sig .tc := ⟨.hbm, 291, rfl⟩
abbrev main_call4_v0 : Ref sig .tc := ⟨.hbm, 292, rfl⟩
abbrev main_v235 : Ref sig .tc := ⟨.hbm, 293, rfl⟩
abbrev main_cst_39 : Ref sig .tc := ⟨.hbm, 294, rfl⟩
abbrev main_v236 : Ref sig .tc := ⟨.hbm, 295, rfl⟩
abbrev main_v237 : Ref sig .tc := ⟨.hbm, 296, rfl⟩
abbrev main_v238 : Ref sig .tc := ⟨.hbm, 297, rfl⟩
abbrev main_cst_40 : Ref sig .tc := ⟨.hbm, 298, rfl⟩
abbrev main_v239 : Ref sig .tc := ⟨.hbm, 299, rfl⟩
abbrev main_cst_41 : Ref sig .tc := ⟨.hbm, 300, rfl⟩
abbrev main_v240 : Ref sig .tc := ⟨.hbm, 301, rfl⟩
abbrev main_v241 : Ref sig .tc := ⟨.hbm, 302, rfl⟩
abbrev main_v242 : Ref sig .tc := ⟨.hbm, 303, rfl⟩
abbrev main_cst_42 : Ref sig .tc := ⟨.hbm, 304, rfl⟩
abbrev main_v243 : Ref sig .tc := ⟨.hbm, 305, rfl⟩
abbrev main_v244 : Ref sig .tc := ⟨.hbm, 306, rfl⟩
abbrev main_v245 : Ref sig .tc := ⟨.hbm, 307, rfl⟩
abbrev main_v246 : Ref sig .tc := ⟨.hbm, 308, rfl⟩
abbrev main_v247 : Ref sig .tc := ⟨.hbm, 309, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S4x96x96_S1x96x96_0_0_0 : S4x96x96.Slices ![0, 0, 0] S1x96x96
  shapeCasts_S1x96x96_S96x96 : S1x96x96.ShapeCasts S96x96
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  slices_S4x96_S1x96_0_0 : S4x96.Slices ![0, 0] S1x96
  shapeCasts_S1x96_S96 : S1x96.ShapeCasts S96
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  reducesTo_S50000x96_S96_d0 : S50000x96.ReducesTo [0] S96
  h_S_ : 0 < S_.numel
  bcast_S_S96 : S_.BroadcastsInDim S96 (![] : Fin 0 → Fin S96.rank)
  slices_S4x96x96_S1x96x96_1_0_0 : S4x96x96.Slices ![1, 0, 0] S1x96x96
  slices_S4x96_S1x96_1_0 : S4x96.Slices ![1, 0] S1x96
  slices_S4x96x96_S1x96x96_2_0_0 : S4x96x96.Slices ![2, 0, 0] S1x96x96
  slices_S4x96_S1x96_2_0 : S4x96.Slices ![2, 0] S1x96
  slices_S4x96x96_S1x96x96_3_0_0 : S4x96x96.Slices ![3, 0, 0] S1x96x96
  slices_S4x96_S1x96_3_0 : S4x96.Slices ![3, 0] S1x96
  bcast_S_S256x96 : S_.BroadcastsInDim S256x96 (![] : Fin 0 → Fin S256x96.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x96_0_1 : S256x1.BroadcastsInDim S256x96 (![0, 1] : Fin 2 → Fin S256x96.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x96_S96x96_S50000x96_1_0_0_1_n_n_wf : DotDims.WF S50000x96 S96x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  scatter_S256x96_S50000x1_S50000x96_1_0_0_1_wf : ScatterDims.WF S256x96 S50000x1 S50000x96 [1] [0] [0] 1
  scatter_S256_S50000x1_S50000_n_0_0_1_wf : ScatterDims.WF S256 S50000x1 S50000 [] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def scatter_S256x96_S50000x1_S50000x96_1_0_0_1 : ScatterDims S256x96 S50000x1 S50000x96 where
  updateWindowDims := [1]
  insertedWindowDims := [0]
  scatterDimsToOperandDims := [0]
  indexVectorDim := 1
  wf := scatter_S256x96_S50000x1_S50000x96_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf

class Facts : Prop extends Facts₀ where

variable [Facts]
-- ==== Proof.KI.Reg0.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem nodes_held0 {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem weights_held0 {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev nodeRect0 : Rect S2000x96 := Rect.unit (s := S2000x96) ![0, 0] S2000x96.size inb_S2000x96_S2000x96_0_0
abbrev weightRect0 : Rect S96x96 := Rect.unit (s := S96x96) ![0, 0] S96x96.size inb_S96x96_S96x96_0_0

theorem zero_offsets0 : (![0, 0] : Fin 2 → ℕ) = fun _ => 0 := by
  funext a; fin_cases a <;> rfl

def prod0 (x : Vec F S2000x96 .f32) (w : Vec F S96x96 .f32) : Vec F S2000x96 .f32 :=
  View.canon [⟨nodeRect0, k0_pay1 (View.ld x nodeRect0) (View.ld w weightRect0)⟩]

theorem prod_covers0 (p : Vec F S2000x96 .f32) (y : S2000x96.Idx) :
    ∃ pc ∈ ([⟨nodeRect0, p⟩] : List (View.Piece (Elt F) S2000x96 .f32)), y ∈ pc.1.set :=
  ⟨_, List.mem_singleton_self _, View.mem_set_unit_zero (S := S2000x96) zero_offsets0 inb_S2000x96_S2000x96_0_0 y⟩

theorem prod0_eq (x : Vec F S2000x96 .f32) (w : Vec F S96x96 .f32) : prod0 x w = k0_pay1 x w := by
  unfold prod0
  rw [View.canon_unit_zero zero_offsets0]
  simp only [View.ld_unit_zero (S := S2000x96) zero_offsets0, View.ld_unit_zero (S := S96x96) zero_offsets0]

set_option maxHeartbeats 1000000 in

theorem sound_matmul0 (c : Dev nD) (E : Set ℕ) (i : grid0.Coords)
    (arg1 : Memref sig .tc .vmem S2000x96 .f32) (harg1 : arg1.IsWhole)
    (arg2 : Memref sig .tc .vmem S96x96 .f32) (harg2 : arg2.IsWhole)
    (arg3 : Memref sig .tc .vmem S2000x96 .f32) (harg3 : arg3.IsWhole)
    (x : Vec F S2000x96 .f32) (w : Vec F S96x96 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prod0 x w)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod_covers0 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => prod0 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2_store (c : Dev nD) (t : Fin cfg0.N) : (dat0 V c).after 2 t = prod0 (iblk0 V c 0 t) (iblk0 V c 1 t) := by dsimp only [dat0]

theorem after0_2 (c : Dev nD) (t : Fin cfg0.N) : (dat0 V c).after 2 t = k0_pay1 (iblk0 V c 0 t) (iblk0 V c 1 t) := by
  rw [after0_2_store]; exact prod0_eq _ _

theorem before0_0 (c : Dev nD) (t : Fin cfg0.N) (d) : (dat0 V c).before 0 t d = iblk0 V c 0 t :=
  nodes_held0 V (dat0 V c) (A_eq0 V c 0) (after0_0 V c) t d
theorem before0_1 (c : Dev nD) (t : Fin cfg0.N) (d) : (dat0 V c).before 1 t d = iblk0 V c 1 t :=
  weights_held0 V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2_store]
  iintro ⟨HΦ, Ho, ⟨%d0, H0⟩, ⟨%d1, H1⟩, ⟨%d2, H2⟩⟩
  iapply (sound_matmul0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := BIBase.Entails.rfl
theorem hout0 (c : Dev nD) : (dat0 V c).Φ (Fin.last cfg0.N) ⊢ (Pipeline.ΦA spec0 c : sProp 𝕄) := BIBase.Entails.rfl

end Cert.KernelIdeal.Hand
-- ==== Proof.KI.Reg1.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev isFirst1 (i : grid1.Coords) : Prop :=
  (Scalar.cmpi .ne (Scalar.extui (Scalar.cmpi .eq (BitVec.ofNat 32 (i 0).val) 0#32)) 0#32) = 1#1

abbrev isLast1 (i : grid1.Coords) : Prop := k1_cond2 i = 1#1

theorem isFirst1_iff : ∀ t : Fin cfg1.N, isFirst1 (grid1.coords t) ↔ t.val = 0 :=
  (by decide +kernel : ∀ t : Fin grid1.N, isFirst1 (grid1.coords t) ↔ t.val = 0)
theorem isLast1_iff : ∀ t : Fin cfg1.N, isLast1 (grid1.coords t) ↔ t.val = 24 :=
  (by decide +kernel : ∀ t : Fin grid1.N, isLast1 (grid1.coords t) ↔ t.val = 24)

theorem live1_0 : ∀ i, cfg1.idle 0 i = false := fun _ => rfl

theorem idle1_1 : ∀ t : Fin cfg1.N, t.val ≠ 24 → cfg1.idle 1 (grid1.coords t) = true := by decide +kernel
theorem idle1_2 : ∀ t : Fin cfg1.N, t.val ≠ 24 → cfg1.idle 2 (grid1.coords t) = true := by decide +kernel
theorem noFlush1_1 : ∀ t : Fin cfg1.N, t.val ≠ 24 → (cfg1.win 1).flush t = false := by decide +kernel
theorem noFlush1_2 : ∀ t : Fin cfg1.N, t.val ≠ 24 → (cfg1.win 2).flush t = false := by decide +kernel

theorem live1_1 : ∀ t : Fin cfg1.N, t.val = 24 → cfg1.idle 1 (grid1.coords t) = false := by decide +kernel
theorem live1_2 : ∀ t : Fin cfg1.N, t.val = 24 → cfg1.idle 2 (grid1.coords t) = false := by decide +kernel

abbrev ms1_0 (t : Fin cfg1.N) : Memref sig .tc .vmem S2000x96 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x96 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x96 .f32 := win1_2.stage (cfg1.slots t 2)
abbrev hs1_2 (t : Fin cfg1.N) : (ms1_2 t).IsWhole := hstage1_2 ((cfg1.slots t 2).cast nbuf1_2)

abbrev tot1_0 : Memref sig .tc .vmem S1x96 .f32 := Memref.whole cc1_scratch0
abbrev tot1_1 : Memref sig .tc .vmem S1x96 .f32 := Memref.whole cc1_scratch1

theorem PhiA1_eq (c : Dev nD) :
    (Pipeline.ΦA spec1 c : sProp 𝕄)
      = iprop(iprop(iprop((∃ d, owns (c : Thread nD τ) tot1_0 fullShare d) ∗ (∃ d, owns (c : Thread nD τ) tot1_1 fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA; rw [scopedRest1_split]; simp only [tot1_0, tot1_1, owns_whole]; try rfl

private theorem off00 : (![0, 0] : Fin 2 → Nat) = fun _ => 0 := funext fun a => by fin_cases a <;> rfl

private theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ _ _

private theorem load_whole {sg : RefSig} {κ : Kind} {sp : Space} {S : Shape} {e : EltTy} {Val : EltTy → Type}
    {m : Memref sg κ sp S e} (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread]; exact View.ld_unit_zero h inb X

set_option maxHeartbeats 1000000 in

theorem bodyFirst1 (c : Dev nD) (i : grid1.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : isFirst1 i) (hc1 : ¬isLast1 i)
    (x0 : Vec F S2000x96 .f32) (xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 (k1_pay1 (F := F))) ∗ owns (c : Thread nD τ) arg5 fullShare (k1_pay5 x0 (k1_pay2 (F := F)))) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyMid1 (c : Dev nD) (i : grid1.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst1 i) (hc1 : ¬isLast1 i)
    (x0 : Vec F S2000x96 .f32) (xs0 xs1 xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyLast1 (c : Dev nD) (i : grid1.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst1 i) (hc1 : isLast1 i)
    (x0 : Vec F S2000x96 .f32) (xs0 xs1 : Vec F S1x96 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k1_pay4 x0 xs0) ∗ owns (c : Thread nD τ) arg3 fullShare (k1_pay5 x0 xs1)
            ∗ owns (c : Thread nD τ) arg4 fullShare (k1_pay4 x0 xs0) ∗ owns (c : Thread nD τ) arg5 fullShare (k1_pay5 x0 xs1)) -∗ K ⟨⟩))
      ⊢ wp frame (wpE (defs₀ (F := F)) Variants.none c none) E (cc1__stats_kernel i arg1 harg1 arg2 harg2 arg3 harg3 arg4 harg4 arg5 harg5) K := by
  simp only [cc1__stats_kernel_eq_skeleton]; unfold cc1__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; swap; · iexact H1
    ipureintro; exact read_store_whole _ _ off00 _ _ _
  isplitl [H2]
  · iexists _; isplitr; swap; · iexact H2
    ipureintro; exact read_store_whole _ _ off00 _ _ _
  isplitl [HS0]
  · iexists _; isplitr; swap; · iexact HS0
    ipureintro; exact read_store_whole _ _ off00 _ _ _
  iexists _; isplitr; swap; · iexact HS1
  ipureintro; exact read_store_whole _ _ off00 _ _ _

def acc1 (c : Dev nD) : (n : ℕ) → n < cfg1.N → Vec F S1x96 .f32 × Vec F S1x96 .f32
  | 0, hn => (k1_pay4 (iblk1 V c 0 ⟨0, hn⟩) (k1_pay1 (F := F)), k1_pay5 (iblk1 V c 0 ⟨0, hn⟩) (k1_pay2 (F := F)))
  | n + 1, hn => (k1_pay4 (iblk1 V c 0 ⟨n + 1, hn⟩) (acc1 c n (Nat.lt_of_succ_lt hn)).1,
                  k1_pay5 (iblk1 V c 0 ⟨n + 1, hn⟩) (acc1 c n (Nat.lt_of_succ_lt hn)).2)

theorem acc1_zero (c : Dev nD) (hn : 0 < cfg1.N) :
    acc1 V c 0 hn = (k1_pay4 (iblk1 V c 0 ⟨0, hn⟩) (k1_pay1 (F := F)), k1_pay5 (iblk1 V c 0 ⟨0, hn⟩) (k1_pay2 (F := F))) := rfl

theorem acc1_succ (c : Dev nD) (n : ℕ) (hn : n + 1 < cfg1.N) :
    acc1 V c (n + 1) hn = (k1_pay4 (iblk1 V c 0 ⟨n + 1, hn⟩) (acc1 V c n (Nat.lt_of_succ_lt hn)).1,
                           k1_pay5 (iblk1 V c 0 ⟨n + 1, hn⟩) (acc1 V c n (Nat.lt_of_succ_lt hn)).2) := rfl

theorem acc1_first (c : Dev nD) (t : Fin cfg1.N) (h : t.val = 0) :
    acc1 V c t.val t.isLt = (k1_pay4 (iblk1 V c 0 t) (k1_pay1 (F := F)), k1_pay5 (iblk1 V c 0 t) (k1_pay2 (F := F))) := by
  obtain ⟨n, hn⟩ := t
  cases n with
  | zero => rfl
  | succ n => exact absurd h (Nat.succ_ne_zero n)

theorem acc1_later (c : Dev nD) (t : Fin cfg1.N) (h : t.val ≠ 0) :
    acc1 V c t.val t.isLt
      = (k1_pay4 (iblk1 V c 0 t) (acc1 V c (t.val - 1) (Nat.lt_of_le_of_lt (Nat.sub_le _ _) t.isLt)).1,
         k1_pay5 (iblk1 V c 0 t) (acc1 V c (t.val - 1) (Nat.lt_of_le_of_lt (Nat.sub_le _ _) t.isLt)).2) := by
  obtain ⟨n, hn⟩ := t
  cases n with
  | zero => exact absurd rfl h
  | succ n => rfl

def Phi1 (c : Dev nD) : (n : ℕ) → n ≤ cfg1.N → sProp 𝕄
  | 0, _ => Pipeline.ΦA spec1 c
  | n + 1, hn => iprop(iprop(iprop(owns (c : Thread nD τ) tot1_0 fullShare (acc1 V c n hn).1 ∗ owns (c : Thread nD τ) tot1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r))

theorem Phi1_zero (c : Dev nD) (n : ℕ) (h : n ≤ cfg1.N) (hz : n = 0) : Phi1 V c n h = Pipeline.ΦA spec1 c := by
  subst hz; rfl

theorem Phi1_succ (c : Dev nD) (n : ℕ) (hn : n < cfg1.N) :
    Phi1 V c (n + 1) hn = iprop(iprop(iprop(owns (c : Thread nD τ) tot1_0 fullShare (acc1 V c n hn).1 ∗ owns (c : Thread nD τ) tot1_1 fullShare (acc1 V c n hn).2)
      ∗ Pipeline.scopedRestBut (Ix := Unit) (Name := ℕ) (U := UR sig nD τ) (Lvl := ℕ) (Val := Elt F) spec1 c [cc1_scratch0, cc1_scratch1]) ∗ (∃ r, prngReg c r)) := rfl

theorem Phi1_pos (c : Dev nD) (n : ℕ) (h : n ≤ cfg1.N) (hz : n ≠ 0) :
    Phi1 V c n h = iprop(iprop(iprop(owns (c : Thread nD τ) tot1_0 fullShare (acc1 V c (n - 1) (by omega)).1 ∗ owns (c : Thread nD τ) tot1_1 fullShare (acc1 V c (n - 1) (by omega)).2)
      ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (acc1 V c t.val t.isLt).1
    | ⟨2, _⟩ => (acc1 V c t.val t.isLt).2
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem Phi1_castSucc (c : Dev nD) (t : Fin cfg1.N) :
    (dat1 V c).Φ t.castSucc = Phi1 V c t.val (Nat.le_of_lt t.isLt) := by
  dsimp only [dat1]; simp only [Fin.coe_castSucc]

theorem after1_0 (c : Dev nD) (t : Fin cfg1.N) : (dat1 V c).after 0 t = iblk1 V c 0 t := by dsimp only [dat1]

theorem after1_1 (c : Dev nD) (t : Fin cfg1.N) : (dat1 V c).after 1 t = (acc1 V c t.val t.isLt).1 := by dsimp only [dat1]

theorem after1_2 (c : Dev nD) (t : Fin cfg1.N) : (dat1 V c).after 2 t = (acc1 V c t.val t.isLt).2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = Phi1 V c (t.val + 1) t.isLt from rfl, Phi1_succ]
  have hN : t.val < 25 := lt_of_lt_of_eq t.isLt (show cfg1.N = 25 from N_1)
  rw [show (dat1 V c).leavesExact 0 t = owns (c : Thread nD τ) (ms1_0 t) fullShare ((dat1 V c).after 0 t) from by
    unfold Dat.leavesExact; rw [live1_0], after1_0]
  by_cases hz : t.val = 0
  · have hl : t.val ≠ 24 := by omega
    rw [Dat.leavesExact_idle (dat1 V c) 1 t (idle1_1 t hl) (noFlush1_1 t hl), Dat.leavesExact_idle (dat1 V c) 2 t (idle1_2 t hl) (noFlush1_2 t hl)]
    rw [acc1_first V c t hz]
    rw [Phi1_castSucc V c t, Phi1_zero V c _ _ hz, PhiA1_eq]
    iintro ⟨⟨⟨⟨HS0, HS1⟩, Hr⟩, Hg⟩, Ho, ⟨%d0, H0⟩, ⟨%d1, H1⟩, ⟨%d2, H2⟩⟩
    iapply (bodyFirst1 c (grid1.coords t) _ _ _ _ _ _ _ _ _ _ ((isFirst1_iff t).mpr hz) (fun h => hl ((isLast1_iff t).mp h)) (iblk1 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · by_cases hl : t.val = 24
    · rw [show (dat1 V c).leavesExact 1 t = owns (c : Thread nD τ) (ms1_1 t) fullShare ((dat1 V c).after 1 t) from by
        unfold Dat.leavesExact; rw [live1_1 t hl], after1_1]
      rw [show (dat1 V c).leavesExact 2 t = owns (c : Thread nD τ) (ms1_2 t) fullShare ((dat1 V c).after 2 t) from by
        unfold Dat.leavesExact; rw [live1_2 t hl], after1_2]
      rw [acc1_later V c t hz]
      rw [Phi1_castSucc V c t, Phi1_pos V c _ _ hz]
      iintro ⟨⟨⟨⟨HS0, HS1⟩, Hr⟩, Hg⟩, Ho, ⟨%d0, H0⟩, ⟨%d1, H1⟩, ⟨%d2, H2⟩⟩
      iapply (bodyLast1 c (grid1.coords t) _ _ _ _ _ _ _ _ _ _ (fun h => hz ((isFirst1_iff t).mp h)) ((isLast1_iff t).mpr hl) (iblk1 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · rw [Dat.leavesExact_idle (dat1 V c) 1 t (idle1_1 t hl) (noFlush1_1 t hl), Dat.leavesExact_idle (dat1 V c) 2 t (idle1_2 t hl) (noFlush1_2 t hl)]
      rw [acc1_later V c t hz]
      rw [Phi1_castSucc V c t, Phi1_pos V c _ _ hz]
      iintro ⟨⟨⟨⟨HS0, HS1⟩, Hr⟩, Hg⟩, Ho, ⟨%d0, H0⟩, ⟨%d1, H1⟩, ⟨%d2, H2⟩⟩
      iapply (bodyMid1 c (grid1.coords t) _ _ _ _ _ _ _ _ _ _ (fun h => hz ((isFirst1_iff t).mp h)) (fun h => hl ((isLast1_iff t).mp h)) (iblk1 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Phi1 V c 0 (Nat.zero_le _) from rfl, Phi1_zero V c 0 _ rfl]
  try exact Idealize.SL.BI.Entails.refl _

theorem Phi1_out (c : Dev nD) (t : Fin (cfg1.N + 1)) (ht : t.val ≠ 0) : (dat1 V c).Φ t ⊢ (Pipeline.ΦA spec1 c : sProp 𝕄) := by
  rw [show (dat1 V c).Φ t = Phi1 V c t.val (Nat.le_of_lt_succ t.isLt) from rfl, Phi1_pos V c _ _ ht, PhiA1_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem hout1 (c : Dev nD) : (dat1 V c).Φ (Fin.last cfg1.N) ⊢ (Pipeline.ΦA spec1 c : sProp 𝕄) :=
  Phi1_out V c _ (by rw [Fin.val_last]; have : cfg1.N = 25 := N_1; omega)

end Cert.KernelIdeal.Hand

end
-- ==== Proof.KI.Reg2.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem holds2_0 {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hstay : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hstay t d]
  unfold Dat.fetched Dat.blockOf iblk2; rw [hA]; try rfl

theorem holds2_1 {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t := by
  have hstay : ∀ t, (cfg2.win 1).cut (cfg2.grid.coords t) (dat.after 1 t) = dat.blockOf 1 t := fun t => by
    rw [hafter]; unfold Dat.blockOf iblk2; rw [hA]; try rfl
  rw [dat.before_in_eq_fetched 1 rfl (fun _ => rfl) (fun _ _ _ => rfl) hstay t d]
  unfold Dat.fetched Dat.blockOf iblk2; rw [hA]; try rfl

theorem holds2_2 {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t := by
  have hstay : ∀ t, (cfg2.win 2).cut (cfg2.grid.coords t) (dat.after 2 t) = dat.blockOf 2 t := fun t => by
    rw [hafter]; unfold Dat.blockOf iblk2; rw [hA]; try rfl
  rw [dat.before_in_eq_fetched 2 rfl (fun _ => rfl) (fun _ _ _ => rfl) hstay t d]
  unfold Dat.fetched Dat.blockOf iblk2; rw [hA]; try rfl

theorem holds2_3 {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t := by
  have hstay : ∀ t, (cfg2.win 3).cut (cfg2.grid.coords t) (dat.after 3 t) = dat.blockOf 3 t := fun t => by
    rw [hafter]; unfold Dat.blockOf iblk2; rw [hA]; try rfl
  rw [dat.before_in_eq_fetched 3 rfl (fun _ => rfl) (fun _ _ _ => rfl) hstay t d]
  unfold Dat.fetched Dat.blockOf iblk2; rw [hA]; try rfl

theorem holds2_4 {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t := by
  have hstay : ∀ t, (cfg2.win 4).cut (cfg2.grid.coords t) (dat.after 4 t) = dat.blockOf 4 t := fun t => by
    rw [hafter]; unfold Dat.blockOf iblk2; rw [hA]; try rfl
  rw [dat.before_in_eq_fetched 4 rfl (fun _ => rfl) (fun _ _ _ => rfl) hstay t d]
  unfold Dat.fetched Dat.blockOf iblk2; rw [hA]; try rfl

abbrev whole2_blk : Rect S2000x96 := Rect.unit (s := S2000x96) ![0, 0] S2000x96.size inb_S2000x96_S2000x96_0_0

abbrev whole2_row : Rect S1x96 := Rect.unit (s := S1x96) ![0, 0] S1x96.size inb_S1x96_S1x96_0_0

def oblk2 (x : Vec F S2000x96 .f32) (mu va ga be : Vec F S1x96 .f32) : Vec F S2000x96 .f32 :=
  View.canon [⟨whole2_blk, k2_pay1 (View.ld mu whole2_row) (View.ld va whole2_row) (View.ld ga whole2_row) (View.ld be whole2_row) (View.ld x whole2_blk)⟩]

theorem covered2 (p : Vec F S2000x96 .f32) (y : S2000x96.Idx) :
    ∃ pc ∈ ([⟨whole2_blk, p⟩] : List (View.Piece (Elt F) S2000x96 .f32)), y ∈ pc.1.set :=
  View.cover_of_tiled [⟨whole2_blk, p⟩] S2000x96.size (by rfl) y

theorem origin2 : (![0, 0] : Fin 2 → Nat) = fun _ => 0 := funext fun a => by fin_cases a <;> rfl

theorem oblk2_eq (x : Vec F S2000x96 .f32) (mu va ga be : Vec F S1x96 .f32) : oblk2 x mu va ga be = k2_pay1 mu va ga be x := by
  unfold oblk2
  rw [View.canon_unit_zero origin2]
  simp only [View.ld_unit_zero (S := S2000x96) origin2, View.ld_unit_zero (S := S1x96) origin2]

set_option maxHeartbeats 1000000 in

theorem norm_relu_triple2 (c : Dev nD) (E : Set ℕ) (i : grid2.Coords)
    (a0 : Memref sig .tc .vmem S2000x96 .f32) (h0 : a0.IsWhole) (a1 : Memref sig .tc .vmem S1x96 .f32) (h1 : a1.IsWhole)
    (a2 : Memref sig .tc .vmem S1x96 .f32) (h2 : a2.IsWhole) (a3 : Memref sig .tc .vmem S1x96 .f32) (h3 : a3.IsWhole)
    (a4 : Memref sig .tc .vmem S1x96 .f32) (h4 : a4.IsWhole) (a5 : Memref sig .tc .vmem S2000x96 .f32) (h5 : a5.IsWhole)
    (x : Vec F S2000x96 .f32) (mu va ga be : Vec F S1x96 .f32) (K : PUnit → sProp 𝕄) :
    iprop(owns (c : Thread nD τ) a0 fullShare x ∗ owns (c : Thread nD τ) a1 fullShare mu ∗ owns (c : Thread nD τ) a2 fullShare va
        ∗ owns (c : Thread nD τ) a3 fullShare ga ∗ owns (c : Thread nD τ) a4 fullShare be ∗ (∃ d, owns (c : Thread nD τ) a5 fullShare d)
        ∗ (iprop(owns (c : Thread nD τ) a0 fullShare x ∗ owns (c : Thread nD τ) a1 fullShare mu ∗ owns (c : Thread nD τ) a2 fullShare va
            ∗ owns (c : Thread nD τ) a3 fullShare ga ∗ owns (c : Thread nD τ) a4 fullShare be
            ∗ owns (c : Thread nD τ) a5 fullShare (oblk2 x mu va ga be)) -∗ K ⟨⟩))
      ⊢ wp frame (wpE (defs₀ (F := F)) Variants.none c none) E (cc2__norm_relu_kernel i a0 h0 a1 h1 a2 h2 a3 h3 a4 h4 a5 h5) K := by
  simp only [cc2__norm_relu_kernel_eq_skeleton]; unfold cc2__norm_relu_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => k2_pay1 (iblk2 V c 1 t) (iblk2 V c 2 t) (iblk2 V c 3 t) (iblk2 V c 4 t) (iblk2 V c 0 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]

theorem after2_5 (c : Dev nD) (t : Fin cfg2.N) :
    (dat2 V c).after 5 t = k2_pay1 (iblk2 V c 1 t) (iblk2 V c 2 t) (iblk2 V c 3 t) (iblk2 V c 4 t) (iblk2 V c 0 t) := by dsimp only [dat2]

theorem before2_0 (c : Dev nD) (t : Fin cfg2.N) (d) : (dat2 V c).before 0 t d = iblk2 V c 0 t :=
  holds2_0 V (dat2 V c) (A_eq2 V c 0) (after2_0 V c) t d
theorem before2_1 (c : Dev nD) (t : Fin cfg2.N) (d) : (dat2 V c).before 1 t d = iblk2 V c 1 t :=
  holds2_1 V (dat2 V c) (A_eq2 V c 1) (after2_1 V c) t d
theorem before2_2 (c : Dev nD) (t : Fin cfg2.N) (d) : (dat2 V c).before 2 t d = iblk2 V c 2 t :=
  holds2_2 V (dat2 V c) (A_eq2 V c 2) (after2_2 V c) t d
theorem before2_3 (c : Dev nD) (t : Fin cfg2.N) (d) : (dat2 V c).before 3 t d = iblk2 V c 3 t :=
  holds2_3 V (dat2 V c) (A_eq2 V c 3) (after2_3 V c) t d
theorem before2_4 (c : Dev nD) (t : Fin cfg2.N) (d) : (dat2 V c).before 4 t d = iblk2 V c 4 t :=
  holds2_4 V (dat2 V c) (A_eq2 V c 4) (after2_4 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5, ← oblk2_eq]
  iintro ⟨HΦ, Ho, ⟨%d0, H0⟩, ⟨%d1, H1⟩, ⟨%d2, H2⟩, ⟨%d3, H3⟩, ⟨%d4, H4⟩, ⟨%d5, H5⟩⟩
  iapply (norm_relu_triple2 c Set.univ _ _ _ _ _ _ _ _ _ _ _ _ _
    (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := BIBase.Entails.rfl

theorem hout2 (c : Dev nD) : (dat2 V c).Φ (Fin.last cfg2.N) ⊢ (Pipeline.ΦA spec2 c : sProp 𝕄) := BIBase.Entails.rfl

end Cert.KernelIdeal.Hand

end
-- ==== Proof.KI.Reg3.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

theorem nodes_held3 {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem weights_held3 {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

abbrev nodeRect3 : Rect S2000x96 := Rect.unit (s := S2000x96) ![0, 0] S2000x96.size inb_S2000x96_S2000x96_0_0
abbrev weightRect3 : Rect S96x96 := Rect.unit (s := S96x96) ![0, 0] S96x96.size inb_S96x96_S96x96_0_0

theorem zero_offsets3 : (![0, 0] : Fin 2 → ℕ) = fun _ => 0 := by
  funext a; fin_cases a <;> rfl

def prod3 (x : Vec F S2000x96 .f32) (w : Vec F S96x96 .f32) : Vec F S2000x96 .f32 :=
  View.canon [⟨nodeRect3, k3_pay1 (View.ld x nodeRect3) (View.ld w weightRect3)⟩]

theorem prod_covers3 (p : Vec F S2000x96 .f32) (y : S2000x96.Idx) :
    ∃ pc ∈ ([⟨nodeRect3, p⟩] : List (View.Piece (Elt F) S2000x96 .f32)), y ∈ pc.1.set :=
  ⟨_, List.mem_singleton_self _, View.mem_set_unit_zero (S := S2000x96) zero_offsets3 inb_S2000x96_S2000x96_0_0 y⟩

theorem prod3_eq (x : Vec F S2000x96 .f32) (w : Vec F S96x96 .f32) : prod3 x w = k3_pay1 x w := by
  unfold prod3
  rw [View.canon_unit_zero zero_offsets3]
  simp only [View.ld_unit_zero (S := S2000x96) zero_offsets3, View.ld_unit_zero (S := S96x96) zero_offsets3]

set_option maxHeartbeats 1000000 in

theorem sound_matmul3 (c : Dev nD) (E : Set ℕ) (i : grid3.Coords)
    (arg1 : Memref sig .tc .vmem S2000x96 .f32) (harg1 : arg1.IsWhole)
    (arg2 : Memref sig .tc .vmem S96x96 .f32) (harg2 : arg2.IsWhole)
    (arg3 : Memref sig .tc .vmem S2000x96 .f32) (harg3 : arg3.IsWhole)
    (x : Vec F S2000x96 .f32) (w : Vec F S96x96 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prod3 x w)) -∗ K ⟨⟩))
      ⊢ wp frame (wpE (defs₀ (F := F)) Variants.none c none) E (cc3__matmul_kernel i arg1 harg1 arg2 harg2 arg3 harg3) K := by
  simp only [cc3__matmul_kernel_eq_skeleton]; unfold cc3__matmul_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod_covers3 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => prod3 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2_store (c : Dev nD) (t : Fin cfg3.N) : (dat3 V c).after 2 t = prod3 (iblk3 V c 0 t) (iblk3 V c 1 t) := by dsimp only [dat3]

theorem after3_2 (c : Dev nD) (t : Fin cfg3.N) : (dat3 V c).after 2 t = k3_pay1 (iblk3 V c 0 t) (iblk3 V c 1 t) := by
  rw [after3_2_store]; exact prod3_eq _ _

theorem before3_0 (c : Dev nD) (t : Fin cfg3.N) (d) : (dat3 V c).before 0 t d = iblk3 V c 0 t :=
  nodes_held3 V (dat3 V c) (A_eq3 V c 0) (after3_0 V c) t d
theorem before3_1 (c : Dev nD) (t : Fin cfg3.N) (d) : (dat3 V c).before 1 t d = iblk3 V c 1 t :=
  weights_held3 V (dat3 V c) (A_eq3 V c 1) (after3_1 V c) t d

def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2_store]
  iintro ⟨HΦ, Ho, ⟨%d0, H0⟩, ⟨%d1, H1⟩, ⟨%d2, H2⟩⟩
  iapply (sound_matmul3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation3 (c : Dev nD) : BodyObligation (dat3 (F := F) V c) (defs₀ (F := F)) Variants.none () Set.univ := fun t => by
  rw [bigSep_W3, bigSep_W3]
  exact sound_body3 V c t

theorem hin3 (c : Dev nD) : (Pipeline.ΦA spec3 c : sProp 𝕄) ⊢ (dat3 V c).Φ 0 := BIBase.Entails.rfl
theorem hout3 (c : Dev nD) : (dat3 V c).Φ (Fin.last cfg3.N) ⊢ (Pipeline.ΦA spec3 c : sProp 𝕄) := BIBase.Entails.rfl

end Cert.KernelIdeal.Hand
-- ==== Proof.KI.Reg4.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev isFirst4 (i : grid4.Coords) : Prop :=
  (Scalar.cmpi .ne (Scalar.extui (Scalar.cmpi .eq (BitVec.ofNat 32 (i 0).val) 0#32)) 0#32) = 1#1

abbrev isLast4 (i : grid4.Coords) : Prop := k4_cond2 i = 1#1

theorem isFirst4_iff : ∀ t : Fin cfg4.N, isFirst4 (grid4.coords t) ↔ t.val = 0 :=
  (by decide +kernel : ∀ t : Fin grid4.N, isFirst4 (grid4.coords t) ↔ t.val = 0)
theorem isLast4_iff : ∀ t : Fin cfg4.N, isLast4 (grid4.coords t) ↔ t.val = 24 :=
  (by decide +kernel : ∀ t : Fin grid4.N, isLast4 (grid4.coords t) ↔ t.val = 24)

theorem live4_0 : ∀ i, cfg4.idle 0 i = false := fun _ => rfl

theorem idle4_1 : ∀ t : Fin cfg4.N, t.val ≠ 24 → cfg4.idle 1 (grid4.coords t) = true := by decide +kernel
theorem idle4_2 : ∀ t : Fin cfg4.N, t.val ≠ 24 → cfg4.idle 2 (grid4.coords t) = true := by decide +kernel
theorem noFlush4_1 : ∀ t : Fin cfg4.N, t.val ≠ 24 → (cfg4.win 1).flush t = false := by decide +kernel
theorem noFlush4_2 : ∀ t : Fin cfg4.N, t.val ≠ 24 → (cfg4.win 2).flush t = false := by decide +kernel

theorem live4_1 : ∀ t : Fin cfg4.N, t.val = 24 → cfg4.idle 1 (grid4.coords t) = false := by decide +kernel
theorem live4_2 : ∀ t : Fin cfg4.N, t.val = 24 → cfg4.idle 2 (grid4.coords t) = false := by decide +kernel

abbrev ms4_0 (t : Fin cfg4.N) : Memref sig .tc .vmem S2000x96 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x96 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x96 .f32 := win4_2.stage (cfg4.slots t 2)
abbrev hs4_2 (t : Fin cfg4.N) : (ms4_2 t).IsWhole := hstage4_2 ((cfg4.slots t 2).cast nbuf4_2)

abbrev tot4_0 : Memref sig .tc .vmem S1x96 .f32 := Memref.whole cc4_scratch0
abbrev tot4_1 : Memref sig .tc .vmem S1x96 .f32 := Memref.whole cc4_scratch1

theorem PhiA4_eq (c : Dev nD) :
    (Pipeline.ΦA spec4 c : sProp 𝕄)
      = iprop(iprop(iprop((∃ d, owns (c : Thread nD τ) tot4_0 fullShare d) ∗ (∃ d, owns (c : Thread nD τ) tot4_1 fullShare d))
          ∗ Pipeline.scopedRestBut (Ix := Unit) (Name := ℕ) (U := UR sig nD τ) (Lvl := ℕ) (Val := Elt F) spec4 c [cc4_scratch0, cc4_scratch1])
          ∗ (∃ r, prngReg c r)) := by
  unfold Pipeline.ΦA; rw [scopedRest4_split]; simp only [tot4_0, tot4_1, owns_whole]; try rfl

private theorem off00 : (![0, 0] : Fin 2 → Nat) = fun _ => 0 := funext fun a => by fin_cases a <;> rfl

private theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ _ _

private theorem load_whole {sg : RefSig} {κ : Kind} {sp : Space} {S : Shape} {e : EltTy} {Val : EltTy → Type}
    {m : Memref sg κ sp S e} (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread]; exact View.ld_unit_zero h inb X

set_option maxHeartbeats 1000000 in

theorem bodyFirst4 (c : Dev nD) (i : grid4.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : isFirst4 i) (hc1 : ¬isLast4 i)
    (x0 : Vec F S2000x96 .f32) (xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 (k4_pay1 (F := F))) ∗ owns (c : Thread nD τ) arg5 fullShare (k4_pay5 x0 (k4_pay2 (F := F)))) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyMid4 (c : Dev nD) (i : grid4.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst4 i) (hc1 : ¬isLast4 i)
    (x0 : Vec F S2000x96 .f32) (xs0 xs1 xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k4_pay4 x0 xs0) ∗ owns (c : Thread nD τ) arg5 fullShare (k4_pay5 x0 xs1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyLast4 (c : Dev nD) (i : grid4.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst4 i) (hc1 : isLast4 i)
    (x0 : Vec F S2000x96 .f32) (xs0 xs1 : Vec F S1x96 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k4_pay4 x0 xs0) ∗ owns (c : Thread nD τ) arg3 fullShare (k4_pay5 x0 xs1)
            ∗ owns (c : Thread nD τ) arg4 fullShare (k4_pay4 x0 xs0) ∗ owns (c : Thread nD τ) arg5 fullShare (k4_pay5 x0 xs1)) -∗ K ⟨⟩))
      ⊢ wp frame (wpE (defs₀ (F := F)) Variants.none c none) E (cc4__stats_kernel i arg1 harg1 arg2 harg2 arg3 harg3 arg4 harg4 arg5 harg5) K := by
  simp only [cc4__stats_kernel_eq_skeleton]; unfold cc4__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; swap; · iexact H1
    ipureintro; exact read_store_whole _ _ off00 _ _ _
  isplitl [H2]
  · iexists _; isplitr; swap; · iexact H2
    ipureintro; exact read_store_whole _ _ off00 _ _ _
  isplitl [HS0]
  · iexists _; isplitr; swap; · iexact HS0
    ipureintro; exact read_store_whole _ _ off00 _ _ _
  iexists _; isplitr; swap; · iexact HS1
  ipureintro; exact read_store_whole _ _ off00 _ _ _

def acc4 (c : Dev nD) : (n : ℕ) → n < cfg4.N → Vec F S1x96 .f32 × Vec F S1x96 .f32
  | 0, hn => (k4_pay4 (iblk4 V c 0 ⟨0, hn⟩) (k4_pay1 (F := F)), k4_pay5 (iblk4 V c 0 ⟨0, hn⟩) (k4_pay2 (F := F)))
  | n + 1, hn => (k4_pay4 (iblk4 V c 0 ⟨n + 1, hn⟩) (acc4 c n (Nat.lt_of_succ_lt hn)).1,
                  k4_pay5 (iblk4 V c 0 ⟨n + 1, hn⟩) (acc4 c n (Nat.lt_of_succ_lt hn)).2)

theorem acc4_zero (c : Dev nD) (hn : 0 < cfg4.N) :
    acc4 V c 0 hn = (k4_pay4 (iblk4 V c 0 ⟨0, hn⟩) (k4_pay1 (F := F)), k4_pay5 (iblk4 V c 0 ⟨0, hn⟩) (k4_pay2 (F := F))) := rfl

theorem acc4_succ (c : Dev nD) (n : ℕ) (hn : n + 1 < cfg4.N) :
    acc4 V c (n + 1) hn = (k4_pay4 (iblk4 V c 0 ⟨n + 1, hn⟩) (acc4 V c n (Nat.lt_of_succ_lt hn)).1,
                           k4_pay5 (iblk4 V c 0 ⟨n + 1, hn⟩) (acc4 V c n (Nat.lt_of_succ_lt hn)).2) := rfl

theorem acc4_first (c : Dev nD) (t : Fin cfg4.N) (h : t.val = 0) :
    acc4 V c t.val t.isLt = (k4_pay4 (iblk4 V c 0 t) (k4_pay1 (F := F)), k4_pay5 (iblk4 V c 0 t) (k4_pay2 (F := F))) := by
  obtain ⟨n, hn⟩ := t
  cases n with
  | zero => rfl
  | succ n => exact absurd h (Nat.succ_ne_zero n)

theorem acc4_later (c : Dev nD) (t : Fin cfg4.N) (h : t.val ≠ 0) :
    acc4 V c t.val t.isLt
      = (k4_pay4 (iblk4 V c 0 t) (acc4 V c (t.val - 1) (Nat.lt_of_le_of_lt (Nat.sub_le _ _) t.isLt)).1,
         k4_pay5 (iblk4 V c 0 t) (acc4 V c (t.val - 1) (Nat.lt_of_le_of_lt (Nat.sub_le _ _) t.isLt)).2) := by
  obtain ⟨n, hn⟩ := t
  cases n with
  | zero => exact absurd rfl h
  | succ n => rfl

def Phi4 (c : Dev nD) : (n : ℕ) → n ≤ cfg4.N → sProp 𝕄
  | 0, _ => Pipeline.ΦA spec4 c
  | n + 1, hn => iprop(iprop(iprop(owns (c : Thread nD τ) tot4_0 fullShare (acc4 V c n hn).1 ∗ owns (c : Thread nD τ) tot4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r))

theorem Phi4_zero (c : Dev nD) (n : ℕ) (h : n ≤ cfg4.N) (hz : n = 0) : Phi4 V c n h = Pipeline.ΦA spec4 c := by
  subst hz; rfl

theorem Phi4_succ (c : Dev nD) (n : ℕ) (hn : n < cfg4.N) :
    Phi4 V c (n + 1) hn = iprop(iprop(iprop(owns (c : Thread nD τ) tot4_0 fullShare (acc4 V c n hn).1 ∗ owns (c : Thread nD τ) tot4_1 fullShare (acc4 V c n hn).2)
      ∗ Pipeline.scopedRestBut (Ix := Unit) (Name := ℕ) (U := UR sig nD τ) (Lvl := ℕ) (Val := Elt F) spec4 c [cc4_scratch0, cc4_scratch1]) ∗ (∃ r, prngReg c r)) := rfl

theorem Phi4_pos (c : Dev nD) (n : ℕ) (h : n ≤ cfg4.N) (hz : n ≠ 0) :
    Phi4 V c n h = iprop(iprop(iprop(owns (c : Thread nD τ) tot4_0 fullShare (acc4 V c (n - 1) (by omega)).1 ∗ owns (c : Thread nD τ) tot4_1 fullShare (acc4 V c (n - 1) (by omega)).2)
      ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => (acc4 V c t.val t.isLt).1
    | ⟨2, _⟩ => (acc4 V c t.val t.isLt).2
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem Phi4_castSucc (c : Dev nD) (t : Fin cfg4.N) :
    (dat4 V c).Φ t.castSucc = Phi4 V c t.val (Nat.le_of_lt t.isLt) := by
  dsimp only [dat4]; simp only [Fin.coe_castSucc]

theorem after4_0 (c : Dev nD) (t : Fin cfg4.N) : (dat4 V c).after 0 t = iblk4 V c 0 t := by dsimp only [dat4]

theorem after4_1 (c : Dev nD) (t : Fin cfg4.N) : (dat4 V c).after 1 t = (acc4 V c t.val t.isLt).1 := by dsimp only [dat4]

theorem after4_2 (c : Dev nD) (t : Fin cfg4.N) : (dat4 V c).after 2 t = (acc4 V c t.val t.isLt).2 := by dsimp only [dat4]

theorem before4_0 (c : Dev nD) (t : Fin cfg4.N) (d) : (dat4 V c).before 0 t d = iblk4 V c 0 t :=
  ((dat4 V c).before_in_eq_fetched 0 rfl (fun _ => rfl) (fun _ _ _ => rfl)
    (fun t => by rw [after4_0]; unfold Dat.blockOf iblk4; rw [A_eq4]; try rfl) t d).trans
    (by unfold Dat.fetched Dat.blockOf iblk4; rw [A_eq4]; try rfl)

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t ∗ (dat4 V c).leavesExact 1 t ∗ (dat4 V c).leavesExact 2 t)

set_option maxHeartbeats 4800000 in

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).owesAt () t.succ = (dat4 V c).owesAt () t.castSucc from rfl]
  rw [show (dat4 V c).Φ t.succ = Phi4 V c (t.val + 1) t.isLt from rfl, Phi4_succ]
  have hN : t.val < 25 := lt_of_lt_of_eq t.isLt (show cfg4.N = 25 from N_4)
  rw [show (dat4 V c).leavesExact 0 t = owns (c : Thread nD τ) (ms4_0 t) fullShare ((dat4 V c).after 0 t) from by
    unfold Dat.leavesExact; rw [live4_0], after4_0]
  by_cases hz : t.val = 0
  · have hl : t.val ≠ 24 := by omega
    rw [Dat.leavesExact_idle (dat4 V c) 1 t (idle4_1 t hl) (noFlush4_1 t hl), Dat.leavesExact_idle (dat4 V c) 2 t (idle4_2 t hl) (noFlush4_2 t hl)]
    rw [acc4_first V c t hz]
    rw [Phi4_castSucc V c t, Phi4_zero V c _ _ hz, PhiA4_eq]
    iintro ⟨⟨⟨⟨HS0, HS1⟩, Hr⟩, Hg⟩, Ho, ⟨%d0, H0⟩, ⟨%d1, H1⟩, ⟨%d2, H2⟩⟩
    iapply (bodyFirst4 c (grid4.coords t) _ _ _ _ _ _ _ _ _ _ ((isFirst4_iff t).mpr hz) (fun h => hl ((isLast4_iff t).mp h)) (iblk4 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · by_cases hl : t.val = 24
    · rw [show (dat4 V c).leavesExact 1 t = owns (c : Thread nD τ) (ms4_1 t) fullShare ((dat4 V c).after 1 t) from by
        unfold Dat.leavesExact; rw [live4_1 t hl], after4_1]
      rw [show (dat4 V c).leavesExact 2 t = owns (c : Thread nD τ) (ms4_2 t) fullShare ((dat4 V c).after 2 t) from by
        unfold Dat.leavesExact; rw [live4_2 t hl], after4_2]
      rw [acc4_later V c t hz]
      rw [Phi4_castSucc V c t, Phi4_pos V c _ _ hz]
      iintro ⟨⟨⟨⟨HS0, HS1⟩, Hr⟩, Hg⟩, Ho, ⟨%d0, H0⟩, ⟨%d1, H1⟩, ⟨%d2, H2⟩⟩
      iapply (bodyLast4 c (grid4.coords t) _ _ _ _ _ _ _ _ _ _ (fun h => hz ((isFirst4_iff t).mp h)) ((isLast4_iff t).mpr hl) (iblk4 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · rw [Dat.leavesExact_idle (dat4 V c) 1 t (idle4_1 t hl) (noFlush4_1 t hl), Dat.leavesExact_idle (dat4 V c) 2 t (idle4_2 t hl) (noFlush4_2 t hl)]
      rw [acc4_later V c t hz]
      rw [Phi4_castSucc V c t, Phi4_pos V c _ _ hz]
      iintro ⟨⟨⟨⟨HS0, HS1⟩, Hr⟩, Hg⟩, Ho, ⟨%d0, H0⟩, ⟨%d1, H1⟩, ⟨%d2, H2⟩⟩
      iapply (bodyMid4 c (grid4.coords t) _ _ _ _ _ _ _ _ _ _ (fun h => hz ((isFirst4_iff t).mp h)) (fun h => hl ((isLast4_iff t).mp h)) (iblk4 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

theorem body_obligation4 (c : Dev nD) : BodyObligation (dat4 (F := F) V c) (defs₀ (F := F)) Variants.none () Set.univ := fun t => by
  rw [bigSep_W4, bigSep_W4]
  exact sound_body4 V c t

theorem hin4 (c : Dev nD) : (Pipeline.ΦA spec4 c : sProp 𝕄) ⊢ (dat4 V c).Φ 0 := by
  rw [show (dat4 V c).Φ 0 = Phi4 V c 0 (Nat.zero_le _) from rfl, Phi4_zero V c 0 _ rfl]
  try exact Idealize.SL.BI.Entails.refl _

theorem Phi4_out (c : Dev nD) (t : Fin (cfg4.N + 1)) (ht : t.val ≠ 0) : (dat4 V c).Φ t ⊢ (Pipeline.ΦA spec4 c : sProp 𝕄) := by
  rw [show (dat4 V c).Φ t = Phi4 V c t.val (Nat.le_of_lt_succ t.isLt) from rfl, Phi4_pos V c _ _ ht, PhiA4_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem hout4 (c : Dev nD) : (dat4 V c).Φ (Fin.last cfg4.N) ⊢ (Pipeline.ΦA spec4 c : sProp 𝕄) :=
  Phi4_out V c _ (by rw [Fin.val_last]; have : cfg4.N = 25 := N_4; omega)

end Cert.KernelIdeal.Hand

end
-- ==== Proof.KI.Reg5.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

theorem holds5_0 {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t := by
  have hstay : ∀ t, (cfg5.win 0).cut (cfg5.grid.coords t) (dat.after 0 t) = dat.blockOf 0 t := fun t => by
    rw [hafter]; unfold Dat.blockOf iblk5; rw [hA]; try rfl
  rw [dat.before_in_eq_fetched 0 rfl (fun _ => rfl) (fun _ _ _ => rfl) hstay t d]
  unfold Dat.fetched Dat.blockOf iblk5; rw [hA]; try rfl

theorem holds5_1 {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t := by
  have hstay : ∀ t, (cfg5.win 1).cut (cfg5.grid.coords t) (dat.after 1 t) = dat.blockOf 1 t := fun t => by
    rw [hafter]; unfold Dat.blockOf iblk5; rw [hA]; try rfl
  rw [dat.before_in_eq_fetched 1 rfl (fun _ => rfl) (fun _ _ _ => rfl) hstay t d]
  unfold Dat.fetched Dat.blockOf iblk5; rw [hA]; try rfl

theorem holds5_2 {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t := by
  have hstay : ∀ t, (cfg5.win 2).cut (cfg5.grid.coords t) (dat.after 2 t) = dat.blockOf 2 t := fun t => by
    rw [hafter]; unfold Dat.blockOf iblk5; rw [hA]; try rfl
  rw [dat.before_in_eq_fetched 2 rfl (fun _ => rfl) (fun _ _ _ => rfl) hstay t d]
  unfold Dat.fetched Dat.blockOf iblk5; rw [hA]; try rfl

theorem holds5_3 {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t := by
  have hstay : ∀ t, (cfg5.win 3).cut (cfg5.grid.coords t) (dat.after 3 t) = dat.blockOf 3 t := fun t => by
    rw [hafter]; unfold Dat.blockOf iblk5; rw [hA]; try rfl
  rw [dat.before_in_eq_fetched 3 rfl (fun _ => rfl) (fun _ _ _ => rfl) hstay t d]
  unfold Dat.fetched Dat.blockOf iblk5; rw [hA]; try rfl

theorem holds5_4 {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t := by
  have hstay : ∀ t, (cfg5.win 4).cut (cfg5.grid.coords t) (dat.after 4 t) = dat.blockOf 4 t := fun t => by
    rw [hafter]; unfold Dat.blockOf iblk5; rw [hA]; try rfl
  rw [dat.before_in_eq_fetched 4 rfl (fun _ => rfl) (fun _ _ _ => rfl) hstay t d]
  unfold Dat.fetched Dat.blockOf iblk5; rw [hA]; try rfl

abbrev whole5_blk : Rect S2000x96 := Rect.unit (s := S2000x96) ![0, 0] S2000x96.size inb_S2000x96_S2000x96_0_0

abbrev whole5_row : Rect S1x96 := Rect.unit (s := S1x96) ![0, 0] S1x96.size inb_S1x96_S1x96_0_0

def oblk5 (x : Vec F S2000x96 .f32) (mu va ga be : Vec F S1x96 .f32) : Vec F S2000x96 .f32 :=
  View.canon [⟨whole5_blk, k5_pay1 (View.ld mu whole5_row) (View.ld va whole5_row) (View.ld ga whole5_row) (View.ld be whole5_row) (View.ld x whole5_blk)⟩]

theorem covered5 (p : Vec F S2000x96 .f32) (y : S2000x96.Idx) :
    ∃ pc ∈ ([⟨whole5_blk, p⟩] : List (View.Piece (Elt F) S2000x96 .f32)), y ∈ pc.1.set :=
  View.cover_of_tiled [⟨whole5_blk, p⟩] S2000x96.size (by rfl) y

theorem origin5 : (![0, 0] : Fin 2 → Nat) = fun _ => 0 := funext fun a => by fin_cases a <;> rfl

theorem oblk5_eq (x : Vec F S2000x96 .f32) (mu va ga be : Vec F S1x96 .f32) : oblk5 x mu va ga be = k5_pay1 mu va ga be x := by
  unfold oblk5
  rw [View.canon_unit_zero origin5]
  simp only [View.ld_unit_zero (S := S2000x96) origin5, View.ld_unit_zero (S := S1x96) origin5]

set_option maxHeartbeats 1000000 in

theorem norm_relu_triple5 (c : Dev nD) (E : Set ℕ) (i : grid5.Coords)
    (a0 : Memref sig .tc .vmem S2000x96 .f32) (h0 : a0.IsWhole) (a1 : Memref sig .tc .vmem S1x96 .f32) (h1 : a1.IsWhole)
    (a2 : Memref sig .tc .vmem S1x96 .f32) (h2 : a2.IsWhole) (a3 : Memref sig .tc .vmem S1x96 .f32) (h3 : a3.IsWhole)
    (a4 : Memref sig .tc .vmem S1x96 .f32) (h4 : a4.IsWhole) (a5 : Memref sig .tc .vmem S2000x96 .f32) (h5 : a5.IsWhole)
    (x : Vec F S2000x96 .f32) (mu va ga be : Vec F S1x96 .f32) (K : PUnit → sProp 𝕄) :
    iprop(owns (c : Thread nD τ) a0 fullShare x ∗ owns (c : Thread nD τ) a1 fullShare mu ∗ owns (c : Thread nD τ) a2 fullShare va
        ∗ owns (c : Thread nD τ) a3 fullShare ga ∗ owns (c : Thread nD τ) a4 fullShare be ∗ (∃ d, owns (c : Thread nD τ) a5 fullShare d)
        ∗ (iprop(owns (c : Thread nD τ) a0 fullShare x ∗ owns (c : Thread nD τ) a1 fullShare mu ∗ owns (c : Thread nD τ) a2 fullShare va
            ∗ owns (c : Thread nD τ) a3 fullShare ga ∗ owns (c : Thread nD τ) a4 fullShare be
            ∗ owns (c : Thread nD τ) a5 fullShare (oblk5 x mu va ga be)) -∗ K ⟨⟩))
      ⊢ wp frame (wpE (defs₀ (F := F)) Variants.none c none) E (cc5__norm_relu_kernel i a0 h0 a1 h1 a2 h2 a3 h3 a4 h4 a5 h5) K := by
  simp only [cc5__norm_relu_kernel_eq_skeleton]; unfold cc5__norm_relu_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered5 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k5_pay1 (iblk5 V c 1 t) (iblk5 V c 2 t) (iblk5 V c 3 t) (iblk5 V c 4 t) (iblk5 V c 0 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]

theorem after5_5 (c : Dev nD) (t : Fin cfg5.N) :
    (dat5 V c).after 5 t = k5_pay1 (iblk5 V c 1 t) (iblk5 V c 2 t) (iblk5 V c 3 t) (iblk5 V c 4 t) (iblk5 V c 0 t) := by dsimp only [dat5]

theorem before5_0 (c : Dev nD) (t : Fin cfg5.N) (d) : (dat5 V c).before 0 t d = iblk5 V c 0 t :=
  holds5_0 V (dat5 V c) (A_eq5 V c 0) (after5_0 V c) t d
theorem before5_1 (c : Dev nD) (t : Fin cfg5.N) (d) : (dat5 V c).before 1 t d = iblk5 V c 1 t :=
  holds5_1 V (dat5 V c) (A_eq5 V c 1) (after5_1 V c) t d
theorem before5_2 (c : Dev nD) (t : Fin cfg5.N) (d) : (dat5 V c).before 2 t d = iblk5 V c 2 t :=
  holds5_2 V (dat5 V c) (A_eq5 V c 2) (after5_2 V c) t d
theorem before5_3 (c : Dev nD) (t : Fin cfg5.N) (d) : (dat5 V c).before 3 t d = iblk5 V c 3 t :=
  holds5_3 V (dat5 V c) (A_eq5 V c 3) (after5_3 V c) t d
theorem before5_4 (c : Dev nD) (t : Fin cfg5.N) (d) : (dat5 V c).before 4 t d = iblk5 V c 4 t :=
  holds5_4 V (dat5 V c) (A_eq5 V c 4) (after5_4 V c) t d

def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5, ← oblk5_eq]
  iintro ⟨HΦ, Ho, ⟨%d0, H0⟩, ⟨%d1, H1⟩, ⟨%d2, H2⟩, ⟨%d3, H3⟩, ⟨%d4, H4⟩, ⟨%d5, H5⟩⟩
  iapply (norm_relu_triple5 c Set.univ _ _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation5 (c : Dev nD) : BodyObligation (dat5 (F := F) V c) (defs₀ (F := F)) Variants.none () Set.univ := fun t => by
  rw [bigSep_W5, bigSep_W5]
  exact sound_body5 V c t

theorem hin5 (c : Dev nD) : (Pipeline.ΦA spec5 c : sProp 𝕄) ⊢ (dat5 V c).Φ 0 := BIBase.Entails.rfl

theorem hout5 (c : Dev nD) : (dat5 V c).Φ (Fin.last cfg5.N) ⊢ (Pipeline.ΦA spec5 c : sProp 𝕄) := BIBase.Entails.rfl

end Cert.KernelIdeal.Hand

end
-- ==== Proof.KI.Reg6.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

theorem nodes_held6 {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem weights_held6 {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

abbrev nodeRect6 : Rect S2000x96 := Rect.unit (s := S2000x96) ![0, 0] S2000x96.size inb_S2000x96_S2000x96_0_0
abbrev weightRect6 : Rect S96x96 := Rect.unit (s := S96x96) ![0, 0] S96x96.size inb_S96x96_S96x96_0_0

theorem zero_offsets6 : (![0, 0] : Fin 2 → ℕ) = fun _ => 0 := by
  funext a; fin_cases a <;> rfl

def prod6 (x : Vec F S2000x96 .f32) (w : Vec F S96x96 .f32) : Vec F S2000x96 .f32 :=
  View.canon [⟨nodeRect6, k6_pay1 (View.ld x nodeRect6) (View.ld w weightRect6)⟩]

theorem prod_covers6 (p : Vec F S2000x96 .f32) (y : S2000x96.Idx) :
    ∃ pc ∈ ([⟨nodeRect6, p⟩] : List (View.Piece (Elt F) S2000x96 .f32)), y ∈ pc.1.set :=
  ⟨_, List.mem_singleton_self _, View.mem_set_unit_zero (S := S2000x96) zero_offsets6 inb_S2000x96_S2000x96_0_0 y⟩

theorem prod6_eq (x : Vec F S2000x96 .f32) (w : Vec F S96x96 .f32) : prod6 x w = k6_pay1 x w := by
  unfold prod6
  rw [View.canon_unit_zero zero_offsets6]
  simp only [View.ld_unit_zero (S := S2000x96) zero_offsets6, View.ld_unit_zero (S := S96x96) zero_offsets6]

set_option maxHeartbeats 1000000 in

theorem sound_matmul6 (c : Dev nD) (E : Set ℕ) (i : grid6.Coords)
    (arg1 : Memref sig .tc .vmem S2000x96 .f32) (harg1 : arg1.IsWhole)
    (arg2 : Memref sig .tc .vmem S96x96 .f32) (harg2 : arg2.IsWhole)
    (arg3 : Memref sig .tc .vmem S2000x96 .f32) (harg3 : arg3.IsWhole)
    (x : Vec F S2000x96 .f32) (w : Vec F S96x96 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prod6 x w)) -∗ K ⟨⟩))
      ⊢ wp frame (wpE (defs₀ (F := F)) Variants.none c none) E (cc6__matmul_kernel i arg1 harg1 arg2 harg2 arg3 harg3) K := by
  simp only [cc6__matmul_kernel_eq_skeleton]; unfold cc6__matmul_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod_covers6 _)

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => prod6 (iblk6 V c 0 t) (iblk6 V c 1 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2_store (c : Dev nD) (t : Fin cfg6.N) : (dat6 V c).after 2 t = prod6 (iblk6 V c 0 t) (iblk6 V c 1 t) := by dsimp only [dat6]

theorem after6_2 (c : Dev nD) (t : Fin cfg6.N) : (dat6 V c).after 2 t = k6_pay1 (iblk6 V c 0 t) (iblk6 V c 1 t) := by
  rw [after6_2_store]; exact prod6_eq _ _

theorem before6_0 (c : Dev nD) (t : Fin cfg6.N) (d) : (dat6 V c).before 0 t d = iblk6 V c 0 t :=
  nodes_held6 V (dat6 V c) (A_eq6 V c 0) (after6_0 V c) t d
theorem before6_1 (c : Dev nD) (t : Fin cfg6.N) (d) : (dat6 V c).before 1 t d = iblk6 V c 1 t :=
  weights_held6 V (dat6 V c) (A_eq6 V c 1) (after6_1 V c) t d

def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d)))

def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t))

theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).Φ t.succ = (dat6 V c).Φ t.castSucc from rfl,
    show (dat6 V c).owesAt () t.succ = (dat6 V c).owesAt () t.castSucc from rfl,
    after6_0, after6_1, after6_2_store]
  iintro ⟨HΦ, Ho, ⟨%d0, H0⟩, ⟨%d1, H1⟩, ⟨%d2, H2⟩⟩
  iapply (sound_matmul6 c Set.univ _ _ _ _ _ _ _ (iblk6 V c 0 t) (iblk6 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation6 (c : Dev nD) : BodyObligation (dat6 (F := F) V c) (defs₀ (F := F)) Variants.none () Set.univ := fun t => by
  rw [bigSep_W6, bigSep_W6]
  exact sound_body6 V c t

theorem hin6 (c : Dev nD) : (Pipeline.ΦA spec6 c : sProp 𝕄) ⊢ (dat6 V c).Φ 0 := BIBase.Entails.rfl
theorem hout6 (c : Dev nD) : (dat6 V c).Φ (Fin.last cfg6.N) ⊢ (Pipeline.ΦA spec6 c : sProp 𝕄) := BIBase.Entails.rfl

end Cert.KernelIdeal.Hand
-- ==== Proof.KI.Reg7.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev isFirst7 (i : grid7.Coords) : Prop :=
  (Scalar.cmpi .ne (Scalar.extui (Scalar.cmpi .eq (BitVec.ofNat 32 (i 0).val) 0#32)) 0#32) = 1#1

abbrev isLast7 (i : grid7.Coords) : Prop := k7_cond2 i = 1#1

theorem isFirst7_iff : ∀ t : Fin cfg7.N, isFirst7 (grid7.coords t) ↔ t.val = 0 :=
  (by decide +kernel : ∀ t : Fin grid7.N, isFirst7 (grid7.coords t) ↔ t.val = 0)
theorem isLast7_iff : ∀ t : Fin cfg7.N, isLast7 (grid7.coords t) ↔ t.val = 24 :=
  (by decide +kernel : ∀ t : Fin grid7.N, isLast7 (grid7.coords t) ↔ t.val = 24)

theorem live7_0 : ∀ i, cfg7.idle 0 i = false := fun _ => rfl

theorem idle7_1 : ∀ t : Fin cfg7.N, t.val ≠ 24 → cfg7.idle 1 (grid7.coords t) = true := by decide +kernel
theorem idle7_2 : ∀ t : Fin cfg7.N, t.val ≠ 24 → cfg7.idle 2 (grid7.coords t) = true := by decide +kernel
theorem noFlush7_1 : ∀ t : Fin cfg7.N, t.val ≠ 24 → (cfg7.win 1).flush t = false := by decide +kernel
theorem noFlush7_2 : ∀ t : Fin cfg7.N, t.val ≠ 24 → (cfg7.win 2).flush t = false := by decide +kernel

theorem live7_1 : ∀ t : Fin cfg7.N, t.val = 24 → cfg7.idle 1 (grid7.coords t) = false := by decide +kernel
theorem live7_2 : ∀ t : Fin cfg7.N, t.val = 24 → cfg7.idle 2 (grid7.coords t) = false := by decide +kernel

abbrev ms7_0 (t : Fin cfg7.N) : Memref sig .tc .vmem S2000x96 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S1x96 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x96 .f32 := win7_2.stage (cfg7.slots t 2)
abbrev hs7_2 (t : Fin cfg7.N) : (ms7_2 t).IsWhole := hstage7_2 ((cfg7.slots t 2).cast nbuf7_2)

abbrev tot7_0 : Memref sig .tc .vmem S1x96 .f32 := Memref.whole cc7_scratch0
abbrev tot7_1 : Memref sig .tc .vmem S1x96 .f32 := Memref.whole cc7_scratch1

theorem PhiA7_eq (c : Dev nD) :
    (Pipeline.ΦA spec7 c : sProp 𝕄)
      = iprop(iprop(iprop((∃ d, owns (c : Thread nD τ) tot7_0 fullShare d) ∗ (∃ d, owns (c : Thread nD τ) tot7_1 fullShare d))
          ∗ Pipeline.scopedRestBut (Ix := Unit) (Name := ℕ) (U := UR sig nD τ) (Lvl := ℕ) (Val := Elt F) spec7 c [cc7_scratch0, cc7_scratch1])
          ∗ (∃ r, prngReg c r)) := by
  unfold Pipeline.ΦA; rw [scopedRest7_split]; simp only [tot7_0, tot7_1, owns_whole]; try rfl

private theorem off00 : (![0, 0] : Fin 2 → Nat) = fun _ => 0 := funext fun a => by fin_cases a <;> rfl

private theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ _ _

private theorem load_whole {sg : RefSig} {κ : Kind} {sp : Space} {S : Shape} {e : EltTy} {Val : EltTy → Type}
    {m : Memref sg κ sp S e} (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread]; exact View.ld_unit_zero h inb X

set_option maxHeartbeats 1000000 in

theorem bodyFirst7 (c : Dev nD) (i : grid7.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : isFirst7 i) (hc1 : ¬isLast7 i)
    (x0 : Vec F S2000x96 .f32) (xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 (k7_pay1 (F := F))) ∗ owns (c : Thread nD τ) arg5 fullShare (k7_pay5 x0 (k7_pay2 (F := F)))) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyMid7 (c : Dev nD) (i : grid7.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst7 i) (hc1 : ¬isLast7 i)
    (x0 : Vec F S2000x96 .f32) (xs0 xs1 xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k7_pay4 x0 xs0) ∗ owns (c : Thread nD τ) arg5 fullShare (k7_pay5 x0 xs1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyLast7 (c : Dev nD) (i : grid7.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst7 i) (hc1 : isLast7 i)
    (x0 : Vec F S2000x96 .f32) (xs0 xs1 : Vec F S1x96 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k7_pay4 x0 xs0) ∗ owns (c : Thread nD τ) arg3 fullShare (k7_pay5 x0 xs1)
            ∗ owns (c : Thread nD τ) arg4 fullShare (k7_pay4 x0 xs0) ∗ owns (c : Thread nD τ) arg5 fullShare (k7_pay5 x0 xs1)) -∗ K ⟨⟩))
      ⊢ wp frame (wpE (defs₀ (F := F)) Variants.none c none) E (cc7__stats_kernel i arg1 harg1 arg2 harg2 arg3 harg3 arg4 harg4 arg5 harg5) K := by
  simp only [cc7__stats_kernel_eq_skeleton]; unfold cc7__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; swap; · iexact H1
    ipureintro; exact read_store_whole _ _ off00 _ _ _
  isplitl [H2]
  · iexists _; isplitr; swap; · iexact H2
    ipureintro; exact read_store_whole _ _ off00 _ _ _
  isplitl [HS0]
  · iexists _; isplitr; swap; · iexact HS0
    ipureintro; exact read_store_whole _ _ off00 _ _ _
  iexists _; isplitr; swap; · iexact HS1
  ipureintro; exact read_store_whole _ _ off00 _ _ _

def acc7 (c : Dev nD) : (n : ℕ) → n < cfg7.N → Vec F S1x96 .f32 × Vec F S1x96 .f32
  | 0, hn => (k7_pay4 (iblk7 V c 0 ⟨0, hn⟩) (k7_pay1 (F := F)), k7_pay5 (iblk7 V c 0 ⟨0, hn⟩) (k7_pay2 (F := F)))
  | n + 1, hn => (k7_pay4 (iblk7 V c 0 ⟨n + 1, hn⟩) (acc7 c n (Nat.lt_of_succ_lt hn)).1,
                  k7_pay5 (iblk7 V c 0 ⟨n + 1, hn⟩) (acc7 c n (Nat.lt_of_succ_lt hn)).2)

theorem acc7_zero (c : Dev nD) (hn : 0 < cfg7.N) :
    acc7 V c 0 hn = (k7_pay4 (iblk7 V c 0 ⟨0, hn⟩) (k7_pay1 (F := F)), k7_pay5 (iblk7 V c 0 ⟨0, hn⟩) (k7_pay2 (F := F))) := rfl

theorem acc7_succ (c : Dev nD) (n : ℕ) (hn : n + 1 < cfg7.N) :
    acc7 V c (n + 1) hn = (k7_pay4 (iblk7 V c 0 ⟨n + 1, hn⟩) (acc7 V c n (Nat.lt_of_succ_lt hn)).1,
                           k7_pay5 (iblk7 V c 0 ⟨n + 1, hn⟩) (acc7 V c n (Nat.lt_of_succ_lt hn)).2) := rfl

theorem acc7_first (c : Dev nD) (t : Fin cfg7.N) (h : t.val = 0) :
    acc7 V c t.val t.isLt = (k7_pay4 (iblk7 V c 0 t) (k7_pay1 (F := F)), k7_pay5 (iblk7 V c 0 t) (k7_pay2 (F := F))) := by
  obtain ⟨n, hn⟩ := t
  cases n with
  | zero => rfl
  | succ n => exact absurd h (Nat.succ_ne_zero n)

theorem acc7_later (c : Dev nD) (t : Fin cfg7.N) (h : t.val ≠ 0) :
    acc7 V c t.val t.isLt
      = (k7_pay4 (iblk7 V c 0 t) (acc7 V c (t.val - 1) (Nat.lt_of_le_of_lt (Nat.sub_le _ _) t.isLt)).1,
         k7_pay5 (iblk7 V c 0 t) (acc7 V c (t.val - 1) (Nat.lt_of_le_of_lt (Nat.sub_le _ _) t.isLt)).2) := by
  obtain ⟨n, hn⟩ := t
  cases n with
  | zero => exact absurd rfl h
  | succ n => rfl

def Phi7 (c : Dev nD) : (n : ℕ) → n ≤ cfg7.N → sProp 𝕄
  | 0, _ => Pipeline.ΦA spec7 c
  | n + 1, hn => iprop(iprop(iprop(owns (c : Thread nD τ) tot7_0 fullShare (acc7 V c n hn).1 ∗ owns (c : Thread nD τ) tot7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r))

theorem Phi7_zero (c : Dev nD) (n : ℕ) (h : n ≤ cfg7.N) (hz : n = 0) : Phi7 V c n h = Pipeline.ΦA spec7 c := by
  subst hz; rfl

theorem Phi7_succ (c : Dev nD) (n : ℕ) (hn : n < cfg7.N) :
    Phi7 V c (n + 1) hn = iprop(iprop(iprop(owns (c : Thread nD τ) tot7_0 fullShare (acc7 V c n hn).1 ∗ owns (c : Thread nD τ) tot7_1 fullShare (acc7 V c n hn).2)
      ∗ Pipeline.scopedRestBut (Ix := Unit) (Name := ℕ) (U := UR sig nD τ) (Lvl := ℕ) (Val := Elt F) spec7 c [cc7_scratch0, cc7_scratch1]) ∗ (∃ r, prngReg c r)) := rfl

theorem Phi7_pos (c : Dev nD) (n : ℕ) (h : n ≤ cfg7.N) (hz : n ≠ 0) :
    Phi7 V c n h = iprop(iprop(iprop(owns (c : Thread nD τ) tot7_0 fullShare (acc7 V c (n - 1) (by omega)).1 ∗ owns (c : Thread nD τ) tot7_1 fullShare (acc7 V c (n - 1) (by omega)).2)
      ∗ Pipeline.scopedRestBut (Ix := Unit) (Name := ℕ) (U := UR sig nD τ) (Lvl := ℕ) (Val := Elt F) spec7 c [cc7_scratch0, cc7_scratch1]) ∗ (∃ r, prngReg c r)) := by
  cases n with
  | zero => exact absurd rfl hz
  | succ n => rfl

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => (acc7 V c t.val t.isLt).1
    | ⟨2, _⟩ => (acc7 V c t.val t.isLt).2
  Φ t := Phi7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem Phi7_castSucc (c : Dev nD) (t : Fin cfg7.N) :
    (dat7 V c).Φ t.castSucc = Phi7 V c t.val (Nat.le_of_lt t.isLt) := by
  dsimp only [dat7]; simp only [Fin.coe_castSucc]

theorem after7_0 (c : Dev nD) (t : Fin cfg7.N) : (dat7 V c).after 0 t = iblk7 V c 0 t := by dsimp only [dat7]

theorem after7_1 (c : Dev nD) (t : Fin cfg7.N) : (dat7 V c).after 1 t = (acc7 V c t.val t.isLt).1 := by dsimp only [dat7]

theorem after7_2 (c : Dev nD) (t : Fin cfg7.N) : (dat7 V c).after 2 t = (acc7 V c t.val t.isLt).2 := by dsimp only [dat7]

theorem before7_0 (c : Dev nD) (t : Fin cfg7.N) (d) : (dat7 V c).before 0 t d = iblk7 V c 0 t :=
  ((dat7 V c).before_in_eq_fetched 0 rfl (fun _ => rfl) (fun _ _ _ => rfl)
    (fun t => by rw [after7_0]; unfold Dat.blockOf iblk7; rw [A_eq7]; try rfl) t d).trans
    (by unfold Dat.fetched Dat.blockOf iblk7; rw [A_eq7]; try rfl)

def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d)))

def bodyPost7 (c : Dev nD) (t : Fin cfg7.N) : sProp 𝕄 :=
  iprop((dat7 V c).Φ t.succ ∗ (dat7 V c).owesAt () t.succ
    ∗ (dat7 V c).leavesExact 0 t ∗ (dat7 V c).leavesExact 1 t ∗ (dat7 V c).leavesExact 2 t)

set_option maxHeartbeats 4800000 in

theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0]
  rw [show (dat7 V c).owesAt () t.succ = (dat7 V c).owesAt () t.castSucc from rfl]
  rw [show (dat7 V c).Φ t.succ = Phi7 V c (t.val + 1) t.isLt from rfl, Phi7_succ]
  have hN : t.val < 25 := lt_of_lt_of_eq t.isLt (show cfg7.N = 25 from N_7)
  rw [show (dat7 V c).leavesExact 0 t = owns (c : Thread nD τ) (ms7_0 t) fullShare ((dat7 V c).after 0 t) from by
    unfold Dat.leavesExact; rw [live7_0], after7_0]
  by_cases hz : t.val = 0
  · have hl : t.val ≠ 24 := by omega
    rw [Dat.leavesExact_idle (dat7 V c) 1 t (idle7_1 t hl) (noFlush7_1 t hl), Dat.leavesExact_idle (dat7 V c) 2 t (idle7_2 t hl) (noFlush7_2 t hl)]
    rw [acc7_first V c t hz]
    rw [Phi7_castSucc V c t, Phi7_zero V c _ _ hz, PhiA7_eq]
    iintro ⟨⟨⟨⟨HS0, HS1⟩, Hr⟩, Hg⟩, Ho, ⟨%d0, H0⟩, ⟨%d1, H1⟩, ⟨%d2, H2⟩⟩
    iapply (bodyFirst7 c (grid7.coords t) _ _ _ _ _ _ _ _ _ _ ((isFirst7_iff t).mpr hz) (fun h => hl ((isLast7_iff t).mp h)) (iblk7 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · by_cases hl : t.val = 24
    · rw [show (dat7 V c).leavesExact 1 t = owns (c : Thread nD τ) (ms7_1 t) fullShare ((dat7 V c).after 1 t) from by
        unfold Dat.leavesExact; rw [live7_1 t hl], after7_1]
      rw [show (dat7 V c).leavesExact 2 t = owns (c : Thread nD τ) (ms7_2 t) fullShare ((dat7 V c).after 2 t) from by
        unfold Dat.leavesExact; rw [live7_2 t hl], after7_2]
      rw [acc7_later V c t hz]
      rw [Phi7_castSucc V c t, Phi7_pos V c _ _ hz]
      iintro ⟨⟨⟨⟨HS0, HS1⟩, Hr⟩, Hg⟩, Ho, ⟨%d0, H0⟩, ⟨%d1, H1⟩, ⟨%d2, H2⟩⟩
      iapply (bodyLast7 c (grid7.coords t) _ _ _ _ _ _ _ _ _ _ (fun h => hz ((isFirst7_iff t).mp h)) ((isLast7_iff t).mpr hl) (iblk7 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · rw [Dat.leavesExact_idle (dat7 V c) 1 t (idle7_1 t hl) (noFlush7_1 t hl), Dat.leavesExact_idle (dat7 V c) 2 t (idle7_2 t hl) (noFlush7_2 t hl)]
      rw [acc7_later V c t hz]
      rw [Phi7_castSucc V c t, Phi7_pos V c _ _ hz]
      iintro ⟨⟨⟨⟨HS0, HS1⟩, Hr⟩, Hg⟩, Ho, ⟨%d0, H0⟩, ⟨%d1, H1⟩, ⟨%d2, H2⟩⟩
      iapply (bodyMid7 c (grid7.coords t) _ _ _ _ _ _ _ _ _ _ (fun h => hz ((isFirst7_iff t).mp h)) (fun h => hl ((isLast7_iff t).mp h)) (iblk7 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

theorem body_obligation7 (c : Dev nD) : BodyObligation (dat7 (F := F) V c) (defs₀ (F := F)) Variants.none () Set.univ := fun t => by
  rw [bigSep_W7, bigSep_W7]
  exact sound_body7 V c t

theorem hin7 (c : Dev nD) : (Pipeline.ΦA spec7 c : sProp 𝕄) ⊢ (dat7 V c).Φ 0 := by
  rw [show (dat7 V c).Φ 0 = Phi7 V c 0 (Nat.zero_le _) from rfl, Phi7_zero V c 0 _ rfl]
  try exact Idealize.SL.BI.Entails.refl _

theorem Phi7_out (c : Dev nD) (t : Fin (cfg7.N + 1)) (ht : t.val ≠ 0) : (dat7 V c).Φ t ⊢ (Pipeline.ΦA spec7 c : sProp 𝕄) := by
  rw [show (dat7 V c).Φ t = Phi7 V c t.val (Nat.le_of_lt_succ t.isLt) from rfl, Phi7_pos V c _ _ ht, PhiA7_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem hout7 (c : Dev nD) : (dat7 V c).Φ (Fin.last cfg7.N) ⊢ (Pipeline.ΦA spec7 c : sProp 𝕄) :=
  Phi7_out V c _ (by rw [Fin.val_last]; have : cfg7.N = 25 := N_7; omega)

end Cert.KernelIdeal.Hand

end
-- ==== Proof.KI.Reg8.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

theorem holds8_0 {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t := by
  have hstay : ∀ t, (cfg8.win 0).cut (cfg8.grid.coords t) (dat.after 0 t) = dat.blockOf 0 t := fun t => by
    rw [hafter]; unfold Dat.blockOf iblk8; rw [hA]; try rfl
  rw [dat.before_in_eq_fetched 0 rfl (fun _ => rfl) (fun _ _ _ => rfl) hstay t d]
  unfold Dat.fetched Dat.blockOf iblk8; rw [hA]; try rfl

theorem holds8_1 {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t := by
  have hstay : ∀ t, (cfg8.win 1).cut (cfg8.grid.coords t) (dat.after 1 t) = dat.blockOf 1 t := fun t => by
    rw [hafter]; unfold Dat.blockOf iblk8; rw [hA]; try rfl
  rw [dat.before_in_eq_fetched 1 rfl (fun _ => rfl) (fun _ _ _ => rfl) hstay t d]
  unfold Dat.fetched Dat.blockOf iblk8; rw [hA]; try rfl

theorem holds8_2 {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t := by
  have hstay : ∀ t, (cfg8.win 2).cut (cfg8.grid.coords t) (dat.after 2 t) = dat.blockOf 2 t := fun t => by
    rw [hafter]; unfold Dat.blockOf iblk8; rw [hA]; try rfl
  rw [dat.before_in_eq_fetched 2 rfl (fun _ => rfl) (fun _ _ _ => rfl) hstay t d]
  unfold Dat.fetched Dat.blockOf iblk8; rw [hA]; try rfl

theorem holds8_3 {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t := by
  have hstay : ∀ t, (cfg8.win 3).cut (cfg8.grid.coords t) (dat.after 3 t) = dat.blockOf 3 t := fun t => by
    rw [hafter]; unfold Dat.blockOf iblk8; rw [hA]; try rfl
  rw [dat.before_in_eq_fetched 3 rfl (fun _ => rfl) (fun _ _ _ => rfl) hstay t d]
  unfold Dat.fetched Dat.blockOf iblk8; rw [hA]; try rfl

theorem holds8_4 {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t := by
  have hstay : ∀ t, (cfg8.win 4).cut (cfg8.grid.coords t) (dat.after 4 t) = dat.blockOf 4 t := fun t => by
    rw [hafter]; unfold Dat.blockOf iblk8; rw [hA]; try rfl
  rw [dat.before_in_eq_fetched 4 rfl (fun _ => rfl) (fun _ _ _ => rfl) hstay t d]
  unfold Dat.fetched Dat.blockOf iblk8; rw [hA]; try rfl

abbrev whole8_blk : Rect S2000x96 := Rect.unit (s := S2000x96) ![0, 0] S2000x96.size inb_S2000x96_S2000x96_0_0

abbrev whole8_row : Rect S1x96 := Rect.unit (s := S1x96) ![0, 0] S1x96.size inb_S1x96_S1x96_0_0

def oblk8 (x : Vec F S2000x96 .f32) (mu va ga be : Vec F S1x96 .f32) : Vec F S2000x96 .f32 :=
  View.canon [⟨whole8_blk, k8_pay1 (View.ld mu whole8_row) (View.ld va whole8_row) (View.ld ga whole8_row) (View.ld be whole8_row) (View.ld x whole8_blk)⟩]

theorem covered8 (p : Vec F S2000x96 .f32) (y : S2000x96.Idx) :
    ∃ pc ∈ ([⟨whole8_blk, p⟩] : List (View.Piece (Elt F) S2000x96 .f32)), y ∈ pc.1.set :=
  View.cover_of_tiled [⟨whole8_blk, p⟩] S2000x96.size (by rfl) y

theorem origin8 : (![0, 0] : Fin 2 → Nat) = fun _ => 0 := funext fun a => by fin_cases a <;> rfl

theorem oblk8_eq (x : Vec F S2000x96 .f32) (mu va ga be : Vec F S1x96 .f32) : oblk8 x mu va ga be = k8_pay1 mu va ga be x := by
  unfold oblk8
  rw [View.canon_unit_zero origin8]
  simp only [View.ld_unit_zero (S := S2000x96) origin8, View.ld_unit_zero (S := S1x96) origin8]

set_option maxHeartbeats 1000000 in

theorem norm_relu_triple8 (c : Dev nD) (E : Set ℕ) (i : grid8.Coords)
    (a0 : Memref sig .tc .vmem S2000x96 .f32) (h0 : a0.IsWhole) (a1 : Memref sig .tc .vmem S1x96 .f32) (h1 : a1.IsWhole)
    (a2 : Memref sig .tc .vmem S1x96 .f32) (h2 : a2.IsWhole) (a3 : Memref sig .tc .vmem S1x96 .f32) (h3 : a3.IsWhole)
    (a4 : Memref sig .tc .vmem S1x96 .f32) (h4 : a4.IsWhole) (a5 : Memref sig .tc .vmem S2000x96 .f32) (h5 : a5.IsWhole)
    (x : Vec F S2000x96 .f32) (mu va ga be : Vec F S1x96 .f32) (K : PUnit → sProp 𝕄) :
    iprop(owns (c : Thread nD τ) a0 fullShare x ∗ owns (c : Thread nD τ) a1 fullShare mu ∗ owns (c : Thread nD τ) a2 fullShare va
        ∗ owns (c : Thread nD τ) a3 fullShare ga ∗ owns (c : Thread nD τ) a4 fullShare be ∗ (∃ d, owns (c : Thread nD τ) a5 fullShare d)
        ∗ (iprop(owns (c : Thread nD τ) a0 fullShare x ∗ owns (c : Thread nD τ) a1 fullShare mu ∗ owns (c : Thread nD τ) a2 fullShare va
            ∗ owns (c : Thread nD τ) a3 fullShare ga ∗ owns (c : Thread nD τ) a4 fullShare be
            ∗ owns (c : Thread nD τ) a5 fullShare (oblk8 x mu va ga be)) -∗ K ⟨⟩))
      ⊢ wp frame (wpE (defs₀ (F := F)) Variants.none c none) E (cc8__norm_relu_kernel i a0 h0 a1 h1 a2 h2 a3 h3 a4 h4 a5 h5) K := by
  simp only [cc8__norm_relu_kernel_eq_skeleton]; unfold cc8__norm_relu_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered8 _)

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => k8_pay1 (iblk8 V c 1 t) (iblk8 V c 2 t) (iblk8 V c 3 t) (iblk8 V c 4 t) (iblk8 V c 0 t)
  Φ _ := Pipeline.ΦA spec8 c
  q _ := fullShare
  owed _ := 0

theorem A_eq8 (c : Dev nD) (w : Fin cfg8.W) : (dat8 V c).A w = V c (Pipeline.arrRef spec8 w) := by
  dsimp only [dat8]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]

theorem after8_5 (c : Dev nD) (t : Fin cfg8.N) :
    (dat8 V c).after 5 t = k8_pay1 (iblk8 V c 1 t) (iblk8 V c 2 t) (iblk8 V c 3 t) (iblk8 V c 4 t) (iblk8 V c 0 t) := by dsimp only [dat8]

theorem before8_0 (c : Dev nD) (t : Fin cfg8.N) (d) : (dat8 V c).before 0 t d = iblk8 V c 0 t :=
  holds8_0 V (dat8 V c) (A_eq8 V c 0) (after8_0 V c) t d
theorem before8_1 (c : Dev nD) (t : Fin cfg8.N) (d) : (dat8 V c).before 1 t d = iblk8 V c 1 t :=
  holds8_1 V (dat8 V c) (A_eq8 V c 1) (after8_1 V c) t d
theorem before8_2 (c : Dev nD) (t : Fin cfg8.N) (d) : (dat8 V c).before 2 t d = iblk8 V c 2 t :=
  holds8_2 V (dat8 V c) (A_eq8 V c 2) (after8_2 V c) t d
theorem before8_3 (c : Dev nD) (t : Fin cfg8.N) (d) : (dat8 V c).before 3 t d = iblk8 V c 3 t :=
  holds8_3 V (dat8 V c) (A_eq8 V c 3) (after8_3 V c) t d
theorem before8_4 (c : Dev nD) (t : Fin cfg8.N) (d) : (dat8 V c).before 4 t d = iblk8 V c 4 t :=
  holds8_4 V (dat8 V c) (A_eq8 V c 4) (after8_4 V c) t d

def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d))
    ∗ (∃ d, owns (c : Thread nD τ) (st8_4 t) fullShare ((dat8 V c).before 4 t d))
    ∗ (∃ d, owns (c : Thread nD τ) (st8_5 t) fullShare ((dat8 V c).before 5 t d)))

def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t)
    ∗ owns (c : Thread nD τ) (st8_4 t) fullShare ((dat8 V c).after 4 t)
    ∗ owns (c : Thread nD τ) (st8_5 t) fullShare ((dat8 V c).after 5 t))

theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5, ← oblk8_eq]
  iintro ⟨HΦ, Ho, ⟨%d0, H0⟩, ⟨%d1, H1⟩, ⟨%d2, H2⟩, ⟨%d3, H3⟩, ⟨%d4, H4⟩, ⟨%d5, H5⟩⟩
  iapply (norm_relu_triple8 c Set.univ _ _ _ _ _ _ _ _ _ _ _ _ _
    (iblk8 V c 0 t) (iblk8 V c 1 t) (iblk8 V c 2 t) (iblk8 V c 3 t) (iblk8 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation8 (c : Dev nD) : BodyObligation (dat8 (F := F) V c) (defs₀ (F := F)) Variants.none () Set.univ := fun t => by
  rw [bigSep_W8, bigSep_W8]
  exact sound_body8 V c t

theorem hin8 (c : Dev nD) : (Pipeline.ΦA spec8 c : sProp 𝕄) ⊢ (dat8 V c).Φ 0 := BIBase.Entails.rfl

theorem hout8 (c : Dev nD) : (dat8 V c).Φ (Fin.last cfg8.N) ⊢ (Pipeline.ΦA spec8 c : sProp 𝕄) := BIBase.Entails.rfl

end Cert.KernelIdeal.Hand

end
-- ==== Proof.KI.Reg9.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

theorem nodes_held9 {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem weights_held9 {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

abbrev nodeRect9 : Rect S2000x96 := Rect.unit (s := S2000x96) ![0, 0] S2000x96.size inb_S2000x96_S2000x96_0_0
abbrev weightRect9 : Rect S96x96 := Rect.unit (s := S96x96) ![0, 0] S96x96.size inb_S96x96_S96x96_0_0

theorem zero_offsets9 : (![0, 0] : Fin 2 → ℕ) = fun _ => 0 := by
  funext a; fin_cases a <;> rfl

def prod9 (x : Vec F S2000x96 .f32) (w : Vec F S96x96 .f32) : Vec F S2000x96 .f32 :=
  View.canon [⟨nodeRect9, k9_pay1 (View.ld x nodeRect9) (View.ld w weightRect9)⟩]

theorem prod_covers9 (p : Vec F S2000x96 .f32) (y : S2000x96.Idx) :
    ∃ pc ∈ ([⟨nodeRect9, p⟩] : List (View.Piece (Elt F) S2000x96 .f32)), y ∈ pc.1.set :=
  ⟨_, List.mem_singleton_self _, View.mem_set_unit_zero (S := S2000x96) zero_offsets9 inb_S2000x96_S2000x96_0_0 y⟩

theorem prod9_eq (x : Vec F S2000x96 .f32) (w : Vec F S96x96 .f32) : prod9 x w = k9_pay1 x w := by
  unfold prod9
  rw [View.canon_unit_zero zero_offsets9]
  simp only [View.ld_unit_zero (S := S2000x96) zero_offsets9, View.ld_unit_zero (S := S96x96) zero_offsets9]

set_option maxHeartbeats 1000000 in

theorem sound_matmul9 (c : Dev nD) (E : Set ℕ) (i : grid9.Coords)
    (arg1 : Memref sig .tc .vmem S2000x96 .f32) (harg1 : arg1.IsWhole)
    (arg2 : Memref sig .tc .vmem S96x96 .f32) (harg2 : arg2.IsWhole)
    (arg3 : Memref sig .tc .vmem S2000x96 .f32) (harg3 : arg3.IsWhole)
    (x : Vec F S2000x96 .f32) (w : Vec F S96x96 .f32) (K : PUnit → sProp 𝕄) :
    iprop(owns (c : Thread nD τ) arg1 fullShare x ∗ owns (c : Thread nD τ) arg2 fullShare w
        ∗ (∃ d, owns (c : Thread nD τ) arg3 fullShare d)
        ∗ (iprop(owns (c : Thread nD τ) arg1 fullShare x ∗ owns (c : Thread nD τ) arg2 fullShare w
            ∗ owns (c : Thread nD τ) arg3 fullShare (prod9 x w)) -∗ K ⟨⟩))
      ⊢ wp frame (wpE (defs₀ (F := F)) Variants.none c none) E (cc9__matmul_kernel i arg1 harg1 arg2 harg2 arg3 harg3) K := by
  simp only [cc9__matmul_kernel_eq_skeleton]; unfold cc9__matmul_kernel_skel
  unfold owns
  iintro ⟨⟨%f1, %hf1, H1⟩, ⟨%f2, %hf2, H2⟩, ⟨%d3, %f3, -, H3⟩, Hk⟩
  subst hf1 hf2
  sl_exec
  sl_step
  iapply Hk
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (prod_covers9 _)

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => prod9 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2_store (c : Dev nD) (t : Fin cfg9.N) : (dat9 V c).after 2 t = prod9 (iblk9 V c 0 t) (iblk9 V c 1 t) := by dsimp only [dat9]

theorem after9_2 (c : Dev nD) (t : Fin cfg9.N) : (dat9 V c).after 2 t = k9_pay1 (iblk9 V c 0 t) (iblk9 V c 1 t) := by
  rw [after9_2_store]; exact prod9_eq _ _

theorem before9_0 (c : Dev nD) (t : Fin cfg9.N) (d) : (dat9 V c).before 0 t d = iblk9 V c 0 t :=
  nodes_held9 V (dat9 V c) (A_eq9 V c 0) (after9_0 V c) t d
theorem before9_1 (c : Dev nD) (t : Fin cfg9.N) (d) : (dat9 V c).before 1 t d = iblk9 V c 1 t :=
  weights_held9 V (dat9 V c) (A_eq9 V c 1) (after9_1 V c) t d

def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d)))

def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t))

theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).Φ t.succ = (dat9 V c).Φ t.castSucc from rfl,
    show (dat9 V c).owesAt () t.succ = (dat9 V c).owesAt () t.castSucc from rfl,
    after9_0, after9_1, after9_2_store]
  iintro ⟨HΦ, Ho, ⟨%d0, H0⟩, ⟨%d1, H1⟩, ⟨%d2, H2⟩⟩
  iapply (sound_matmul9 c Set.univ _ _ _ _ _ _ _ (iblk9 V c 0 t) (iblk9 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation9 (c : Dev nD) : BodyObligation (dat9 (F := F) V c) (defs₀ (F := F)) Variants.none () Set.univ := fun t => by
  rw [bigSep_W9, bigSep_W9]
  exact sound_body9 V c t

theorem hin9 (c : Dev nD) : (Pipeline.ΦA spec9 c : sProp 𝕄) ⊢ (dat9 V c).Φ 0 := BIBase.Entails.rfl
theorem hout9 (c : Dev nD) : (dat9 V c).Φ (Fin.last cfg9.N) ⊢ (Pipeline.ΦA spec9 c : sProp 𝕄) := BIBase.Entails.rfl

end Cert.KernelIdeal.Hand
-- ==== Proof.KI.Reg10.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev isFirst10 (i : grid10.Coords) : Prop :=
  (Scalar.cmpi .ne (Scalar.extui (Scalar.cmpi .eq (BitVec.ofNat 32 (i 0).val) 0#32)) 0#32) = 1#1

abbrev isLast10 (i : grid10.Coords) : Prop := k10_cond2 i = 1#1

theorem isFirst10_iff : ∀ t : Fin cfg10.N, isFirst10 (grid10.coords t) ↔ t.val = 0 :=
  (by decide +kernel : ∀ t : Fin grid10.N, isFirst10 (grid10.coords t) ↔ t.val = 0)
theorem isLast10_iff : ∀ t : Fin cfg10.N, isLast10 (grid10.coords t) ↔ t.val = 24 :=
  (by decide +kernel : ∀ t : Fin grid10.N, isLast10 (grid10.coords t) ↔ t.val = 24)

theorem live10_0 : ∀ i, cfg10.idle 0 i = false := fun _ => rfl

theorem idle10_1 : ∀ t : Fin cfg10.N, t.val ≠ 24 → cfg10.idle 1 (grid10.coords t) = true := by decide +kernel
theorem idle10_2 : ∀ t : Fin cfg10.N, t.val ≠ 24 → cfg10.idle 2 (grid10.coords t) = true := by decide +kernel
theorem noFlush10_1 : ∀ t : Fin cfg10.N, t.val ≠ 24 → (cfg10.win 1).flush t = false := by decide +kernel
theorem noFlush10_2 : ∀ t : Fin cfg10.N, t.val ≠ 24 → (cfg10.win 2).flush t = false := by decide +kernel

theorem live10_1 : ∀ t : Fin cfg10.N, t.val = 24 → cfg10.idle 1 (grid10.coords t) = false := by decide +kernel
theorem live10_2 : ∀ t : Fin cfg10.N, t.val = 24 → cfg10.idle 2 (grid10.coords t) = false := by decide +kernel

abbrev ms10_0 (t : Fin cfg10.N) : Memref sig .tc .vmem S2000x96 .f32 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S1x96 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S1x96 .f32 := win10_2.stage (cfg10.slots t 2)
abbrev hs10_2 (t : Fin cfg10.N) : (ms10_2 t).IsWhole := hstage10_2 ((cfg10.slots t 2).cast nbuf10_2)

abbrev tot10_0 : Memref sig .tc .vmem S1x96 .f32 := Memref.whole cc10_scratch0
abbrev tot10_1 : Memref sig .tc .vmem S1x96 .f32 := Memref.whole cc10_scratch1

theorem PhiA10_eq (c : Dev nD) :
    (Pipeline.ΦA spec10 c : sProp 𝕄)
      = iprop(iprop(iprop((∃ d, owns (c : Thread nD τ) tot10_0 fullShare d) ∗ (∃ d, owns (c : Thread nD τ) tot10_1 fullShare d))
          ∗ Pipeline.scopedRestBut (Ix := Unit) (Name := ℕ) (U := UR sig nD τ) (Lvl := ℕ) (Val := Elt F) spec10 c [cc10_scratch0, cc10_scratch1])
          ∗ (∃ r, prngReg c r)) := by
  unfold Pipeline.ΦA; rw [scopedRest10_split]; simp only [tot10_0, tot10_1, owns_whole]; try rfl

private theorem off00 : (![0, 0] : Fin 2 → Nat) = fun _ => 0 := funext fun a => by fin_cases a <;> rfl

private theorem read_store_whole {sg : RefSig} {κ : Kind} {sp : Space} {S : Shape} {e : EltTy} {Val : EltTy → Type} [∀ e, Nonempty (Val e)]
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h
  rw [View.read_writes_eq_canon _ _ _ (fun y => ⟨_, List.mem_cons_self, by
    show y ∈ (Rect.whole S).set; rw [Rect.set_whole]; exact Finset.mem_univ y⟩)]
  exact View.canon_cons_unit_zero rfl _ _ _

private theorem load_whole {sg : RefSig} {κ : Kind} {sp : Space} {S : Shape} {e : EltTy} {Val : EltTy → Type}
    {m : Memref sg κ sp S e} (hm : m.IsWhole) {off : Fin S.rank → Nat} (h : off = fun _ => 0)
    (inb : ∀ a, off a + S.size a ≤ S.size a) (X : S.Idx → Val e) :
    View.readAt Val m.view (Rect.unit off S.size inb).toLoadRect (hm.unread X) = X := by
  rw [View.readAt_eq_ld, hm.read_unread]; exact View.ld_unit_zero h inb X

set_option maxHeartbeats 1000000 in

theorem bodyFirst10 (c : Dev nD) (i : grid10.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : isFirst10 i) (hc1 : ¬isLast10 i)
    (x0 : Vec F S2000x96 .f32) (xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare xi1 ∗ owns (c : Thread nD τ) arg3 fullShare xi2
            ∗ owns (c : Thread nD τ) arg4 fullShare (k10_pay4 x0 (k10_pay1 (F := F))) ∗ owns (c : Thread nD τ) arg5 fullShare (k10_pay5 x0 (k10_pay2 (F := F)))) -∗ K ⟨⟩))
      ⊢ wp frame (wpE (defs₀ (F := F)) Variants.none c none) E (cc10__stats_kernel i arg1 harg1 arg2 harg2 arg3 harg3 arg4 harg4 arg5 harg5) K := by
  simp only [cc10__stats_kernel_eq_skeleton]; unfold cc10__stats_kernel_skel
  unfold owns
  iintro ⟨⟨%f0, %hf0, H0⟩, ⟨%f1, %hf1, H1⟩, ⟨%f2, %hf2, H2⟩, ⟨%ds0, %fs0, -, HS0⟩, ⟨%ds1, %fs1, -, HS1⟩, Hk⟩
  obtain rfl := harg1.eq_unread hf0
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyMid10 (c : Dev nD) (i : grid10.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst10 i) (hc1 : ¬isLast10 i)
    (x0 : Vec F S2000x96 .f32) (xs0 xs1 xi1 xi2 : Vec F S1x96 .f32) (E : Set ℕ) (K : PUnit → sProp 𝕄) :
    iprop(owns (c : Thread nD τ) arg1 fullShare x0 ∗ owns (c : Thread nD τ) arg2 fullShare xi1 ∗ owns (c : Thread nD τ) arg3 fullShare xi2
        ∗ owns (c : Thread nD τ) arg4 fullShare xs0 ∗ owns (c : Thread nD τ) arg5 fullShare xs1
        ∗ (iprop(owns (c : Thread nD τ) arg1 fullShare x0 ∗ owns (c : Thread nD τ) arg2 fullShare xi1 ∗ owns (c : Thread nD τ) arg3 fullShare xi2
            ∗ owns (c : Thread nD τ) arg4 fullShare (k10_pay4 x0 xs0) ∗ owns (c : Thread nD τ) arg5 fullShare (k10_pay5 x0 xs1)) -∗ K ⟨⟩))
      ⊢ wp frame (wpE (defs₀ (F := F)) Variants.none c none) E (cc10__stats_kernel i arg1 harg1 arg2 harg2 arg3 harg3 arg4 harg4 arg5 harg5) K := by
  simp only [cc10__stats_kernel_eq_skeleton]; unfold cc10__stats_kernel_skel
  unfold owns
  iintro ⟨⟨%f0, %hf0, H0⟩, ⟨%f1, %hf1, H1⟩, ⟨%f2, %hf2, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; · ipureintro; exact hf1
    iexact H1
  isplitl [H2]
  · iexists _; isplitr; · ipureintro; exact hf2
    iexact H2
  isplitl [HS0]
  · iexists _; isplitr; swap; · iexact HS0
    ipureintro; exact read_store_whole _ _ off00 _ _ _
  iexists _; isplitr; swap; · iexact HS1
  ipureintro; exact read_store_whole _ _ off00 _ _ _

set_option maxHeartbeats 1000000 in

theorem bodyLast10 (c : Dev nD) (i : grid10.Coords) (arg1 : Memref sig .tc .vmem S2000x96 .f32) (harg1 : arg1.IsWhole) (arg2 : Memref sig .tc .vmem S1x96 .f32) (harg2 : arg2.IsWhole) (arg3 : Memref sig .tc .vmem S1x96 .f32) (harg3 : arg3.IsWhole) (arg4 : Memref sig .tc .vmem S1x96 .f32) (harg4 : arg4.IsWhole) (arg5 : Memref sig .tc .vmem S1x96 .f32) (harg5 : arg5.IsWhole) (hc0 : ¬isFirst10 i) (hc1 : isLast10 i)
    (x0 : Vec F S2000x96 .f32) (xs0 xs1 : Vec F S1x96 .f32) (E : Set ℕ) (K : PUnit → sProp 𝕄) :
    iprop(owns (c : Thread nD τ) arg1 fullShare x0 ∗ (∃ d, owns (c : Thread nD τ) arg2 fullShare d) ∗ (∃ d, owns (c : Thread nD τ) arg3 fullShare d)
        ∗ owns (c : Thread nD τ) arg4 fullShare xs0 ∗ owns (c : Thread nD τ) arg5 fullShare xs1
        ∗ (iprop(owns (c : Thread nD τ) arg1 fullShare x0 ∗ owns (c : Thread nD τ) arg2 fullShare (k10_pay4 x0 xs0) ∗ owns (c : Thread nD τ) arg3 fullShare (k10_pay5 x0 xs1)
            ∗ owns (c : Thread nD τ) arg4 fullShare (k10_pay4 x0 xs0) ∗ owns (c : Thread nD τ) arg5 fullShare (k10_pay5 x0 xs1)) -∗ K ⟨⟩))
      ⊢ wp frame (wpE (defs₀ (F := F)) Variants.none c none) E (cc10__stats_kernel i arg1 harg1 arg2 harg2 arg3 harg3 arg4 harg4 arg5 harg5) K := by
  simp only [cc10__stats_kernel_eq_skeleton]; unfold cc10__stats_kernel_skel
  unfold owns
  iintro ⟨⟨%f0, %hf0, H0⟩, ⟨%d1, %f1, -, H1⟩, ⟨%d2, %f2, -, H2⟩, ⟨%fs0, %hfs0, HS0⟩, ⟨%fs1, %hfs1, HS1⟩, Hk⟩
  obtain rfl := harg1.eq_unread hf0; obtain rfl := harg4.eq_unread hfs0; obtain rfl := harg5.eq_unread hfs1
  sl_exec (disch := first | exact hc0 | exact hc1)
  sl_step
  iapply Hk
  sl_unfold_run_names
  simp only [load_whole harg1 off00, load_whole harg4 off00, load_whole harg5 off00, View.readCov_unit_zero (S := S1x96) _ off00]
  isplitl [H0]
  · iexists _; isplitr; · ipureintro; exact harg1.read_unread _
    iexact H0
  isplitl [H1]
  · iexists _; isplitr; swap; · iexact H1
    ipureintro; exact read_store_whole _ _ off00 _ _ _
  isplitl [H2]
  · iexists _; isplitr; swap; · iexact H2
    ipureintro; exact read_store_whole _ _ off00 _ _ _
  isplitl [HS0]
  · iexists _; isplitr; swap; · iexact HS0
    ipureintro; exact read_store_whole _ _ off00 _ _ _
  iexists _; isplitr; swap; · iexact HS1
  ipureintro; exact read_store_whole _ _ off00 _ _ _

def acc10 (c : Dev nD) : (n : ℕ) → n < cfg10.N → Vec F S1x96 .f32 × Vec F S1x96 .f32
  | 0, hn => (k10_pay4 (iblk10 V c 0 ⟨0, hn⟩) (k10_pay1 (F := F)), k10_pay5 (iblk10 V c 0 ⟨0, hn⟩) (k10_pay2 (F := F)))
  | n + 1, hn => (k10_pay4 (iblk10 V c 0 ⟨n + 1, hn⟩) (acc10 c n (Nat.lt_of_succ_lt hn)).1,
                  k10_pay5 (iblk10 V c 0 ⟨n + 1, hn⟩) (acc10 c n (Nat.lt_of_succ_lt hn)).2)

theorem acc10_zero (c : Dev nD) (hn : 0 < cfg10.N) :
    acc10 V c 0 hn = (k10_pay4 (iblk10 V c 0 ⟨0, hn⟩) (k10_pay1 (F := F)), k10_pay5 (iblk10 V c 0 ⟨0, hn⟩) (k10_pay2 (F := F))) := rfl

theorem acc10_succ (c : Dev nD) (n : ℕ) (hn : n + 1 < cfg10.N) :
    acc10 V c (n + 1) hn = (k10_pay4 (iblk10 V c 0 ⟨n + 1, hn⟩) (acc10 V c n (Nat.lt_of_succ_lt hn)).1,
                           k10_pay5 (iblk10 V c 0 ⟨n + 1, hn⟩) (acc10 V c n (Nat.lt_of_succ_lt hn)).2) := rfl

theorem acc10_first (c : Dev nD) (t : Fin cfg10.N) (h : t.val = 0) :
    acc10 V c t.val t.isLt = (k10_pay4 (iblk10 V c 0 t) (k10_pay1 (F := F)), k10_pay5 (iblk10 V c 0 t) (k10_pay2 (F := F))) := by
  obtain ⟨n, hn⟩ := t
  cases n with
  | zero => rfl
  | succ n => exact absurd h (Nat.succ_ne_zero n)

theorem acc10_later (c : Dev nD) (t : Fin cfg10.N) (h : t.val ≠ 0) :
    acc10 V c t.val t.isLt
      = (k10_pay4 (iblk10 V c 0 t) (acc10 V c (t.val - 1) (Nat.lt_of_le_of_lt (Nat.sub_le _ _) t.isLt)).1,
         k10_pay5 (iblk10 V c 0 t) (acc10 V c (t.val - 1) (Nat.lt_of_le_of_lt (Nat.sub_le _ _) t.isLt)).2) := by
  obtain ⟨n, hn⟩ := t
  cases n with
  | zero => exact absurd rfl h
  | succ n => rfl

def Phi10 (c : Dev nD) : (n : ℕ) → n ≤ cfg10.N → sProp 𝕄
  | 0, _ => Pipeline.ΦA spec10 c
  | n + 1, hn => iprop(iprop(iprop(owns (c : Thread nD τ) tot10_0 fullShare (acc10 V c n hn).1 ∗ owns (c : Thread nD τ) tot10_1 fullShare (acc10 V c n hn).2)
      ∗ Pipeline.scopedRestBut (Ix := Unit) (Name := ℕ) (U := UR sig nD τ) (Lvl := ℕ) (Val := Elt F) spec10 c [cc10_scratch0, cc10_scratch1]) ∗ (∃ r, prngReg c r))

theorem Phi10_zero (c : Dev nD) (n : ℕ) (h : n ≤ cfg10.N) (hz : n = 0) : Phi10 V c n h = Pipeline.ΦA spec10 c := by
  subst hz; rfl

theorem Phi10_succ (c : Dev nD) (n : ℕ) (hn : n < cfg10.N) :
    Phi10 V c (n + 1) hn = iprop(iprop(iprop(owns (c : Thread nD τ) tot10_0 fullShare (acc10 V c n hn).1 ∗ owns (c : Thread nD τ) tot10_1 fullShare (acc10 V c n hn).2)
      ∗ Pipeline.scopedRestBut (Ix := Unit) (Name := ℕ) (U := UR sig nD τ) (Lvl := ℕ) (Val := Elt F) spec10 c [cc10_scratch0, cc10_scratch1]) ∗ (∃ r, prngReg c r)) := rfl

theorem Phi10_pos (c : Dev nD) (n : ℕ) (h : n ≤ cfg10.N) (hz : n ≠ 0) :
    Phi10 V c n h = iprop(iprop(iprop(owns (c : Thread nD τ) tot10_0 fullShare (acc10 V c (n - 1) (by omega)).1 ∗ owns (c : Thread nD τ) tot10_1 fullShare (acc10 V c (n - 1) (by omega)).2)
      ∗ Pipeline.scopedRestBut (Ix := Unit) (Name := ℕ) (U := UR sig nD τ) (Lvl := ℕ) (Val := Elt F) spec10 c [cc10_scratch0, cc10_scratch1]) ∗ (∃ r, prngReg c r)) := by
  cases n with
  | zero => exact absurd rfl hz
  | succ n => rfl

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => (acc10 V c t.val t.isLt).1
    | ⟨2, _⟩ => (acc10 V c t.val t.isLt).2
  Φ t := Phi10 V c t.val (Nat.le_of_lt_succ t.isLt)
  q _ := fullShare
  owed _ := 0

theorem A_eq10 (c : Dev nD) (w : Fin cfg10.W) : (dat10 V c).A w = V c (Pipeline.arrRef spec10 w) := by
  dsimp only [dat10]

theorem Phi10_castSucc (c : Dev nD) (t : Fin cfg10.N) :
    (dat10 V c).Φ t.castSucc = Phi10 V c t.val (Nat.le_of_lt t.isLt) := by
  dsimp only [dat10]; simp only [Fin.coe_castSucc]

theorem after10_0 (c : Dev nD) (t : Fin cfg10.N) : (dat10 V c).after 0 t = iblk10 V c 0 t := by dsimp only [dat10]

theorem after10_1 (c : Dev nD) (t : Fin cfg10.N) : (dat10 V c).after 1 t = (acc10 V c t.val t.isLt).1 := by dsimp only [dat10]

theorem after10_2 (c : Dev nD) (t : Fin cfg10.N) : (dat10 V c).after 2 t = (acc10 V c t.val t.isLt).2 := by dsimp only [dat10]

theorem before10_0 (c : Dev nD) (t : Fin cfg10.N) (d) : (dat10 V c).before 0 t d = iblk10 V c 0 t :=
  ((dat10 V c).before_in_eq_fetched 0 rfl (fun _ => rfl) (fun _ _ _ => rfl)
    (fun t => by rw [after10_0]; unfold Dat.blockOf iblk10; rw [A_eq10]; try rfl) t d).trans
    (by unfold Dat.fetched Dat.blockOf iblk10; rw [A_eq10]; try rfl)

def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d)))

def bodyPost10 (c : Dev nD) (t : Fin cfg10.N) : sProp 𝕄 :=
  iprop((dat10 V c).Φ t.succ ∗ (dat10 V c).owesAt () t.succ
    ∗ (dat10 V c).leavesExact 0 t ∗ (dat10 V c).leavesExact 1 t ∗ (dat10 V c).leavesExact 2 t)

set_option maxHeartbeats 4800000 in

theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0]
  rw [show (dat10 V c).owesAt () t.succ = (dat10 V c).owesAt () t.castSucc from rfl]
  rw [show (dat10 V c).Φ t.succ = Phi10 V c (t.val + 1) t.isLt from rfl, Phi10_succ]
  have hN : t.val < 25 := lt_of_lt_of_eq t.isLt (show cfg10.N = 25 from N_10)
  rw [show (dat10 V c).leavesExact 0 t = owns (c : Thread nD τ) (ms10_0 t) fullShare ((dat10 V c).after 0 t) from by
    unfold Dat.leavesExact; rw [live10_0], after10_0]
  by_cases hz : t.val = 0
  · have hl : t.val ≠ 24 := by omega
    rw [Dat.leavesExact_idle (dat10 V c) 1 t (idle10_1 t hl) (noFlush10_1 t hl), Dat.leavesExact_idle (dat10 V c) 2 t (idle10_2 t hl) (noFlush10_2 t hl)]
    rw [acc10_first V c t hz]
    rw [Phi10_castSucc V c t, Phi10_zero V c _ _ hz, PhiA10_eq]
    iintro ⟨⟨⟨⟨HS0, HS1⟩, Hr⟩, Hg⟩, Ho, ⟨%d0, H0⟩, ⟨%d1, H1⟩, ⟨%d2, H2⟩⟩
    iapply (bodyFirst10 c (grid10.coords t) _ _ _ _ _ _ _ _ _ _ ((isFirst10_iff t).mpr hz) (fun h => hl ((isLast10_iff t).mp h)) (iblk10 V c 0 t) _ _ Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hr Hg]
    · isplitl [HS0 HS1 Hr]
      · isplitl [HS0 HS1]
        · isplitl [HS0]; · iexact HS0
          iexact HS1
        iexact Hr
      iexact Hg
    isplitl [Ho]; · iexact Ho
    isplitl [H0]; · iexact H0
    isplitl [H1]; · iexists _; iexact H1
    iexists _; iexact H2
  · by_cases hl : t.val = 24
    · rw [show (dat10 V c).leavesExact 1 t = owns (c : Thread nD τ) (ms10_1 t) fullShare ((dat10 V c).after 1 t) from by
        unfold Dat.leavesExact; rw [live10_1 t hl], after10_1]
      rw [show (dat10 V c).leavesExact 2 t = owns (c : Thread nD τ) (ms10_2 t) fullShare ((dat10 V c).after 2 t) from by
        unfold Dat.leavesExact; rw [live10_2 t hl], after10_2]
      rw [acc10_later V c t hz]
      rw [Phi10_castSucc V c t, Phi10_pos V c _ _ hz]
      iintro ⟨⟨⟨⟨HS0, HS1⟩, Hr⟩, Hg⟩, Ho, ⟨%d0, H0⟩, ⟨%d1, H1⟩, ⟨%d2, H2⟩⟩
      iapply (bodyLast10 c (grid10.coords t) _ _ _ _ _ _ _ _ _ _ (fun h => hz ((isFirst10_iff t).mp h)) ((isLast10_iff t).mpr hl) (iblk10 V c 0 t) _ _ Set.univ _)
      isplitl [H0]; · iexact H0
      isplitl [H1]; · iexists _; iexact H1
      isplitl [H2]; · iexists _; iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexact H1
      iexact H2
    · rw [Dat.leavesExact_idle (dat10 V c) 1 t (idle10_1 t hl) (noFlush10_1 t hl), Dat.leavesExact_idle (dat10 V c) 2 t (idle10_2 t hl) (noFlush10_2 t hl)]
      rw [acc10_later V c t hz]
      rw [Phi10_castSucc V c t, Phi10_pos V c _ _ hz]
      iintro ⟨⟨⟨⟨HS0, HS1⟩, Hr⟩, Hg⟩, Ho, ⟨%d0, H0⟩, ⟨%d1, H1⟩, ⟨%d2, H2⟩⟩
      iapply (bodyMid10 c (grid10.coords t) _ _ _ _ _ _ _ _ _ _ (fun h => hz ((isFirst10_iff t).mp h)) (fun h => hl ((isLast10_iff t).mp h)) (iblk10 V c 0 t) _ _ _ _ Set.univ _)
      isplitl [H0]; · iexact H0
      isplitl [H1]; · iexact H1
      isplitl [H2]; · iexact H2
      isplitl [HS0]; · iexact HS0
      isplitl [HS1]; · iexact HS1
      iintro ⟨H0, H1, H2, HS0, HS1⟩
      isplitl [HS0 HS1 Hr Hg]
      · isplitl [HS0 HS1 Hr]
        · isplitl [HS0 HS1]
          · isplitl [HS0]; · iexact HS0
            iexact HS1
          iexact Hr
        iexact Hg
      isplitl [Ho]; · iexact Ho
      isplitl [H0]; · iexact H0
      isplitl [H1]; · iexists _; iexact H1
      iexists _; iexact H2

theorem body_obligation10 (c : Dev nD) : BodyObligation (dat10 (F := F) V c) (defs₀ (F := F)) Variants.none () Set.univ := fun t => by
  rw [bigSep_W10, bigSep_W10]
  exact sound_body10 V c t

theorem hin10 (c : Dev nD) : (Pipeline.ΦA spec10 c : sProp 𝕄) ⊢ (dat10 V c).Φ 0 := by
  rw [show (dat10 V c).Φ 0 = Phi10 V c 0 (Nat.zero_le _) from rfl, Phi10_zero V c 0 _ rfl]
  try exact Idealize.SL.BI.Entails.refl _

theorem Phi10_out (c : Dev nD) (t : Fin (cfg10.N + 1)) (ht : t.val ≠ 0) : (dat10 V c).Φ t ⊢ (Pipeline.ΦA spec10 c : sProp 𝕄) := by
  rw [show (dat10 V c).Φ t = Phi10 V c t.val (Nat.le_of_lt_succ t.isLt) from rfl, Phi10_pos V c _ _ ht, PhiA10_eq]
  iintro ⟨⟨⟨HS0, HS1⟩, Hr⟩, Hg⟩
  isplitl [HS0 HS1 Hr]
  · isplitl [HS0 HS1]
    · isplitl [HS0]
      · iexists _; iexact HS0
      iexists _; iexact HS1
    iexact Hr
  iexact Hg

theorem hout10 (c : Dev nD) : (dat10 V c).Φ (Fin.last cfg10.N) ⊢ (Pipeline.ΦA spec10 c : sProp 𝕄) :=
  Phi10_out V c _ (by rw [Fin.val_last]; have : cfg10.N = 25 := N_10; omega)

end Cert.KernelIdeal.Hand

end
-- ==== Proof.KI.Reg11.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

theorem holds11_0 {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t := by
  have hstay : ∀ t, (cfg11.win 0).cut (cfg11.grid.coords t) (dat.after 0 t) = dat.blockOf 0 t := fun t => by
    rw [hafter]; unfold Dat.blockOf iblk11; rw [hA]; try rfl
  rw [dat.before_in_eq_fetched 0 rfl (fun _ => rfl) (fun _ _ _ => rfl) hstay t d]
  unfold Dat.fetched Dat.blockOf iblk11; rw [hA]; try rfl

theorem holds11_1 {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t := by
  have hstay : ∀ t, (cfg11.win 1).cut (cfg11.grid.coords t) (dat.after 1 t) = dat.blockOf 1 t := fun t => by
    rw [hafter]; unfold Dat.blockOf iblk11; rw [hA]; try rfl
  rw [dat.before_in_eq_fetched 1 rfl (fun _ => rfl) (fun _ _ _ => rfl) hstay t d]
  unfold Dat.fetched Dat.blockOf iblk11; rw [hA]; try rfl

theorem holds11_2 {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t := by
  have hstay : ∀ t, (cfg11.win 2).cut (cfg11.grid.coords t) (dat.after 2 t) = dat.blockOf 2 t := fun t => by
    rw [hafter]; unfold Dat.blockOf iblk11; rw [hA]; try rfl
  rw [dat.before_in_eq_fetched 2 rfl (fun _ => rfl) (fun _ _ _ => rfl) hstay t d]
  unfold Dat.fetched Dat.blockOf iblk11; rw [hA]; try rfl

theorem holds11_3 {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t := by
  have hstay : ∀ t, (cfg11.win 3).cut (cfg11.grid.coords t) (dat.after 3 t) = dat.blockOf 3 t := fun t => by
    rw [hafter]; unfold Dat.blockOf iblk11; rw [hA]; try rfl
  rw [dat.before_in_eq_fetched 3 rfl (fun _ => rfl) (fun _ _ _ => rfl) hstay t d]
  unfold Dat.fetched Dat.blockOf iblk11; rw [hA]; try rfl

theorem holds11_4 {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t := by
  have hstay : ∀ t, (cfg11.win 4).cut (cfg11.grid.coords t) (dat.after 4 t) = dat.blockOf 4 t := fun t => by
    rw [hafter]; unfold Dat.blockOf iblk11; rw [hA]; try rfl
  rw [dat.before_in_eq_fetched 4 rfl (fun _ => rfl) (fun _ _ _ => rfl) hstay t d]
  unfold Dat.fetched Dat.blockOf iblk11; rw [hA]; try rfl

abbrev whole11_blk : Rect S2000x96 := Rect.unit (s := S2000x96) ![0, 0] S2000x96.size inb_S2000x96_S2000x96_0_0

abbrev whole11_row : Rect S1x96 := Rect.unit (s := S1x96) ![0, 0] S1x96.size inb_S1x96_S1x96_0_0

def oblk11 (x : Vec F S2000x96 .f32) (mu va ga be : Vec F S1x96 .f32) : Vec F S2000x96 .f32 :=
  View.canon [⟨whole11_blk, k11_pay1 (View.ld mu whole11_row) (View.ld va whole11_row) (View.ld ga whole11_row) (View.ld be whole11_row) (View.ld x whole11_blk)⟩]

theorem covered11 (p : Vec F S2000x96 .f32) (y : S2000x96.Idx) :
    ∃ pc ∈ ([⟨whole11_blk, p⟩] : List (View.Piece (Elt F) S2000x96 .f32)), y ∈ pc.1.set :=
  View.cover_of_tiled [⟨whole11_blk, p⟩] S2000x96.size (by rfl) y

theorem origin11 : (![0, 0] : Fin 2 → Nat) = fun _ => 0 := funext fun a => by fin_cases a <;> rfl

theorem oblk11_eq (x : Vec F S2000x96 .f32) (mu va ga be : Vec F S1x96 .f32) : oblk11 x mu va ga be = k11_pay1 mu va ga be x := by
  unfold oblk11
  rw [View.canon_unit_zero origin11]
  simp only [View.ld_unit_zero (S := S2000x96) origin11, View.ld_unit_zero (S := S1x96) origin11]

set_option maxHeartbeats 1000000 in

theorem norm_relu_triple11 (c : Dev nD) (E : Set ℕ) (i : grid11.Coords)
    (a0 : Memref sig .tc .vmem S2000x96 .f32) (h0 : a0.IsWhole) (a1 : Memref sig .tc .vmem S1x96 .f32) (h1 : a1.IsWhole)
    (a2 : Memref sig .tc .vmem S1x96 .f32) (h2 : a2.IsWhole) (a3 : Memref sig .tc .vmem S1x96 .f32) (h3 : a3.IsWhole)
    (a4 : Memref sig .tc .vmem S1x96 .f32) (h4 : a4.IsWhole) (a5 : Memref sig .tc .vmem S2000x96 .f32) (h5 : a5.IsWhole)
    (x : Vec F S2000x96 .f32) (mu va ga be : Vec F S1x96 .f32) (K : PUnit → sProp 𝕄) :
    iprop(owns (c : Thread nD τ) a0 fullShare x ∗ owns (c : Thread nD τ) a1 fullShare mu ∗ owns (c : Thread nD τ) a2 fullShare va
        ∗ owns (c : Thread nD τ) a3 fullShare ga ∗ owns (c : Thread nD τ) a4 fullShare be ∗ (∃ d, owns (c : Thread nD τ) a5 fullShare d)
        ∗ (iprop(owns (c : Thread nD τ) a0 fullShare x ∗ owns (c : Thread nD τ) a1 fullShare mu ∗ owns (c : Thread nD τ) a2 fullShare va
            ∗ owns (c : Thread nD τ) a3 fullShare ga ∗ owns (c : Thread nD τ) a4 fullShare be
            ∗ owns (c : Thread nD τ) a5 fullShare (oblk11 x mu va ga be)) -∗ K ⟨⟩))
      ⊢ wp frame (wpE (defs₀ (F := F)) Variants.none c none) E (cc11__norm_relu_kernel i a0 h0 a1 h1 a2 h2 a3 h3 a4 h4 a5 h5) K := by
  simp only [cc11__norm_relu_kernel_eq_skeleton]; unfold cc11__norm_relu_kernel_skel
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, Hk⟩
  subst e0 e1 e2 e3 e4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (covered11 _)

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => k11_pay1 (iblk11 V c 1 t) (iblk11 V c 2 t) (iblk11 V c 3 t) (iblk11 V c 4 t) (iblk11 V c 0 t)
  Φ _ := Pipeline.ΦA spec11 c
  q _ := fullShare
  owed _ := 0

theorem A_eq11 (c : Dev nD) (w : Fin cfg11.W) : (dat11 V c).A w = V c (Pipeline.arrRef spec11 w) := by
  dsimp only [dat11]

theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]

theorem after11_5 (c : Dev nD) (t : Fin cfg11.N) :
    (dat11 V c).after 5 t = k11_pay1 (iblk11 V c 1 t) (iblk11 V c 2 t) (iblk11 V c 3 t) (iblk11 V c 4 t) (iblk11 V c 0 t) := by dsimp only [dat11]

theorem before11_0 (c : Dev nD) (t : Fin cfg11.N) (d) : (dat11 V c).before 0 t d = iblk11 V c 0 t :=
  holds11_0 V (dat11 V c) (A_eq11 V c 0) (after11_0 V c) t d
theorem before11_1 (c : Dev nD) (t : Fin cfg11.N) (d) : (dat11 V c).before 1 t d = iblk11 V c 1 t :=
  holds11_1 V (dat11 V c) (A_eq11 V c 1) (after11_1 V c) t d
theorem before11_2 (c : Dev nD) (t : Fin cfg11.N) (d) : (dat11 V c).before 2 t d = iblk11 V c 2 t :=
  holds11_2 V (dat11 V c) (A_eq11 V c 2) (after11_2 V c) t d
theorem before11_3 (c : Dev nD) (t : Fin cfg11.N) (d) : (dat11 V c).before 3 t d = iblk11 V c 3 t :=
  holds11_3 V (dat11 V c) (A_eq11 V c 3) (after11_3 V c) t d
theorem before11_4 (c : Dev nD) (t : Fin cfg11.N) (d) : (dat11 V c).before 4 t d = iblk11 V c 4 t :=
  holds11_4 V (dat11 V c) (A_eq11 V c 4) (after11_4 V c) t d

def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d))
    ∗ (∃ d, owns (c : Thread nD τ) (st11_5 t) fullShare ((dat11 V c).before 5 t d)))

def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t)
    ∗ owns (c : Thread nD τ) (st11_5 t) fullShare ((dat11 V c).after 5 t))

theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5, ← oblk11_eq]
  iintro ⟨HΦ, Ho, ⟨%d0, H0⟩, ⟨%d1, H1⟩, ⟨%d2, H2⟩, ⟨%d3, H3⟩, ⟨%d4, H4⟩, ⟨%d5, H5⟩⟩
  iapply (norm_relu_triple11 c Set.univ _ _ _ _ _ _ _ _ _ _ _ _ _
    (iblk11 V c 0 t) (iblk11 V c 1 t) (iblk11 V c 2 t) (iblk11 V c 3 t) (iblk11 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation11 (c : Dev nD) : BodyObligation (dat11 (F := F) V c) (defs₀ (F := F)) Variants.none () Set.univ := fun t => by
  rw [bigSep_W11, bigSep_W11]
  exact sound_body11 V c t

theorem hin11 (c : Dev nD) : (Pipeline.ΦA spec11 c : sProp 𝕄) ⊢ (dat11 V c).Φ 0 := BIBase.Entails.rfl

theorem hout11 (c : Dev nD) : (dat11 V c).Φ (Fin.last cfg11.N) ⊢ (Pipeline.ΦA spec11 c : sProp 𝕄) := BIBase.Entails.rfl

end Cert.KernelIdeal.Hand

end
-- ==== Proof.KI.Reg12.lean ====
import proofs.«406641_j72756745994790_1_alg».proof.Proof.Gen.KernelIdeal.Launch
import proofs.«406641_j72756745994790_1_alg».proof.Proof.Gen.KernelIdeal.Skeleton
import proofs.«406641_j72756745994790_1_alg».proof.Proof.Gen.KernelIdeal.Points
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev resets12 (i : grid12.Coords) : Prop :=
  (Scalar.cmpi .ne (Scalar.extui (Scalar.cmpi .eq (BitVec.ofNat 32 (i 0).val) 0#32)) 0#32) = 1#1

theorem resets12_iff : ∀ t : Fin cfg12.N, resets12 (grid12.coords t) ↔ t.val = 0 :=
  (by decide +kernel : ∀ t : Fin grid12.N, resets12 (grid12.coords t) ↔ t.val = 0)

abbrev emits12 (i : grid12.Coords) : Prop := k12_cond2 i = 1#1

theorem emits12_iff : ∀ t : Fin cfg12.N, emits12 (grid12.coords t) ↔ t.val = 24 :=
  (by decide +kernel : ∀ t : Fin grid12.N, emits12 (grid12.coords t) ↔ t.val = 24)

theorem live12_0 : ∀ t : Fin cfg12.N, cfg12.idle 0 (grid12.coords t) = false := by decide +kernel

theorem live12_1 : ∀ t : Fin cfg12.N, cfg12.idle 1 (grid12.coords t) = false := by decide +kernel

theorem idle12_2 : ∀ t : Fin cfg12.N, ¬emits12 (grid12.coords t) → cfg12.idle 2 (grid12.coords t) = true := by decide +kernel

theorem noFlush12_2 : ∀ t : Fin cfg12.N, ¬emits12 (grid12.coords t) → (cfg12.win 2).flush t = false := by decide +kernel

theorem live12_2 : ∀ t : Fin cfg12.N, emits12 (grid12.coords t) → cfg12.idle 2 (grid12.coords t) = false := by decide +kernel

abbrev nodeM12 (t : Fin cfg12.N) : Memref sig .tc .vmem S2000x96 .f32 := win12_0.stage (cfg12.slots t 0)
abbrev nodeW12 (t : Fin cfg12.N) : (nodeM12 t).IsWhole := hstage12_0 ((cfg12.slots t 0).cast nbuf12_0)

abbrev idsM12 (t : Fin cfg12.N) : Memref sig .tc .vmem S2000x1 .i32 := win12_1.stage (cfg12.slots t 1)
abbrev idsW12 (t : Fin cfg12.N) : (idsM12 t).IsWhole := hstage12_1 ((cfg12.slots t 1).cast nbuf12_1)

abbrev outM12 (t : Fin cfg12.N) : Memref sig .tc .vmem S256x96 .f32 := win12_2.stage (cfg12.slots t 2)
abbrev outW12 (t : Fin cfg12.N) : (outM12 t).IsWhole := hstage12_2 ((cfg12.slots t 2).cast nbuf12_2)

abbrev accM12 : Memref sig .tc .vmem S256x96 .f32 := Memref.whole cc12_scratch0

def acc12 (c : Dev nD) : (n : ℕ) → n < cfg12.N → Vec F S256x96 .f32
  | 0, hn => k12_pay2 (iblk12 V c 0 ⟨0, hn⟩) (iblk12 V c 1 ⟨0, hn⟩) (k12_pay1 (F := F))
  | n + 1, hn => k12_pay2 (iblk12 V c 0 ⟨n + 1, hn⟩) (iblk12 V c 1 ⟨n + 1, hn⟩) (acc12 c n (Nat.lt_of_succ_lt hn))

theorem acc12_zero (c : Dev nD) (hn : 0 < cfg12.N) :
    acc12 V c 0 hn = k12_pay2 (iblk12 V c 0 ⟨0, hn⟩) (iblk12 V c 1 ⟨0, hn⟩) (k12_pay1 (F := F)) := rfl

theorem acc12_succ (c : Dev nD) (n : ℕ) (hn : n + 1 < cfg12.N) :
    acc12 V c (n + 1) hn = k12_pay2 (iblk12 V c 0 ⟨n + 1, hn⟩) (iblk12 V c 1 ⟨n + 1, hn⟩) (acc12 V c n (Nat.lt_of_succ_lt hn)) := rfl

theorem acc12_pos (c : Dev nD) (t : Fin cfg12.N) (ht : t.val ≠ 0) :
    acc12 V c t.val t.isLt = k12_pay2 (iblk12 V c 0 t) (iblk12 V c 1 t)
      (acc12 V c (t.val - 1) (Nat.lt_of_le_of_lt (Nat.sub_le _ _) t.isLt)) := by
  obtain ⟨n, hn⟩ := t
  cases n with
  | zero => exact absurd rfl ht
  | succ n => rfl

def Phi12 (c : Dev nD) : (n : ℕ) → n ≤ cfg12.N → sProp 𝕄
  | 0, _ => Pipeline.ΦA spec12 c
  | n + 1, hn => iprop(iprop(owns (c : Thread nD τ) accM12 fullShare (acc12 V c n hn) ∗ Pipeline.scopedRestBut spec12 c [cc12_scratch0]) ∗ (∃ r, prngReg c r))

theorem Phi12_zero (c : Dev nD) (n : ℕ) (h : n ≤ cfg12.N) (hz : n = 0) : Phi12 V c n h = Pipeline.ΦA spec12 c := by
  subst hz; rfl

theorem Phi12_succ (c : Dev nD) (n : ℕ) (hn : n < cfg12.N) :
    Phi12 V c (n + 1) hn = iprop(iprop(owns (c : Thread nD τ) accM12 fullShare (acc12 V c n hn) ∗ Pipeline.scopedRestBut spec12 c [cc12_scratch0]) ∗ (∃ r, prngReg c r)) := rfl

theorem Phi12_pos (c : Dev nD) (n : ℕ) (h : n ≤ cfg12.N) (hz : n ≠ 0) :
    Phi12 V c n h = iprop(iprop(owns (c : Thread nD τ) accM12 fullShare (acc12 V c (n - 1) (by omega)) ∗ Pipeline.scopedRestBut spec12 c [cc12_scratch0]) ∗ (∃ r, prngReg c r)) := by
  cases n with
  | zero => exact absurd rfl hz
  | succ n => rfl

theorem PhiA12_eq (c : Dev nD) :
    (Pipeline.ΦA spec12 c : sProp 𝕄)
      = iprop(iprop(iprop(∃ d, owns (c : Thread nD τ) accM12 fullShare d) ∗ Pipeline.scopedRestBut spec12 c [cc12_scratch0]) ∗ (∃ r, prngReg c r)) := by
  unfold Pipeline.ΦA; rw [scopedRest12_split]; simp only [accM12, owns_whole]; rfl

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => acc12 V c t.val t.isLt
  Φ t := Phi12 V c t.val (Nat.le_of_lt_succ t.isLt)
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = acc12 V c t.val t.isLt := by dsimp only [dat12]

theorem Phi12_castSucc (c : Dev nD) (t : Fin cfg12.N) :
    (dat12 V c).Φ t.castSucc = Phi12 V c t.val (Nat.le_of_lt t.isLt) := by
  dsimp only [dat12]; simp only [Fin.coe_castSucc]

theorem before12_0 (c : Dev nD) (t : Fin cfg12.N) (d) : (dat12 V c).before 0 t d = iblk12 V c 0 t :=
  ((dat12 V c).before_fetched 0 t (fetch12_0 t) d).trans (by unfold Dat.fetched Dat.blockOf iblk12; rw [A_eq12]; try rfl)
theorem before12_1 (c : Dev nD) (t : Fin cfg12.N) (d) : (dat12 V c).before 1 t d = iblk12 V c 1 t :=
  ((dat12 V c).before_fetched 1 t (fetch12_1 t) d).trans (by unfold Dat.fetched Dat.blockOf iblk12; rw [A_eq12]; try rfl)

theorem hin12 (c : Dev nD) : (Pipeline.ΦA spec12 c : sProp 𝕄) ⊢ (dat12 V c).Φ 0 := by
  rw [show (dat12 V c).Φ 0 = Phi12 V c 0 (Nat.zero_le _) from rfl, Phi12_zero V c 0 _ rfl]

theorem Phi12_out (c : Dev nD) (t : Fin (cfg12.N + 1)) (ht : t.val ≠ 0) : (dat12 V c).Φ t ⊢ (Pipeline.ΦA spec12 c : sProp 𝕄) := by
  rw [show (dat12 V c).Φ t = Phi12 V c t.val (Nat.le_of_lt_succ t.isLt) from rfl, Phi12_pos V c _ _ ht, PhiA12_eq]
  iintro ⟨⟨HS, HR⟩, Hg⟩
  isplitl [HS HR]
  · isplitl [HS]
    · iexists _; iexact HS
    iexact HR
  iexact Hg

theorem hout12 (c : Dev nD) : (dat12 V c).Φ (Fin.last cfg12.N) ⊢ (Pipeline.ΦA spec12 c : sProp 𝕄) :=
  Phi12_out V c _ (by rw [Fin.val_last]; have : cfg12.N = 25 := N_12; omega)

theorem origin12 : (![0, 0] : Fin 2 → ℕ) = fun _ => 0 := funext fun a => by fin_cases a <;> rfl

theorem coversAcc12 (w : Vec F S256x96 .f32) (L : List (View.Piece (Elt F) S256x96 .f32)) (y : S256x96.Idx) :
    ∃ p ∈ ((⟨Rect.unit (s := S256x96) ![0, 0] S256x96.size inb_S256x96_S256x96_0_0, w⟩ : View.Piece (Elt F) S256x96 .f32) :: L), y ∈ p.1.set := by
  obtain ⟨p, hp, hy⟩ := View.cover_of_tiled [(⟨Rect.unit (s := S256x96) ![0, 0] S256x96.size inb_S256x96_S256x96_0_0, w⟩ : View.Piece (Elt F) S256x96 .f32)] S256x96.size (by rfl) y
  exact ⟨p, List.mem_cons.mpr (.inl (List.mem_singleton.mp hp)), hy⟩

set_option maxHeartbeats 1000000 in
theorem poolFirst12 (c : Dev nD) (i : grid12.Coords) (arg1 : Memref sig .tc .vmem S2000x96 .f32) (harg1 : arg1.IsWhole)
    (arg2 : Memref sig .tc .vmem S2000x1 .i32) (harg2 : arg2.IsWhole)
    (arg3 : Memref sig .tc .vmem S256x96 .f32) (harg3 : arg3.IsWhole)
    (arg4 : Memref sig .tc .vmem S256x96 .f32) (harg4 : arg4.IsWhole)
    (hr : resets12 i) (he : ¬emits12 i)
    (x0 : Vec F S2000x96 .f32) (x1 : Vec F S2000x1 .i32) (xo : Vec F S256x96 .f32) (E : Set ℕ) (K : PUnit → sProp 𝕄) :
    iprop(owns (c : Thread nD τ) arg1 fullShare x0 ∗ owns (c : Thread nD τ) arg2 fullShare x1 ∗ owns (c : Thread nD τ) arg3 fullShare xo
        ∗ (∃ d, owns (c : Thread nD τ) arg4 fullShare d)
        ∗ (iprop(owns (c : Thread nD τ) arg1 fullShare x0 ∗ owns (c : Thread nD τ) arg2 fullShare x1 ∗ owns (c : Thread nD τ) arg3 fullShare xo
            ∗ owns (c : Thread nD τ) arg4 fullShare (k12_pay2 x0 x1 (k12_pay1 (F := F)))) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f2, %hf2, H2⟩, ⟨%ds, %fs, -, HS⟩, Hk⟩
  obtain rfl := harg1.eq_unread hf0; obtain rfl := harg2.eq_unread hf1
  sl_exec (disch := first | exact hr | exact he)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  iexists _; isplitr
  swap
  · iexact HS
  ipureintro
  unfold poolFirst12.sl.v14 poolFirst12.sl.HS_1
  rw [View.read_writes_eq_canon _ _ _ (coversAcc12 _ _), View.canon_cons_unit_zero (S := S256x96) origin12,
    View.readCov_unit_zero (S := S256x96) _ origin12, View.readAt_eq_ld, View.readAt_eq_ld, hf0, hf1,
    View.ld_unit_zero (S := S2000x96) origin12, View.ld_unit_zero (S := S2000x1) origin12]

set_option maxHeartbeats 1000000 in
theorem poolMiddle12 (c : Dev nD) (i : grid12.Coords) (arg1 : Memref sig .tc .vmem S2000x96 .f32) (harg1 : arg1.IsWhole)
    (arg2 : Memref sig .tc .vmem S2000x1 .i32) (harg2 : arg2.IsWhole)
    (arg3 : Memref sig .tc .vmem S256x96 .f32) (harg3 : arg3.IsWhole)
    (arg4 : Memref sig .tc .vmem S256x96 .f32) (harg4 : arg4.IsWhole)
    (hr : ¬resets12 i) (he : ¬emits12 i)
    (x0 : Vec F S2000x96 .f32) (x1 : Vec F S2000x1 .i32) (xo : Vec F S256x96 .f32) (xs : Vec F S256x96 .f32) (E : Set ℕ) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare xo
            ∗ owns (c : Thread nD τ) arg4 fullShare (k12_pay2 x0 x1 xs)) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hr | exact he)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    · ipureintro; exact hf2
    iexact H2
  iexists _; isplitr
  swap
  · iexact HS
  ipureintro
  rw [View.read_writes_eq_canon _ _ _ (coversAcc12 _ _), View.canon_cons_unit_zero (S := S256x96) origin12,
    View.readAt_eq_ld, View.readAt_eq_ld, View.readAt_eq_ld, hf0, hf1, hfs,
    View.ld_unit_zero (S := S2000x96) origin12, View.ld_unit_zero (S := S2000x1) origin12, View.ld_unit_zero (S := S256x96) origin12]

set_option maxHeartbeats 1000000 in
theorem poolLast12 (c : Dev nD) (i : grid12.Coords) (arg1 : Memref sig .tc .vmem S2000x96 .f32) (harg1 : arg1.IsWhole)
    (arg2 : Memref sig .tc .vmem S2000x1 .i32) (harg2 : arg2.IsWhole)
    (arg3 : Memref sig .tc .vmem S256x96 .f32) (harg3 : arg3.IsWhole)
    (arg4 : Memref sig .tc .vmem S256x96 .f32) (harg4 : arg4.IsWhole)
    (hr : ¬resets12 i) (he : emits12 i)
    (x0 : Vec F S2000x96 .f32) (x1 : Vec F S2000x1 .i32) (xo : Vec F S256x96 .f32) (xs : Vec F S256x96 .f32) (E : Set ℕ) (K : PUnit → sProp 𝕄) :
    iprop(owns (c : Thread nD τ) arg1 fullShare x0 ∗ owns (c : Thread nD τ) arg2 fullShare x1 ∗ owns (c : Thread nD τ) arg3 fullShare xo
        ∗ owns (c : Thread nD τ) arg4 fullShare xs
        ∗ (iprop(owns (c : Thread nD τ) arg1 fullShare x0 ∗ owns (c : Thread nD τ) arg2 fullShare x1 ∗ owns (c : Thread nD τ) arg3 fullShare (k12_pay2 x0 x1 xs)
            ∗ owns (c : Thread nD τ) arg4 fullShare (k12_pay2 x0 x1 xs)) -∗ K ⟨⟩))
      ⊢ wp frame (wpE (defs₀ (F := F)) Variants.none c none) E (cc12__pool_kernel i arg1 harg1 arg2 harg2 arg3 harg3 arg4 harg4) K := by
  simp only [cc12__pool_kernel_eq_skeleton]; unfold cc12__pool_kernel_skel
  unfold owns
  iintro ⟨⟨%f0, %hf0, H0⟩, ⟨%f1, %hf1, H1⟩, ⟨%f2, %hf2, H2⟩, ⟨%fs, %hfs, HS⟩, Hk⟩
  obtain rfl := harg1.eq_unread hf0; obtain rfl := harg2.eq_unread hf1; obtain rfl := harg4.eq_unread hfs
  sl_exec (disch := first | exact hr | exact he)
  sl_step
  iapply Hk
  isplitl [H0]
  · iexists _; isplitr
    · ipureintro; exact hf0
    iexact H0
  isplitl [H1]
  · iexists _; isplitr
    · ipureintro; exact hf1
    iexact H1
  isplitl [H2]
  · iexists _; isplitr
    swap
    · iexact H2
    ipureintro
    unfold poolLast12.sl.v23 poolLast12.sl.HS_1
    rw [View.read_writes_eq_canon _ _ _ (coversAcc12 _ _), View.canon_cons_unit_zero (S := S256x96) origin12,
      View.readCov_unit_zero (S := S256x96) _ origin12,
      View.readAt_eq_ld, View.readAt_eq_ld, View.readAt_eq_ld, hf0, hf1, hfs,
      View.ld_unit_zero (S := S2000x96) origin12, View.ld_unit_zero (S := S2000x1) origin12, View.ld_unit_zero (S := S256x96) origin12]
  iexists _; isplitr
  swap
  · iexact HS
  ipureintro
  unfold poolLast12.sl.HS_1
  rw [View.read_writes_eq_canon _ _ _ (coversAcc12 _ _), View.canon_cons_unit_zero (S := S256x96) origin12,
    View.readAt_eq_ld, View.readAt_eq_ld, View.readAt_eq_ld, hf0, hf1, hfs,
    View.ld_unit_zero (S := S2000x96) origin12, View.ld_unit_zero (S := S2000x1) origin12, View.ld_unit_zero (S := S256x96) origin12]

theorem acc12_first (c : Dev nD) (t : Fin cfg12.N) (h0 : t.val = 0) :
    acc12 V c t.val t.isLt = k12_pay2 (iblk12 V c 0 t) (iblk12 V c 1 t) (k12_pay1 (F := F)) := by
  obtain ⟨n, hn⟩ := t
  cases n with
  | zero => rfl
  | succ n => exact absurd h0 (Nat.succ_ne_zero n)

def bodyPre12 (c : Dev nD) (t : Fin cfg12.N) : sProp 𝕄 :=
  iprop((dat12 V c).Φ t.castSucc ∗ (dat12 V c).owesAt () t.castSucc
    ∗ (∃ d, owns (c : Thread nD τ) (nodeM12 t) fullShare ((dat12 V c).before 0 t d))
    ∗ (∃ d, owns (c : Thread nD τ) (idsM12 t) fullShare ((dat12 V c).before 1 t d))
    ∗ (∃ d, owns (c : Thread nD τ) (outM12 t) fullShare ((dat12 V c).before 2 t d)))

def bodyPost12 (c : Dev nD) (t : Fin cfg12.N) : sProp 𝕄 :=
  iprop((dat12 V c).Φ t.succ ∗ (dat12 V c).owesAt () t.succ
    ∗ (dat12 V c).leavesExact 0 t
    ∗ (dat12 V c).leavesExact 1 t
    ∗ (dat12 V c).leavesExact 2 t)

set_option maxHeartbeats 4000000 in

theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1]
  rw [show (dat12 V c).owesAt () t.succ = (dat12 V c).owesAt () t.castSucc from rfl]
  rw [show (dat12 V c).Φ t.succ = Phi12 V c (t.val + 1) t.isLt from rfl, Phi12_succ]
  rw [show (dat12 V c).leavesExact 0 t = owns (c : Thread nD τ) (nodeM12 t) fullShare ((dat12 V c).after 0 t) from by
    unfold Dat.leavesExact; rw [live12_0 t], after12_0]
  rw [show (dat12 V c).leavesExact 1 t = owns (c : Thread nD τ) (idsM12 t) fullShare ((dat12 V c).after 1 t) from by
    unfold Dat.leavesExact; rw [live12_1 t], after12_1]
  have hN : t.val < 25 := lt_of_lt_of_eq t.isLt (show cfg12.N = 25 from N_12)
  by_cases h0 : t.val = 0
  · have hr : resets12 (grid12.coords t) := (resets12_iff t).mpr h0
    have he : ¬emits12 (grid12.coords t) := fun h => by have := (emits12_iff t).mp h; omega
    rw [Dat.leavesExact_idle (dat12 V c) 2 t (idle12_2 t he) (noFlush12_2 t he)]
    rw [Phi12_castSucc V c t, Phi12_zero V c _ _ h0, PhiA12_eq, acc12_first V c t h0]
    iintro ⟨⟨⟨⟨%d, HS⟩, HR⟩, Hg⟩, Ho, ⟨%d0, H0⟩, ⟨%d1, H1⟩, ⟨%d2, H2⟩⟩
    iapply (poolFirst12 c (grid12.coords t) _ _ _ _ _ _ _ _ hr he (iblk12 V c 0 t) (iblk12 V c 1 t) ((dat12 V c).before 2 t d2) Set.univ _)
    isplitl [H0]; · iexact H0
    isplitl [H1]; · iexact H1
    isplitl [H2]; · iexact H2
    isplitl [HS]; · iexists _; iexact HS
    iintro ⟨H0, H1, H2, HS⟩
    isplitl [HS HR Hg]
    · isplitl [HS HR]
      · isplitl [HS]; · iexact HS
        iexact HR
      iexact Hg
    isplitl [Ho]; · iexact Ho
    isplitl [H0]; · iexact H0
    isplitl [H1]; · iexact H1
    iexists _; iexact H2
  · have hr : ¬resets12 (grid12.coords t) := fun h => h0 ((resets12_iff t).mp h)
    rw [Phi12_castSucc V c t, Phi12_pos V c _ _ h0, acc12_pos V c t h0]
    by_cases h24 : t.val = 24
    · have he : emits12 (grid12.coords t) := (emits12_iff t).mpr h24
      rw [show (dat12 V c).leavesExact 2 t = owns (c : Thread nD τ) (outM12 t) fullShare ((dat12 V c).after 2 t) from by
        unfold Dat.leavesExact; rw [live12_2 t he], after12_2, acc12_pos V c t h0]
      iintro ⟨⟨⟨HS, HR⟩, Hg⟩, Ho, ⟨%d0, H0⟩, ⟨%d1, H1⟩, ⟨%d2, H2⟩⟩
      iapply (poolLast12 c (grid12.coords t) _ _ _ _ _ _ _ _ hr he (iblk12 V c 0 t) (iblk12 V c 1 t) ((dat12 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexact H2
    · have he : ¬emits12 (grid12.coords t) := fun h => h24 ((emits12_iff t).mp h)
      rw [Dat.leavesExact_idle (dat12 V c) 2 t (idle12_2 t he) (noFlush12_2 t he)]
      iintro ⟨⟨⟨HS, HR⟩, Hg⟩, Ho, ⟨%d0, H0⟩, ⟨%d1, H1⟩, ⟨%d2, H2⟩⟩
      iapply (poolMiddle12 c (grid12.coords t) _ _ _ _ _ _ _ _ hr he (iblk12 V c 0 t) (iblk12 V c 1 t) ((dat12 V c).before 2 t d2) _ Set.univ _)
      isplitl [H0]; · iexact H0
      isplitl [H1]; · iexact H1
      isplitl [H2]; · iexact H2
      isplitl [HS]; · iexact HS
      iintro ⟨H0, H1, H2, HS⟩
      isplitl [HS HR Hg]
      · isplitl [HS HR]
        · isplitl [HS]; · iexact HS
          iexact HR
        iexact Hg
      isplitl [Ho]; · iexact Ho
      isplitl [H0]; · iexact H0
      isplitl [H1]; · iexact H1
      iexists _; iexact H2

theorem body_obligation12 (c : Dev nD) : BodyObligation (dat12 (F := F) V c) (defs₀ (F := F)) Variants.none () Set.univ := fun t => by
  rw [bigSep_W12, bigSep_W12]
  exact sound_body12 V c t

end Cert.KernelIdeal.Hand

end
-- ==== Proof.KI.Fold.lean ====
import proofs.«406641_j72756745994790_1_alg».proof.Proof.KI.Reg0
import proofs.«406641_j72756745994790_1_alg».proof.Proof.KI.Reg1
import proofs.«406641_j72756745994790_1_alg».proof.Proof.KI.Reg2
import proofs.«406641_j72756745994790_1_alg».proof.Proof.KI.Reg3
import proofs.«406641_j72756745994790_1_alg».proof.Proof.KI.Reg4
import proofs.«406641_j72756745994790_1_alg».proof.Proof.KI.Reg5
import proofs.«406641_j72756745994790_1_alg».proof.Proof.KI.Reg6
import proofs.«406641_j72756745994790_1_alg».proof.Proof.KI.Reg7
import proofs.«406641_j72756745994790_1_alg».proof.Proof.KI.Reg8
import proofs.«406641_j72756745994790_1_alg».proof.Proof.KI.Reg9
import proofs.«406641_j72756745994790_1_alg».proof.Proof.KI.Reg10
import proofs.«406641_j72756745994790_1_alg».proof.Proof.KI.Reg11
import proofs.«406641_j72756745994790_1_alg».proof.Proof.KI.Reg12
import proofs.«406641_j72756745994790_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)

abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)

abbrev V3 : (c : Dev nD) → (b : Ref sig .tc) → Buf (Elt F) ((c : Thread nD τ).loc b) := fun c b => W3 m c b

def W4 (c : Dev nD) : Valuation τ sig (Elt F) :=
  Pipeline.withArrays spec0 c (W3 m c) fun w => (dat0 (V3 m) c).arrAt w cfg0.N
theorem W4_arr (c : Dev nD) (w : Fin cfg0.W) :
    W4 m c (Proc.devRef .tc (Pipeline.arrRef spec0 w)) = (dat0 (V3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev V4 : (c : Dev nD) → (b : Ref sig .tc) → Buf (Elt F) ((c : Thread nD τ).loc b) := fun c b => W4 m c b
abbrev W5 : Dev nD → Valuation τ sig (Elt F) := fun c => StableHlo.after hostOps1 (W4 m c)

abbrev V5 : (c : Dev nD) → (b : Ref sig .tc) → Buf (Elt F) ((c : Thread nD τ).loc b) := fun c b => W5 m c b

def W6 (c : Dev nD) : Valuation τ sig (Elt F) :=
  Pipeline.withArrays spec1 c (W5 m c) fun w => (dat1 (V5 m) c).arrAt w cfg1.N
theorem W6_arr (c : Dev nD) (w : Fin cfg1.W) :
    W6 m c (Proc.devRef .tc (Pipeline.arrRef spec1 w)) = (dat1 (V5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev V6 : (c : Dev nD) → (b : Ref sig .tc) → Buf (Elt F) ((c : Thread nD τ).loc b) := fun c b => W6 m c b
abbrev W7 : Dev nD → Valuation τ sig (Elt F) := fun c => StableHlo.after hostOps2 (W6 m c)

abbrev V7 : (c : Dev nD) → (b : Ref sig .tc) → Buf (Elt F) ((c : Thread nD τ).loc b) := fun c b => W7 m c b

def W8 (c : Dev nD) : Valuation τ sig (Elt F) :=
  Pipeline.withArrays spec2 c (W7 m c) fun w => (dat2 (V7 m) c).arrAt w cfg2.N
theorem W8_arr (c : Dev nD) (w : Fin cfg2.W) :
    W8 m c (Proc.devRef .tc (Pipeline.arrRef spec2 w)) = (dat2 (V7 m) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m c (Proc.devRef .tc b) = W7 m c (Proc.devRef .tc b) := by
  unfold W8; exact Pipeline.withArrays_of_ne spec2 c _ _ b hb
abbrev V8 : (c : Dev nD) → (b : Ref sig .tc) → Buf (Elt F) ((c : Thread nD τ).loc b) := fun c b => W8 m c b
abbrev W9 : Dev nD → Valuation τ sig (Elt F) := fun c => StableHlo.after hostOps3 (W8 m c)

abbrev V9 : (c : Dev nD) → (b : Ref sig .tc) → Buf (Elt F) ((c : Thread nD τ).loc b) := fun c b => W9 m c b

def W10 (c : Dev nD) : Valuation τ sig (Elt F) :=
  Pipeline.withArrays spec3 c (W9 m c) fun w => (dat3 (V9 m) c).arrAt w cfg3.N
theorem W10_arr (c : Dev nD) (w : Fin cfg3.W) :
    W10 m c (Proc.devRef .tc (Pipeline.arrRef spec3 w)) = (dat3 (V9 m) c).arrAt w cfg3.N := by
  unfold W10; exact Pipeline.withArrays_arr spec3 launch3.win.arr_inj c _ _ w
theorem W10_of_ne (c : Dev nD) (b : Ref sig .tc) (hb : ∀ w, Pipeline.arrRef spec3 w ≠ b) :
    W10 m c (Proc.devRef .tc b) = W9 m c (Proc.devRef .tc b) := by
  unfold W10; exact Pipeline.withArrays_of_ne spec3 c _ _ b hb
abbrev V10 : (c : Dev nD) → (b : Ref sig .tc) → Buf (Elt F) ((c : Thread nD τ).loc b) := fun c b => W10 m c b
abbrev W11 : Dev nD → Valuation τ sig (Elt F) := fun c => StableHlo.after hostOps4 (W10 m c)

abbrev V11 : (c : Dev nD) → (b : Ref sig .tc) → Buf (Elt F) ((c : Thread nD τ).loc b) := fun c b => W11 m c b

def W12 (c : Dev nD) : Valuation τ sig (Elt F) :=
  Pipeline.withArrays spec4 c (W11 m c) fun w => (dat4 (V11 m) c).arrAt w cfg4.N
theorem W12_arr (c : Dev nD) (w : Fin cfg4.W) :
    W12 m c (Proc.devRef .tc (Pipeline.arrRef spec4 w)) = (dat4 (V11 m) c).arrAt w cfg4.N := by
  unfold W12; exact Pipeline.withArrays_arr spec4 launch4.win.arr_inj c _ _ w
theorem W12_of_ne (c : Dev nD) (b : Ref sig .tc) (hb : ∀ w, Pipeline.arrRef spec4 w ≠ b) :
    W12 m c (Proc.devRef .tc b) = W11 m c (Proc.devRef .tc b) := by
  unfold W12; exact Pipeline.withArrays_of_ne spec4 c _ _ b hb
abbrev V12 : (c : Dev nD) → (b : Ref sig .tc) → Buf (Elt F) ((c : Thread nD τ).loc b) := fun c b => W12 m c b
abbrev W13 : Dev nD → Valuation τ sig (Elt F) := fun c => StableHlo.after hostOps5 (W12 m c)

abbrev V13 : (c : Dev nD) → (b : Ref sig .tc) → Buf (Elt F) ((c : Thread nD τ).loc b) := fun c b => W13 m c b

def W14 (c : Dev nD) : Valuation τ sig (Elt F) :=
  Pipeline.withArrays spec5 c (W13 m c) fun w => (dat5 (V13 m) c).arrAt w cfg5.N
theorem W14_arr (c : Dev nD) (w : Fin cfg5.W) :
    W14 m c (Proc.devRef .tc (Pipeline.arrRef spec5 w)) = (dat5 (V13 m) c).arrAt w cfg5.N := by
  unfold W14; exact Pipeline.withArrays_arr spec5 launch5.win.arr_inj c _ _ w
theorem W14_of_ne (c : Dev nD) (b : Ref sig .tc) (hb : ∀ w, Pipeline.arrRef spec5 w ≠ b) :
    W14 m c (Proc.devRef .tc b) = W13 m c (Proc.devRef .tc b) := by
  unfold W14; exact Pipeline.withArrays_of_ne spec5 c _ _ b hb
abbrev V14 : (c : Dev nD) → (b : Ref sig .tc) → Buf (Elt F) ((c : Thread nD τ).loc b) := fun c b => W14 m c b
abbrev W15 : Dev nD → Valuation τ sig (Elt F) := fun c => StableHlo.after hostOps6 (W14 m c)

abbrev V15 : (c : Dev nD) → (b : Ref sig .tc) → Buf (Elt F) ((c : Thread nD τ).loc b) := fun c b => W15 m c b

def W16 (c : Dev nD) : Valuation τ sig (Elt F) :=
  Pipeline.withArrays spec6 c (W15 m c) fun w => (dat6 (V15 m) c).arrAt w cfg6.N
theorem W16_arr (c : Dev nD) (w : Fin cfg6.W) :
    W16 m c (Proc.devRef .tc (Pipeline.arrRef spec6 w)) = (dat6 (V15 m) c).arrAt w cfg6.N := by
  unfold W16; exact Pipeline.withArrays_arr spec6 launch6.win.arr_inj c _ _ w
theorem W16_of_ne (c : Dev nD) (b : Ref sig .tc) (hb : ∀ w, Pipeline.arrRef spec6 w ≠ b) :
    W16 m c (Proc.devRef .tc b) = W15 m c (Proc.devRef .tc b) := by
  unfold W16; exact Pipeline.withArrays_of_ne spec6 c _ _ b hb
abbrev V16 : (c : Dev nD) → (b : Ref sig .tc) → Buf (Elt F) ((c : Thread nD τ).loc b) := fun c b => W16 m c b
abbrev W17 : Dev nD → Valuation τ sig (Elt F) := fun c => StableHlo.after hostOps7 (W16 m c)

abbrev V17 : (c : Dev nD) → (b : Ref sig .tc) → Buf (Elt F) ((c : Thread nD τ).loc b) := fun c b => W17 m c b

def W18 (c : Dev nD) : Valuation τ sig (Elt F) :=
  Pipeline.withArrays spec7 c (W17 m c) fun w => (dat7 (V17 m) c).arrAt w cfg7.N
theorem W18_arr (c : Dev nD) (w : Fin cfg7.W) :
    W18 m c (Proc.devRef .tc (Pipeline.arrRef spec7 w)) = (dat7 (V17 m) c).arrAt w cfg7.N := by
  unfold W18; exact Pipeline.withArrays_arr spec7 launch7.win.arr_inj c _ _ w
theorem W18_of_ne (c : Dev nD) (b : Ref sig .tc) (hb : ∀ w, Pipeline.arrRef spec7 w ≠ b) :
    W18 m c (Proc.devRef .tc b) = W17 m c (Proc.devRef .tc b) := by
  unfold W18; exact Pipeline.withArrays_of_ne spec7 c _ _ b hb
abbrev V18 : (c : Dev nD) → (b : Ref sig .tc) → Buf (Elt F) ((c : Thread nD τ).loc b) := fun c b => W18 m c b
abbrev W19 : Dev nD → Valuation τ sig (Elt F) := fun c => StableHlo.after hostOps8 (W18 m c)

abbrev V19 : (c : Dev nD) → (b : Ref sig .tc) → Buf (Elt F) ((c : Thread nD τ).loc b) := fun c b => W19 m c b

def W20 (c : Dev nD) : Valuation τ sig (Elt F) :=
  Pipeline.withArrays spec8 c (W19 m c) fun w => (dat8 (V19 m) c).arrAt w cfg8.N
theorem W20_arr (c : Dev nD) (w : Fin cfg8.W) :
    W20 m c (Proc.devRef .tc (Pipeline.arrRef spec8 w)) = (dat8 (V19 m) c).arrAt w cfg8.N := by
  unfold W20; exact Pipeline.withArrays_arr spec8 launch8.win.arr_inj c _ _ w
theorem W20_of_ne (c : Dev nD) (b : Ref sig .tc) (hb : ∀ w, Pipeline.arrRef spec8 w ≠ b) :
    W20 m c (Proc.devRef .tc b) = W19 m c (Proc.devRef .tc b) := by
  unfold W20; exact Pipeline.withArrays_of_ne spec8 c _ _ b hb
abbrev V20 : (c : Dev nD) → (b : Ref sig .tc) → Buf (Elt F) ((c : Thread nD τ).loc b) := fun c b => W20 m c b
abbrev W21 : Dev nD → Valuation τ sig (Elt F) := fun c => StableHlo.after hostOps9 (W20 m c)

abbrev V21 : (c : Dev nD) → (b : Ref sig .tc) → Buf (Elt F) ((c : Thread nD τ).loc b) := fun c b => W21 m c b

def W22 (c : Dev nD) : Valuation τ sig (Elt F) :=
  Pipeline.withArrays spec9 c (W21 m c) fun w => (dat9 (V21 m) c).arrAt w cfg9.N
theorem W22_arr (c : Dev nD) (w : Fin cfg9.W) :
    W22 m c (Proc.devRef .tc (Pipeline.arrRef spec9 w)) = (dat9 (V21 m) c).arrAt w cfg9.N := by
  unfold W22; exact Pipeline.withArrays_arr spec9 launch9.win.arr_inj c _ _ w
theorem W22_of_ne (c : Dev nD) (b : Ref sig .tc) (hb : ∀ w, Pipeline.arrRef spec9 w ≠ b) :
    W22 m c (Proc.devRef .tc b) = W21 m c (Proc.devRef .tc b) := by
  unfold W22; exact Pipeline.withArrays_of_ne spec9 c _ _ b hb
abbrev V22 : (c : Dev nD) → (b : Ref sig .tc) → Buf (Elt F) ((c : Thread nD τ).loc b) := fun c b => W22 m c b
abbrev W23 : Dev nD → Valuation τ sig (Elt F) := fun c => StableHlo.after hostOps10 (W22 m c)

abbrev V23 : (c : Dev nD) → (b : Ref sig .tc) → Buf (Elt F) ((c : Thread nD τ).loc b) := fun c b => W23 m c b

def W24 (c : Dev nD) : Valuation τ sig (Elt F) :=
  Pipeline.withArrays spec10 c (W23 m c) fun w => (dat10 (V23 m) c).arrAt w cfg10.N
theorem W24_arr (c : Dev nD) (w : Fin cfg10.W) :
    W24 m c (Proc.devRef .tc (Pipeline.arrRef spec10 w)) = (dat10 (V23 m) c).arrAt w cfg10.N := by
  unfold W24; exact Pipeline.withArrays_arr spec10 launch10.win.arr_inj c _ _ w
theorem W24_of_ne (c : Dev nD) (b : Ref sig .tc) (hb : ∀ w, Pipeline.arrRef spec10 w ≠ b) :
    W24 m c (Proc.devRef .tc b) = W23 m c (Proc.devRef .tc b) := by
  unfold W24; exact Pipeline.withArrays_of_ne spec10 c _ _ b hb
abbrev V24 : (c : Dev nD) → (b : Ref sig .tc) → Buf (Elt F) ((c : Thread nD τ).loc b) := fun c b => W24 m c b
abbrev W25 : Dev nD → Valuation τ sig (Elt F) := fun c => StableHlo.after hostOps11 (W24 m c)

abbrev V25 : (c : Dev nD) → (b : Ref sig .tc) → Buf (Elt F) ((c : Thread nD τ).loc b) := fun c b => W25 m c b

def W26 (c : Dev nD) : Valuation τ sig (Elt F) :=
  Pipeline.withArrays spec11 c (W25 m c) fun w => (dat11 (V25 m) c).arrAt w cfg11.N
theorem W26_arr (c : Dev nD) (w : Fin cfg11.W) :
    W26 m c (Proc.devRef .tc (Pipeline.arrRef spec11 w)) = (dat11 (V25 m) c).arrAt w cfg11.N := by
  unfold W26; exact Pipeline.withArrays_arr spec11 launch11.win.arr_inj c _ _ w
theorem W26_of_ne (c : Dev nD) (b : Ref sig .tc) (hb : ∀ w, Pipeline.arrRef spec11 w ≠ b) :
    W26 m c (Proc.devRef .tc b) = W25 m c (Proc.devRef .tc b) := by
  unfold W26; exact Pipeline.withArrays_of_ne spec11 c _ _ b hb
abbrev V26 : (c : Dev nD) → (b : Ref sig .tc) → Buf (Elt F) ((c : Thread nD τ).loc b) := fun c b => W26 m c b
abbrev W27 : Dev nD → Valuation τ sig (Elt F) := fun c => StableHlo.after hostOps12 (W26 m c)

abbrev V27 : (c : Dev nD) → (b : Ref sig .tc) → Buf (Elt F) ((c : Thread nD τ).loc b) := fun c b => W27 m c b

def W28 (c : Dev nD) : Valuation τ sig (Elt F) :=
  Pipeline.withArrays spec12 c (W27 m c) fun w => (dat12 (V27 m) c).arrAt w cfg12.N
theorem W28_arr (c : Dev nD) (w : Fin cfg12.W) :
    W28 m c (Proc.devRef .tc (Pipeline.arrRef spec12 w)) = (dat12 (V27 m) c).arrAt w cfg12.N := by
  unfold W28; exact Pipeline.withArrays_arr spec12 launch12.win.arr_inj c _ _ w
theorem W28_of_ne (c : Dev nD) (b : Ref sig .tc) (hb : ∀ w, Pipeline.arrRef spec12 w ≠ b) :
    W28 m c (Proc.devRef .tc b) = W27 m c (Proc.devRef .tc b) := by
  unfold W28; exact Pipeline.withArrays_of_ne spec12 c _ _ b hb
abbrev V28 : (c : Dev nD) → (b : Ref sig .tc) → Buf (Elt F) ((c : Thread nD τ).loc b) := fun c b => W28 m c b
abbrev W29 : Dev nD → Valuation τ sig (Elt F) := fun c => StableHlo.after hostOps13 (W28 m c)

abbrev adm : (p : Fin 13) → (pcfgs (F := F) p).Adm := fun p => (cfgs p).toPCfg_adm

def pdats : (p : Fin 13) → (c : Dev nD) → Dat τ (Elt F) Unit ℕ (UR sig nD τ) ℕ (Pipeline.pin (pcfgs (F := F)) adm p) c
  | ⟨0, _⟩ => fun c => dat0 (V3 m) c
  | ⟨1, _⟩ => fun c => dat1 (V5 m) c
  | ⟨2, _⟩ => fun c => dat2 (V7 m) c
  | ⟨3, _⟩ => fun c => dat3 (V9 m) c
  | ⟨4, _⟩ => fun c => dat4 (V11 m) c
  | ⟨5, _⟩ => fun c => dat5 (V13 m) c
  | ⟨6, _⟩ => fun c => dat6 (V15 m) c
  | ⟨7, _⟩ => fun c => dat7 (V17 m) c
  | ⟨8, _⟩ => fun c => dat8 (V19 m) c
  | ⟨9, _⟩ => fun c => dat9 (V21 m) c
  | ⟨10, _⟩ => fun c => dat10 (V23 m) c
  | ⟨11, _⟩ => fun c => dat11 (V25 m) c
  | ⟨12, _⟩ => fun c => dat12 (V27 m) c
abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

end Cert.KernelIdeal.Hand

end
-- ==== Proof.KI.RegSeg.lean ====
import proofs.«406641_j72756745994790_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- The thirteen regions differ only in their index, their proof data and the contents at their two boundaries. -/
def mkReg (p : Fin 13) (launch : Pipeline.LaunchFacts (nD := nD) (τ := τ) cfgs p)
    (Win Wout : Dev nD → Valuation τ sig (Elt F))
    (hbody : ∀ c, BodyObligation (pdats m p c) (defs₀ (F := F)) Variants.none () Set.univ)
    (hin : ∀ c, (Pipeline.ΦA (Pipeline.pin (pcfgs (F := F)) adm p).spec c : sProp 𝕄) ⊢ (pdats m p c).Φ 0)
    (hout : ∀ c, (pdats m p c).Φ (Fin.last _) ⊢ (Pipeline.ΦA (Pipeline.pin (pcfgs (F := F)) adm p).spec c : sProp 𝕄))
    (harr : ∀ c w, Wout c (Proc.devRef .tc (Pipeline.arrRef (Pipeline.pin (pcfgs (F := F)) adm p).spec w)) = (pdats m p c).arrAt w (Pipeline.pin (pcfgs (F := F)) adm p).N)
    (hne : ∀ c (b : Ref sig .tc), (∀ w, Pipeline.arrRef (Pipeline.pin (pcfgs (F := F)) adm p).spec w ≠ b) → Wout c (Proc.devRef .tc b) = Win c (Proc.devRef .tc b))
    (hA : ∀ c w, (pdats m p c).A w = Win c (Proc.devRef .tc (Pipeline.arrRef (Pipeline.pin (pcfgs (F := F)) adm p).spec w)))
    (hq : ∀ c t, (pdats m p c).q t = fullShare) (howed : ∀ c t, (pdats m p c).owed t = 0)
    (hrec : ∀ c, (pdats m p c).recorded 0 = Set.univ) :
    Pipeline.RegionSeg (pcfgs (F := F)) adm (pdats m) () defs₀ 𝒱₀ L lv p where
  win := launch.win.to₀
  block_pos := launch.block_pos
  stage_whole := launch.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Win c) ∗ R c)
  post c := iprop(StableHlo.held (c : Thread nD τ) (Pipeline.ucRefs τ sig) (Wout c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c (fun b => Win c (Proc.devRef .tc b))
  hentry c := by
    rw [Pipeline.ownSems0_none]
    have hsplit := Pipeline.arrays_of_unscopedBufs (p := p) (pcfgs (F := F)) adm (pdats m) launch.win launch.arr_whole c
      ((pdats m p c).share_full (hq c)) (fun b => Win c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl ((hrec c).symm ▸ trivial)
      iexact HO
    isplitl [Hp]; · iexact Hp
    iexact Hrest
  hin c := by
    have h : ∀ P Q S : sProp 𝕄, iprop(P ∗ Q ∗ S) ⊢ iprop(S ∗ P) := fun P Q S => by
      iintro ⟨Hp, -, Hr⟩
      isplitl [Hr]; · iexact Hr
      iexact Hp
    exact (h _ _ _).trans (hin c)
  hout c := by
    rw [Pipeline.ownSems0_none]
    have h : ∀ P S : sProp 𝕄, iprop(S ∗ P) ⊢ iprop(P ∗ BI.emp ∗ S) := fun P S => by
      iintro ⟨Hr, Hp⟩
      isplitl [Hp]; · iexact Hp
      isplitr; · iempintro
      iexact Hr
    exact (hout c).trans (h _ _)
  hexit c := by
    have hjoin := Pipeline.unscopedBufs_of_arrays (p := p) (pcfgs (F := F)) adm (Ix := Unit) (Name := ℕ) (U := UR sig nD τ) (Lvl := ℕ)
      launch.win launch.arr_whole c (pdats m) ((pdats m p c).share_full (hq c))
      (fun b => Win c (Proc.devRef .tc b)) (fun b => Wout c (Proc.devRef .tc b)) ((pdats m p c).arrAt · _) (fun w => (harr c w).symm)
      (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c (Fin.last _)]
    icases HO with ⟨%W, -, HO⟩; iexists W; iexact HO

set_option backward.isDefEq.respectTransparency.types false in
def reg0 : Pipeline.RegionSeg (pcfgs (F := F)) adm (pdats m) () defs₀ 𝒱₀ L lv 0 :=
  mkReg m 0 launch0 (W3 m) (W4 m) (body_obligation0 (V3 m)) (hin0 (V3 m)) (hout0 (V3 m)) (W4_arr m) (W4_of_ne m)
    (fun _ _ => rfl) (fun _ _ => rfl) (fun _ _ => rfl) (fun _ => rfl)

set_option backward.isDefEq.respectTransparency.types false in
def reg1 : Pipeline.RegionSeg (pcfgs (F := F)) adm (pdats m) () defs₀ 𝒱₀ L lv 1 :=
  mkReg m 1 launch1 (W5 m) (W6 m) (body_obligation1 (V5 m)) (hin1 (V5 m)) (hout1 (V5 m)) (W6_arr m) (W6_of_ne m)
    (fun _ _ => rfl) (fun _ _ => rfl) (fun _ _ => rfl) (fun _ => rfl)

set_option backward.isDefEq.respectTransparency.types false in
def reg2 : Pipeline.RegionSeg (pcfgs (F := F)) adm (pdats m) () defs₀ 𝒱₀ L lv 2 :=
  mkReg m 2 launch2 (W7 m) (W8 m) (body_obligation2 (V7 m)) (hin2 (V7 m)) (hout2 (V7 m)) (W8_arr m) (W8_of_ne m)
    (fun _ _ => rfl) (fun _ _ => rfl) (fun _ _ => rfl) (fun _ => rfl)

set_option backward.isDefEq.respectTransparency.types false in
def reg3 : Pipeline.RegionSeg (pcfgs (F := F)) adm (pdats m) () defs₀ 𝒱₀ L lv 3 :=
  mkReg m 3 launch3 (W9 m) (W10 m) (body_obligation3 (V9 m)) (hin3 (V9 m)) (hout3 (V9 m)) (W10_arr m) (W10_of_ne m)
    (fun _ _ => rfl) (fun _ _ => rfl) (fun _ _ => rfl) (fun _ => rfl)

set_option backward.isDefEq.respectTransparency.types false in
def reg4 : Pipeline.RegionSeg (pcfgs (F := F)) adm (pdats m) () defs₀ 𝒱₀ L lv 4 :=
  mkReg m 4 launch4 (W11 m) (W12 m) (body_obligation4 (V11 m)) (hin4 (V11 m)) (hout4 (V11 m)) (W12_arr m) (W12_of_ne m)
    (fun _ _ => rfl) (fun _ _ => rfl) (fun _ _ => rfl) (fun _ => rfl)

set_option backward.isDefEq.respectTransparency.types false in
def reg5 : Pipeline.RegionSeg (pcfgs (F := F)) adm (pdats m) () defs₀ 𝒱₀ L lv 5 :=
  mkReg m 5 launch5 (W13 m) (W14 m) (body_obligation5 (V13 m)) (hin5 (V13 m)) (hout5 (V13 m)) (W14_arr m) (W14_of_ne m)
    (fun _ _ => rfl) (fun _ _ => rfl) (fun _ _ => rfl) (fun _ => rfl)

set_option backward.isDefEq.respectTransparency.types false in
def reg6 : Pipeline.RegionSeg (pcfgs (F := F)) adm (pdats m) () defs₀ 𝒱₀ L lv 6 :=
  mkReg m 6 launch6 (W15 m) (W16 m) (body_obligation6 (V15 m)) (hin6 (V15 m)) (hout6 (V15 m)) (W16_arr m) (W16_of_ne m)
    (fun _ _ => rfl) (fun _ _ => rfl) (fun _ _ => rfl) (fun _ => rfl)

set_option backward.isDefEq.respectTransparency.types false in
def reg7 : Pipeline.RegionSeg (pcfgs (F := F)) adm (pdats m) () defs₀ 𝒱₀ L lv 7 :=
  mkReg m 7 launch7 (W17 m) (W18 m) (body_obligation7 (V17 m)) (hin7 (V17 m)) (hout7 (V17 m)) (W18_arr m) (W18_of_ne m)
    (fun _ _ => rfl) (fun _ _ => rfl) (fun _ _ => rfl) (fun _ => rfl)

set_option backward.isDefEq.respectTransparency.types false in
def reg8 : Pipeline.RegionSeg (pcfgs (F := F)) adm (pdats m) () defs₀ 𝒱₀ L lv 8 :=
  mkReg m 8 launch8 (W19 m) (W20 m) (body_obligation8 (V19 m)) (hin8 (V19 m)) (hout8 (V19 m)) (W20_arr m) (W20_of_ne m)
    (fun _ _ => rfl) (fun _ _ => rfl) (fun _ _ => rfl) (fun _ => rfl)

set_option backward.isDefEq.respectTransparency.types false in
def reg9 : Pipeline.RegionSeg (pcfgs (F := F)) adm (pdats m) () defs₀ 𝒱₀ L lv 9 :=
  mkReg m 9 launch9 (W21 m) (W22 m) (body_obligation9 (V21 m)) (hin9 (V21 m)) (hout9 (V21 m)) (W22_arr m) (W22_of_ne m)
    (fun _ _ => rfl) (fun _ _ => rfl) (fun _ _ => rfl) (fun _ => rfl)

set_option backward.isDefEq.respectTransparency.types false in
def reg10 : Pipeline.RegionSeg (pcfgs (F := F)) adm (pdats m) () defs₀ 𝒱₀ L lv 10 :=
  mkReg m 10 launch10 (W23 m) (W24 m) (body_obligation10 (V23 m)) (hin10 (V23 m)) (hout10 (V23 m)) (W24_arr m) (W24_of_ne m)
    (fun _ _ => rfl) (fun _ _ => rfl) (fun _ _ => rfl) (fun _ => rfl)

set_option backward.isDefEq.respectTransparency.types false in
def reg11 : Pipeline.RegionSeg (pcfgs (F := F)) adm (pdats m) () defs₀ 𝒱₀ L lv 11 :=
  mkReg m 11 launch11 (W25 m) (W26 m) (body_obligation11 (V25 m)) (hin11 (V25 m)) (hout11 (V25 m)) (W26_arr m) (W26_of_ne m)
    (fun _ _ => rfl) (fun _ _ => rfl) (fun _ _ => rfl) (fun _ => rfl)

set_option backward.isDefEq.respectTransparency.types false in
def reg12 : Pipeline.RegionSeg (pcfgs (F := F)) adm (pdats m) () defs₀ 𝒱₀ L lv 12 :=
  mkReg m 12 launch12 (W27 m) (W28 m) (body_obligation12 (V27 m)) (hin12 (V27 m)) (hout12 (V27 m)) (W28_arr m) (W28_of_ne m)
    (fun _ _ => rfl) (fun _ _ => rfl) (fun _ _ => rfl) (fun _ => rfl)

end Cert.KernelIdeal.Hand

end
-- ==== Proof.KI.Args.lean ====
import proofs.«406641_j72756745994790_1_alg».proof.Proof.KI.Fold

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev IsArg (b : Ref sig .tc) : Prop :=
  b = main_arg0 ∨ b = main_arg1 ∨ b = main_arg2 ∨ b = main_arg3 ∨ b = main_arg4 ∨ b = main_arg5 ∨ b = main_arg6

/-- After the first region no item writes an argument: it is no stretch's result and no later window's array. -/
theorem W29_eq_W4 (c : Dev nD) (b : Ref sig .tc) (hb : IsArg b) : W29 m c b = W4 m c b := by
  rcases hb with rfl | rfl | rfl | rfl | rfl | rfl | rfl <;> exact
    (StableHlo.after_of_writes_sub hostOps13 _ hostOps13_writes (by decide)).trans <|
    (W28_of_ne m c _ (by decide)).trans <|
    (StableHlo.after_of_writes_sub hostOps12 _ hostOps12_writes (by decide)).trans <|
    (W26_of_ne m c _ (by decide)).trans <|
    (StableHlo.after_of_writes_sub hostOps11 _ hostOps11_writes (by decide)).trans <|
    (W24_of_ne m c _ (by decide)).trans <|
    (StableHlo.after_of_writes_sub hostOps10 _ hostOps10_writes (by decide)).trans <|
    (W22_of_ne m c _ (by decide)).trans <|
    (StableHlo.after_of_writes_sub hostOps9 _ hostOps9_writes (by decide)).trans <|
    (W20_of_ne m c _ (by decide)).trans <|
    (StableHlo.after_of_writes_sub hostOps8 _ hostOps8_writes (by decide)).trans <|
    (W18_of_ne m c _ (by decide)).trans <|
    (StableHlo.after_of_writes_sub hostOps7 _ hostOps7_writes (by decide)).trans <|
    (W16_of_ne m c _ (by decide)).trans <|
    (StableHlo.after_of_writes_sub hostOps6 _ hostOps6_writes (by decide)).trans <|
    (W14_of_ne m c _ (by decide)).trans <|
    (StableHlo.after_of_writes_sub hostOps5 _ hostOps5_writes (by decide)).trans <|
    (W12_of_ne m c _ (by decide)).trans <|
    (StableHlo.after_of_writes_sub hostOps4 _ hostOps4_writes (by decide)).trans <|
    (W10_of_ne m c _ (by decide)).trans <|
    (StableHlo.after_of_writes_sub hostOps3 _ hostOps3_writes (by decide)).trans <|
    (W8_of_ne m c _ (by decide)).trans <|
    (StableHlo.after_of_writes_sub hostOps2 _ hostOps2_writes (by decide)).trans <|
    (W6_of_ne m c _ (by decide)).trans <|
    StableHlo.after_of_writes_sub hostOps1 _ hostOps1_writes (by decide)

/-- The first region reads the first argument through an input window and touches no other. -/
theorem W4_eq_W3 (c : Dev nD) (b : Ref sig .tc) (hb : IsArg b) : W4 m c b = W3 m c b := by
  rcases hb with rfl | rfl | rfl | rfl | rfl | rfl | rfl
  · exact (W4_arr m c 0).trans (((dat0 (V3 m) c).arrAt_in 0 rfl _).trans (A_eq0 (V3 m) c 0))
  all_goals exact W4_of_ne m c _ (by decide)

theorem W3_eq_launch (c : Dev nD) (b : Ref sig .tc) (hb : IsArg b) : W3 m c b = m ((c : Thread nD τ).loc b) := by
  rcases hb with rfl | rfl | rfl | rfl | rfl | rfl | rfl <;> exact
    (StableHlo.after_of_writes_sub hostOps0_2 _ hostOps0_2_writes (by decide)).trans <|
    (StableHlo.after_of_writes_sub hostOps0_1 _ hostOps0_1_writes (by decide)).trans <|
    StableHlo.after_of_writes_sub hostOps0 _ hostOps0_writes (by decide)

theorem W29_arg (c : Dev nD) (b : Ref sig .tc) (hb : IsArg b) : W29 m c b = m ((c : Thread nD τ).loc b) :=
  (W29_eq_W4 m c b hb).trans ((W4_eq_W3 m c b hb).trans (W3_eq_launch m c b hb))

end Cert.KernelIdeal.Hand

end
-- ==== Proof.KI.Main.lean ====
import proofs.«406641_j72756745994790_1_alg».proof.Proof.KI.RegSeg
import proofs.«406641_j72756745994790_1_alg».proof.Proof.KI.Args

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

abbrev Tₙ (c : Dev nD) : sProp 𝕄 := iprop(StableHlo.held (c : Thread nD τ) (Pipeline.ucRefs τ sig) (W29 m c) ∗ ∃ r, prngReg c r)

theorem last_link (c : Dev nD) : (iprop(StableHlo.held (c : Thread nD τ) (Pipeline.ucRefs τ sig) (W29 m c) ∗ R c) : sProp 𝕄)
    ⊢ iprop(Tₙ m c ∗ ∃ W, owes (c : Thread nD τ) (0 : CellTallies nD τ sig Unit) W) := by
  iintro ⟨Hh, Hp, HO⟩
  isplitl [Hh Hp]
  · isplitl [Hh]; · iexact Hh
    iexact Hp
  iexact HO

abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .region (reg0 m),
    .host (hseg hostOps1 hostOps1_sub hostOps1_fresh (W4 m)),
    .region (reg1 m),
    .host (hseg hostOps2 hostOps2_sub hostOps2_fresh (W6 m)),
    .region (reg2 m),
    .host (hseg hostOps3 hostOps3_sub hostOps3_fresh (W8 m)),
    .region (reg3 m),
    .host (hseg hostOps4 hostOps4_sub hostOps4_fresh (W10 m)),
    .region (reg4 m),
    .host (hseg hostOps5 hostOps5_sub hostOps5_fresh (W12 m)),
    .region (reg5 m),
    .host (hseg hostOps6 hostOps6_sub hostOps6_fresh (W14 m)),
    .region (reg6 m),
    .host (hseg hostOps7 hostOps7_sub hostOps7_fresh (W16 m)),
    .region (reg7 m),
    .host (hseg hostOps8 hostOps8_sub hostOps8_fresh (W18 m)),
    .region (reg8 m),
    .host (hseg hostOps9 hostOps9_sub hostOps9_fresh (W20 m)),
    .region (reg9 m),
    .host (hseg hostOps10 hostOps10_sub hostOps10_fresh (W22 m)),
    .region (reg10 m),
    .host (hseg hostOps11 hostOps11_sub hostOps11_fresh (W24 m)),
    .region (reg11 m),
    .host (hseg hostOps12 hostOps12_sub hostOps12_fresh (W26 m)),
    .region (reg12 m),
    .host (hseg hostOps13 hostOps13_sub hostOps13_fresh (W28 m)) ]

theorem main_run (c : Dev nD) : main (F := F) c = Pipeline.Seg.run (segs m) := by
  rw [main_chain c, Pipeline.Seg.run_eq_chain]; rfl

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in

theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = W29 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => last_link m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W29 m c b)
    (hfin := fun c s' => by
      iintro ⟨⟨Hh, -⟩, HSI⟩
      unfold StableHlo.held
      imodintro
      iapply (pointsTo_read_all (Pipeline.ucRefs τ sig) (fun b => (((c : Thread nD τ)).1, b)) (W29 m c) s')
      isplitl [Hh] <;> iassumption)
    (hQ := fun s h c => h c)

abbrev Kept (mem : (ℓ : Loc nD τ sig) → Buf (Elt F) ℓ) (c : Dev nD) : Prop :=
    mem ((c.tc : Thread nD τ).loc main_arg0) = m ((c.tc : Thread nD τ).loc main_arg0)
    ∧ mem ((c.tc : Thread nD τ).loc main_arg1) = m ((c.tc : Thread nD τ).loc main_arg1)
    ∧ mem ((c.tc : Thread nD τ).loc main_arg2) = m ((c.tc : Thread nD τ).loc main_arg2)
    ∧ mem ((c.tc : Thread nD τ).loc main_arg3) = m ((c.tc : Thread nD τ).loc main_arg3)
    ∧ mem ((c.tc : Thread nD τ).loc main_arg4) = m ((c.tc : Thread nD τ).loc main_arg4)
    ∧ mem ((c.tc : Thread nD τ).loc main_arg5) = m ((c.tc : Thread nD τ).loc main_arg5)
    ∧ mem ((c.tc : Thread nD τ).loc main_arg6) = m ((c.tc : Thread nD τ).loc main_arg6)

theorem args_kept (c : Dev nD) (mem : (ℓ : Loc nD τ sig) → Buf (Elt F) ℓ)
    (h : ∀ b ∈ Pipeline.ucRefs τ sig, mem (((c : Thread nD τ)).1, b) = W29 m c b) : Kept m mem c :=
  have k (b : Ref sig .tc) (hb : IsArg b) (hu : ¬ (Proc.devRef .tc b : DevRef τ sig).isScoped) :=
    (h _ (mem_uc b hu)).trans (W29_arg m c b hb)
  ⟨k _ (.inl rfl) (by decide), k _ (.inr (.inl rfl)) (by decide), k _ (.inr (.inr (.inl rfl))) (by decide),
   k _ (.inr (.inr (.inr (.inl rfl)))) (by decide), k _ (.inr (.inr (.inr (.inr (.inl rfl))))) (by decide),
   k _ (.inr (.inr (.inr (.inr (.inr (.inl rfl)))))) (by decide), k _ (.inr (.inr (.inr (.inr (.inr (.inr (rfl))))))) (by decide)⟩

/-- Generic in the float instance, so that the certificate reads it at both of its instances. -/
theorem frame_args (ρ : Dev nD → PrngReg) :
    θ_run defs (onTc (τ := τ) (main (F := F))) ⟨m, fun _ => 0, ρ⟩ (fun r => ∀ c : Dev nD, Kept m r.2.mem c) :=
  (θ_run defs _ _).mono (fun r h c => args_kept m c r.2.mem (h c)) (run_all m ρ)

end Cert.KernelIdeal.Hand

end
-- ==== Proof.LibPlainDot.lean ====
import Idealize.ShloMosaic.PureOps.Ideal.Laws
import Idealize.ShloMosaic.Lib.ValueIdx
import Idealize.ShloMosaic.PureOps.Dims

open scoped BigOperators

namespace Cert.Lib.PlainDot

open Idealize.ShloMosaic Idealize.ShloMosaic.ValueIdx

variable {M K N : Nat} (d : DotDims ⟨2, ![M, K]⟩ ⟨2, ![K, N]⟩ ⟨2, ![M, N]⟩)

theorem rank_contr_eq_one (hlc : d.lhsContracting = [1]) : d.contr.rank = 1 := by
  rw [d.rank_contr, hlc]; rfl

theorem size_contr_eq (hlc : d.lhsContracting = [1]) :
    d.contr.size ⟨0, by rw [rank_contr_eq_one d hlc]; exact Nat.one_pos⟩ = K := by
  have h0 : 0 < d.lhsContracting.length := by rw [hlc]; exact Nat.one_pos
  rw [d.size_contr 0 h0]
  have h1 : d.lhsContracting[0] = 1 := by simp [hlc]
  rw [h1]; rfl

theorem lhsIdx_zero_val (hln : d.lhsNonContracting = [0]) (hlb : d.lhsBatch = [])
    (j : (⟨2, ![M, N]⟩ : Shape).Idx) (k : d.contr.Idx) : (d.lhsIdx j k 0).val = (j 0).val := by
  have hb : (0 : Fin (⟨2, ![M, K]⟩ : Shape).rank) ∉ d.lhsBatch := by rw [hlb]; exact List.not_mem_nil
  have hn : (0 : Fin (⟨2, ![M, K]⟩ : Shape).rank) ∈ d.lhsNonContracting := by rw [hln]; exact List.mem_singleton.mpr rfl
  unfold DotDims.lhsIdx
  rw [dif_neg hb, dif_pos hn]
  simp only [Fin.val_cast]
  have key : ∀ (n : Nat) (h : n < (⟨2, ![M, N]⟩ : Shape).rank), n = 0 → (j ⟨n, h⟩).val = (j 0).val :=
    fun n h e => by subst e; rfl
  exact key _ _ (by simp [hlb, hln])

theorem rhsIdx_one_val (hln : d.lhsNonContracting = [0]) (hrn : d.rhsNonContracting = [1])
    (hlb : d.lhsBatch = []) (hrb : d.rhsBatch = [])
    (j : (⟨2, ![M, N]⟩ : Shape).Idx) (k : d.contr.Idx) : (d.rhsIdx j k 1).val = (j 1).val := by
  have hb : (1 : Fin (⟨2, ![K, N]⟩ : Shape).rank) ∉ d.rhsBatch := by rw [hrb]; exact List.not_mem_nil
  have hn : (1 : Fin (⟨2, ![K, N]⟩ : Shape).rank) ∈ d.rhsNonContracting := by rw [hrn]; exact List.mem_singleton.mpr rfl
  unfold DotDims.rhsIdx
  rw [dif_neg hb, dif_pos hn]
  simp only [Fin.val_cast]
  have key : ∀ (n : Nat) (h : n < (⟨2, ![M, N]⟩ : Shape).rank), n = 1 → (j ⟨n, h⟩).val = (j 1).val :=
    fun n h e => by subst e; rfl
  exact key _ _ (by simp [hlb, hln, hrn])

theorem sum_eq (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (p : Fin M) (q : Fin N) :
    (∑ k : d.contr.Idx, l (d.lhsIdx (ix2 p q) k) * r (d.rhsIdx (ix2 p q) k)) = ∑ k : Fin K, l (ix2 p k) * r (ix2 k q) := by
  have hr : d.contr.rank = 1 := rank_contr_eq_one d hlc
  have hs : d.contr.size ⟨0, by omega⟩ = K := size_contr_eq d hlc
  refine (Equiv.sum_comp (contrEquiv1 d K hr hs).symm
    (fun k => l (d.lhsIdx (ix2 p q) k) * r (d.rhsIdx (ix2 p q) k))).symm.trans ?_
  refine Finset.sum_congr rfl fun i _ => ?_
  have hL : d.lhsIdx (ix2 p q) ((contrEquiv1 d K hr hs).symm i) = ix2 p i := by
    funext a
    match a with
    | ⟨0, _⟩ => exact Fin.ext (lhsIdx_zero_val d hln hlb _ _)
    | ⟨1, _⟩ => exact Fin.ext ((d.lhsIdx_val_of_single hlc _ _).trans (contrEquiv1_symm_val d K hr hs i))
  have hR : d.rhsIdx (ix2 p q) ((contrEquiv1 d K hr hs).symm i) = ix2 i q := by
    funext a
    match a with
    | ⟨0, _⟩ => exact Fin.ext ((d.rhsIdx_val_of_single hrc _ _).trans (contrEquiv1_symm_val d K hr hs i))
    | ⟨1, _⟩ => exact Fin.ext (rhsIdx_one_val d hln hrn hlb hrb _ _)
  show l _ * r _ = _
  rw [hL, hR]

theorem matmul_zero_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (l : FVec Ideal ⟨2, ![M, K]⟩ φ₁) (r : FVec Ideal ⟨2, ![K, N]⟩ φ₂) (p : Fin M) (q : Fin N) :
    FloatOps.matmul d prec l r (constant (F := Ideal) ⟨2, ![M, N]⟩ .f32 0x00000000#32) (ix2 p q)
      = ∑ k : Fin K, l (ix2 p k) * r (ix2 k q) :=
  (Ideal.matmul_constant_zero_apply d prec l r (ix2 p q)).trans (sum_eq d hlc hrc hln hrn hlb hrb l r p q)

theorem dotGeneral_apply {φ₁ φ₂ : FTy} (hlc : d.lhsContracting = [1]) (hrc : d.rhsContracting = [0])
    (hln : d.lhsNonContracting = [0]) (hrn : d.rhsNonContracting = [1])
    (hlb : d.lhsBatch = []) (hrb : d.rhsBatch = []) (prec : Option ContractPrecision) (sched : HostSchedule)
    (l : FVec Ideal ⟨2, ![M, K]⟩ φ₁) (r : FVec Ideal ⟨2, ![K, N]⟩ φ₂) (p : Fin M) (q : Fin N) :
    FloatOps.dotGeneral d prec sched l r (ix2 p q) = ∑ k : Fin K, l (ix2 p k) * r (ix2 k q) :=
  (Ideal.dotGeneral_apply d prec sched l r (ix2 p q)).trans (sum_eq d hlc hrc hln hrn hlb hrb l r p q)

end Cert.Lib.PlainDot
-- ==== Proof.KI.Val0.lean ====
import proofs.«406641_j72756745994790_1_alg».proof.Proof.KI.Reg0
import proofs.«406641_j72756745994790_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev xblk0 (c : Dev nD) (t : Fin cfg0.N) : Vec Ideal S2000x96 .f32 := iblk0 V c 0 t
abbrev wblk0 (c : Dev nD) (t : Fin cfg0.N) : Vec Ideal S96x96 .f32 := iblk0 V c 1 t

abbrev xarr0 (c : Dev nD) : S50000x96.Idx → Ideal .f32 := V c (Pipeline.arrRef spec0 0)
abbrev warr0 (c : Dev nD) : S96x96.Idx → Ideal .f32 := V c (Pipeline.arrRef spec0 1)

theorem pay0_apply (x : Vec Ideal S2000x96 .f32) (w : Vec Ideal S96x96 .f32) (r : Fin 2000) (j : Fin 96) :
    k0_pay1 x w (ix2 r j) = ∑ k : Fin 96, x (ix2 r k) * w (ix2 k j) := by
  unfold k0_pay1
  simp only [shapeCast_self]
  exact Cert.Lib.PlainDot.matmul_zero_apply dot_S2000x96_S96x96_S2000x96_1_0_0_1_n_n rfl rfl rfl rfl rfl rfl none
    (truncf .bf16 x bitsLt_bf16_f32) (truncf .bf16 w bitsLt_bf16_f32) r j

def matprod0 (a : S50000x96.Idx → Ideal .f32) (w : S96x96.Idx → Ideal .f32) : S50000x96.Idx → Ideal .f32 := fun i =>
  ∑ k : Fin 96, a (ix2 (i 0) k) * w (ix2 k (i 1))

theorem matprod0_apply (a : S50000x96.Idx → Ideal .f32) (w : S96x96.Idx → Ideal .f32) (n : Fin 50000) (j : Fin 96) :
    matprod0 a w (ix2 n j) = ∑ k : Fin 96, a (ix2 n k) * w (ix2 k j) := rfl

theorem block_indices0 : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = 0 ∧ win0_1.index t (1 : Fin 2) = 0
    ∧ win0_2.index t (0 : Fin 2) ≤ 24 :=
  (by decide +kernel : ∀ t : Fin grid0.N, _)

theorem block_onto0 : ∀ q : Fin 25, ∃ t : Fin cfg0.N, win0_2.index t = ![q.val, 0] :=
  (by decide +kernel : ∀ q : Fin 25, ∃ t : Fin grid0.N, win0_2.index t = ![q.val, 0])

theorem pay0_matprod (a : S50000x96.Idx → Ideal .f32) (w' : S96x96.Idx → Ideal .f32)
    (x : Vec Ideal S2000x96 .f32) (w : Vec Ideal S96x96 .f32) (y : S2000x96.Idx) (i : S50000x96.Idx)
    (hx : ∀ k : Fin 96, x (ix2 (y 0) k) = a (ix2 (i 0) k)) (hcol : (i 1).val = (y 1).val)
    (hw : ∀ k j : Fin 96, w (ix2 k j) = w' (ix2 k j)) :
    k0_pay1 x w y = matprod0 a w' i := by
  obtain ⟨r, j, rfl⟩ : ∃ (r : Fin 2000) (j : Fin 96), y = ix2 r j := ⟨y 0, y 1, eq_ix2 y⟩
  have hi : (i 1 : Fin 96) = j := Fin.ext hcol
  rw [pay0_apply]
  unfold matprod0
  rw [hi]
  exact Finset.sum_congr rfl fun k _ => congrArg₂ (· * ·) (hx k) (hw k j)

theorem node_entry0 (c : Dev nD) (t : Fin cfg0.N) (y : S2000x96.Idx) (k : Fin 96) :
    xblk0 V c t (ix2 (y 0) k) = xarr0 V c (ix2 ((((cfg0.win 2).blk t).view.emb y : S50000x96.Idx) 0) k) := by
  obtain ⟨e0, e1, e2, e3, e4, e5⟩ := block_indices0 t
  show V c (Pipeline.arrRef spec0 0) (((cfg0.win 0).blk t).view.emb (ix2 (y 0) k)) = _
  refine congrArg _ (funext fun a => Fin.ext ?_)
  match a with
  | ⟨0, _⟩ => show win0_0.index t (0 : Fin 2) * 2000 + 1 * (y 0).val = win0_2.index t (0 : Fin 2) * 2000 + 1 * (y 0).val; omega
  | ⟨1, _⟩ => show win0_0.index t (1 : Fin 2) * 96 + 1 * k.val = k.val; omega

theorem col_keep0 (t : Fin cfg0.N) (y : S2000x96.Idx) :
    ((((cfg0.win 2).blk t).view.emb y : S50000x96.Idx) 1).val = (y 1).val := by
  obtain ⟨e0, e1, e2, e3, e4, e5⟩ := block_indices0 t
  show win0_2.index t (1 : Fin 2) * 96 + 1 * (y 1).val = (y 1).val; omega

theorem weight_entry0 (c : Dev nD) (t : Fin cfg0.N) (k j : Fin 96) : wblk0 V c t (ix2 k j) = warr0 V c (ix2 k j) := by
  obtain ⟨e0, e1, e2, e3, e4, e5⟩ := block_indices0 t
  show V c (Pipeline.arrRef spec0 1) (((cfg0.win 1).blk t).view.emb (ix2 k j)) = _
  refine congrArg _ (funext fun a => Fin.ext ?_)
  match a with
  | ⟨0, _⟩ => show win0_1.index t (0 : Fin 2) * 96 + 1 * k.val = k.val; omega
  | ⟨1, _⟩ => show win0_1.index t (1 : Fin 2) * 96 + 1 * j.val = j.val; omega

theorem flushed0_2_eq (c : Dev nD) (t : Fin cfg0.N) :
    (dat0 V c).flushed 2 t = ((cfg0.win 2).blk t).view.read (Elt Ideal) (matprod0 (xarr0 V c) (warr0 V c)) := by
  show (cfg0.win 2).cut (grid0.coords t) ((dat0 V c).after 2 t) = _
  rw [after0_2]
  funext y
  exact pay0_matprod (xarr0 V c) (warr0 V c) (xblk0 V c t) (wblk0 V c t) y (((cfg0.win 2).blk t).view.emb y)
    (node_entry0 V c t y) (col_keep0 t y) (weight_entry0 V c t)

theorem mem_oblk0 (t : Fin cfg0.N) (i : S50000x96.Idx) :
    i ∈ ((cfg0.win 2).blk t).view.set ↔ ∀ a : Fin 2, win0_2.index t a * S2000x96.size a ≤ (i a).val ∧ (i a).val < win0_2.index t a * S2000x96.size a + S2000x96.size a := by
  show i ∈ ((View.whole main_v35).slice (win0_2.rect t)).set ↔ _
  rw [View.set_slice_whole, Rect.mem_set_unit]
  exact Iff.rfl

theorem oblk_cover0 (i : S50000x96.Idx) : ∃ t : Fin cfg0.N, (cfg0.win 2).flush t = true ∧ i ∈ ((cfg0.win 2).blk t).view.set := by
  have hi0 : (i 0).val < 50000 := (i 0).isLt
  have hi1 : (i 1).val < 96 := (i 1).isLt
  obtain ⟨t, ht⟩ := block_onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_oblk0]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 96 ≤ (i 1).val ∧ (i 1).val < win0_2.index t (1 : Fin 2) * 96 + 96; omega

theorem final0_2 (c : Dev nD) :
    (dat0 (F := Ideal) V c).arrAt 2 cfg0.N = matprod0 (xarr0 V c) (warr0 V c) :=
  (dat0 V c).arrAt_eq_of_cover 2 (matprod0 (xarr0 V c) (warr0 V c))
    (fun t _ => flushed0_2_eq V c t) oblk_cover0

theorem final0_2_apply (c : Dev nD) (n : Fin 50000) (j : Fin 96) :
    ((dat0 (F := Ideal) V c).arrAt 2 cfg0.N : S50000x96.Idx → Ideal .f32) (ix2 n j)
      = ∑ k : Fin 96, xarr0 V c (ix2 n k) * warr0 V c (ix2 k j) :=
  (congrFun (final0_2 V c) (ix2 n j)).trans (matprod0_apply (xarr0 V c) (warr0 V c) n j)

end Cert.KernelIdeal.HandValue

end
-- ==== Proof.KI.Val1.lean ====
import proofs.«406641_j72756745994790_1_alg».proof.Proof.KI.Reg1
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Intervals
import Mathlib.Algebra.BigOperators.Fin

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev nodes1 (c : Dev nD) : S50000x96.Idx → EReal := V c (Pipeline.arrRef spec1 0)

def entry1 (a : S50000x96.Idx → EReal) (j : Fin 96) (m : ℕ) : EReal :=
  if h : m < 50000 then a (ix2 ⟨m, h⟩ j) else 0

theorem entry1_fin (a : S50000x96.Idx → EReal) (j : Fin 96) (n : Fin 50000) : entry1 a j n.val = a (ix2 n j) := by
  unfold entry1; rw [dif_pos n.isLt]

theorem lift_row1 (j : S96.Idx) (k : Fin (S2000x96.size 0)) : reduces_S2000x96_S96.lift j k = ix2 k (j 0) := by
  funext a
  match a with
  | ⟨0, _⟩ => exact Fin.ext (by rw [Shape.Reduces.lift_val]; simp [Shape.Reduces.liftVal])
  | ⟨1, _⟩ => exact Fin.ext (by rw [Shape.Reduces.lift_val]; simp [Shape.Reduces.liftVal])

theorem pay1_zero1 : (k1_pay1 (F := Ideal) : S1x96.Idx → EReal) = fun _ => 0 := by
  unfold k1_pay1; simp only [shapeCast_self]; funext i; exact Ideal.ofBits_zero_f32
theorem pay2_zero1 : (k1_pay2 (F := Ideal) : S1x96.Idx → EReal) = fun _ => 0 := by
  unfold k1_pay2; simp only [shapeCast_self]; funext i; exact Ideal.ofBits_zero_f32

theorem pay4_apply1 (x : S2000x96.Idx → EReal) (s : S1x96.Idx → EReal) (i : S1x96.Idx) :
    (k1_pay4 (F := Ideal) x s : S1x96.Idx → EReal) i = s i + ∑ r : Fin 2000, x (ix2 r (i 1)) := by
  unfold k1_pay4 k1_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg x (lift_row1 (fun a => i a.succ) r)

theorem pay5_apply1 (x : S2000x96.Idx → EReal) (s : S1x96.Idx → EReal) (i : S1x96.Idx) :
    (k1_pay5 (F := Ideal) x s : S1x96.Idx → EReal) i = s i + ∑ r : Fin 2000, x (ix2 r (i 1)) * x (ix2 r (i 1)) := by
  unfold k1_pay5 k1_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg (fun q => x q * x q) (lift_row1 (fun a => i a.succ) r)

theorem blockIndex1 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)

theorem iblk1_apply (c : Dev nD) (t : Fin cfg1.N) (x : S2000x96.Idx) (k : S50000x96.Idx)
    (hk0 : (k 0).val = 2000 * t.val + (x 0).val) (hk1 : (k 1).val = (x 1).val) :
    (iblk1 V c 0 t : S2000x96.Idx → EReal) x = nodes1 V c k := by
  obtain ⟨h0, h1⟩ := blockIndex1 t
  unfold iblk1
  rw [View.read_apply]
  show V c main_v52 _ = V c main_v52 _
  congr 1
  funext a
  apply Fin.ext
  match a with
  | ⟨0, _⟩ => show win1_0.index t 0 * 2000 + 1 * (x 0).val = (k 0).val; rw [h0, hk0]; omega
  | ⟨1, _⟩ => show win1_0.index t 1 * 96 + 1 * (x 1).val = (k 1).val; rw [h1, hk1]; omega

theorem blockSumG1 (g : EReal → EReal) (c : Dev nD) (t : Fin cfg1.N) (j : Fin 96) :
    ∑ r : Fin 2000, g ((iblk1 V c 0 t : S2000x96.Idx → EReal) (ix2 r j))
      = ∑ r ∈ Finset.range 2000, g (entry1 (nodes1 V c) j (2000 * t.val + r)) := by
  rw [← Fin.sum_univ_eq_sum_range (fun r => g (entry1 (nodes1 V c) j (2000 * t.val + r))) 2000]
  refine Finset.sum_congr rfl fun r _ => ?_
  have hN : t.val < 25 := lt_of_lt_of_eq t.isLt (show cfg1.N = 25 from N_1)
  have hr := r.isLt
  have hm : 2000 * t.val + r.val < 50000 := by omega
  unfold entry1; rw [dif_pos hm]
  exact congrArg g (iblk1_apply V c t (ix2 r j) (ix2 ⟨_, hm⟩ j) rfl rfl)

theorem acc1_closed (c : Dev nD) : ∀ (n : ℕ) (hn : n < cfg1.N) (i : S1x96.Idx),
    ((acc1 V c n hn).1 : S1x96.Idx → EReal) i = ∑ m ∈ Finset.range (2000 * (n + 1)), entry1 (nodes1 V c) (i 1) m
    ∧ ((acc1 V c n hn).2 : S1x96.Idx → EReal) i
        = ∑ m ∈ Finset.range (2000 * (n + 1)), entry1 (nodes1 V c) (i 1) m * entry1 (nodes1 V c) (i 1) m
  | 0, hn, i => by
    rw [acc1_zero]; dsimp only
    rw [pay4_apply1, pay5_apply1, pay1_zero1, pay2_zero1]
    simp only [zero_add]
    exact ⟨(blockSumG1 V (fun v => v) c ⟨0, hn⟩ (i 1)).trans (by simp only [Nat.mul_zero, Nat.zero_add, Nat.mul_one]),
           (blockSumG1 V (fun v => v * v) c ⟨0, hn⟩ (i 1)).trans (by simp only [Nat.mul_zero, Nat.zero_add, Nat.mul_one])⟩
  | n + 1, hn, i => by
    obtain ⟨ih1, ih2⟩ := acc1_closed c n (Nat.lt_of_succ_lt hn) i
    rw [acc1_succ]; dsimp only
    rw [pay4_apply1, pay5_apply1, ih1, ih2]
    rw [show 2000 * (n + 1 + 1) = 2000 * (n + 1) + 2000 from by ring, Finset.sum_range_add, Finset.sum_range_add]
    exact ⟨congrArg (fun z => _ + z) (blockSumG1 V (fun v => v) c ⟨n + 1, hn⟩ (i 1)),
           congrArg (fun z => _ + z) (blockSumG1 V (fun v => v * v) c ⟨n + 1, hn⟩ (i 1))⟩

abbrev tLast1 : Fin cfg1.N := ⟨24, by decide⟩

abbrev sums1 (c : Dev nD) : Buf (Elt Ideal) ((c : Thread nD τ).loc main_v53_0) := (acc1 V c 24 (by decide)).1
abbrev sumSqs1 (c : Dev nD) : Buf (Elt Ideal) ((c : Thread nD τ).loc main_v53_1) := (acc1 V c 24 (by decide)).2

theorem flushed1_1 (c : Dev nD) (t : Fin cfg1.N) (hf : (cfg1.win 1).flush t = true) :
    (dat1 V c).flushed 1 t = ((cfg1.win 1).blk t).view.read (Elt Ideal) (sums1 V c) := by
  have hN : cfg1.N = 25 := N_1
  have h24 : t.val = 24 := by have := (flush1_1 t).mp hf; have := t.isLt; omega
  obtain rfl : t = tLast1 := Fin.ext h24
  show (cfg1.win 1).cut (grid1.coords tLast1) ((dat1 V c).after 1 tLast1) = _
  rw [after1_1]
  have hz' : (fun a => win1_1.index tLast1 a * main_v53_0.ty.shape.size a) = fun _ => 0 := funext fun a => by fin_cases a <;> decide
  exact (Memref.read_access_unit_zero (Elt Ideal) main_v53_0 hz' (fun a => by rw [congrFun hz' a]; simp) (sums1 V c)).symm

theorem flushed1_2 (c : Dev nD) (t : Fin cfg1.N) (hf : (cfg1.win 2).flush t = true) :
    (dat1 V c).flushed 2 t = ((cfg1.win 2).blk t).view.read (Elt Ideal) (sumSqs1 V c) := by
  have hN : cfg1.N = 25 := N_1
  have h24 : t.val = 24 := by have := (flush1_2 t).mp hf; have := t.isLt; omega
  obtain rfl : t = tLast1 := Fin.ext h24
  show (cfg1.win 2).cut (grid1.coords tLast1) ((dat1 V c).after 2 tLast1) = _
  rw [after1_2]
  have hz' : (fun a => win1_2.index tLast1 a * main_v53_1.ty.shape.size a) = fun _ => 0 := funext fun a => by fin_cases a <;> decide
  exact (Memref.read_access_unit_zero (Elt Ideal) main_v53_1 hz' (fun a => by rw [congrFun hz' a]; simp) (sumSqs1 V c)).symm

theorem arr1_1 (c : Dev nD) : (dat1 V c).arrAt 1 cfg1.N = sums1 V c :=
  (dat1 V c).arrAt_eq_of_cover 1 (sums1 V c) (flushed1_1 V c) fun i =>
    ⟨tLast1, (flush1_1 tLast1).mpr rfl, by
      show i ∈ ((View.whole main_v53_0).slice (win1_1.rect tLast1)).set
      rw [View.set_slice_whole, Rect.mem_set_unit]
      intro a
      have h0 : (i 0 : Nat) < 1 := (i 0).isLt
      have h1 : (i 1 : Nat) < 96 := (i 1).isLt
      match a with
      | ⟨0, _⟩ => show win1_1.index tLast1 0 * win1_1.size 0 ≤ (i 0 : Nat) ∧ (i 0 : Nat) < win1_1.index tLast1 0 * win1_1.size 0 + win1_1.xsize (grid1.coords tLast1) 0
                  rw [show win1_1.index tLast1 0 * win1_1.size 0 = 0 from by decide +kernel, show win1_1.xsize (grid1.coords tLast1) 0 = 1 from by decide +kernel]; omega
      | ⟨1, _⟩ => show win1_1.index tLast1 1 * win1_1.size 1 ≤ (i 1 : Nat) ∧ (i 1 : Nat) < win1_1.index tLast1 1 * win1_1.size 1 + win1_1.xsize (grid1.coords tLast1) 1
                  rw [show win1_1.index tLast1 1 * win1_1.size 1 = 0 from by decide +kernel, show win1_1.xsize (grid1.coords tLast1) 1 = 96 from by decide +kernel]; omega⟩

theorem arr1_2 (c : Dev nD) : (dat1 V c).arrAt 2 cfg1.N = sumSqs1 V c :=
  (dat1 V c).arrAt_eq_of_cover 2 (sumSqs1 V c) (flushed1_2 V c) fun i =>
    ⟨tLast1, (flush1_2 tLast1).mpr rfl, by
      show i ∈ ((View.whole main_v53_1).slice (win1_2.rect tLast1)).set
      rw [View.set_slice_whole, Rect.mem_set_unit]
      intro a
      have h0 : (i 0 : Nat) < 1 := (i 0).isLt
      have h1 : (i 1 : Nat) < 96 := (i 1).isLt
      match a with
      | ⟨0, _⟩ => show win1_2.index tLast1 0 * win1_2.size 0 ≤ (i 0 : Nat) ∧ (i 0 : Nat) < win1_2.index tLast1 0 * win1_2.size 0 + win1_2.xsize (grid1.coords tLast1) 0
                  rw [show win1_2.index tLast1 0 * win1_2.size 0 = 0 from by decide +kernel, show win1_2.xsize (grid1.coords tLast1) 0 = 1 from by decide +kernel]; omega
      | ⟨1, _⟩ => show win1_2.index tLast1 1 * win1_2.size 1 ≤ (i 1 : Nat) ∧ (i 1 : Nat) < win1_2.index tLast1 1 * win1_2.size 1 + win1_2.xsize (grid1.coords tLast1) 1
                  rw [show win1_2.index tLast1 1 * win1_2.size 1 = 0 from by decide +kernel, show win1_2.xsize (grid1.coords tLast1) 1 = 96 from by decide +kernel]; omega⟩

theorem final1_1 (c : Dev nD) :
    (dat1 (F := Ideal) V c).arrAt 1 cfg1.N
      = fun i : S1x96.Idx => ∑ n : Fin 50000, nodes1 V c (ix2 n (i 1)) := by
  rw [arr1_1]; funext i
  refine ((acc1_closed V c 24 (by decide) i).1).trans ?_
  rw [show 2000 * (24 + 1) = 50000 from rfl, ← Fin.sum_univ_eq_sum_range (fun m => entry1 (nodes1 V c) (i 1) m) 50000]
  exact Finset.sum_congr rfl fun n _ => entry1_fin _ _ n

theorem final1_2 (c : Dev nD) :
    (dat1 (F := Ideal) V c).arrAt 2 cfg1.N
      = fun i : S1x96.Idx => ∑ n : Fin 50000, nodes1 V c (ix2 n (i 1))
          * nodes1 V c (ix2 n (i 1)) := by
  rw [arr1_2]; funext i
  refine ((acc1_closed V c 24 (by decide) i).2).trans ?_
  rw [show 2000 * (24 + 1) = 50000 from rfl, ← Fin.sum_univ_eq_sum_range (fun m => entry1 (nodes1 V c) (i 1) m * entry1 (nodes1 V c) (i 1) m) 50000]
  exact Finset.sum_congr rfl fun n _ => congrArg₂ (· * ·) (entry1_fin _ _ n) (entry1_fin _ _ n)

end Cert.KernelIdeal.HandValue

end
-- ==== Proof.KI.Val2.lean ====
import proofs.«406641_j72756745994790_1_alg».proof.Proof.KI.Reg2
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev xblk2 (c : Dev nD) (t : Fin cfg2.N) : Vec Ideal S2000x96 .f32 := iblk2 V c 0 t

abbrev mublk2 (c : Dev nD) (t : Fin cfg2.N) : Vec Ideal S1x96 .f32 := iblk2 V c 1 t
abbrev vablk2 (c : Dev nD) (t : Fin cfg2.N) : Vec Ideal S1x96 .f32 := iblk2 V c 2 t
abbrev gblk2 (c : Dev nD) (t : Fin cfg2.N) : Vec Ideal S1x96 .f32 := iblk2 V c 3 t
abbrev bblk2 (c : Dev nD) (t : Fin cfg2.N) : Vec Ideal S1x96 .f32 := iblk2 V c 4 t

abbrev xarr2 (c : Dev nD) : S50000x96.Idx → Ideal .f32 := V c (Pipeline.arrRef spec2 0)
abbrev muarr2 (c : Dev nD) : S1x96.Idx → Ideal .f32 := V c (Pipeline.arrRef spec2 1)
abbrev vaarr2 (c : Dev nD) : S1x96.Idx → Ideal .f32 := V c (Pipeline.arrRef spec2 2)
abbrev garr2 (c : Dev nD) : S1x96.Idx → Ideal .f32 := V c (Pipeline.arrRef spec2 3)
abbrev barr2 (c : Dev nD) : S1x96.Idx → Ideal .f32 := V c (Pipeline.arrRef spec2 4)

theorem row_spread2 (v : FVec Ideal S1x96 .f32) (r : Fin 2000) (j : Fin 96) :
    broadcastTo S2000x96 v broadcasts_S1x96_S2000x96 (ix2 r j) = v (ix2 0 j) :=
  broadcastTo_apply v broadcasts_S1x96_S2000x96 (ix2 r j) (ix2 0 j) (fun a => by
    match a with
    | ⟨0, _⟩ => rfl
    | ⟨1, _⟩ => rfl)

theorem pay2_apply (mu va g b : Vec Ideal S1x96 .f32) (x : Vec Ideal S2000x96 .f32) (r : Fin 2000) (j : Fin 96) :
    k2_pay1 mu va g b x (ix2 r j)
      = max (((x (ix2 r j) - mu (ix2 0 j)) * Ideal.rsqrt (va (ix2 0 j) + Ideal.ofBits .f32 0x3727C5AC#32)) * g (ix2 0 j) + b (ix2 0 j)) 0 := by
  unfold k2_pay1
  simp only [shapeCast_self]
  rw [maximumf_apply, addf_apply, mulf_apply, mulf_apply, subf_apply, row_spread2, row_spread2, row_spread2, row_spread2,
    broadcast_apply]
  show max (((x (ix2 r j) - mu (ix2 0 j)) * Ideal.rsqrt (va (ix2 0 j) + Ideal.ofBits .f32 0x3727C5AC#32)) * g (ix2 0 j) + b (ix2 0 j)) (Ideal.ofBits .f32 0x00000000#32) = _
  rw [Ideal.ofBits_zero_f32]

def norm2 (a : S50000x96.Idx → Ideal .f32) (mu va g b : S1x96.Idx → Ideal .f32) : S50000x96.Idx → Ideal .f32 := fun i =>
  max (((a i - mu (ix2 0 (i 1))) * Ideal.rsqrt (va (ix2 0 (i 1)) + Ideal.ofBits .f32 0x3727C5AC#32)) * g (ix2 0 (i 1)) + b (ix2 0 (i 1))) 0

theorem norm2_apply (a : S50000x96.Idx → Ideal .f32) (mu va g b : S1x96.Idx → Ideal .f32) (n : Fin 50000) (j : Fin 96) :
    norm2 a mu va g b (ix2 n j)
      = max (((a (ix2 n j) - mu (ix2 0 j)) * Ideal.rsqrt (va (ix2 0 j) + Ideal.ofBits .f32 0x3727C5AC#32)) * g (ix2 0 j) + b (ix2 0 j)) 0 := rfl

theorem block_indices2 : ∀ t : Fin cfg2.N, win2_0.index t (0 : Fin 2) = win2_5.index t (0 : Fin 2)
    ∧ win2_0.index t (1 : Fin 2) = 0 ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 24 :=
  (by decide +kernel : ∀ t : Fin grid2.N, _)

theorem block_onto2 : ∀ q : Fin 25, ∃ t : Fin cfg2.N, win2_5.index t = ![q.val, 0] :=
  (by decide +kernel : ∀ q : Fin 25, ∃ t : Fin grid2.N, win2_5.index t = ![q.val, 0])

theorem pay2_norm (a : S50000x96.Idx → Ideal .f32) (mu' va' g' b' : S1x96.Idx → Ideal .f32)
    (x : Vec Ideal S2000x96 .f32) (mu va g b : Vec Ideal S1x96 .f32) (y : S2000x96.Idx) (i : S50000x96.Idx)
    (hx : x y = a i) (hcol : (i 1).val = (y 1).val)
    (hmu : ∀ j : Fin 96, mu (ix2 0 j) = mu' (ix2 0 j)) (hva : ∀ j : Fin 96, va (ix2 0 j) = va' (ix2 0 j))
    (hg : ∀ j : Fin 96, g (ix2 0 j) = g' (ix2 0 j)) (hb : ∀ j : Fin 96, b (ix2 0 j) = b' (ix2 0 j)) :
    k2_pay1 mu va g b x y = norm2 a mu' va' g' b' i := by
  obtain ⟨r, j, rfl⟩ : ∃ (r : Fin 2000) (j : Fin 96), y = ix2 r j := ⟨y 0, y 1, eq_ix2 y⟩
  have hi : (i 1 : Fin 96) = j := Fin.ext hcol
  rw [pay2_apply, hx, hmu, hva, hg, hb]
  unfold norm2
  rw [hi]

theorem node_entry2 (c : Dev nD) (t : Fin cfg2.N) (y : S2000x96.Idx) :
    xblk2 V c t y = xarr2 V c (((cfg2.win 5).blk t).view.emb y) := by
  obtain ⟨e0, e1, e2, e3, e4, e5, e6, e7, e8, e9, e10, e11⟩ := block_indices2 t
  show V c (Pipeline.arrRef spec2 0) (((cfg2.win 0).blk t).view.emb y) = _
  refine congrArg _ (funext fun a => Fin.ext ?_)
  match a with
  | ⟨0, _⟩ => show win2_0.index t (0 : Fin 2) * 2000 + 1 * (y 0).val = win2_5.index t (0 : Fin 2) * 2000 + 1 * (y 0).val; omega
  | ⟨1, _⟩ => show win2_0.index t (1 : Fin 2) * 96 + 1 * (y 1).val = win2_5.index t (1 : Fin 2) * 96 + 1 * (y 1).val; omega

theorem col_keep2 (t : Fin cfg2.N) (y : S2000x96.Idx) :
    ((((cfg2.win 5).blk t).view.emb y : S50000x96.Idx) 1).val = (y 1).val := by
  obtain ⟨e0, e1, e2, e3, e4, e5, e6, e7, e8, e9, e10, e11⟩ := block_indices2 t
  show win2_5.index t (1 : Fin 2) * 96 + 1 * (y 1).val = (y 1).val; omega

theorem mu_entry2 (c : Dev nD) (t : Fin cfg2.N) (j : Fin 96) : mublk2 V c t (ix2 0 j) = muarr2 V c (ix2 0 j) := by
  obtain ⟨e0, e1, e2, e3, e4, e5, e6, e7, e8, e9, e10, e11⟩ := block_indices2 t
  show V c (Pipeline.arrRef spec2 1) (((cfg2.win 1).blk t).view.emb (ix2 0 j)) = _
  refine congrArg _ (funext fun a => Fin.ext ?_)
  match a with
  | ⟨0, _⟩ => show win2_1.index t (0 : Fin 2) * 1 + 1 * 0 = 0; omega
  | ⟨1, _⟩ => show win2_1.index t (1 : Fin 2) * 96 + 1 * j.val = j.val; omega

theorem va_entry2 (c : Dev nD) (t : Fin cfg2.N) (j : Fin 96) : vablk2 V c t (ix2 0 j) = vaarr2 V c (ix2 0 j) := by
  obtain ⟨e0, e1, e2, e3, e4, e5, e6, e7, e8, e9, e10, e11⟩ := block_indices2 t
  show V c (Pipeline.arrRef spec2 2) (((cfg2.win 2).blk t).view.emb (ix2 0 j)) = _
  refine congrArg _ (funext fun a => Fin.ext ?_)
  match a with
  | ⟨0, _⟩ => show win2_2.index t (0 : Fin 2) * 1 + 1 * 0 = 0; omega
  | ⟨1, _⟩ => show win2_2.index t (1 : Fin 2) * 96 + 1 * j.val = j.val; omega

theorem g_entry2 (c : Dev nD) (t : Fin cfg2.N) (j : Fin 96) : gblk2 V c t (ix2 0 j) = garr2 V c (ix2 0 j) := by
  obtain ⟨e0, e1, e2, e3, e4, e5, e6, e7, e8, e9, e10, e11⟩ := block_indices2 t
  show V c (Pipeline.arrRef spec2 3) (((cfg2.win 3).blk t).view.emb (ix2 0 j)) = _
  refine congrArg _ (funext fun a => Fin.ext ?_)
  match a with
  | ⟨0, _⟩ => show win2_3.index t (0 : Fin 2) * 1 + 1 * 0 = 0; omega
  | ⟨1, _⟩ => show win2_3.index t (1 : Fin 2) * 96 + 1 * j.val = j.val; omega

theorem b_entry2 (c : Dev nD) (t : Fin cfg2.N) (j : Fin 96) : bblk2 V c t (ix2 0 j) = barr2 V c (ix2 0 j) := by
  obtain ⟨e0, e1, e2, e3, e4, e5, e6, e7, e8, e9, e10, e11⟩ := block_indices2 t
  show V c (Pipeline.arrRef spec2 4) (((cfg2.win 4).blk t).view.emb (ix2 0 j)) = _
  refine congrArg _ (funext fun a => Fin.ext ?_)
  match a with
  | ⟨0, _⟩ => show win2_4.index t (0 : Fin 2) * 1 + 1 * 0 = 0; omega
  | ⟨1, _⟩ => show win2_4.index t (1 : Fin 2) * 96 + 1 * j.val = j.val; omega

theorem flushed2_5_eq (c : Dev nD) (t : Fin cfg2.N) :
    (dat2 V c).flushed 5 t = ((cfg2.win 5).blk t).view.read (Elt Ideal)
      (norm2 (xarr2 V c) (muarr2 V c) (vaarr2 V c) (garr2 V c) (barr2 V c)) := by
  show (cfg2.win 5).cut (grid2.coords t) ((dat2 V c).after 5 t) = _
  rw [after2_5]
  funext y
  exact pay2_norm (xarr2 V c) (muarr2 V c) (vaarr2 V c) (garr2 V c) (barr2 V c)
    (xblk2 V c t) (mublk2 V c t) (vablk2 V c t) (gblk2 V c t) (bblk2 V c t) y (((cfg2.win 5).blk t).view.emb y)
    (node_entry2 V c t y) (col_keep2 t y) (mu_entry2 V c t) (va_entry2 V c t) (g_entry2 V c t) (b_entry2 V c t)

theorem mem_oblk2 (t : Fin cfg2.N) (i : S50000x96.Idx) :
    i ∈ ((cfg2.win 5).blk t).view.set ↔ ∀ a : Fin 2, win2_5.index t a * S2000x96.size a ≤ (i a).val ∧ (i a).val < win2_5.index t a * S2000x96.size a + S2000x96.size a := by
  show i ∈ ((View.whole main_v66).slice (win2_5.rect t)).set ↔ _
  rw [View.set_slice_whole, Rect.mem_set_unit]
  exact Iff.rfl

theorem oblk_cover2 (i : S50000x96.Idx) : ∃ t : Fin cfg2.N, (cfg2.win 5).flush t = true ∧ i ∈ ((cfg2.win 5).blk t).view.set := by
  have hi0 : (i 0).val < 50000 := (i 0).isLt
  have hi1 : (i 1).val < 96 := (i 1).isLt
  obtain ⟨t, ht⟩ := block_onto2 ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_oblk2]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 96 ≤ (i 1).val ∧ (i 1).val < win2_5.index t (1 : Fin 2) * 96 + 96; omega

theorem final2_5 (c : Dev nD) :
    (dat2 V c).arrAt 5 cfg2.N = norm2 (xarr2 V c) (muarr2 V c) (vaarr2 V c) (garr2 V c) (barr2 V c) :=
  (dat2 V c).arrAt_eq_of_cover 5 (norm2 (xarr2 V c) (muarr2 V c) (vaarr2 V c) (garr2 V c) (barr2 V c))
    (fun t _ => flushed2_5_eq V c t) oblk_cover2

end Cert.KernelIdeal.HandValue

end
-- ==== Proof.KI.Val3.lean ====
import proofs.«406641_j72756745994790_1_alg».proof.Proof.KI.Reg3
import proofs.«406641_j72756745994790_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev xblk3 (c : Dev nD) (t : Fin cfg3.N) : Vec Ideal S2000x96 .f32 := iblk3 V c 0 t
abbrev wblk3 (c : Dev nD) (t : Fin cfg3.N) : Vec Ideal S96x96 .f32 := iblk3 V c 1 t

abbrev xarr3 (c : Dev nD) : S50000x96.Idx → Ideal .f32 := V c (Pipeline.arrRef spec3 0)
abbrev warr3 (c : Dev nD) : S96x96.Idx → Ideal .f32 := V c (Pipeline.arrRef spec3 1)

theorem pay3_apply (x : Vec Ideal S2000x96 .f32) (w : Vec Ideal S96x96 .f32) (r : Fin 2000) (j : Fin 96) :
    k3_pay1 x w (ix2 r j) = ∑ k : Fin 96, x (ix2 r k) * w (ix2 k j) := by
  unfold k3_pay1
  simp only [shapeCast_self]
  exact Cert.Lib.PlainDot.matmul_zero_apply dot_S2000x96_S96x96_S2000x96_1_0_0_1_n_n rfl rfl rfl rfl rfl rfl none
    (truncf .bf16 x bitsLt_bf16_f32) (truncf .bf16 w bitsLt_bf16_f32) r j

def matprod3 (a : S50000x96.Idx → Ideal .f32) (w : S96x96.Idx → Ideal .f32) : S50000x96.Idx → Ideal .f32 := fun i =>
  ∑ k : Fin 96, a (ix2 (i 0) k) * w (ix2 k (i 1))

theorem matprod3_apply (a : S50000x96.Idx → Ideal .f32) (w : S96x96.Idx → Ideal .f32) (n : Fin 50000) (j : Fin 96) :
    matprod3 a w (ix2 n j) = ∑ k : Fin 96, a (ix2 n k) * w (ix2 k j) := rfl

theorem block_indices3 : ∀ t : Fin cfg3.N, win3_0.index t (0 : Fin 2) = win3_2.index t (0 : Fin 2)
    ∧ win3_0.index t (1 : Fin 2) = 0 ∧ win3_2.index t (1 : Fin 2) = 0
    ∧ win3_1.index t (0 : Fin 2) = 0 ∧ win3_1.index t (1 : Fin 2) = 0
    ∧ win3_2.index t (0 : Fin 2) ≤ 24 :=
  (by decide +kernel : ∀ t : Fin grid3.N, _)

theorem block_onto3 : ∀ q : Fin 25, ∃ t : Fin cfg3.N, win3_2.index t = ![q.val, 0] :=
  (by decide +kernel : ∀ q : Fin 25, ∃ t : Fin grid3.N, win3_2.index t = ![q.val, 0])

theorem pay3_matprod (a : S50000x96.Idx → Ideal .f32) (w' : S96x96.Idx → Ideal .f32)
    (x : Vec Ideal S2000x96 .f32) (w : Vec Ideal S96x96 .f32) (y : S2000x96.Idx) (i : S50000x96.Idx)
    (hx : ∀ k : Fin 96, x (ix2 (y 0) k) = a (ix2 (i 0) k)) (hcol : (i 1).val = (y 1).val)
    (hw : ∀ k j : Fin 96, w (ix2 k j) = w' (ix2 k j)) :
    k3_pay1 x w y = matprod3 a w' i := by
  obtain ⟨r, j, rfl⟩ : ∃ (r : Fin 2000) (j : Fin 96), y = ix2 r j := ⟨y 0, y 1, eq_ix2 y⟩
  have hi : (i 1 : Fin 96) = j := Fin.ext hcol
  rw [pay3_apply]
  unfold matprod3
  rw [hi]
  exact Finset.sum_congr rfl fun k _ => congrArg₂ (· * ·) (hx k) (hw k j)

theorem node_entry3 (c : Dev nD) (t : Fin cfg3.N) (y : S2000x96.Idx) (k : Fin 96) :
    xblk3 V c t (ix2 (y 0) k) = xarr3 V c (ix2 ((((cfg3.win 2).blk t).view.emb y : S50000x96.Idx) 0) k) := by
  obtain ⟨e0, e1, e2, e3, e4, e5⟩ := block_indices3 t
  show V c (Pipeline.arrRef spec3 0) (((cfg3.win 0).blk t).view.emb (ix2 (y 0) k)) = _
  refine congrArg _ (funext fun a => Fin.ext ?_)
  match a with
  | ⟨0, _⟩ => show win3_0.index t (0 : Fin 2) * 2000 + 1 * (y 0).val = win3_2.index t (0 : Fin 2) * 2000 + 1 * (y 0).val; omega
  | ⟨1, _⟩ => show win3_0.index t (1 : Fin 2) * 96 + 1 * k.val = k.val; omega

theorem col_keep3 (t : Fin cfg3.N) (y : S2000x96.Idx) :
    ((((cfg3.win 2).blk t).view.emb y : S50000x96.Idx) 1).val = (y 1).val := by
  obtain ⟨e0, e1, e2, e3, e4, e5⟩ := block_indices3 t
  show win3_2.index t (1 : Fin 2) * 96 + 1 * (y 1).val = (y 1).val; omega

theorem weight_entry3 (c : Dev nD) (t : Fin cfg3.N) (k j : Fin 96) : wblk3 V c t (ix2 k j) = warr3 V c (ix2 k j) := by
  obtain ⟨e0, e1, e2, e3, e4, e5⟩ := block_indices3 t
  show V c (Pipeline.arrRef spec3 1) (((cfg3.win 1).blk t).view.emb (ix2 k j)) = _
  refine congrArg _ (funext fun a => Fin.ext ?_)
  match a with
  | ⟨0, _⟩ => show win3_1.index t (0 : Fin 2) * 96 + 1 * k.val = k.val; omega
  | ⟨1, _⟩ => show win3_1.index t (1 : Fin 2) * 96 + 1 * j.val = j.val; omega

theorem flushed3_2_eq (c : Dev nD) (t : Fin cfg3.N) :
    (dat3 V c).flushed 2 t = ((cfg3.win 2).blk t).view.read (Elt Ideal) (matprod3 (xarr3 V c) (warr3 V c)) := by
  show (cfg3.win 2).cut (grid3.coords t) ((dat3 V c).after 2 t) = _
  rw [after3_2]
  funext y
  exact pay3_matprod (xarr3 V c) (warr3 V c) (xblk3 V c t) (wblk3 V c t) y (((cfg3.win 2).blk t).view.emb y)
    (node_entry3 V c t y) (col_keep3 t y) (weight_entry3 V c t)

theorem mem_oblk3 (t : Fin cfg3.N) (i : S50000x96.Idx) :
    i ∈ ((cfg3.win 2).blk t).view.set ↔ ∀ a : Fin 2, win3_2.index t a * S2000x96.size a ≤ (i a).val ∧ (i a).val < win3_2.index t a * S2000x96.size a + S2000x96.size a := by
  show i ∈ ((View.whole main_v69).slice (win3_2.rect t)).set ↔ _
  rw [View.set_slice_whole, Rect.mem_set_unit]
  exact Iff.rfl

theorem oblk_cover3 (i : S50000x96.Idx) : ∃ t : Fin cfg3.N, (cfg3.win 2).flush t = true ∧ i ∈ ((cfg3.win 2).blk t).view.set := by
  have hi0 : (i 0).val < 50000 := (i 0).isLt
  have hi1 : (i 1).val < 96 := (i 1).isLt
  obtain ⟨t, ht⟩ := block_onto3 ⟨(i 0).val / 2000, by omega⟩
  have q0 : win3_2.index t (0 : Fin 2) = (i 0).val / 2000 := congrFun ht 0
  have q1 : win3_2.index t (1 : Fin 2) = 0 := congrFun ht 1
  refine ⟨t, flush3_2 t, ?_⟩
  rw [mem_oblk3]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 96 ≤ (i 1).val ∧ (i 1).val < win3_2.index t (1 : Fin 2) * 96 + 96; omega

theorem final3_2 (c : Dev nD) :
    (dat3 (F := Ideal) V c).arrAt 2 cfg3.N = matprod3 (xarr3 V c) (warr3 V c) :=
  (dat3 V c).arrAt_eq_of_cover 2 (matprod3 (xarr3 V c) (warr3 V c))
    (fun t _ => flushed3_2_eq V c t) oblk_cover3

theorem final3_2_apply (c : Dev nD) (n : Fin 50000) (j : Fin 96) :
    ((dat3 (F := Ideal) V c).arrAt 2 cfg3.N : S50000x96.Idx → Ideal .f32) (ix2 n j)
      = ∑ k : Fin 96, xarr3 V c (ix2 n k) * warr3 V c (ix2 k j) :=
  (congrFun (final3_2 V c) (ix2 n j)).trans (matprod3_apply (xarr3 V c) (warr3 V c) n j)

end Cert.KernelIdeal.HandValue

end
-- ==== Proof.KI.Val4.lean ====
import proofs.«406641_j72756745994790_1_alg».proof.Proof.KI.Reg4
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Intervals
import Mathlib.Algebra.BigOperators.Fin

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev nodes4 (c : Dev nD) : S50000x96.Idx → EReal := V c (Pipeline.arrRef spec4 0)

def entry4 (a : S50000x96.Idx → EReal) (j : Fin 96) (m : ℕ) : EReal :=
  if h : m < 50000 then a (ix2 ⟨m, h⟩ j) else 0

theorem entry4_fin (a : S50000x96.Idx → EReal) (j : Fin 96) (n : Fin 50000) : entry4 a j n.val = a (ix2 n j) := by
  unfold entry4; rw [dif_pos n.isLt]

theorem lift_row4 (j : S96.Idx) (k : Fin (S2000x96.size 0)) : reduces_S2000x96_S96.lift j k = ix2 k (j 0) := by
  funext a
  match a with
  | ⟨0, _⟩ => exact Fin.ext (by rw [Shape.Reduces.lift_val]; simp [Shape.Reduces.liftVal])
  | ⟨1, _⟩ => exact Fin.ext (by rw [Shape.Reduces.lift_val]; simp [Shape.Reduces.liftVal])

theorem pay4_zero1 : (k4_pay1 (F := Ideal) : S1x96.Idx → EReal) = fun _ => 0 := by
  unfold k4_pay1; simp only [shapeCast_self]; funext i; exact Ideal.ofBits_zero_f32
theorem pay2_zero4 : (k4_pay2 (F := Ideal) : S1x96.Idx → EReal) = fun _ => 0 := by
  unfold k4_pay2; simp only [shapeCast_self]; funext i; exact Ideal.ofBits_zero_f32

theorem pay4_apply4 (x : S2000x96.Idx → EReal) (s : S1x96.Idx → EReal) (i : S1x96.Idx) :
    (k4_pay4 (F := Ideal) x s : S1x96.Idx → EReal) i = s i + ∑ r : Fin 2000, x (ix2 r (i 1)) := by
  unfold k4_pay4 k4_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg x (lift_row4 (fun a => i a.succ) r)

theorem pay5_apply4 (x : S2000x96.Idx → EReal) (s : S1x96.Idx → EReal) (i : S1x96.Idx) :
    (k4_pay5 (F := Ideal) x s : S1x96.Idx → EReal) i = s i + ∑ r : Fin 2000, x (ix2 r (i 1)) * x (ix2 r (i 1)) := by
  unfold k4_pay5 k4_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg (fun q => x q * x q) (lift_row4 (fun a => i a.succ) r)

theorem blockIndex4 : ∀ t : Fin cfg4.N, win4_0.index t (0 : Fin 2) = t.val ∧ win4_0.index t (1 : Fin 2) = 0 :=
  (by decide +kernel : ∀ t : Fin grid4.N, win4_0.index t (0 : Fin 2) = t.val ∧ win4_0.index t (1 : Fin 2) = 0)

theorem iblk4_apply (c : Dev nD) (t : Fin cfg4.N) (x : S2000x96.Idx) (k : S50000x96.Idx)
    (hk0 : (k 0).val = 2000 * t.val + (x 0).val) (hk1 : (k 1).val = (x 1).val) :
    (iblk4 V c 0 t : S2000x96.Idx → EReal) x = nodes4 V c k := by
  obtain ⟨h0, h1⟩ := blockIndex4 t
  unfold iblk4
  rw [View.read_apply]
  show V c main_v86 _ = V c main_v86 _
  congr 1
  funext a
  apply Fin.ext
  match a with
  | ⟨0, _⟩ => show win4_0.index t 0 * 2000 + 1 * (x 0).val = (k 0).val; rw [h0, hk0]; omega
  | ⟨1, _⟩ => show win4_0.index t 1 * 96 + 1 * (x 1).val = (k 1).val; rw [h1, hk1]; omega

theorem blockSumG4 (g : EReal → EReal) (c : Dev nD) (t : Fin cfg4.N) (j : Fin 96) :
    ∑ r : Fin 2000, g ((iblk4 V c 0 t : S2000x96.Idx → EReal) (ix2 r j))
      = ∑ r ∈ Finset.range 2000, g (entry4 (nodes4 V c) j (2000 * t.val + r)) := by
  rw [← Fin.sum_univ_eq_sum_range (fun r => g (entry4 (nodes4 V c) j (2000 * t.val + r))) 2000]
  refine Finset.sum_congr rfl fun r _ => ?_
  have hN : t.val < 25 := lt_of_lt_of_eq t.isLt (show cfg4.N = 25 from N_4)
  have hr := r.isLt
  have hm : 2000 * t.val + r.val < 50000 := by omega
  unfold entry4; rw [dif_pos hm]
  exact congrArg g (iblk4_apply V c t (ix2 r j) (ix2 ⟨_, hm⟩ j) rfl rfl)

theorem acc4_closed (c : Dev nD) : ∀ (n : ℕ) (hn : n < cfg4.N) (i : S1x96.Idx),
    ((acc4 V c n hn).1 : S1x96.Idx → EReal) i = ∑ m ∈ Finset.range (2000 * (n + 1)), entry4 (nodes4 V c) (i 1) m
    ∧ ((acc4 V c n hn).2 : S1x96.Idx → EReal) i
        = ∑ m ∈ Finset.range (2000 * (n + 1)), entry4 (nodes4 V c) (i 1) m * entry4 (nodes4 V c) (i 1) m
  | 0, hn, i => by
    rw [acc4_zero]; dsimp only
    rw [pay4_apply4, pay5_apply4, pay4_zero1, pay2_zero4]
    simp only [zero_add]
    exact ⟨(blockSumG4 V (fun v => v) c ⟨0, hn⟩ (i 1)).trans (by simp only [Nat.mul_zero, Nat.zero_add, Nat.mul_one]),
           (blockSumG4 V (fun v => v * v) c ⟨0, hn⟩ (i 1)).trans (by simp only [Nat.mul_zero, Nat.zero_add, Nat.mul_one])⟩
  | n + 1, hn, i => by
    obtain ⟨ih1, ih2⟩ := acc4_closed c n (Nat.lt_of_succ_lt hn) i
    rw [acc4_succ]; dsimp only
    rw [pay4_apply4, pay5_apply4, ih1, ih2]
    rw [show 2000 * (n + 1 + 1) = 2000 * (n + 1) + 2000 from by ring, Finset.sum_range_add, Finset.sum_range_add]
    exact ⟨congrArg (fun z => _ + z) (blockSumG4 V (fun v => v) c ⟨n + 1, hn⟩ (i 1)),
           congrArg (fun z => _ + z) (blockSumG4 V (fun v => v * v) c ⟨n + 1, hn⟩ (i 1))⟩

abbrev tLast4 : Fin cfg4.N := ⟨24, by decide⟩

abbrev sums4 (c : Dev nD) : Buf (Elt Ideal) ((c : Thread nD τ).loc main_v87_0) := (acc4 V c 24 (by decide)).1
abbrev sumSqs4 (c : Dev nD) : Buf (Elt Ideal) ((c : Thread nD τ).loc main_v87_1) := (acc4 V c 24 (by decide)).2

theorem flushed4_1 (c : Dev nD) (t : Fin cfg4.N) (hf : (cfg4.win 1).flush t = true) :
    (dat4 V c).flushed 1 t = ((cfg4.win 1).blk t).view.read (Elt Ideal) (sums4 V c) := by
  have hN : cfg4.N = 25 := N_4
  have h24 : t.val = 24 := by have := (flush4_1 t).mp hf; have := t.isLt; omega
  obtain rfl : t = tLast4 := Fin.ext h24
  show (cfg4.win 1).cut (grid4.coords tLast4) ((dat4 V c).after 1 tLast4) = _
  rw [after4_1]
  have hz' : (fun a => win4_1.index tLast4 a * main_v87_0.ty.shape.size a) = fun _ => 0 := funext fun a => by fin_cases a <;> decide
  exact (Memref.read_access_unit_zero (Elt Ideal) main_v87_0 hz' (fun a => by rw [congrFun hz' a]; simp) (sums4 V c)).symm

theorem flushed4_2 (c : Dev nD) (t : Fin cfg4.N) (hf : (cfg4.win 2).flush t = true) :
    (dat4 V c).flushed 2 t = ((cfg4.win 2).blk t).view.read (Elt Ideal) (sumSqs4 V c) := by
  have hN : cfg4.N = 25 := N_4
  have h24 : t.val = 24 := by have := (flush4_2 t).mp hf; have := t.isLt; omega
  obtain rfl : t = tLast4 := Fin.ext h24
  show (cfg4.win 2).cut (grid4.coords tLast4) ((dat4 V c).after 2 tLast4) = _
  rw [after4_2]
  have hz' : (fun a => win4_2.index tLast4 a * main_v87_1.ty.shape.size a) = fun _ => 0 := funext fun a => by fin_cases a <;> decide
  exact (Memref.read_access_unit_zero (Elt Ideal) main_v87_1 hz' (fun a => by rw [congrFun hz' a]; simp) (sumSqs4 V c)).symm

theorem arr4_1 (c : Dev nD) : (dat4 V c).arrAt 1 cfg4.N = sums4 V c :=
  (dat4 V c).arrAt_eq_of_cover 1 (sums4 V c) (flushed4_1 V c) fun i =>
    ⟨tLast4, (flush4_1 tLast4).mpr rfl, by
      show i ∈ ((View.whole main_v87_0).slice (win4_1.rect tLast4)).set
      rw [View.set_slice_whole, Rect.mem_set_unit]
      intro a
      have h0 : (i 0 : Nat) < 1 := (i 0).isLt
      have h1 : (i 1 : Nat) < 96 := (i 1).isLt
      match a with
      | ⟨0, _⟩ => show win4_1.index tLast4 0 * win4_1.size 0 ≤ (i 0 : Nat) ∧ (i 0 : Nat) < win4_1.index tLast4 0 * win4_1.size 0 + win4_1.xsize (grid4.coords tLast4) 0
                  rw [show win4_1.index tLast4 0 * win4_1.size 0 = 0 from by decide +kernel, show win4_1.xsize (grid4.coords tLast4) 0 = 1 from by decide +kernel]; omega
      | ⟨1, _⟩ => show win4_1.index tLast4 1 * win4_1.size 1 ≤ (i 1 : Nat) ∧ (i 1 : Nat) < win4_1.index tLast4 1 * win4_1.size 1 + win4_1.xsize (grid4.coords tLast4) 1
                  rw [show win4_1.index tLast4 1 * win4_1.size 1 = 0 from by decide +kernel, show win4_1.xsize (grid4.coords tLast4) 1 = 96 from by decide +kernel]; omega⟩

theorem arr4_2 (c : Dev nD) : (dat4 V c).arrAt 2 cfg4.N = sumSqs4 V c :=
  (dat4 V c).arrAt_eq_of_cover 2 (sumSqs4 V c) (flushed4_2 V c) fun i =>
    ⟨tLast4, (flush4_2 tLast4).mpr rfl, by
      show i ∈ ((View.whole main_v87_1).slice (win4_2.rect tLast4)).set
      rw [View.set_slice_whole, Rect.mem_set_unit]
      intro a
      have h0 : (i 0 : Nat) < 1 := (i 0).isLt
      have h1 : (i 1 : Nat) < 96 := (i 1).isLt
      match a with
      | ⟨0, _⟩ => show win4_2.index tLast4 0 * win4_2.size 0 ≤ (i 0 : Nat) ∧ (i 0 : Nat) < win4_2.index tLast4 0 * win4_2.size 0 + win4_2.xsize (grid4.coords tLast4) 0
                  rw [show win4_2.index tLast4 0 * win4_2.size 0 = 0 from by decide +kernel, show win4_2.xsize (grid4.coords tLast4) 0 = 1 from by decide +kernel]; omega
      | ⟨1, _⟩ => show win4_2.index tLast4 1 * win4_2.size 1 ≤ (i 1 : Nat) ∧ (i 1 : Nat) < win4_2.index tLast4 1 * win4_2.size 1 + win4_2.xsize (grid4.coords tLast4) 1
                  rw [show win4_2.index tLast4 1 * win4_2.size 1 = 0 from by decide +kernel, show win4_2.xsize (grid4.coords tLast4) 1 = 96 from by decide +kernel]; omega⟩

theorem final4_1 (c : Dev nD) :
    (dat4 (F := Ideal) V c).arrAt 1 cfg4.N
      = fun i : S1x96.Idx => ∑ n : Fin 50000, nodes4 V c (ix2 n (i 1)) := by
  rw [arr4_1]; funext i
  refine ((acc4_closed V c 24 (by decide) i).1).trans ?_
  rw [show 2000 * (24 + 1) = 50000 from rfl, ← Fin.sum_univ_eq_sum_range (fun m => entry4 (nodes4 V c) (i 1) m) 50000]
  exact Finset.sum_congr rfl fun n _ => entry4_fin _ _ n

theorem final4_2 (c : Dev nD) :
    (dat4 (F := Ideal) V c).arrAt 2 cfg4.N
      = fun i : S1x96.Idx => ∑ n : Fin 50000, nodes4 V c (ix2 n (i 1))
          * nodes4 V c (ix2 n (i 1)) := by
  rw [arr4_2]; funext i
  refine ((acc4_closed V c 24 (by decide) i).2).trans ?_
  rw [show 2000 * (24 + 1) = 50000 from rfl, ← Fin.sum_univ_eq_sum_range (fun m => entry4 (nodes4 V c) (i 1) m * entry4 (nodes4 V c) (i 1) m) 50000]
  exact Finset.sum_congr rfl fun n _ => congrArg₂ (· * ·) (entry4_fin _ _ n) (entry4_fin _ _ n)

end Cert.KernelIdeal.HandValue

end
-- ==== Proof.KI.Val5.lean ====
import proofs.«406641_j72756745994790_1_alg».proof.Proof.KI.Reg5
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev xblk5 (c : Dev nD) (t : Fin cfg5.N) : Vec Ideal S2000x96 .f32 := iblk5 V c 0 t

abbrev mublk5 (c : Dev nD) (t : Fin cfg5.N) : Vec Ideal S1x96 .f32 := iblk5 V c 1 t
abbrev vablk5 (c : Dev nD) (t : Fin cfg5.N) : Vec Ideal S1x96 .f32 := iblk5 V c 2 t
abbrev gblk5 (c : Dev nD) (t : Fin cfg5.N) : Vec Ideal S1x96 .f32 := iblk5 V c 3 t
abbrev bblk5 (c : Dev nD) (t : Fin cfg5.N) : Vec Ideal S1x96 .f32 := iblk5 V c 4 t

abbrev xarr5 (c : Dev nD) : S50000x96.Idx → Ideal .f32 := V c (Pipeline.arrRef spec5 0)
abbrev muarr5 (c : Dev nD) : S1x96.Idx → Ideal .f32 := V c (Pipeline.arrRef spec5 1)
abbrev vaarr5 (c : Dev nD) : S1x96.Idx → Ideal .f32 := V c (Pipeline.arrRef spec5 2)
abbrev garr5 (c : Dev nD) : S1x96.Idx → Ideal .f32 := V c (Pipeline.arrRef spec5 3)
abbrev barr5 (c : Dev nD) : S1x96.Idx → Ideal .f32 := V c (Pipeline.arrRef spec5 4)

theorem row_spread5 (v : FVec Ideal S1x96 .f32) (r : Fin 2000) (j : Fin 96) :
    broadcastTo S2000x96 v broadcasts_S1x96_S2000x96 (ix2 r j) = v (ix2 0 j) :=
  broadcastTo_apply v broadcasts_S1x96_S2000x96 (ix2 r j) (ix2 0 j) (fun a => by
    match a with
    | ⟨0, _⟩ => rfl
    | ⟨1, _⟩ => rfl)

theorem pay5_apply (mu va g b : Vec Ideal S1x96 .f32) (x : Vec Ideal S2000x96 .f32) (r : Fin 2000) (j : Fin 96) :
    k5_pay1 mu va g b x (ix2 r j)
      = max (((x (ix2 r j) - mu (ix2 0 j)) * Ideal.rsqrt (va (ix2 0 j) + Ideal.ofBits .f32 0x3727C5AC#32)) * g (ix2 0 j) + b (ix2 0 j)) 0 := by
  unfold k5_pay1
  simp only [shapeCast_self]
  rw [maximumf_apply, addf_apply, mulf_apply, mulf_apply, subf_apply, row_spread5, row_spread5, row_spread5, row_spread5,
    broadcast_apply]
  show max (((x (ix2 r j) - mu (ix2 0 j)) * Ideal.rsqrt (va (ix2 0 j) + Ideal.ofBits .f32 0x3727C5AC#32)) * g (ix2 0 j) + b (ix2 0 j)) (Ideal.ofBits .f32 0x00000000#32) = _
  rw [Ideal.ofBits_zero_f32]

def norm5 (a : S50000x96.Idx → Ideal .f32) (mu va g b : S1x96.Idx → Ideal .f32) : S50000x96.Idx → Ideal .f32 := fun i =>
  max (((a i - mu (ix2 0 (i 1))) * Ideal.rsqrt (va (ix2 0 (i 1)) + Ideal.ofBits .f32 0x3727C5AC#32)) * g (ix2 0 (i 1)) + b (ix2 0 (i 1))) 0

theorem norm5_apply (a : S50000x96.Idx → Ideal .f32) (mu va g b : S1x96.Idx → Ideal .f32) (n : Fin 50000) (j : Fin 96) :
    norm5 a mu va g b (ix2 n j)
      = max (((a (ix2 n j) - mu (ix2 0 j)) * Ideal.rsqrt (va (ix2 0 j) + Ideal.ofBits .f32 0x3727C5AC#32)) * g (ix2 0 j) + b (ix2 0 j)) 0 := rfl

theorem block_indices5 : ∀ t : Fin cfg5.N, win5_0.index t (0 : Fin 2) = win5_5.index t (0 : Fin 2)
    ∧ win5_0.index t (1 : Fin 2) = 0 ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) ≤ 24 :=
  (by decide +kernel : ∀ t : Fin grid5.N, _)

theorem block_onto5 : ∀ q : Fin 25, ∃ t : Fin cfg5.N, win5_5.index t = ![q.val, 0] :=
  (by decide +kernel : ∀ q : Fin 25, ∃ t : Fin grid5.N, win5_5.index t = ![q.val, 0])

theorem pay5_norm (a : S50000x96.Idx → Ideal .f32) (mu' va' g' b' : S1x96.Idx → Ideal .f32)
    (x : Vec Ideal S2000x96 .f32) (mu va g b : Vec Ideal S1x96 .f32) (y : S2000x96.Idx) (i : S50000x96.Idx)
    (hx : x y = a i) (hcol : (i 1).val = (y 1).val)
    (hmu : ∀ j : Fin 96, mu (ix2 0 j) = mu' (ix2 0 j)) (hva : ∀ j : Fin 96, va (ix2 0 j) = va' (ix2 0 j))
    (hg : ∀ j : Fin 96, g (ix2 0 j) = g' (ix2 0 j)) (hb : ∀ j : Fin 96, b (ix2 0 j) = b' (ix2 0 j)) :
    k5_pay1 mu va g b x y = norm5 a mu' va' g' b' i := by
  obtain ⟨r, j, rfl⟩ : ∃ (r : Fin 2000) (j : Fin 96), y = ix2 r j := ⟨y 0, y 1, eq_ix2 y⟩
  have hi : (i 1 : Fin 96) = j := Fin.ext hcol
  rw [pay5_apply, hx, hmu, hva, hg, hb]
  unfold norm5
  rw [hi]

theorem node_entry5 (c : Dev nD) (t : Fin cfg5.N) (y : S2000x96.Idx) :
    xblk5 V c t y = xarr5 V c (((cfg5.win 5).blk t).view.emb y) := by
  obtain ⟨e0, e1, e2, e3, e4, e5, e6, e7, e8, e9, e10, e11⟩ := block_indices5 t
  show V c (Pipeline.arrRef spec5 0) (((cfg5.win 0).blk t).view.emb y) = _
  refine congrArg _ (funext fun a => Fin.ext ?_)
  match a with
  | ⟨0, _⟩ => show win5_0.index t (0 : Fin 2) * 2000 + 1 * (y 0).val = win5_5.index t (0 : Fin 2) * 2000 + 1 * (y 0).val; omega
  | ⟨1, _⟩ => show win5_0.index t (1 : Fin 2) * 96 + 1 * (y 1).val = win5_5.index t (1 : Fin 2) * 96 + 1 * (y 1).val; omega

theorem col_keep5 (t : Fin cfg5.N) (y : S2000x96.Idx) :
    ((((cfg5.win 5).blk t).view.emb y : S50000x96.Idx) 1).val = (y 1).val := by
  obtain ⟨e0, e1, e2, e3, e4, e5, e6, e7, e8, e9, e10, e11⟩ := block_indices5 t
  show win5_5.index t (1 : Fin 2) * 96 + 1 * (y 1).val = (y 1).val; omega

theorem mu_entry5 (c : Dev nD) (t : Fin cfg5.N) (j : Fin 96) : mublk5 V c t (ix2 0 j) = muarr5 V c (ix2 0 j) := by
  obtain ⟨e0, e1, e2, e3, e4, e5, e6, e7, e8, e9, e10, e11⟩ := block_indices5 t
  show V c (Pipeline.arrRef spec5 1) (((cfg5.win 1).blk t).view.emb (ix2 0 j)) = _
  refine congrArg _ (funext fun a => Fin.ext ?_)
  match a with
  | ⟨0, _⟩ => show win5_1.index t (0 : Fin 2) * 1 + 1 * 0 = 0; omega
  | ⟨1, _⟩ => show win5_1.index t (1 : Fin 2) * 96 + 1 * j.val = j.val; omega

theorem va_entry5 (c : Dev nD) (t : Fin cfg5.N) (j : Fin 96) : vablk5 V c t (ix2 0 j) = vaarr5 V c (ix2 0 j) := by
  obtain ⟨e0, e1, e2, e3, e4, e5, e6, e7, e8, e9, e10, e11⟩ := block_indices5 t
  show V c (Pipeline.arrRef spec5 2) (((cfg5.win 2).blk t).view.emb (ix2 0 j)) = _
  refine congrArg _ (funext fun a => Fin.ext ?_)
  match a with
  | ⟨0, _⟩ => show win5_2.index t (0 : Fin 2) * 1 + 1 * 0 = 0; omega
  | ⟨1, _⟩ => show win5_2.index t (1 : Fin 2) * 96 + 1 * j.val = j.val; omega

theorem g_entry5 (c : Dev nD) (t : Fin cfg5.N) (j : Fin 96) : gblk5 V c t (ix2 0 j) = garr5 V c (ix2 0 j) := by
  obtain ⟨e0, e1, e2, e3, e4, e5, e6, e7, e8, e9, e10, e11⟩ := block_indices5 t
  show V c (Pipeline.arrRef spec5 3) (((cfg5.win 3).blk t).view.emb (ix2 0 j)) = _
  refine congrArg _ (funext fun a => Fin.ext ?_)
  match a with
  | ⟨0, _⟩ => show win5_3.index t (0 : Fin 2) * 1 + 1 * 0 = 0; omega
  | ⟨1, _⟩ => show win5_3.index t (1 : Fin 2) * 96 + 1 * j.val = j.val; omega

theorem b_entry5 (c : Dev nD) (t : Fin cfg5.N) (j : Fin 96) : bblk5 V c t (ix2 0 j) = barr5 V c (ix2 0 j) := by
  obtain ⟨e0, e1, e2, e3, e4, e5, e6, e7, e8, e9, e10, e11⟩ := block_indices5 t
  show V c (Pipeline.arrRef spec5 4) (((cfg5.win 4).blk t).view.emb (ix2 0 j)) = _
  refine congrArg _ (funext fun a => Fin.ext ?_)
  match a with
  | ⟨0, _⟩ => show win5_4.index t (0 : Fin 2) * 1 + 1 * 0 = 0; omega
  | ⟨1, _⟩ => show win5_4.index t (1 : Fin 2) * 96 + 1 * j.val = j.val; omega

theorem flushed5_5_eq (c : Dev nD) (t : Fin cfg5.N) :
    (dat5 V c).flushed 5 t = ((cfg5.win 5).blk t).view.read (Elt Ideal)
      (norm5 (xarr5 V c) (muarr5 V c) (vaarr5 V c) (garr5 V c) (barr5 V c)) := by
  show (cfg5.win 5).cut (grid5.coords t) ((dat5 V c).after 5 t) = _
  rw [after5_5]
  funext y
  exact pay5_norm (xarr5 V c) (muarr5 V c) (vaarr5 V c) (garr5 V c) (barr5 V c)
    (xblk5 V c t) (mublk5 V c t) (vablk5 V c t) (gblk5 V c t) (bblk5 V c t) y (((cfg5.win 5).blk t).view.emb y)
    (node_entry5 V c t y) (col_keep5 t y) (mu_entry5 V c t) (va_entry5 V c t) (g_entry5 V c t) (b_entry5 V c t)

theorem mem_oblk5 (t : Fin cfg5.N) (i : S50000x96.Idx) :
    i ∈ ((cfg5.win 5).blk t).view.set ↔ ∀ a : Fin 2, win5_5.index t a * S2000x96.size a ≤ (i a).val ∧ (i a).val < win5_5.index t a * S2000x96.size a + S2000x96.size a := by
  show i ∈ ((View.whole main_v100).slice (win5_5.rect t)).set ↔ _
  rw [View.set_slice_whole, Rect.mem_set_unit]
  exact Iff.rfl

theorem oblk_cover5 (i : S50000x96.Idx) : ∃ t : Fin cfg5.N, (cfg5.win 5).flush t = true ∧ i ∈ ((cfg5.win 5).blk t).view.set := by
  have hi0 : (i 0).val < 50000 := (i 0).isLt
  have hi1 : (i 1).val < 96 := (i 1).isLt
  obtain ⟨t, ht⟩ := block_onto5 ⟨(i 0).val / 2000, by omega⟩
  have q0 : win5_5.index t (0 : Fin 2) = (i 0).val / 2000 := congrFun ht 0
  have q1 : win5_5.index t (1 : Fin 2) = 0 := congrFun ht 1
  refine ⟨t, flush5_5 t, ?_⟩
  rw [mem_oblk5]
  intro a
  match a with
  | ⟨0, _⟩ => show win5_5.index t (0 : Fin 2) * 2000 ≤ (i 0).val ∧ (i 0).val < win5_5.index t (0 : Fin 2) * 2000 + 2000; omega
  | ⟨1, _⟩ => show win5_5.index t (1 : Fin 2) * 96 ≤ (i 1).val ∧ (i 1).val < win5_5.index t (1 : Fin 2) * 96 + 96; omega

theorem final5_5 (c : Dev nD) :
    (dat5 V c).arrAt 5 cfg5.N = norm5 (xarr5 V c) (muarr5 V c) (vaarr5 V c) (garr5 V c) (barr5 V c) :=
  (dat5 V c).arrAt_eq_of_cover 5 (norm5 (xarr5 V c) (muarr5 V c) (vaarr5 V c) (garr5 V c) (barr5 V c))
    (fun t _ => flushed5_5_eq V c t) oblk_cover5

end Cert.KernelIdeal.HandValue

end
-- ==== Proof.KI.Val6.lean ====
import proofs.«406641_j72756745994790_1_alg».proof.Proof.KI.Reg6
import proofs.«406641_j72756745994790_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev xblk6 (c : Dev nD) (t : Fin cfg6.N) : Vec Ideal S2000x96 .f32 := iblk6 V c 0 t
abbrev wblk6 (c : Dev nD) (t : Fin cfg6.N) : Vec Ideal S96x96 .f32 := iblk6 V c 1 t

abbrev xarr6 (c : Dev nD) : S50000x96.Idx → Ideal .f32 := V c (Pipeline.arrRef spec6 0)
abbrev warr6 (c : Dev nD) : S96x96.Idx → Ideal .f32 := V c (Pipeline.arrRef spec6 1)

theorem pay6_apply (x : Vec Ideal S2000x96 .f32) (w : Vec Ideal S96x96 .f32) (r : Fin 2000) (j : Fin 96) :
    k6_pay1 x w (ix2 r j) = ∑ k : Fin 96, x (ix2 r k) * w (ix2 k j) := by
  unfold k6_pay1
  simp only [shapeCast_self]
  exact Cert.Lib.PlainDot.matmul_zero_apply dot_S2000x96_S96x96_S2000x96_1_0_0_1_n_n rfl rfl rfl rfl rfl rfl none
    (truncf .bf16 x bitsLt_bf16_f32) (truncf .bf16 w bitsLt_bf16_f32) r j

def matprod6 (a : S50000x96.Idx → Ideal .f32) (w : S96x96.Idx → Ideal .f32) : S50000x96.Idx → Ideal .f32 := fun i =>
  ∑ k : Fin 96, a (ix2 (i 0) k) * w (ix2 k (i 1))

theorem matprod6_apply (a : S50000x96.Idx → Ideal .f32) (w : S96x96.Idx → Ideal .f32) (n : Fin 50000) (j : Fin 96) :
    matprod6 a w (ix2 n j) = ∑ k : Fin 96, a (ix2 n k) * w (ix2 k j) := rfl

theorem block_indices6 : ∀ t : Fin cfg6.N, win6_0.index t (0 : Fin 2) = win6_2.index t (0 : Fin 2)
    ∧ win6_0.index t (1 : Fin 2) = 0 ∧ win6_2.index t (1 : Fin 2) = 0
    ∧ win6_1.index t (0 : Fin 2) = 0 ∧ win6_1.index t (1 : Fin 2) = 0
    ∧ win6_2.index t (0 : Fin 2) ≤ 24 :=
  (by decide +kernel : ∀ t : Fin grid6.N, _)

theorem block_onto6 : ∀ q : Fin 25, ∃ t : Fin cfg6.N, win6_2.index t = ![q.val, 0] :=
  (by decide +kernel : ∀ q : Fin 25, ∃ t : Fin grid6.N, win6_2.index t = ![q.val, 0])

theorem pay6_matprod (a : S50000x96.Idx → Ideal .f32) (w' : S96x96.Idx → Ideal .f32)
    (x : Vec Ideal S2000x96 .f32) (w : Vec Ideal S96x96 .f32) (y : S2000x96.Idx) (i : S50000x96.Idx)
    (hx : ∀ k : Fin 96, x (ix2 (y 0) k) = a (ix2 (i 0) k)) (hcol : (i 1).val = (y 1).val)
    (hw : ∀ k j : Fin 96, w (ix2 k j) = w' (ix2 k j)) :
    k6_pay1 x w y = matprod6 a w' i := by
  obtain ⟨r, j, rfl⟩ : ∃ (r : Fin 2000) (j : Fin 96), y = ix2 r j := ⟨y 0, y 1, eq_ix2 y⟩
  have hi : (i 1 : Fin 96) = j := Fin.ext hcol
  rw [pay6_apply]
  unfold matprod6
  rw [hi]
  exact Finset.sum_congr rfl fun k _ => congrArg₂ (· * ·) (hx k) (hw k j)

theorem node_entry6 (c : Dev nD) (t : Fin cfg6.N) (y : S2000x96.Idx) (k : Fin 96) :
    xblk6 V c t (ix2 (y 0) k) = xarr6 V c (ix2 ((((cfg6.win 2).blk t).view.emb y : S50000x96.Idx) 0) k) := by
  obtain ⟨e0, e1, e2, e3, e4, e5⟩ := block_indices6 t
  show V c (Pipeline.arrRef spec6 0) (((cfg6.win 0).blk t).view.emb (ix2 (y 0) k)) = _
  refine congrArg _ (funext fun a => Fin.ext ?_)
  match a with
  | ⟨0, _⟩ => show win6_0.index t (0 : Fin 2) * 2000 + 1 * (y 0).val = win6_2.index t (0 : Fin 2) * 2000 + 1 * (y 0).val; omega
  | ⟨1, _⟩ => show win6_0.index t (1 : Fin 2) * 96 + 1 * k.val = k.val; omega

theorem col_keep6 (t : Fin cfg6.N) (y : S2000x96.Idx) :
    ((((cfg6.win 2).blk t).view.emb y : S50000x96.Idx) 1).val = (y 1).val := by
  obtain ⟨e0, e1, e2, e3, e4, e5⟩ := block_indices6 t
  show win6_2.index t (1 : Fin 2) * 96 + 1 * (y 1).val = (y 1).val; omega

theorem weight_entry6 (c : Dev nD) (t : Fin cfg6.N) (k j : Fin 96) : wblk6 V c t (ix2 k j) = warr6 V c (ix2 k j) := by
  obtain ⟨e0, e1, e2, e3, e4, e5⟩ := block_indices6 t
  show V c (Pipeline.arrRef spec6 1) (((cfg6.win 1).blk t).view.emb (ix2 k j)) = _
  refine congrArg _ (funext fun a => Fin.ext ?_)
  match a with
  | ⟨0, _⟩ => show win6_1.index t (0 : Fin 2) * 96 + 1 * k.val = k.val; omega
  | ⟨1, _⟩ => show win6_1.index t (1 : Fin 2) * 96 + 1 * j.val = j.val; omega

theorem flushed6_2_eq (c : Dev nD) (t : Fin cfg6.N) :
    (dat6 V c).flushed 2 t = ((cfg6.win 2).blk t).view.read (Elt Ideal) (matprod6 (xarr6 V c) (warr6 V c)) := by
  show (cfg6.win 2).cut (grid6.coords t) ((dat6 V c).after 2 t) = _
  rw [after6_2]
  funext y
  exact pay6_matprod (xarr6 V c) (warr6 V c) (xblk6 V c t) (wblk6 V c t) y (((cfg6.win 2).blk t).view.emb y)
    (node_entry6 V c t y) (col_keep6 t y) (weight_entry6 V c t)

theorem mem_oblk6 (t : Fin cfg6.N) (i : S50000x96.Idx) :
    i ∈ ((cfg6.win 2).blk t).view.set ↔ ∀ a : Fin 2, win6_2.index t a * S2000x96.size a ≤ (i a).val ∧ (i a).val < win6_2.index t a * S2000x96.size a + S2000x96.size a := by
  show i ∈ ((View.whole main_v103).slice (win6_2.rect t)).set ↔ _
  rw [View.set_slice_whole, Rect.mem_set_unit]
  exact Iff.rfl

theorem oblk_cover6 (i : S50000x96.Idx) : ∃ t : Fin cfg6.N, (cfg6.win 2).flush t = true ∧ i ∈ ((cfg6.win 2).blk t).view.set := by
  have hi0 : (i 0).val < 50000 := (i 0).isLt
  have hi1 : (i 1).val < 96 := (i 1).isLt
  obtain ⟨t, ht⟩ := block_onto6 ⟨(i 0).val / 2000, by omega⟩
  have q0 : win6_2.index t (0 : Fin 2) = (i 0).val / 2000 := congrFun ht 0
  have q1 : win6_2.index t (1 : Fin 2) = 0 := congrFun ht 1
  refine ⟨t, flush6_2 t, ?_⟩
  rw [mem_oblk6]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 96 ≤ (i 1).val ∧ (i 1).val < win6_2.index t (1 : Fin 2) * 96 + 96; omega

theorem final6_2 (c : Dev nD) :
    (dat6 (F := Ideal) V c).arrAt 2 cfg6.N = matprod6 (xarr6 V c) (warr6 V c) :=
  (dat6 V c).arrAt_eq_of_cover 2 (matprod6 (xarr6 V c) (warr6 V c))
    (fun t _ => flushed6_2_eq V c t) oblk_cover6

theorem final6_2_apply (c : Dev nD) (n : Fin 50000) (j : Fin 96) :
    ((dat6 (F := Ideal) V c).arrAt 2 cfg6.N : S50000x96.Idx → Ideal .f32) (ix2 n j)
      = ∑ k : Fin 96, xarr6 V c (ix2 n k) * warr6 V c (ix2 k j) :=
  (congrFun (final6_2 V c) (ix2 n j)).trans (matprod6_apply (xarr6 V c) (warr6 V c) n j)

end Cert.KernelIdeal.HandValue

end
-- ==== Proof.KI.Val7.lean ====
import proofs.«406641_j72756745994790_1_alg».proof.Proof.KI.Reg7
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Intervals
import Mathlib.Algebra.BigOperators.Fin

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev nodes7 (c : Dev nD) : S50000x96.Idx → EReal := V c (Pipeline.arrRef spec7 0)

def entry7 (a : S50000x96.Idx → EReal) (j : Fin 96) (m : ℕ) : EReal :=
  if h : m < 50000 then a (ix2 ⟨m, h⟩ j) else 0

theorem entry7_fin (a : S50000x96.Idx → EReal) (j : Fin 96) (n : Fin 50000) : entry7 a j n.val = a (ix2 n j) := by
  unfold entry7; rw [dif_pos n.isLt]

theorem lift_row7 (j : S96.Idx) (k : Fin (S2000x96.size 0)) : reduces_S2000x96_S96.lift j k = ix2 k (j 0) := by
  funext a
  match a with
  | ⟨0, _⟩ => exact Fin.ext (by rw [Shape.Reduces.lift_val]; simp [Shape.Reduces.liftVal])
  | ⟨1, _⟩ => exact Fin.ext (by rw [Shape.Reduces.lift_val]; simp [Shape.Reduces.liftVal])

theorem pay7_zero1 : (k7_pay1 (F := Ideal) : S1x96.Idx → EReal) = fun _ => 0 := by
  unfold k7_pay1; simp only [shapeCast_self]; funext i; exact Ideal.ofBits_zero_f32
theorem pay2_zero7 : (k7_pay2 (F := Ideal) : S1x96.Idx → EReal) = fun _ => 0 := by
  unfold k7_pay2; simp only [shapeCast_self]; funext i; exact Ideal.ofBits_zero_f32

theorem pay4_apply7 (x : S2000x96.Idx → EReal) (s : S1x96.Idx → EReal) (i : S1x96.Idx) :
    (k7_pay4 (F := Ideal) x s : S1x96.Idx → EReal) i = s i + ∑ r : Fin 2000, x (ix2 r (i 1)) := by
  unfold k7_pay4 k7_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg x (lift_row7 (fun a => i a.succ) r)

theorem pay5_apply7 (x : S2000x96.Idx → EReal) (s : S1x96.Idx → EReal) (i : S1x96.Idx) :
    (k7_pay5 (F := Ideal) x s : S1x96.Idx → EReal) i = s i + ∑ r : Fin 2000, x (ix2 r (i 1)) * x (ix2 r (i 1)) := by
  unfold k7_pay5 k7_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg (fun q => x q * x q) (lift_row7 (fun a => i a.succ) r)

theorem blockIndex7 : ∀ t : Fin cfg7.N, win7_0.index t (0 : Fin 2) = t.val ∧ win7_0.index t (1 : Fin 2) = 0 :=
  (by decide +kernel : ∀ t : Fin grid7.N, win7_0.index t (0 : Fin 2) = t.val ∧ win7_0.index t (1 : Fin 2) = 0)

theorem iblk7_apply (c : Dev nD) (t : Fin cfg7.N) (x : S2000x96.Idx) (k : S50000x96.Idx)
    (hk0 : (k 0).val = 2000 * t.val + (x 0).val) (hk1 : (k 1).val = (x 1).val) :
    (iblk7 V c 0 t : S2000x96.Idx → EReal) x = nodes7 V c k := by
  obtain ⟨h0, h1⟩ := blockIndex7 t
  unfold iblk7
  rw [View.read_apply]
  show V c main_v120 _ = V c main_v120 _
  congr 1
  funext a
  apply Fin.ext
  match a with
  | ⟨0, _⟩ => show win7_0.index t 0 * 2000 + 1 * (x 0).val = (k 0).val; rw [h0, hk0]; omega
  | ⟨1, _⟩ => show win7_0.index t 1 * 96 + 1 * (x 1).val = (k 1).val; rw [h1, hk1]; omega

theorem blockSumG7 (g : EReal → EReal) (c : Dev nD) (t : Fin cfg7.N) (j : Fin 96) :
    ∑ r : Fin 2000, g ((iblk7 V c 0 t : S2000x96.Idx → EReal) (ix2 r j))
      = ∑ r ∈ Finset.range 2000, g (entry7 (nodes7 V c) j (2000 * t.val + r)) := by
  rw [← Fin.sum_univ_eq_sum_range (fun r => g (entry7 (nodes7 V c) j (2000 * t.val + r))) 2000]
  refine Finset.sum_congr rfl fun r _ => ?_
  have hN : t.val < 25 := lt_of_lt_of_eq t.isLt (show cfg7.N = 25 from N_7)
  have hr := r.isLt
  have hm : 2000 * t.val + r.val < 50000 := by omega
  unfold entry7; rw [dif_pos hm]
  exact congrArg g (iblk7_apply V c t (ix2 r j) (ix2 ⟨_, hm⟩ j) rfl rfl)

theorem acc7_closed (c : Dev nD) : ∀ (n : ℕ) (hn : n < cfg7.N) (i : S1x96.Idx),
    ((acc7 V c n hn).1 : S1x96.Idx → EReal) i = ∑ m ∈ Finset.range (2000 * (n + 1)), entry7 (nodes7 V c) (i 1) m
    ∧ ((acc7 V c n hn).2 : S1x96.Idx → EReal) i
        = ∑ m ∈ Finset.range (2000 * (n + 1)), entry7 (nodes7 V c) (i 1) m * entry7 (nodes7 V c) (i 1) m
  | 0, hn, i => by
    rw [acc7_zero]; dsimp only
    rw [pay4_apply7, pay5_apply7, pay7_zero1, pay2_zero7]
    simp only [zero_add]
    exact ⟨(blockSumG7 V (fun v => v) c ⟨0, hn⟩ (i 1)).trans (by simp only [Nat.mul_zero, Nat.zero_add, Nat.mul_one]),
           (blockSumG7 V (fun v => v * v) c ⟨0, hn⟩ (i 1)).trans (by simp only [Nat.mul_zero, Nat.zero_add, Nat.mul_one])⟩
  | n + 1, hn, i => by
    obtain ⟨ih1, ih2⟩ := acc7_closed c n (Nat.lt_of_succ_lt hn) i
    rw [acc7_succ]; dsimp only
    rw [pay4_apply7, pay5_apply7, ih1, ih2]
    rw [show 2000 * (n + 1 + 1) = 2000 * (n + 1) + 2000 from by ring, Finset.sum_range_add, Finset.sum_range_add]
    exact ⟨congrArg (fun z => _ + z) (blockSumG7 V (fun v => v) c ⟨n + 1, hn⟩ (i 1)),
           congrArg (fun z => _ + z) (blockSumG7 V (fun v => v * v) c ⟨n + 1, hn⟩ (i 1))⟩

abbrev tLast7 : Fin cfg7.N := ⟨24, by decide⟩

abbrev sums7 (c : Dev nD) : Buf (Elt Ideal) ((c : Thread nD τ).loc main_v121_0) := (acc7 V c 24 (by decide)).1
abbrev sumSqs7 (c : Dev nD) : Buf (Elt Ideal) ((c : Thread nD τ).loc main_v121_1) := (acc7 V c 24 (by decide)).2

theorem flushed7_1 (c : Dev nD) (t : Fin cfg7.N) (hf : (cfg7.win 1).flush t = true) :
    (dat7 V c).flushed 1 t = ((cfg7.win 1).blk t).view.read (Elt Ideal) (sums7 V c) := by
  have hN : cfg7.N = 25 := N_7
  have h24 : t.val = 24 := by have := (flush7_1 t).mp hf; have := t.isLt; omega
  obtain rfl : t = tLast7 := Fin.ext h24
  show (cfg7.win 1).cut (grid7.coords tLast7) ((dat7 V c).after 1 tLast7) = _
  rw [after7_1]
  have hz' : (fun a => win7_1.index tLast7 a * main_v121_0.ty.shape.size a) = fun _ => 0 := funext fun a => by fin_cases a <;> decide
  exact (Memref.read_access_unit_zero (Elt Ideal) main_v121_0 hz' (fun a => by rw [congrFun hz' a]; simp) (sums7 V c)).symm

theorem flushed7_2 (c : Dev nD) (t : Fin cfg7.N) (hf : (cfg7.win 2).flush t = true) :
    (dat7 V c).flushed 2 t = ((cfg7.win 2).blk t).view.read (Elt Ideal) (sumSqs7 V c) := by
  have hN : cfg7.N = 25 := N_7
  have h24 : t.val = 24 := by have := (flush7_2 t).mp hf; have := t.isLt; omega
  obtain rfl : t = tLast7 := Fin.ext h24
  show (cfg7.win 2).cut (grid7.coords tLast7) ((dat7 V c).after 2 tLast7) = _
  rw [after7_2]
  have hz' : (fun a => win7_2.index tLast7 a * main_v121_1.ty.shape.size a) = fun _ => 0 := funext fun a => by fin_cases a <;> decide
  exact (Memref.read_access_unit_zero (Elt Ideal) main_v121_1 hz' (fun a => by rw [congrFun hz' a]; simp) (sumSqs7 V c)).symm

theorem arr7_1 (c : Dev nD) : (dat7 V c).arrAt 1 cfg7.N = sums7 V c :=
  (dat7 V c).arrAt_eq_of_cover 1 (sums7 V c) (flushed7_1 V c) fun i =>
    ⟨tLast7, (flush7_1 tLast7).mpr rfl, by
      show i ∈ ((View.whole main_v121_0).slice (win7_1.rect tLast7)).set
      rw [View.set_slice_whole, Rect.mem_set_unit]
      intro a
      have h0 : (i 0 : Nat) < 1 := (i 0).isLt
      have h1 : (i 1 : Nat) < 96 := (i 1).isLt
      match a with
      | ⟨0, _⟩ => show win7_1.index tLast7 0 * win7_1.size 0 ≤ (i 0 : Nat) ∧ (i 0 : Nat) < win7_1.index tLast7 0 * win7_1.size 0 + win7_1.xsize (grid7.coords tLast7) 0
                  rw [show win7_1.index tLast7 0 * win7_1.size 0 = 0 from by decide +kernel, show win7_1.xsize (grid7.coords tLast7) 0 = 1 from by decide +kernel]; omega
      | ⟨1, _⟩ => show win7_1.index tLast7 1 * win7_1.size 1 ≤ (i 1 : Nat) ∧ (i 1 : Nat) < win7_1.index tLast7 1 * win7_1.size 1 + win7_1.xsize (grid7.coords tLast7) 1
                  rw [show win7_1.index tLast7 1 * win7_1.size 1 = 0 from by decide +kernel, show win7_1.xsize (grid7.coords tLast7) 1 = 96 from by decide +kernel]; omega⟩

theorem arr7_2 (c : Dev nD) : (dat7 V c).arrAt 2 cfg7.N = sumSqs7 V c :=
  (dat7 V c).arrAt_eq_of_cover 2 (sumSqs7 V c) (flushed7_2 V c) fun i =>
    ⟨tLast7, (flush7_2 tLast7).mpr rfl, by
      show i ∈ ((View.whole main_v121_1).slice (win7_2.rect tLast7)).set
      rw [View.set_slice_whole, Rect.mem_set_unit]
      intro a
      have h0 : (i 0 : Nat) < 1 := (i 0).isLt
      have h1 : (i 1 : Nat) < 96 := (i 1).isLt
      match a with
      | ⟨0, _⟩ => show win7_2.index tLast7 0 * win7_2.size 0 ≤ (i 0 : Nat) ∧ (i 0 : Nat) < win7_2.index tLast7 0 * win7_2.size 0 + win7_2.xsize (grid7.coords tLast7) 0
                  rw [show win7_2.index tLast7 0 * win7_2.size 0 = 0 from by decide +kernel, show win7_2.xsize (grid7.coords tLast7) 0 = 1 from by decide +kernel]; omega
      | ⟨1, _⟩ => show win7_2.index tLast7 1 * win7_2.size 1 ≤ (i 1 : Nat) ∧ (i 1 : Nat) < win7_2.index tLast7 1 * win7_2.size 1 + win7_2.xsize (grid7.coords tLast7) 1
                  rw [show win7_2.index tLast7 1 * win7_2.size 1 = 0 from by decide +kernel, show win7_2.xsize (grid7.coords tLast7) 1 = 96 from by decide +kernel]; omega⟩

theorem final7_1 (c : Dev nD) :
    (dat7 (F := Ideal) V c).arrAt 1 cfg7.N
      = fun i : S1x96.Idx => ∑ n : Fin 50000, nodes7 V c (ix2 n (i 1)) := by
  rw [arr7_1]; funext i
  refine ((acc7_closed V c 24 (by decide) i).1).trans ?_
  rw [show 2000 * (24 + 1) = 50000 from rfl, ← Fin.sum_univ_eq_sum_range (fun m => entry7 (nodes7 V c) (i 1) m) 50000]
  exact Finset.sum_congr rfl fun n _ => entry7_fin _ _ n

theorem final7_2 (c : Dev nD) :
    (dat7 (F := Ideal) V c).arrAt 2 cfg7.N
      = fun i : S1x96.Idx => ∑ n : Fin 50000, nodes7 V c (ix2 n (i 1))
          * nodes7 V c (ix2 n (i 1)) := by
  rw [arr7_2]; funext i
  refine ((acc7_closed V c 24 (by decide) i).2).trans ?_
  rw [show 2000 * (24 + 1) = 50000 from rfl, ← Fin.sum_univ_eq_sum_range (fun m => entry7 (nodes7 V c) (i 1) m * entry7 (nodes7 V c) (i 1) m) 50000]
  exact Finset.sum_congr rfl fun n _ => congrArg₂ (· * ·) (entry7_fin _ _ n) (entry7_fin _ _ n)

end Cert.KernelIdeal.HandValue

end
-- ==== Proof.KI.Val8.lean ====
import proofs.«406641_j72756745994790_1_alg».proof.Proof.KI.Reg8
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev xblk8 (c : Dev nD) (t : Fin cfg8.N) : Vec Ideal S2000x96 .f32 := iblk8 V c 0 t

abbrev mublk8 (c : Dev nD) (t : Fin cfg8.N) : Vec Ideal S1x96 .f32 := iblk8 V c 1 t
abbrev vablk8 (c : Dev nD) (t : Fin cfg8.N) : Vec Ideal S1x96 .f32 := iblk8 V c 2 t
abbrev gblk8 (c : Dev nD) (t : Fin cfg8.N) : Vec Ideal S1x96 .f32 := iblk8 V c 3 t
abbrev bblk8 (c : Dev nD) (t : Fin cfg8.N) : Vec Ideal S1x96 .f32 := iblk8 V c 4 t

abbrev xarr8 (c : Dev nD) : S50000x96.Idx → Ideal .f32 := V c (Pipeline.arrRef spec8 0)
abbrev muarr8 (c : Dev nD) : S1x96.Idx → Ideal .f32 := V c (Pipeline.arrRef spec8 1)
abbrev vaarr8 (c : Dev nD) : S1x96.Idx → Ideal .f32 := V c (Pipeline.arrRef spec8 2)
abbrev garr8 (c : Dev nD) : S1x96.Idx → Ideal .f32 := V c (Pipeline.arrRef spec8 3)
abbrev barr8 (c : Dev nD) : S1x96.Idx → Ideal .f32 := V c (Pipeline.arrRef spec8 4)

theorem row_spread8 (v : FVec Ideal S1x96 .f32) (r : Fin 2000) (j : Fin 96) :
    broadcastTo S2000x96 v broadcasts_S1x96_S2000x96 (ix2 r j) = v (ix2 0 j) :=
  broadcastTo_apply v broadcasts_S1x96_S2000x96 (ix2 r j) (ix2 0 j) (fun a => by
    match a with
    | ⟨0, _⟩ => rfl
    | ⟨1, _⟩ => rfl)

theorem pay8_apply (mu va g b : Vec Ideal S1x96 .f32) (x : Vec Ideal S2000x96 .f32) (r : Fin 2000) (j : Fin 96) :
    k8_pay1 mu va g b x (ix2 r j)
      = max (((x (ix2 r j) - mu (ix2 0 j)) * Ideal.rsqrt (va (ix2 0 j) + Ideal.ofBits .f32 0x3727C5AC#32)) * g (ix2 0 j) + b (ix2 0 j)) 0 := by
  unfold k8_pay1
  simp only [shapeCast_self]
  rw [maximumf_apply, addf_apply, mulf_apply, mulf_apply, subf_apply, row_spread8, row_spread8, row_spread8, row_spread8,
    broadcast_apply]
  show max (((x (ix2 r j) - mu (ix2 0 j)) * Ideal.rsqrt (va (ix2 0 j) + Ideal.ofBits .f32 0x3727C5AC#32)) * g (ix2 0 j) + b (ix2 0 j)) (Ideal.ofBits .f32 0x00000000#32) = _
  rw [Ideal.ofBits_zero_f32]

def norm8 (a : S50000x96.Idx → Ideal .f32) (mu va g b : S1x96.Idx → Ideal .f32) : S50000x96.Idx → Ideal .f32 := fun i =>
  max (((a i - mu (ix2 0 (i 1))) * Ideal.rsqrt (va (ix2 0 (i 1)) + Ideal.ofBits .f32 0x3727C5AC#32)) * g (ix2 0 (i 1)) + b (ix2 0 (i 1))) 0

theorem norm8_apply (a : S50000x96.Idx → Ideal .f32) (mu va g b : S1x96.Idx → Ideal .f32) (n : Fin 50000) (j : Fin 96) :
    norm8 a mu va g b (ix2 n j)
      = max (((a (ix2 n j) - mu (ix2 0 j)) * Ideal.rsqrt (va (ix2 0 j) + Ideal.ofBits .f32 0x3727C5AC#32)) * g (ix2 0 j) + b (ix2 0 j)) 0 := rfl

theorem block_indices8 : ∀ t : Fin cfg8.N, win8_0.index t (0 : Fin 2) = win8_5.index t (0 : Fin 2)
    ∧ win8_0.index t (1 : Fin 2) = 0 ∧ win8_5.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) ≤ 24 :=
  (by decide +kernel : ∀ t : Fin grid8.N, _)

theorem block_onto8 : ∀ q : Fin 25, ∃ t : Fin cfg8.N, win8_5.index t = ![q.val, 0] :=
  (by decide +kernel : ∀ q : Fin 25, ∃ t : Fin grid8.N, win8_5.index t = ![q.val, 0])

theorem pay8_norm (a : S50000x96.Idx → Ideal .f32) (mu' va' g' b' : S1x96.Idx → Ideal .f32)
    (x : Vec Ideal S2000x96 .f32) (mu va g b : Vec Ideal S1x96 .f32) (y : S2000x96.Idx) (i : S50000x96.Idx)
    (hx : x y = a i) (hcol : (i 1).val = (y 1).val)
    (hmu : ∀ j : Fin 96, mu (ix2 0 j) = mu' (ix2 0 j)) (hva : ∀ j : Fin 96, va (ix2 0 j) = va' (ix2 0 j))
    (hg : ∀ j : Fin 96, g (ix2 0 j) = g' (ix2 0 j)) (hb : ∀ j : Fin 96, b (ix2 0 j) = b' (ix2 0 j)) :
    k8_pay1 mu va g b x y = norm8 a mu' va' g' b' i := by
  obtain ⟨r, j, rfl⟩ : ∃ (r : Fin 2000) (j : Fin 96), y = ix2 r j := ⟨y 0, y 1, eq_ix2 y⟩
  have hi : (i 1 : Fin 96) = j := Fin.ext hcol
  rw [pay8_apply, hx, hmu, hva, hg, hb]
  unfold norm8
  rw [hi]

theorem node_entry8 (c : Dev nD) (t : Fin cfg8.N) (y : S2000x96.Idx) :
    xblk8 V c t y = xarr8 V c (((cfg8.win 5).blk t).view.emb y) := by
  obtain ⟨e0, e1, e2, e3, e4, e5, e6, e7, e8, e9, e10, e11⟩ := block_indices8 t
  show V c (Pipeline.arrRef spec8 0) (((cfg8.win 0).blk t).view.emb y) = _
  refine congrArg _ (funext fun a => Fin.ext ?_)
  match a with
  | ⟨0, _⟩ => show win8_0.index t (0 : Fin 2) * 2000 + 1 * (y 0).val = win8_5.index t (0 : Fin 2) * 2000 + 1 * (y 0).val; omega
  | ⟨1, _⟩ => show win8_0.index t (1 : Fin 2) * 96 + 1 * (y 1).val = win8_5.index t (1 : Fin 2) * 96 + 1 * (y 1).val; omega

theorem col_keep8 (t : Fin cfg8.N) (y : S2000x96.Idx) :
    ((((cfg8.win 5).blk t).view.emb y : S50000x96.Idx) 1).val = (y 1).val := by
  obtain ⟨e0, e1, e2, e3, e4, e5, e6, e7, e8, e9, e10, e11⟩ := block_indices8 t
  show win8_5.index t (1 : Fin 2) * 96 + 1 * (y 1).val = (y 1).val; omega

theorem mu_entry8 (c : Dev nD) (t : Fin cfg8.N) (j : Fin 96) : mublk8 V c t (ix2 0 j) = muarr8 V c (ix2 0 j) := by
  obtain ⟨e0, e1, e2, e3, e4, e5, e6, e7, e8, e9, e10, e11⟩ := block_indices8 t
  show V c (Pipeline.arrRef spec8 1) (((cfg8.win 1).blk t).view.emb (ix2 0 j)) = _
  refine congrArg _ (funext fun a => Fin.ext ?_)
  match a with
  | ⟨0, _⟩ => show win8_1.index t (0 : Fin 2) * 1 + 1 * 0 = 0; omega
  | ⟨1, _⟩ => show win8_1.index t (1 : Fin 2) * 96 + 1 * j.val = j.val; omega

theorem va_entry8 (c : Dev nD) (t : Fin cfg8.N) (j : Fin 96) : vablk8 V c t (ix2 0 j) = vaarr8 V c (ix2 0 j) := by
  obtain ⟨e0, e1, e2, e3, e4, e5, e6, e7, e8, e9, e10, e11⟩ := block_indices8 t
  show V c (Pipeline.arrRef spec8 2) (((cfg8.win 2).blk t).view.emb (ix2 0 j)) = _
  refine congrArg _ (funext fun a => Fin.ext ?_)
  match a with
  | ⟨0, _⟩ => show win8_2.index t (0 : Fin 2) * 1 + 1 * 0 = 0; omega
  | ⟨1, _⟩ => show win8_2.index t (1 : Fin 2) * 96 + 1 * j.val = j.val; omega

theorem g_entry8 (c : Dev nD) (t : Fin cfg8.N) (j : Fin 96) : gblk8 V c t (ix2 0 j) = garr8 V c (ix2 0 j) := by
  obtain ⟨e0, e1, e2, e3, e4, e5, e6, e7, e8, e9, e10, e11⟩ := block_indices8 t
  show V c (Pipeline.arrRef spec8 3) (((cfg8.win 3).blk t).view.emb (ix2 0 j)) = _
  refine congrArg _ (funext fun a => Fin.ext ?_)
  match a with
  | ⟨0, _⟩ => show win8_3.index t (0 : Fin 2) * 1 + 1 * 0 = 0; omega
  | ⟨1, _⟩ => show win8_3.index t (1 : Fin 2) * 96 + 1 * j.val = j.val; omega

theorem b_entry8 (c : Dev nD) (t : Fin cfg8.N) (j : Fin 96) : bblk8 V c t (ix2 0 j) = barr8 V c (ix2 0 j) := by
  obtain ⟨e0, e1, e2, e3, e4, e5, e6, e7, e8, e9, e10, e11⟩ := block_indices8 t
  show V c (Pipeline.arrRef spec8 4) (((cfg8.win 4).blk t).view.emb (ix2 0 j)) = _
  refine congrArg _ (funext fun a => Fin.ext ?_)
  match a with
  | ⟨0, _⟩ => show win8_4.index t (0 : Fin 2) * 1 + 1 * 0 = 0; omega
  | ⟨1, _⟩ => show win8_4.index t (1 : Fin 2) * 96 + 1 * j.val = j.val; omega

theorem flushed8_5_eq (c : Dev nD) (t : Fin cfg8.N) :
    (dat8 V c).flushed 5 t = ((cfg8.win 5).blk t).view.read (Elt Ideal)
      (norm8 (xarr8 V c) (muarr8 V c) (vaarr8 V c) (garr8 V c) (barr8 V c)) := by
  show (cfg8.win 5).cut (grid8.coords t) ((dat8 V c).after 5 t) = _
  rw [after8_5]
  funext y
  exact pay8_norm (xarr8 V c) (muarr8 V c) (vaarr8 V c) (garr8 V c) (barr8 V c)
    (xblk8 V c t) (mublk8 V c t) (vablk8 V c t) (gblk8 V c t) (bblk8 V c t) y (((cfg8.win 5).blk t).view.emb y)
    (node_entry8 V c t y) (col_keep8 t y) (mu_entry8 V c t) (va_entry8 V c t) (g_entry8 V c t) (b_entry8 V c t)

theorem mem_oblk8 (t : Fin cfg8.N) (i : S50000x96.Idx) :
    i ∈ ((cfg8.win 5).blk t).view.set ↔ ∀ a : Fin 2, win8_5.index t a * S2000x96.size a ≤ (i a).val ∧ (i a).val < win8_5.index t a * S2000x96.size a + S2000x96.size a := by
  show i ∈ ((View.whole main_v134).slice (win8_5.rect t)).set ↔ _
  rw [View.set_slice_whole, Rect.mem_set_unit]
  exact Iff.rfl

theorem oblk_cover8 (i : S50000x96.Idx) : ∃ t : Fin cfg8.N, (cfg8.win 5).flush t = true ∧ i ∈ ((cfg8.win 5).blk t).view.set := by
  have hi0 : (i 0).val < 50000 := (i 0).isLt
  have hi1 : (i 1).val < 96 := (i 1).isLt
  obtain ⟨t, ht⟩ := block_onto8 ⟨(i 0).val / 2000, by omega⟩
  have q0 : win8_5.index t (0 : Fin 2) = (i 0).val / 2000 := congrFun ht 0
  have q1 : win8_5.index t (1 : Fin 2) = 0 := congrFun ht 1
  refine ⟨t, flush8_5 t, ?_⟩
  rw [mem_oblk8]
  intro a
  match a with
  | ⟨0, _⟩ => show win8_5.index t (0 : Fin 2) * 2000 ≤ (i 0).val ∧ (i 0).val < win8_5.index t (0 : Fin 2) * 2000 + 2000; omega
  | ⟨1, _⟩ => show win8_5.index t (1 : Fin 2) * 96 ≤ (i 1).val ∧ (i 1).val < win8_5.index t (1 : Fin 2) * 96 + 96; omega

theorem final8_5 (c : Dev nD) :
    (dat8 V c).arrAt 5 cfg8.N = norm8 (xarr8 V c) (muarr8 V c) (vaarr8 V c) (garr8 V c) (barr8 V c) :=
  (dat8 V c).arrAt_eq_of_cover 5 (norm8 (xarr8 V c) (muarr8 V c) (vaarr8 V c) (garr8 V c) (barr8 V c))
    (fun t _ => flushed8_5_eq V c t) oblk_cover8

end Cert.KernelIdeal.HandValue

end
-- ==== Proof.KI.Val9.lean ====
import proofs.«406641_j72756745994790_1_alg».proof.Proof.KI.Reg9
import proofs.«406641_j72756745994790_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (V : (c : Dev nD) → (b : Ref sig .tc) → Buf (Elt Ideal) ((c : Thread nD τ).loc b))

abbrev xblk9 (c : Dev nD) (t : Fin cfg9.N) : Vec Ideal S2000x96 .f32 := iblk9 V c 0 t
abbrev wblk9 (c : Dev nD) (t : Fin cfg9.N) : Vec Ideal S96x96 .f32 := iblk9 V c 1 t

abbrev xarr9 (c : Dev nD) : S50000x96.Idx → Ideal .f32 := V c (Pipeline.arrRef spec9 0)
abbrev warr9 (c : Dev nD) : S96x96.Idx → Ideal .f32 := V c (Pipeline.arrRef spec9 1)

theorem pay9_apply (x : Vec Ideal S2000x96 .f32) (w : Vec Ideal S96x96 .f32) (r : Fin 2000) (j : Fin 96) :
    k9_pay1 x w (ix2 r j) = ∑ k : Fin 96, x (ix2 r k) * w (ix2 k j) := by
  unfold k9_pay1
  simp only [shapeCast_self]
  exact Cert.Lib.PlainDot.matmul_zero_apply dot_S2000x96_S96x96_S2000x96_1_0_0_1_n_n rfl rfl rfl rfl rfl rfl none
    (truncf .bf16 x bitsLt_bf16_f32) (truncf .bf16 w bitsLt_bf16_f32) r j

def matprod9 (a : S50000x96.Idx → Ideal .f32) (w : S96x96.Idx → Ideal .f32) : S50000x96.Idx → Ideal .f32 := fun i =>
  ∑ k : Fin 96, a (ix2 (i 0) k) * w (ix2 k (i 1))

theorem matprod9_apply (a : S50000x96.Idx → Ideal .f32) (w : S96x96.Idx → Ideal .f32) (n : Fin 50000) (j : Fin 96) :
    matprod9 a w (ix2 n j) = ∑ k : Fin 96, a (ix2 n k) * w (ix2 k j) := rfl

theorem block_indices9 : ∀ t : Fin cfg9.N, win9_0.index t (0 : Fin 2) = win9_2.index t (0 : Fin 2)
    ∧ win9_0.index t (1 : Fin 2) = 0 ∧ win9_2.index t (1 : Fin 2) = 0
    ∧ win9_1.index t (0 : Fin 2) = 0 ∧ win9_1.index t (1 : Fin 2) = 0
    ∧ win9_2.index t (0 : Fin 2) ≤ 24 :=
  (by decide +kernel : ∀ t : Fin grid9.N, _)

theorem block_onto9 : ∀ q : Fin 25, ∃ t : Fin cfg9.N, win9_2.index t = ![q.val, 0] :=
  (by decide +kernel : ∀ q : Fin 25, ∃ t : Fin grid9.N, win9_2.index t = ![q.val, 0])

theorem pay9_matprod (a : S50000x96.Idx → Ideal .f32) (w' : S96x96.Idx → Ideal .f32)
    (x : Vec Ideal S2000x96 .f32) (w : Vec Ideal S96x96 .f32) (y : S2000x96.Idx) (i : S50000x96.Idx)
    (hx : ∀ k : Fin 96, x (ix2 (y 0) k) = a (ix2 (i 0) k)) (hcol : (i 1).val = (y 1).val)
    (hw : ∀ k j : Fin 96, w (ix2 k j) = w' (ix2 k j)) :
    k9_pay1 x w y = matprod9 a w' i := by
  obtain ⟨r, j, rfl⟩ : ∃ (r : Fin 2000) (j : Fin 96), y = ix2 r j := ⟨y 0, y 1, eq_ix2 y⟩
  have hi : (i 1 : Fin 96) = j := Fin.ext hcol
  rw [pay9_apply]
  unfold matprod9
  rw [hi]
  exact Finset.sum_congr rfl fun k _ => congrArg₂ (· * ·) (hx k) (hw k j)

theorem node_entry9 (c : Dev nD) (t : Fin cfg9.N) (y : S2000x96.Idx) (k : Fin 96) :
    xblk9 V c t (ix2 (y 0) k) = xarr9 V c (ix2 ((((cfg9.win 2).blk t).view.emb y : S50000x96.Idx) 0) k) := by
  obtain ⟨e0, e1, e2, e3, e4, e5⟩ := block_indices9 t
  show V c (Pipeline.arrRef spec9 0) (((cfg9.win 0).blk t).view.emb (ix2 (y 0) k)) = _
  refine congrArg _ (funext fun a => Fin.ext ?_)
  match a with
  | ⟨0, _⟩ => show win9_0.index t (0 : Fin 2) * 2000 + 1 * (y 0).val = win9_2.index t (0 : Fin 2) * 2000 + 1 * (y 0).val; omega
  | ⟨1, _⟩ => show win9_0.index t (1 : Fin 2) * 96 + 1 * k.val = k.val; omega

theorem col_keep9 (t : Fin cfg9.N) (y : S2000x96.Idx) :
    ((((cfg9.win 2).blk t).view.emb y : S50000x96.Idx) 1).val = (y 1).val := by
  obtain ⟨e0, e1, e2, e3, e4, e5⟩ := block_indices9 t
  show win9_2.index t (1 : Fin 2) * 96 + 1 * (y 1).val = (y 1).val; omega

theorem weight_entry9 (c : Dev nD) (t : Fin cfg9.N) (k j : Fin 96) : wblk9 V c t (ix2 k j) = warr9 V c (ix2 k j) := by
  obtain ⟨e0, e1, e2, e3, e4, e5⟩ := block_indices9 t
  show V c (Pipeline.arrRef spec9 1) (((cfg9.win 1).blk t).view.emb (ix2 k j)) = _
  refine congrArg _ (funext fun a => Fin.ext ?_)
  match a with
  | ⟨0, _⟩ => show win9_1.index t (0 : Fin 2) * 96 + 1 * k.val = k.val; omega
  | ⟨1, _⟩ => show win9_1.index t (1 : Fin 2) * 96 + 1 * j.val = j.val; omega

theorem flushed9_2_eq (c : Dev nD) (t : Fin cfg9.N) :
    (dat9 V c).flushed 2 t = ((cfg9.win 2).blk t).view.read (Elt Ideal) (matprod9 (xarr9 V c) (warr9 V c)) := by
  show (cfg9.win 2).cut (grid9.coords t) ((dat9 V c).after 2 t) = _
  rw [after9_2]
  funext y
  exact pay9_matprod (xarr9 V c) (warr9 V c) (xblk9 V c t) (wblk9 V c t) y (((cfg9.win 2).blk t).view.emb y)
    (node_entry9 V c t y) (col_keep9 t y) (weight_entry9 V c t)

theorem mem_oblk9 (t : Fin cfg9.N) (i : S50000x96.Idx) :
    i ∈ ((cfg9.win 2).blk t).view.set ↔ ∀ a : Fin 2, win9_2.index t a * S2000x96.size a ≤ (i a).val ∧ (i a).val < win9_2.index t a * S2000x96.size a + S2000x96.size a := by
  show i ∈ ((View.whole main_v137).slice (win9_2.rect t)).set ↔ _
  rw [View.set_slice_whole, Rect.mem_set_unit]
  exact Iff.rfl

theorem oblk_cover9 (i : S50000x96.Idx) : ∃ t : Fin cfg9.N, (cfg9.win 2).flush t = true ∧ i ∈ ((cfg9.win 2).blk t).view.set := by
  have hi0 : (i 0).val < 50000 := (i 0).isLt
  have hi1 : (i 1).val < 96 := (i 1).isLt
  obtain ⟨t, ht⟩ := block_onto9 ⟨(i 0).val / 2000, by omega⟩
  have q0 : win9_2.index t (0 : Fin 2) = (i 0).val / 2000 := congrFun ht 0
  have q1 : win9_2.index t (1 : Fin 2) = 0 := congrFun ht 1
  refine ⟨t, flush9_2 t, ?_⟩
  rw [mem_oblk9]
  intro a
  match a with
  | ⟨0, _⟩ => show win9_2.index t (0 : Fin 2) * 2000 ≤ (i 0).val ∧ (i 0).val < win9_2.index t (0 : Fin 2) * 2000 + 2000; omega
  | ⟨1, _⟩ => show win9_2.index t (1 : Fin 2) * 96 ≤ (i 1).val ∧ (i 1).val < win9_2.index t (1 : Fin 2) * 96 + 96; omega

theorem final9_2 (c : Dev nD) :
    (dat9 (F := Ideal) V c).arrAt 2 cfg9.N = matprod9 (xarr9 V c) (warr9 V c) :=
  (dat9 V c).arrAt_eq_of_cover 2 (matprod9 (xarr9 V c) (warr9 V c))
    (fun t _ => flushed9_2_eq V c t) oblk_cover9

theorem final9_2_apply (c : Dev nD) (n : Fin 50000) (j : Fin 96) :
    ((dat9 (F := Ideal) V c).arrAt 2 cfg9.N : S50000x96.Idx → Ideal .f32) (ix2 n j)
      = ∑ k : Fin 96, xarr9 V c (ix2 n k) * warr9 V c (ix2 k j) :=
  (congrFun (final9_2 V c) (ix2 n j)).trans (matprod9_apply (xarr9 V c) (warr9 V c) n j)

end Cert.KernelIdeal.HandValue

end
-- ==== Proof.KI.Val10.lean ====
import proofs.«406641_j72756745994790_1_alg».proof.Proof.KI.Reg10
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Intervals
import Mathlib.Algebra.BigOperators.Fin

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

abbrev nodes10 (c : Dev nD) : S50000x96.Idx → EReal := V c (Pipeline.arrRef spec10 0)

def entry10 (a : S50000x96.Idx → EReal) (j : Fin 96) (m : ℕ) : EReal :=
  if h : m < 50000 then a (ix2 ⟨m, h⟩ j) else 0

theorem entry10_fin (a : S50000x96.Idx → EReal) (j : Fin 96) (n : Fin 50000) : entry10 a j n.val = a (ix2 n j) := by
  unfold entry10; rw [dif_pos n.isLt]

theorem lift_row10 (j : S96.Idx) (k : Fin (S2000x96.size 0)) : reduces_S2000x96_S96.lift j k = ix2 k (j 0) := by
  funext a
  match a with
  | ⟨0, _⟩ => exact Fin.ext (by rw [Shape.Reduces.lift_val]; simp [Shape.Reduces.liftVal])
  | ⟨1, _⟩ => exact Fin.ext (by rw [Shape.Reduces.lift_val]; simp [Shape.Reduces.liftVal])

theorem pay10_zero1 : (k10_pay1 (F := Ideal) : S1x96.Idx → EReal) = fun _ => 0 := by
  unfold k10_pay1; simp only [shapeCast_self]; funext i; exact Ideal.ofBits_zero_f32
theorem pay2_zero10 : (k10_pay2 (F := Ideal) : S1x96.Idx → EReal) = fun _ => 0 := by
  unfold k10_pay2; simp only [shapeCast_self]; funext i; exact Ideal.ofBits_zero_f32

theorem pay4_apply10 (x : S2000x96.Idx → EReal) (s : S1x96.Idx → EReal) (i : S1x96.Idx) :
    (k10_pay4 (F := Ideal) x s : S1x96.Idx → EReal) i = s i + ∑ r : Fin 2000, x (ix2 r (i 1)) := by
  unfold k10_pay4 k10_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg x (lift_row10 (fun a => i a.succ) r)

theorem pay5_apply10 (x : S2000x96.Idx → EReal) (s : S1x96.Idx → EReal) (i : S1x96.Idx) :
    (k10_pay5 (F := Ideal) x s : S1x96.Idx → EReal) i = s i + ∑ r : Fin 2000, x (ix2 r (i 1)) * x (ix2 r (i 1)) := by
  unfold k10_pay5 k10_pay3
  simp only [shapeCast_self]
  show s i + shapeCast S1x96 _ shapeCasts_S96_S1x96 i = _
  rw [shapeCast_addUnit_apply]
  refine congrArg (fun z => s i + z) ?_
  refine (Ideal.multiReduction_add_single _ _ _ _ _ _).trans ?_
  refine Finset.sum_congr rfl fun r _ => ?_
  exact congrArg (fun q => x q * x q) (lift_row10 (fun a => i a.succ) r)

theorem blockIndex10 : ∀ t : Fin cfg10.N, win10_0.index t (0 : Fin 2) = t.val ∧ win10_0.index t (1 : Fin 2) = 0 :=
  (by decide +kernel : ∀ t : Fin grid10.N, win10_0.index t (0 : Fin 2) = t.val ∧ win10_0.index t (1 : Fin 2) = 0)

theorem iblk10_apply (c : Dev nD) (t : Fin cfg10.N) (x : S2000x96.Idx) (k : S50000x96.Idx)
    (hk0 : (k 0).val = 2000 * t.val + (x 0).val) (hk1 : (k 1).val = (x 1).val) :
    (iblk10 V c 0 t : S2000x96.Idx → EReal) x = nodes10 V c k := by
  obtain ⟨h0, h1⟩ := blockIndex10 t
  unfold iblk10
  rw [View.read_apply]
  show V c main_v154 _ = V c main_v154 _
  congr 1
  funext a
  apply Fin.ext
  match a with
  | ⟨0, _⟩ => show win10_0.index t 0 * 2000 + 1 * (x 0).val = (k 0).val; rw [h0, hk0]; omega
  | ⟨1, _⟩ => show win10_0.index t 1 * 96 + 1 * (x 1).val = (k 1).val; rw [h1, hk1]; omega

theorem blockSumG10 (g : EReal → EReal) (c : Dev nD) (t : Fin cfg10.N) (j : Fin 96) :
    ∑ r : Fin 2000, g ((iblk10 V c 0 t : S2000x96.Idx → EReal) (ix2 r j))
      = ∑ r ∈ Finset.range 2000, g (entry10 (nodes10 V c) j (2000 * t.val + r)) := by
  rw [← Fin.sum_univ_eq_sum_range (fun r => g (entry10 (nodes10 V c) j (2000 * t.val + r))) 2000]
  refine Finset.sum_congr rfl fun r _ => ?_
  have hN : t.val < 25 := lt_of_lt_of_eq t.isLt (show cfg10.N = 25 from N_10)
  have hr := r.isLt
  have hm : 2000 * t.val + r.val < 50000 := by omega
  unfold entry10; rw [dif_pos hm]
  exact congrArg g (iblk10_apply V c t (ix2 r j) (ix2 ⟨_, hm⟩ j) rfl rfl)

theorem acc10_closed (c : Dev nD) : ∀ (n : ℕ) (hn : n < cfg10.N) (i : S1x96.Idx),
    ((acc10 V c n hn).1 : S1x96.Idx → EReal) i = ∑ m ∈ Finset.range (2000 * (n + 1)), entry10 (nodes10 V c) (i 1) m
    ∧ ((acc10 V c n hn).2 : S1x96.Idx → EReal) i
        = ∑ m ∈ Finset.range (2000 * (n + 1)), entry10 (nodes10 V c) (i 1) m * entry10 (nodes10 V c) (i 1) m
  | 0, hn, i => by
    rw [acc10_zero]; dsimp only
    rw [pay4_apply10, pay5_apply10, pay10_zero1, pay2_zero10]
    simp only [zero_add]
    exact ⟨(blockSumG10 V (fun v => v) c ⟨0, hn⟩ (i 1)).trans (by simp only [Nat.mul_zero, Nat.zero_add, Nat.mul_one]),
           (blockSumG10 V (fun v => v * v) c ⟨0, hn⟩ (i 1)).trans (by simp only [Nat.mul_zero, Nat.zero_add, Nat.mul_one])⟩
  | n + 1, hn, i => by
    obtain ⟨ih1, ih2⟩ := acc10_closed c n (Nat.lt_of_succ_lt hn) i
    rw [acc10_succ]; dsimp only
    rw [pay4_apply10, pay5_apply10, ih1, ih2]
    rw [show 2000 * (n + 1 + 1) = 2000 * (n + 1) + 2000 from by ring, Finset.sum_range_add, Finset.sum_range_add]
    exact ⟨congrArg (fun z => _ + z) (blockSumG10 V (fun v => v) c ⟨n + 1, hn⟩ (i 1)),
           congrArg (fun z => _ + z) (blockSumG10 V (fun v => v * v) c ⟨n + 1, hn⟩ (i 1))⟩

abbrev tLast10 : Fin cfg10.N := ⟨24, by decide⟩

abbrev sums10 (c : Dev nD) : Buf (Elt Ideal) ((c : Thread nD τ).loc main_v155_0) := (acc10 V c 24 (by decide)).1
abbrev sumSqs10 (c : Dev nD) : Buf (Elt Ideal) ((c : Thread nD τ).loc main_v155_1) := (acc10 V c 24 (by decide)).2

theorem flushed10_1 (c : Dev nD) (t : Fin cfg10.N) (hf : (cfg10.win 1).flush t = true) :
    (dat10 V c).flushed 1 t = ((cfg10.win 1).blk t).view.read (Elt Ideal) (sums10 V c) := by
  have hN : cfg10.N = 25 := N_10
  have h24 : t.val = 24 := by have := (flush10_1 t).mp hf; have := t.isLt; omega
  obtain rfl : t = tLast10 := Fin.ext h24
  show (cfg10.win 1).cut (grid10.coords tLast10) ((dat10 V c).after 1 tLast10) = _
  rw [after10_1]
  have hz' : (fun a => win10_1.index tLast10 a * main_v155_0.ty.shape.size a) = fun _ => 0 := funext fun a => by fin_cases a <;> decide
  exact (Memref.read_access_unit_zero (Elt Ideal) main_v155_0 hz' (fun a => by rw [congrFun hz' a]; simp) (sums10 V c)).symm

theorem flushed10_2 (c : Dev nD) (t : Fin cfg10.N) (hf : (cfg10.win 2).flush t = true) :
    (dat10 V c).flushed 2 t = ((cfg10.win 2).blk t).view.read (Elt Ideal) (sumSqs10 V c) := by
  have hN : cfg10.N = 25 := N_10
  have h24 : t.val = 24 := by have := (flush10_2 t).mp hf; have := t.isLt; omega
  obtain rfl : t = tLast10 := Fin.ext h24
  show (cfg10.win 2).cut (grid10.coords tLast10) ((dat10 V c).after 2 tLast10) = _
  rw [after10_2]
  have hz' : (fun a => win10_2.index tLast10 a * main_v155_1.ty.shape.size a) = fun _ => 0 := funext fun a => by fin_cases a <;> decide
  exact (Memref.read_access_unit_zero (Elt Ideal) main_v155_1 hz' (fun a => by rw [congrFun hz' a]; simp) (sumSqs10 V c)).symm

theorem arr10_1 (c : Dev nD) : (dat10 V c).arrAt 1 cfg10.N = sums10 V c :=
  (dat10 V c).arrAt_eq_of_cover 1 (sums10 V c) (flushed10_1 V c) fun i =>
    ⟨tLast10, (flush10_1 tLast10).mpr rfl, by
      show i ∈ ((View.whole main_v155_0).slice (win10_1.rect tLast10)).set
      rw [View.set_slice_whole, Rect.mem_set_unit]
      intro a
      have h0 : (i 0 : Nat) < 1 := (i 0).isLt
      have h1 : (i 1 : Nat) < 96 := (i 1).isLt
      match a with
      | ⟨0, _⟩ => show win10_1.index tLast10 0 * win10_1.size 0 ≤ (i 0 : Nat) ∧ (i 0 : Nat) < win10_1.index tLast10 0 * win10_1.size 0 + win10_1.xsize (grid10.coords tLast10) 0
                  rw [show win10_1.index tLast10 0 * win10_1.size 0 = 0 from by decide +kernel, show win10_1.xsize (grid10.coords tLast10) 0 = 1 from by decide +kernel]; omega
      | ⟨1, _⟩ => show win10_1.index tLast10 1 * win10_1.size 1 ≤ (i 1 : Nat) ∧ (i 1 : Nat) < win10_1.index tLast10 1 * win10_1.size 1 + win10_1.xsize (grid10.coords tLast10) 1
                  rw [show win10_1.index tLast10 1 * win10_1.size 1 = 0 from by decide +kernel, show win10_1.xsize (grid10.coords tLast10) 1 = 96 from by decide +kernel]; omega⟩

theorem arr10_2 (c : Dev nD) : (dat10 V c).arrAt 2 cfg10.N = sumSqs10 V c :=
  (dat10 V c).arrAt_eq_of_cover 2 (sumSqs10 V c) (flushed10_2 V c) fun i =>
    ⟨tLast10, (flush10_2 tLast10).mpr rfl, by
      show i ∈ ((View.whole main_v155_1).slice (win10_2.rect tLast10)).set
      rw [View.set_slice_whole, Rect.mem_set_unit]
      intro a
      have h0 : (i 0 : Nat) < 1 := (i 0).isLt
      have h1 : (i 1 : Nat) < 96 := (i 1).isLt
      match a with
      | ⟨0, _⟩ => show win10_2.index tLast10 0 * win10_2.size 0 ≤ (i 0 : Nat) ∧ (i 0 : Nat) < win10_2.index tLast10 0 * win10_2.size 0 + win10_2.xsize (grid10.coords tLast10) 0
                  rw [show win10_2.index tLast10 0 * win10_2.size 0 = 0 from by decide +kernel, show win10_2.xsize (grid10.coords tLast10) 0 = 1 from by decide +kernel]; omega
      | ⟨1, _⟩ => show win10_2.index tLast10 1 * win10_2.size 1 ≤ (i 1 : Nat) ∧ (i 1 : Nat) < win10_2.index tLast10 1 * win10_2.size 1 + win10_2.xsize (grid10.coords tLast10) 1
                  rw [show win10_2.index tLast10 1 * win10_2.size 1 = 0 from by decide +kernel, show win10_2.xsize (grid10.coords tLast10) 1 = 96 from by decide +kernel]; omega⟩

theorem final10_1 (c : Dev nD) :
    (dat10 (F := Ideal) V c).arrAt 1 cfg10.N
      = fun i : S1x96.Idx => ∑ n : Fin 50000, nodes10 V c (ix2 n (i 1)) := by
  rw [arr10_1]; funext i
  refine ((acc10_closed V c 24 (by decide) i).1).trans ?_
  rw [show 2000 * (24 + 1) = 50000 from rfl, ← Fin.sum_univ_eq_sum_range (fun m => entry10 (nodes10 V c) (i 1) m) 50000]
  exact Finset.sum_congr rfl fun n _ => entry10_fin _ _ n

theorem final10_2 (c : Dev nD) :
    (dat10 (F := Ideal) V c).arrAt 2 cfg10.N
      = fun i : S1x96.Idx => ∑ n : Fin 50000, nodes10 V c (ix2 n (i 1))
          * nodes10 V c (ix2 n (i 1)) := by
  rw [arr10_2]; funext i
  refine ((acc10_closed V c 24 (by decide) i).2).trans ?_
  rw [show 2000 * (24 + 1) = 50000 from rfl, ← Fin.sum_univ_eq_sum_range (fun m => entry10 (nodes10 V c) (i 1) m * entry10 (nodes10 V c) (i 1) m) 50000]
  exact Finset.sum_congr rfl fun n _ => congrArg₂ (· * ·) (entry10_fin _ _ n) (entry10_fin _ _ n)

end Cert.KernelIdeal.HandValue

end
-- ==== Proof.KI.Val11.lean ====
import proofs.«406641_j72756745994790_1_alg».proof.Proof.KI.Reg11
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

abbrev xblk11 (c : Dev nD) (t : Fin cfg11.N) : Vec Ideal S2000x96 .f32 := iblk11 V c 0 t

abbrev mublk11 (c : Dev nD) (t : Fin cfg11.N) : Vec Ideal S1x96 .f32 := iblk11 V c 1 t
abbrev vablk11 (c : Dev nD) (t : Fin cfg11.N) : Vec Ideal S1x96 .f32 := iblk11 V c 2 t
abbrev gblk11 (c : Dev nD) (t : Fin cfg11.N) : Vec Ideal S1x96 .f32 := iblk11 V c 3 t
abbrev bblk11 (c : Dev nD) (t : Fin cfg11.N) : Vec Ideal S1x96 .f32 := iblk11 V c 4 t

abbrev xarr11 (c : Dev nD) : S50000x96.Idx → Ideal .f32 := V c (Pipeline.arrRef spec11 0)
abbrev muarr11 (c : Dev nD) : S1x96.Idx → Ideal .f32 := V c (Pipeline.arrRef spec11 1)
abbrev vaarr11 (c : Dev nD) : S1x96.Idx → Ideal .f32 := V c (Pipeline.arrRef spec11 2)
abbrev garr11 (c : Dev nD) : S1x96.Idx → Ideal .f32 := V c (Pipeline.arrRef spec11 3)
abbrev barr11 (c : Dev nD) : S1x96.Idx → Ideal .f32 := V c (Pipeline.arrRef spec11 4)

theorem row_spread11 (v : FVec Ideal S1x96 .f32) (r : Fin 2000) (j : Fin 96) :
    broadcastTo S2000x96 v broadcasts_S1x96_S2000x96 (ix2 r j) = v (ix2 0 j) :=
  broadcastTo_apply v broadcasts_S1x96_S2000x96 (ix2 r j) (ix2 0 j) (fun a => by
    match a with
    | ⟨0, _⟩ => rfl
    | ⟨1, _⟩ => rfl)

theorem pay11_apply (mu va g b : Vec Ideal S1x96 .f32) (x : Vec Ideal S2000x96 .f32) (r : Fin 2000) (j : Fin 96) :
    k11_pay1 mu va g b x (ix2 r j)
      = max (((x (ix2 r j) - mu (ix2 0 j)) * Ideal.rsqrt (va (ix2 0 j) + Ideal.ofBits .f32 0x3727C5AC#32)) * g (ix2 0 j) + b (ix2 0 j)) 0 := by
  unfold k11_pay1
  simp only [shapeCast_self]
  rw [maximumf_apply, addf_apply, mulf_apply, mulf_apply, subf_apply, row_spread11, row_spread11, row_spread11, row_spread11,
    broadcast_apply]
  show max (((x (ix2 r j) - mu (ix2 0 j)) * Ideal.rsqrt (va (ix2 0 j) + Ideal.ofBits .f32 0x3727C5AC#32)) * g (ix2 0 j) + b (ix2 0 j)) (Ideal.ofBits .f32 0x00000000#32) = _
  rw [Ideal.ofBits_zero_f32]

def norm11 (a : S50000x96.Idx → Ideal .f32) (mu va g b : S1x96.Idx → Ideal .f32) : S50000x96.Idx → Ideal .f32 := fun i =>
  max (((a i - mu (ix2 0 (i 1))) * Ideal.rsqrt (va (ix2 0 (i 1)) + Ideal.ofBits .f32 0x3727C5AC#32)) * g (ix2 0 (i 1)) + b (ix2 0 (i 1))) 0

theorem norm11_apply (a : S50000x96.Idx → Ideal .f32) (mu va g b : S1x96.Idx → Ideal .f32) (n : Fin 50000) (j : Fin 96) :
    norm11 a mu va g b (ix2 n j)
      = max (((a (ix2 n j) - mu (ix2 0 j)) * Ideal.rsqrt (va (ix2 0 j) + Ideal.ofBits .f32 0x3727C5AC#32)) * g (ix2 0 j) + b (ix2 0 j)) 0 := rfl

theorem block_indices11 : ∀ t : Fin cfg11.N, win11_0.index t (0 : Fin 2) = win11_5.index t (0 : Fin 2)
    ∧ win11_0.index t (1 : Fin 2) = 0 ∧ win11_5.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) ≤ 24 :=
  (by decide +kernel : ∀ t : Fin grid11.N, _)

theorem block_onto11 : ∀ q : Fin 25, ∃ t : Fin cfg11.N, win11_5.index t = ![q.val, 0] :=
  (by decide +kernel : ∀ q : Fin 25, ∃ t : Fin grid11.N, win11_5.index t = ![q.val, 0])

theorem pay11_norm (a : S50000x96.Idx → Ideal .f32) (mu' va' g' b' : S1x96.Idx → Ideal .f32)
    (x : Vec Ideal S2000x96 .f32) (mu va g b : Vec Ideal S1x96 .f32) (y : S2000x96.Idx) (i : S50000x96.Idx)
    (hx : x y = a i) (hcol : (i 1).val = (y 1).val)
    (hmu : ∀ j : Fin 96, mu (ix2 0 j) = mu' (ix2 0 j)) (hva : ∀ j : Fin 96, va (ix2 0 j) = va' (ix2 0 j))
    (hg : ∀ j : Fin 96, g (ix2 0 j) = g' (ix2 0 j)) (hb : ∀ j : Fin 96, b (ix2 0 j) = b' (ix2 0 j)) :
    k11_pay1 mu va g b x y = norm11 a mu' va' g' b' i := by
  obtain ⟨r, j, rfl⟩ : ∃ (r : Fin 2000) (j : Fin 96), y = ix2 r j := ⟨y 0, y 1, eq_ix2 y⟩
  have hi : (i 1 : Fin 96) = j := Fin.ext hcol
  rw [pay11_apply, hx, hmu, hva, hg, hb]
  unfold norm11
  rw [hi]

theorem node_entry11 (c : Dev nD) (t : Fin cfg11.N) (y : S2000x96.Idx) :
    xblk11 V c t y = xarr11 V c (((cfg11.win 5).blk t).view.emb y) := by
  obtain ⟨e0, e1, e2, e3, e4, e5, e6, e7, e8, e9, e10, e11⟩ := block_indices11 t
  show V c (Pipeline.arrRef spec11 0) (((cfg11.win 0).blk t).view.emb y) = _
  refine congrArg _ (funext fun a => Fin.ext ?_)
  match a with
  | ⟨0, _⟩ => show win11_0.index t (0 : Fin 2) * 2000 + 1 * (y 0).val = win11_5.index t (0 : Fin 2) * 2000 + 1 * (y 0).val; omega
  | ⟨1, _⟩ => show win11_0.index t (1 : Fin 2) * 96 + 1 * (y 1).val = win11_5.index t (1 : Fin 2) * 96 + 1 * (y 1).val; omega

theorem col_keep11 (t : Fin cfg11.N) (y : S2000x96.Idx) :
    ((((cfg11.win 5).blk t).view.emb y : S50000x96.Idx) 1).val = (y 1).val := by
  obtain ⟨e0, e1, e2, e3, e4, e5, e6, e7, e8, e9, e10, e11⟩ := block_indices11 t
  show win11_5.index t (1 : Fin 2) * 96 + 1 * (y 1).val = (y 1).val; omega

theorem mu_entry11 (c : Dev nD) (t : Fin cfg11.N) (j : Fin 96) : mublk11 V c t (ix2 0 j) = muarr11 V c (ix2 0 j) := by
  obtain ⟨e0, e1, e2, e3, e4, e5, e6, e7, e8, e9, e10, e11⟩ := block_indices11 t
  show V c (Pipeline.arrRef spec11 1) (((cfg11.win 1).blk t).view.emb (ix2 0 j)) = _
  refine congrArg _ (funext fun a => Fin.ext ?_)
  match a with
  | ⟨0, _⟩ => show win11_1.index t (0 : Fin 2) * 1 + 1 * 0 = 0; omega
  | ⟨1, _⟩ => show win11_1.index t (1 : Fin 2) * 96 + 1 * j.val = j.val; omega

theorem va_entry11 (c : Dev nD) (t : Fin cfg11.N) (j : Fin 96) : vablk11 V c t (ix2 0 j) = vaarr11 V c (ix2 0 j) := by
  obtain ⟨e0, e1, e2, e3, e4, e5, e6, e7, e8, e9, e10, e11⟩ := block_indices11 t
  show V c (Pipeline.arrRef spec11 2) (((cfg11.win 2).blk t).view.emb (ix2 0 j)) = _
  refine congrArg _ (funext fun a => Fin.ext ?_)
  match a with
  | ⟨0, _⟩ => show win11_2.index t (0 : Fin 2) * 1 + 1 * 0 = 0; omega
  | ⟨1, _⟩ => show win11_2.index t (1 : Fin 2) * 96 + 1 * j.val = j.val; omega

theorem g_entry11 (c : Dev nD) (t : Fin cfg11.N) (j : Fin 96) : gblk11 V c t (ix2 0 j) = garr11 V c (ix2 0 j) := by
  obtain ⟨e0, e1, e2, e3, e4, e5, e6, e7, e8, e9, e10, e11⟩ := block_indices11 t
  show V c (Pipeline.arrRef spec11 3) (((cfg11.win 3).blk t).view.emb (ix2 0 j)) = _
  refine congrArg _ (funext fun a => Fin.ext ?_)
  match a with
  | ⟨0, _⟩ => show win11_3.index t (0 : Fin 2) * 1 + 1 * 0 = 0; omega
  | ⟨1, _⟩ => show win11_3.index t (1 : Fin 2) * 96 + 1 * j.val = j.val; omega

theorem b_entry11 (c : Dev nD) (t : Fin cfg11.N) (j : Fin 96) : bblk11 V c t (ix2 0 j) = barr11 V c (ix2 0 j) := by
  obtain ⟨e0, e1, e2, e3, e4, e5, e6, e7, e8, e9, e10, e11⟩ := block_indices11 t
  show V c (Pipeline.arrRef spec11 4) (((cfg11.win 4).blk t).view.emb (ix2 0 j)) = _
  refine congrArg _ (funext fun a => Fin.ext ?_)
  match a with
  | ⟨0, _⟩ => show win11_4.index t (0 : Fin 2) * 1 + 1 * 0 = 0; omega
  | ⟨1, _⟩ => show win11_4.index t (1 : Fin 2) * 96 + 1 * j.val = j.val; omega

theorem flushed11_5_eq (c : Dev nD) (t : Fin cfg11.N) :
    (dat11 V c).flushed 5 t = ((cfg11.win 5).blk t).view.read (Elt Ideal)
      (norm11 (xarr11 V c) (muarr11 V c) (vaarr11 V c) (garr11 V c) (barr11 V c)) := by
  show (cfg11.win 5).cut (grid11.coords t) ((dat11 V c).after 5 t) = _
  rw [after11_5]
  funext y
  exact pay11_norm (xarr11 V c) (muarr11 V c) (vaarr11 V c) (garr11 V c) (barr11 V c)
    (xblk11 V c t) (mublk11 V c t) (vablk11 V c t) (gblk11 V c t) (bblk11 V c t) y (((cfg11.win 5).blk t).view.emb y)
    (node_entry11 V c t y) (col_keep11 t y) (mu_entry11 V c t) (va_entry11 V c t) (g_entry11 V c t) (b_entry11 V c t)

theorem mem_oblk11 (t : Fin cfg11.N) (i : S50000x96.Idx) :
    i ∈ ((cfg11.win 5).blk t).view.set ↔ ∀ a : Fin 2, win11_5.index t a * S2000x96.size a ≤ (i a).val ∧ (i a).val < win11_5.index t a * S2000x96.size a + S2000x96.size a := by
  show i ∈ ((View.whole main_v168).slice (win11_5.rect t)).set ↔ _
  rw [View.set_slice_whole, Rect.mem_set_unit]
  exact Iff.rfl

theorem oblk_cover11 (i : S50000x96.Idx) : ∃ t : Fin cfg11.N, (cfg11.win 5).flush t = true ∧ i ∈ ((cfg11.win 5).blk t).view.set := by
  have hi0 : (i 0).val < 50000 := (i 0).isLt
  have hi1 : (i 1).val < 96 := (i 1).isLt
  obtain ⟨t, ht⟩ := block_onto11 ⟨(i 0).val / 2000, by omega⟩
  have q0 : win11_5.index t (0 : Fin 2) = (i 0).val / 2000 := congrFun ht 0
  have q1 : win11_5.index t (1 : Fin 2) = 0 := congrFun ht 1
  refine ⟨t, flush11_5 t, ?_⟩
  rw [mem_oblk11]
  intro a
  match a with
  | ⟨0, _⟩ => show win11_5.index t (0 : Fin 2) * 2000 ≤ (i 0).val ∧ (i 0).val < win11_5.index t (0 : Fin 2) * 2000 + 2000; omega
  | ⟨1, _⟩ => show win11_5.index t (1 : Fin 2) * 96 ≤ (i 1).val ∧ (i 1).val < win11_5.index t (1 : Fin 2) * 96 + 96; omega

theorem final11_5 (c : Dev nD) :
    (dat11 V c).arrAt 5 cfg11.N = norm11 (xarr11 V c) (muarr11 V c) (vaarr11 V c) (garr11 V c) (barr11 V c) :=
  (dat11 V c).arrAt_eq_of_cover 5 (norm11 (xarr11 V c) (muarr11 V c) (vaarr11 V c) (garr11 V c) (barr11 V c))
    (fun t _ => flushed11_5_eq V c t) oblk_cover11

end Cert.KernelIdeal.HandValue

end
-- ==== Proof.KI.Val12.lean ====
import proofs.«406641_j72756745994790_1_alg».proof.Proof.KI.Reg12
import Idealize.ShloMosaic.Lib.Pipeline.Value
import Idealize.ShloMosaic.Lib.ValueIdx
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.ShloMosaic.ValueIdx

variable (V : (c : Dev nD) → (b : Ref sig .tc) → Buf (Elt Ideal) ((c : Thread nD τ).loc b))

abbrev lastPt12 : Fin cfg12.N := ⟨24, by rw [show cfg12.N = 25 from N_12]; decide⟩

abbrev pooled12 (c : Dev nD) : Buf (Elt Ideal) ((c : Thread nD τ).loc main_v170) := acc12 V c lastPt12.val lastPt12.isLt

theorem outIndex12 : ∀ (t : Fin cfg12.N) (a : Fin 2), win12_2.index t a = 0 :=
  (by decide +kernel : ∀ (t : Fin grid12.N) (a : Fin 2), win12_2.index t a = 0)

theorem flushed12_eq (c : Dev nD) (t : Fin cfg12.N) (hf : (cfg12.win 2).flush t = true) :
    (dat12 V c).flushed 2 t = ((cfg12.win 2).blk t).view.read (Elt Ideal) (pooled12 V c) := by
  have hN : cfg12.N = 25 := N_12
  have h24 : t.val = 24 := by have := (flush12_2 t).mp hf; have := t.isLt; omega
  obtain rfl : t = lastPt12 := Fin.ext h24
  show (cfg12.win 2).cut (grid12.coords lastPt12) ((dat12 V c).after 2 lastPt12) = _
  rw [after12_2]
  have hz : (fun a => win12_2.index lastPt12 a * main_v170.ty.shape.size a) = fun _ => 0 :=
    funext fun a => by rw [outIndex12 lastPt12 a, Nat.zero_mul]
  exact (Memref.read_access_unit_zero (Elt Ideal) main_v170 hz (fun a => by rw [congrFun hz a]; simp) (pooled12 V c)).symm

theorem arr12_2 (c : Dev nD) : (dat12 (F := Ideal) V c).arrAt 2 cfg12.N = pooled12 V c :=
  (dat12 V c).arrAt_eq_of_cover 2 (pooled12 V c) (flushed12_eq V c) fun i =>
    ⟨lastPt12, (flush12_2 lastPt12).mpr rfl, by
      show i ∈ ((View.whole main_v170).slice (win12_2.rect lastPt12)).set
      rw [View.set_slice_whole, Rect.mem_set_unit]
      intro a
      show win12_2.index lastPt12 a * win12_2.size a ≤ (i a : Nat) ∧ (i a : Nat) < win12_2.index lastPt12 a * win12_2.size a + win12_2.xsize (grid12.coords lastPt12) a
      rw [outIndex12 lastPt12 a, Nat.zero_mul, Nat.zero_add]
      exact ⟨Nat.zero_le _, (i a).isLt⟩⟩

def weight12 (b : BitVec 32) (g : Fin 256) : Ideal .f32 :=
  FloatOps.sitofp (F := Ideal) .f32 ((IntOp.cmpi .eq b (BitVec.ofNat 32 g.val)).setWidth 32)

abbrev rows12 : dot_S2000x256_S2000x96_S256x96_0_0_1_1_n_n.contr.Idx ≃ Fin 2000 :=
  contrEquiv1 dot_S2000x256_S2000x96_S256x96_0_0_1_1_n_n 2000 rfl rfl

theorem pool_pay_apply12 (v3 : Vec Ideal S2000x96 .f32) (v6 : Vec Ideal S2000x1 .i32) (v14 : Vec Ideal S256x96 .f32) (g : Fin 256) (j : Fin 96) :
    k12_pay2 v3 v6 v14 (ix2 g j) = v14 (ix2 g j) + ∑ r : Fin 2000, weight12 (v6 (ix2 r 0)) g * v3 (ix2 r j) := by
  unfold k12_pay2
  dsimp only
  rw [shapeCast_apply _ _ (ix2 g j) (ix2 g j) rfl, addf_apply]
  simp only [matmul, Ideal.matmul_constant_zero_apply]
  congr 1
  refine ((Equiv.sum_comp rows12.symm _).symm.trans ?_)
  refine Finset.sum_congr rfl fun r _ => ?_
  have hl : dot_S2000x256_S2000x96_S256x96_0_0_1_1_n_n.lhsIdx (ix2 g j) (rows12.symm r) = ix2 r g := by
    funext a; refine Fin.ext ?_
    match a with
    | ⟨0, _⟩ => exact contrEquiv1_symm_val dot_S2000x256_S2000x96_S256x96_0_0_1_1_n_n 2000 rfl rfl r
    | ⟨1, _⟩ => rfl
  have hr : dot_S2000x256_S2000x96_S256x96_0_0_1_1_n_n.rhsIdx (ix2 g j) (rows12.symm r) = ix2 r j := by
    funext a; refine Fin.ext ?_
    match a with
    | ⟨0, _⟩ => exact contrEquiv1_symm_val dot_S2000x256_S2000x96_S256x96_0_0_1_1_n_n 2000 rfl rfl r
    | ⟨1, _⟩ => rfl
  rw [hl, hr, truncf_apply, truncf_apply, sitofp_apply, extui_apply, shapeCast_apply v3 _ (ix2 r j) (ix2 r j) rfl]
  show FloatOps.sitofp (F := Ideal) .f32 (BitVec.setWidth 32 (IntOp.cmpi .eq
      (broadcastTo S2000x256 (shapeCast S2000x1 v6 shapeCasts_S2000x1_S2000x1) broadcasts_S2000x1_S2000x256 (ix2 r g))
      (iota .tc S2000x256 32 [1] iota_S2000x256_d1_w32 (ix2 r g)))) * _ = _
  rw [broadcastTo_apply _ _ (ix2 r g) (ix2 r 0) (fun a => by
      match a with
      | ⟨0, _⟩ => rfl
      | ⟨1, _⟩ => rfl),
    iota_single_apply, shapeCast_apply v6 _ (ix2 r 0) (ix2 r 0) rfl]
  rfl

theorem weight12_eq (b : BitVec 32) (g : Fin 256) :
    weight12 b g = if b = BitVec.ofNat 32 g.val then 1 else 0 := by
  unfold weight12
  show ((((IntOp.cmpi .eq b (BitVec.ofNat 32 g.val)).setWidth 32).toInt : ℝ) : EReal) = _
  have one : ((1#1 : BitVec 1).setWidth 32).toInt = 1 := by decide
  have zero : ((0#1 : BitVec 1).setWidth 32).toInt = 0 := by decide
  by_cases h : b = BitVec.ofNat 32 g.val
  · have hc : IntOp.cmpi .eq b (BitVec.ofNat 32 g.val) = 1#1 := IntOp.cmpi_eq.mpr h
    rw [hc, one, if_pos h]; norm_num
  · have hc : IntOp.cmpi .eq b (BitVec.ofNat 32 g.val) = 0#1 :=
      eq_zero_of_ne_one fun h1 => h (IntOp.cmpi_eq.mp h1)
    rw [hc, zero, if_neg h]; norm_num

abbrev harr12 (c : Dev nD) : S50000x96.Idx → Ideal .f32 := V c (Pipeline.arrRef spec12 0)

abbrev colarr12 (c : Dev nD) : S50000x1.Idx → BitVec 32 := V c (Pipeline.arrRef spec12 1)

theorem nodeIndex12 : ∀ t : Fin cfg12.N, win12_0.index t 0 = t.val ∧ win12_0.index t 1 = 0 :=
  (by decide +kernel : ∀ t : Fin grid12.N, win12_0.index t 0 = t.val ∧ win12_0.index t 1 = 0)

theorem idsIndex12 : ∀ t : Fin cfg12.N, win12_1.index t 0 = t.val ∧ win12_1.index t 1 = 0 :=
  (by decide +kernel : ∀ t : Fin grid12.N, win12_1.index t 0 = t.val ∧ win12_1.index t 1 = 0)

theorem nodeBlk12 (c : Dev nD) (t : Fin cfg12.N) (r : Fin 2000) (j : Fin 96) (n : Fin 50000) (hn : n.val = r.val + 2000 * t.val) :
    (iblk12 V c 0 t (ix2 r j) : EReal) = harr12 V c (ix2 n j) := by
  unfold iblk12 harr12
  show V c (Pipeline.arrRef spec12 0) (((cfg12.win 0).blk t).view.emb (ix2 r j)) = _
  refine congrArg _ (funext fun a => Fin.ext ?_)
  match a with
  | ⟨0, _⟩ =>
    show win12_0.index t 0 * 2000 + 1 * r.val = n.val
    rw [(nodeIndex12 t).1, hn]; omega
  | ⟨1, _⟩ =>
    show win12_0.index t 1 * 96 + 1 * j.val = j.val
    rw [(nodeIndex12 t).2]; omega

theorem idsBlk12 (c : Dev nD) (t : Fin cfg12.N) (r : Fin 2000) (n : Fin 50000) (hn : n.val = r.val + 2000 * t.val) :
    (iblk12 V c 1 t (ix2 r 0) : BitVec 32) = colarr12 V c (ix2 n 0) := by
  unfold iblk12 colarr12
  show V c (Pipeline.arrRef spec12 1) (((cfg12.win 1).blk t).view.emb (ix2 r 0)) = _
  refine congrArg _ (funext fun a => Fin.ext ?_)
  match a with
  | ⟨0, _⟩ =>
    show win12_1.index t 0 * 2000 + 1 * r.val = n.val
    rw [(idsIndex12 t).1, hn]; omega
  | ⟨1, _⟩ =>
    show win12_1.index t 1 * 1 + 1 * 0 = 0
    rw [(idsIndex12 t).2]

theorem pay1_apply (i : S256x96.Idx) : k12_pay1 (F := Ideal) i = 0 := by
  unfold k12_pay1
  rw [shapeCast_apply _ _ i i rfl, broadcast_apply]
  exact Ideal.ofBits_zero_f32

def contrib12 (c : Dev nD) (g : Fin 256) (j : Fin 96) (k : ℕ) : EReal :=
  if hk : k < cfg12.N then ∑ r : Fin 2000, weight12 (iblk12 V c 1 ⟨k, hk⟩ (ix2 r 0) : BitVec 32) g * (iblk12 V c 0 ⟨k, hk⟩ (ix2 r j) : EReal) else 0

theorem acc12_apply (c : Dev nD) (g : Fin 256) (j : Fin 96) :
    ∀ (n : ℕ) (hn : n < cfg12.N), acc12 V c n hn (ix2 g j) = ∑ k ∈ Finset.range (n + 1), contrib12 V c g j k
  | 0, hn => by
    rw [acc12_zero]
    refine (pool_pay_apply12 _ _ _ g j).trans ?_
    rw [pay1_apply, zero_add, Finset.sum_range_one]
    unfold contrib12; rw [dif_pos hn]
  | n + 1, hn => by
    rw [acc12_succ]
    refine (pool_pay_apply12 _ _ _ g j).trans ?_
    rw [acc12_apply c g j n (Nat.lt_of_succ_lt hn), Finset.sum_range_succ _ (n + 1)]
    congr 1
    unfold contrib12; rw [dif_pos hn]

abbrev out12 (c : Dev nD) : S256x96.Idx → EReal := (dat12 (F := Ideal) V c).arrAt 2 cfg12.N
theorem out12_def (c : Dev nD) : out12 V c = (dat12 (F := Ideal) V c).arrAt 2 cfg12.N := rfl

theorem final12_2 (c : Dev nD) (g : Fin 256) (j : Fin 96) :
    out12 V c (ix2 g j)
      = ∑ n : Fin 50000, weight12 (colarr12 V c (ix2 n 0)) g * harr12 V c (ix2 n j) := by
  unfold out12
  rw [arr12_2]
  show (acc12 V c lastPt12.val lastPt12.isLt (ix2 g j) : EReal) = _
  rw [acc12_apply V c g j 24 lastPt12.isLt, Finset.sum_range]
  have hN : cfg12.N = 25 := N_12
  refine Eq.trans ?_ (Equiv.sum_comp (finProdFinEquiv : Fin 25 × Fin 2000 ≃ Fin (25 * 2000))
    (fun n : Fin 50000 => weight12 (colarr12 V c (ix2 n 0)) g * harr12 V c (ix2 n j)))
  rw [Fintype.sum_prod_type]
  refine Finset.sum_congr rfl fun k _ => ?_
  have hk : k.val < cfg12.N := by rw [hN]; exact k.isLt
  unfold contrib12; rw [dif_pos hk]
  refine Finset.sum_congr rfl fun r _ => ?_
  rw [nodeBlk12 V c ⟨k.val, hk⟩ r j (finProdFinEquiv (k, r)) rfl, idsBlk12 V c ⟨k.val, hk⟩ r (finProdFinEquiv (k, r)) rfl]

theorem final12_2_members (c : Dev nD) (g : Fin 256) (j : Fin 96) :
    out12 V c (ix2 g j)
      = ∑ n ∈ Finset.univ.filter (fun n : Fin 50000 => colarr12 V c (ix2 n 0) = BitVec.ofNat 32 g.val), harr12 V c (ix2 n j) := by
  rw [final12_2, Finset.sum_filter]
  refine Finset.sum_congr rfl fun n _ => ?_
  rw [weight12_eq]
  split
  · exact one_mul _
  · exact zero_mul _

def e12 (col : S50000x1.Idx → BitVec 32) (n : Fin 50000) (g : Fin 256) : EReal := weight12 (col (ix2 n 0)) g

theorem graphWord12 : ∀ g : Fin 256, (BitVec.ofNat 32 g.val).toInt = (g.val : Int) := by decide +kernel

theorem word_is_graph12 (b : BitVec 32) (g : Fin 256) : b.toInt = (g.val : Int) ↔ b = BitVec.ofNat 32 g.val :=
  ⟨fun h => BitVec.eq_of_toInt_eq (h.trans (graphWord12 g).symm), fun h => h ▸ graphWord12 g⟩

theorem e12_eq (col : S50000x1.Idx → BitVec 32) (n : Fin 50000) (g : Fin 256) :
    e12 col n g = if (col (ix2 n 0)).toInt = (g.val : Int) then (1 : EReal) else 0 := by
  unfold e12
  rw [weight12_eq]
  by_cases h : col (ix2 n 0) = BitVec.ofNat 32 g.val
  · rw [if_pos h, if_pos ((word_is_graph12 _ g).mpr h)]
  · rw [if_neg h, if_neg fun h' => h ((word_is_graph12 _ g).mp h')]

theorem final12_2_apply (c : Dev nD) (g : Fin 256) (j : Fin 96) :
    ((dat12 V c).arrAt 2 cfg12.N : S256x96.Idx → Ideal .f32) (ix2 g j)
      = ∑ n : Fin 50000, e12 (colarr12 V c) n g * harr12 V c (ix2 n j) :=
  final12_2 V c g j

end Cert.KernelIdeal.HandValue

end
-- ==== Proof.Spec.lean ====
import Idealize.ShloMosaic.PureOps
import Idealize.ShloMosaic.PureOps.Ideal
import Idealize.ShloMosaic.Lib.ValueIdx
import Idealize.ShloMosaic.Lib.Decide

noncomputable section

open scoped BigOperators

namespace Cert.Spec

open Idealize.ShloMosaic Idealize.ShloMosaic.ValueIdx

abbrev ShNF : Shape := ⟨2, ![50000, 96]⟩

abbrev ShEI : Shape := ⟨2, ![2, 800000]⟩

abbrev ShN : Shape := ⟨1, ![50000]⟩

abbrev ShW4 : Shape := ⟨3, ![4, 96, 96]⟩

abbrev ShP4 : Shape := ⟨2, ![4, 96]⟩

abbrev Sh1L : Shape := ⟨2, ![1, 800000]⟩
abbrev ShL : Shape := ⟨1, ![800000]⟩

abbrev ShE : Shape := ⟨1, ![850000]⟩
abbrev ShE1 : Shape := ⟨2, ![850000, 1]⟩
abbrev ShEF : Shape := ⟨2, ![850000, 96]⟩

abbrev Sh0 : Shape := ⟨0, ![]⟩

abbrev ShW : Shape := ⟨2, ![96, 96]⟩
abbrev ShF : Shape := ⟨1, ![96]⟩
abbrev Sh1F : Shape := ⟨2, ![1, 96]⟩

abbrev ShN1 : Shape := ⟨2, ![50000, 1]⟩

abbrev ShGF : Shape := ⟨2, ![256, 96]⟩
abbrev ShG : Shape := ⟨1, ![256]⟩
abbrev ShG1 : Shape := ⟨2, ![256, 1]⟩

theorem sliceRow0 : ShEI.Slices ![0, 0] Sh1L := by decide
theorem sliceRow1 : ShEI.Slices ![1, 0] Sh1L := by decide
theorem castRow : Sh1L.ShapeCasts ShL := by decide
theorem joinLoops : Shape.Concatenates [ShL, ShN] ShE 0 := by decide
theorem bc0_E : Sh0.BroadcastsInDim ShE (![] : Fin 0 → Fin ShE.rank) := by decide
theorem bc0_N : Sh0.BroadcastsInDim ShN (![] : Fin 0 → Fin ShN.rank) := by decide
theorem bc0_NF : Sh0.BroadcastsInDim ShNF (![] : Fin 0 → Fin ShNF.rank) := by decide
theorem bc0_GF : Sh0.BroadcastsInDim ShGF (![] : Fin 0 → Fin ShGF.rank) := by decide
theorem bc0_G : Sh0.BroadcastsInDim ShG (![] : Fin 0 → Fin ShG.rank) := by decide
theorem bcE_E1 : ShE.BroadcastsInDim ShE1 (![0] : Fin 1 → Fin ShE1.rank) := by decide
theorem bcE1_EF : ShE1.BroadcastsInDim ShEF (![0, 1] : Fin 2 → Fin ShEF.rank) := by decide
theorem bcF_1F : ShF.BroadcastsInDim Sh1F (![1] : Fin 1 → Fin Sh1F.rank) := by decide
theorem bc1F_NF : Sh1F.BroadcastsInDim ShNF (![0, 1] : Fin 2 → Fin ShNF.rank) := by decide
theorem bcN_N1 : ShN.BroadcastsInDim ShN1 (![0] : Fin 1 → Fin ShN1.rank) := by decide
theorem bcG_G1 : ShG.BroadcastsInDim ShG1 (![0] : Fin 1 → Fin ShG1.rank) := by decide
theorem bcG1_GF : ShG1.BroadcastsInDim ShGF (![0, 1] : Fin 2 → Fin ShGF.rank) := by decide
theorem scatterN_wf : ScatterDims.WF ShN ShE1 ShE [] [0] [0] 1 := by decide
theorem gatherN_wf : GatherDims.WF ShN ShE1 ShE [] [0] [] [0] [] 1 ![1] := by decide
theorem gatherNF_wf : GatherDims.WF ShNF ShE1 ShEF [1] [0] [] [0] [] 1 ![1, 96] := by decide
theorem scatterNF_wf : ScatterDims.WF ShNF ShE1 ShEF [1] [0] [0] 1 := by decide
theorem scatterGF_wf : ScatterDims.WF ShGF ShN1 ShNF [1] [0] [0] 1 := by decide
theorem scatterG_wf : ScatterDims.WF ShG ShN1 ShN [] [0] [0] 1 := by decide

def scatterN : ScatterDims ShN ShE1 ShE where
  updateWindowDims := []
  insertedWindowDims := [0]
  scatterDimsToOperandDims := [0]
  indexVectorDim := 1
  wf := scatterN_wf

def gatherN : GatherDims ShN ShE1 ShE where
  offsetDims := []
  collapsedSliceDims := [0]
  operandBatchingDims := []
  startIndicesBatchingDims := []
  startIndexMap := [0]
  indexVectorDim := 1
  sliceSizes := ![1]
  wf := gatherN_wf

def gatherNF : GatherDims ShNF ShE1 ShEF where
  offsetDims := [1]
  collapsedSliceDims := [0]
  operandBatchingDims := []
  startIndicesBatchingDims := []
  startIndexMap := [0]
  indexVectorDim := 1
  sliceSizes := ![1, 96]
  wf := gatherNF_wf

def scatterNF : ScatterDims ShNF ShE1 ShEF where
  updateWindowDims := [1]
  insertedWindowDims := [0]
  scatterDimsToOperandDims := [0]
  indexVectorDim := 1
  wf := scatterNF_wf

def scatterGF : ScatterDims ShGF ShN1 ShNF where
  updateWindowDims := [1]
  insertedWindowDims := [0]
  scatterDimsToOperandDims := [0]
  indexVectorDim := 1
  wf := scatterGF_wf

def scatterG : ScatterDims ShG ShN1 ShN where
  updateWindowDims := []
  insertedWindowDims := [0]
  scatterDimsToOperandDims := [0]
  indexVectorDim := 1
  wf := scatterG_wf

def srcList (ei : IVec ShEI 32) : IVec ShE 32 :=
  concatenate ShE 0 [⟨ShL, shapeCast _ (extractStridedSlice Sh1L ![0, 0] ei sliceRow0) castRow⟩, ⟨ShN, iotaInDim ShN 32 0⟩] joinLoops

def dstList (ei : IVec ShEI 32) : IVec ShE 32 :=
  concatenate ShE 0 [⟨ShL, shapeCast _ (extractStridedSlice Sh1L ![1, 0] ei sliceRow1) castRow⟩, ⟨ShN, iotaInDim ShN 32 0⟩] joinLoops

def startIdx (l : IVec ShE 32) : IVec ShE1 32 :=
  broadcastInDim ShE1 ![0] bcE_E1
    (select (cmpi .slt l (broadcastInDim ShE ![] bc0_E (constantI Sh0 32 0#32)))
      (addi l (broadcastInDim ShE ![] bc0_E (constantI Sh0 32 50000#32))) l)

def degree (dstL : IVec ShE 32) : FVec Ideal ShN .f32 :=
  Host.scatterAdd scatterN (broadcastInDim ShN ![] bc0_N (constant (F := Ideal) Sh0 .f32 0x00000000#32))
    (broadcastInDim ShE1 ![0] bcE_E1 dstL) (broadcastInDim ShE ![] bc0_E (constant (F := Ideal) Sh0 .f32 0x3F800000#32))

def invSqrtDeg (dstL : IVec ShE 32) : FVec Ideal ShN .f32 :=
  select (cmpf .ogt (degree dstL) (broadcastInDim ShN ![] bc0_N (constant (F := Ideal) Sh0 .f32 0x00000000#32)))
    (Host.rsqrt (maximumf (degree dstL) (broadcastInDim ShN ![] bc0_N (constant (F := Ideal) Sh0 .f32 0x3F800000#32))))
    (broadcastInDim ShN ![] bc0_N (id (constant (F := Ideal) Sh0 .f32 0x00000000#32)))

def edgeNorm (srcL dstL : IVec ShE 32) : FVec Ideal ShE .f32 :=
  mulf (Host.gather gatherN (invSqrtDeg dstL) (startIdx srcL)) (Host.gather gatherN (invSqrtDeg dstL) (startIdx dstL))

def wOf (W : FVec Ideal ShW4 .f32) (l : Fin 4) : FVec Ideal ShW .f32 := fun i => W (ix3 l (i 0) (i 1))
def rowOf (p : FVec Ideal ShP4 .f32) (l : Fin 4) : FVec Ideal ShF .f32 := fun j => p (ix2 l (j 0))

def mm (h : FVec Ideal ShNF .f32) (w : FVec Ideal ShW .f32) : FVec Ideal ShNF .f32 :=
  fun i => ∑ k : Fin 96, h (ix2 (i 0) k) * w (ix2 k (i 1))
theorem mm_apply (h : FVec Ideal ShNF .f32) (w : FVec Ideal ShW .f32) (n : Fin 50000) (j : Fin 96) :
    mm h w (ix2 n j) = ∑ k : Fin 96, h (ix2 n k) * w (ix2 k j) := rfl

def agg (hw : FVec Ideal ShNF .f32) (srcL dstL : IVec ShE 32) (nrm : FVec Ideal ShE .f32) (brow : FVec Ideal ShF .f32) :
    FVec Ideal ShNF .f32 :=
  addf
    (Host.scatterAdd scatterNF (broadcastInDim ShNF ![] bc0_NF (constant (F := Ideal) Sh0 .f32 0x00000000#32))
      (broadcastInDim ShE1 ![0] bcE_E1 dstL)
      (mulf (Host.gather gatherNF hw (startIdx srcL))
        (broadcastInDim ShEF ![0, 1] bcE1_EF (broadcastInDim ShE1 ![0] bcE_E1 nrm))))
    (broadcastInDim ShNF ![0, 1] bc1F_NF (broadcastInDim Sh1F ![1] bcF_1F brow))

def mean (a : FVec Ideal ShNF .f32) (j : Fin 96) : EReal :=
  Ideal.div (Ideal.ofBits .f32 0x00000000#32 + ∑ n : Fin 50000, a (ix2 n j)) (Ideal.ofBits .f32 0x47435000#32)

def var (a : FVec Ideal ShNF .f32) (j : Fin 96) : EReal :=
  Ideal.div (Ideal.ofBits .f32 0x00000000#32 + ∑ n : Fin 50000, (a (ix2 n j) - mean a j) * (a (ix2 n j) - mean a j))
    (Ideal.ofBits .f32 0x47435000#32)

def bn (a : FVec Ideal ShNF .f32) (γ β : FVec Ideal ShF .f32) : FVec Ideal ShNF .f32 :=
  fun i => max (((a i - mean a (i 1)) * Ideal.rsqrt (var a (i 1) + Ideal.ofBits .f32 0x3727C5AC#32)) * γ (ix1 (i 1)) + β (ix1 (i 1)))
    (Ideal.ofBits .f32 0x00000000#32)
theorem bn_apply (a : FVec Ideal ShNF .f32) (γ β : FVec Ideal ShF .f32) (n : Fin 50000) (j : Fin 96) :
    bn a γ β (ix2 n j) = max (((a (ix2 n j) - mean a j) * Ideal.rsqrt (var a j + Ideal.ofBits .f32 0x3727C5AC#32)) * γ (ix1 j) + β (ix1 j))
      (Ideal.ofBits .f32 0x00000000#32) := rfl

def layer (srcL dstL : IVec ShE 32) (nrm : FVec Ideal ShE .f32) (W : FVec Ideal ShW4 .f32) (b γ β : FVec Ideal ShP4 .f32)
    (l : Fin 4) (h : FVec Ideal ShNF .f32) : FVec Ideal ShNF .f32 :=
  bn (agg (mm h (wOf W l)) srcL dstL nrm (rowOf b l)) (rowOf γ l) (rowOf β l)

def encode (srcL dstL : IVec ShE 32) (nrm : FVec Ideal ShE .f32) (W : FVec Ideal ShW4 .f32) (b γ β : FVec Ideal ShP4 .f32)
    (x : FVec Ideal ShNF .f32) : FVec Ideal ShNF .f32 :=
  layer srcL dstL nrm W b γ β 3 (layer srcL dstL nrm W b γ β 2 (layer srcL dstL nrm W b γ β 1 (layer srcL dstL nrm W b γ β 0 x)))

def poolSum (h : FVec Ideal ShNF .f32) (batch : IVec ShN 32) : FVec Ideal ShGF .f32 :=
  fun i => Ideal.ofBits .f32 0x00000000#32
    + ∑ n ∈ Finset.univ.filter (fun n : Fin 50000 => (batch (ix1 n)).toInt = ((i 0).val : Int)), h (ix2 n (i 1))
theorem poolSum_apply (h : FVec Ideal ShNF .f32) (batch : IVec ShN 32) (g : Fin 256) (j : Fin 96) :
    poolSum h batch (ix2 g j) = Ideal.ofBits .f32 0x00000000#32
      + ∑ n ∈ Finset.univ.filter (fun n : Fin 50000 => (batch (ix1 n)).toInt = (g.val : Int)), h (ix2 n j) := rfl

def meanOf (sums : FVec Ideal ShGF .f32) (batch : IVec ShN 32) : FVec Ideal ShGF .f32 :=
  Host.divf sums
    (broadcastInDim ShGF ![0, 1] bcG1_GF (broadcastInDim ShG1 ![0] bcG_G1
      (maximumf
        (Host.scatterAdd scatterG (broadcastInDim ShG ![] bc0_G (constant (F := Ideal) Sh0 .f32 0x00000000#32))
          (broadcastInDim ShN1 ![0] bcN_N1 batch) (broadcastInDim ShN ![] bc0_N (constant (F := Ideal) Sh0 .f32 0x3F800000#32)))
        (broadcastInDim ShG ![] bc0_G (constant (F := Ideal) Sh0 .f32 0x3F800000#32)))))

def result (x : FVec Ideal ShNF .f32) (ei : IVec ShEI 32) (batch : IVec ShN 32) (W : FVec Ideal ShW4 .f32)
    (b γ β : FVec Ideal ShP4 .f32) : FVec Ideal ShGF .f32 :=
  meanOf (poolSum (encode (srcList ei) (dstList ei) (edgeNorm (srcList ei) (dstList ei)) W b γ β x) batch) batch

end Cert.Spec
-- ==== Proof.SpecOps.lean ====
import proofs.«406641_j72756745994790_1_alg».proof.Proof.Spec
import Idealize.ShloMosaic.Lib.Pipeline.Value
import Idealize.ShloMosaic.PureOps.Ideal.Laws

noncomputable section

open scoped BigOperators

namespace Cert.Spec

open Idealize.ShloMosaic Idealize.ShloMosaic.ValueIdx

theorem scalar_apply {t : Shape} (h : Sh0.BroadcastsInDim t (![] : Fin 0 → Fin t.rank)) (x : Sh0.Idx → EReal) (j : t.Idx) :
    broadcastInDim t ![] h x j = x ix0 :=
  broadcastInDim_apply _ h x j ix0 (fun a => a.elim0)

def overNodes (r : FVec Ideal ShF .f32) : FVec Ideal ShNF .f32 :=
  broadcastInDim ShNF ![0, 1] bc1F_NF (broadcastInDim Sh1F ![1] bcF_1F r)

theorem overNodes_apply (r : FVec Ideal ShF .f32) (i : ShNF.Idx) : overNodes r i = r (ix1 (i 1)) := by
  unfold overNodes
  rw [broadcastInDim_apply _ bc1F_NF _ i (ix2 (n0 := 1) (n1 := 96) 0 (i 1)) (fun a => match a with
        | ⟨0, _⟩ => by show 0 = if (1 : Nat) = 1 then 0 else (i 0).val; rw [if_pos rfl]
        | ⟨1, _⟩ => by show (i 1).val = if (96 : Nat) = 1 then 0 else (i 1).val; rw [if_neg (by decide)]),
      broadcastInDim_apply _ bcF_1F r (ix2 (n0 := 1) (n1 := 96) 0 (i 1)) (ix1 (n := 96) (i 1)) (fun a => match a with
        | ⟨0, _⟩ => by show (i 1).val = if (96 : Nat) = 1 then 0 else (i 1).val; rw [if_neg (by decide)])]

abbrev Sh1WW : Shape := ⟨3, ![1, 96, 96]⟩
theorem castF : Sh1F.ShapeCasts ShF := by decide
theorem castW : Sh1WW.ShapeCasts ShW := by decide
theorem sliceP0 : ShP4.Slices ![0, 0] Sh1F := by decide
theorem sliceP1 : ShP4.Slices ![1, 0] Sh1F := by decide
theorem sliceP2 : ShP4.Slices ![2, 0] Sh1F := by decide
theorem sliceP3 : ShP4.Slices ![3, 0] Sh1F := by decide
theorem sliceW0 : ShW4.Slices ![0, 0, 0] Sh1WW := by decide
theorem sliceW1 : ShW4.Slices ![1, 0, 0] Sh1WW := by decide
theorem sliceW2 : ShW4.Slices ![2, 0, 0] Sh1WW := by decide
theorem sliceW3 : ShW4.Slices ![3, 0, 0] Sh1WW := by decide

theorem rowChain (p : FVec Ideal ShP4 .f32) (r : Nat) (hr : r < 4) (hs : ShP4.Slices ![r, 0] Sh1F) :
    shapeCast ShF (extractStridedSlice Sh1F ![r, 0] p hs) castF = rowOf p ⟨r, hr⟩ := by
  funext j
  rw [shapeCast_apply (s := Sh1F) _ castF j (ix2 (n0 := 1) (n1 := 96) 0 (j 0))
        (by rw [Shape.rowMajor_val_two, Shape.rowMajor_val_one]; show 0 * 96 + (j 0).val = (j 0).val; omega),
      extractStridedSlice_apply ![r, 0] p hs (ix2 (n0 := 1) (n1 := 96) 0 (j 0)) (ix2 (n0 := 4) (n1 := 96) ⟨r, hr⟩ (j 0)) (fun a => match a with
        | ⟨0, _⟩ => by show r = r + 0; omega
        | ⟨1, _⟩ => by show (j 0).val = 0 + (j 0).val; omega)]
  rfl
theorem row0 (p : FVec Ideal ShP4 .f32) : shapeCast ShF (extractStridedSlice Sh1F ![0, 0] p sliceP0) castF = rowOf p 0 :=
  rowChain p 0 (by decide) sliceP0
theorem row1 (p : FVec Ideal ShP4 .f32) : shapeCast ShF (extractStridedSlice Sh1F ![1, 0] p sliceP1) castF = rowOf p 1 :=
  rowChain p 1 (by decide) sliceP1
theorem row2 (p : FVec Ideal ShP4 .f32) : shapeCast ShF (extractStridedSlice Sh1F ![2, 0] p sliceP2) castF = rowOf p 2 :=
  rowChain p 2 (by decide) sliceP2
theorem row3 (p : FVec Ideal ShP4 .f32) : shapeCast ShF (extractStridedSlice Sh1F ![3, 0] p sliceP3) castF = rowOf p 3 :=
  rowChain p 3 (by decide) sliceP3

theorem weightChain (W : FVec Ideal ShW4 .f32) (r : Nat) (hr : r < 4) (hs : ShW4.Slices ![r, 0, 0] Sh1WW) :
    shapeCast ShW (extractStridedSlice Sh1WW ![r, 0, 0] W hs) castW = wOf W ⟨r, hr⟩ := by
  funext j
  rw [shapeCast_apply (s := Sh1WW) _ castW j (ix3 (n0 := 1) (n1 := 96) (n2 := 96) 0 (j 0) (j 1))
        (by rw [Shape.rowMajor_val_three, Shape.rowMajor_val_two]
            show (0 * 96 + (j 0).val) * 96 + (j 1).val = (j 0).val * 96 + (j 1).val; omega),
      extractStridedSlice_apply ![r, 0, 0] W hs (ix3 (n0 := 1) (n1 := 96) (n2 := 96) 0 (j 0) (j 1)) (ix3 (n0 := 4) (n1 := 96) (n2 := 96) ⟨r, hr⟩ (j 0) (j 1)) (fun a => match a with
        | ⟨0, _⟩ => by show r = r + 0; omega
        | ⟨1, _⟩ => by show (j 0).val = 0 + (j 0).val; omega
        | ⟨2, _⟩ => by show (j 1).val = 0 + (j 1).val; omega)]
  rfl
theorem weight0 (W : FVec Ideal ShW4 .f32) : shapeCast ShW (extractStridedSlice Sh1WW ![0, 0, 0] W sliceW0) castW = wOf W 0 :=
  weightChain W 0 (by decide) sliceW0
theorem weight1 (W : FVec Ideal ShW4 .f32) : shapeCast ShW (extractStridedSlice Sh1WW ![1, 0, 0] W sliceW1) castW = wOf W 1 :=
  weightChain W 1 (by decide) sliceW1
theorem weight2 (W : FVec Ideal ShW4 .f32) : shapeCast ShW (extractStridedSlice Sh1WW ![2, 0, 0] W sliceW2) castW = wOf W 2 :=
  weightChain W 2 (by decide) sliceW2
theorem weight3 (W : FVec Ideal ShW4 .f32) : shapeCast ShW (extractStridedSlice Sh1WW ![3, 0, 0] W sliceW3) castW = wOf W 3 :=
  weightChain W 3 (by decide) sliceW3

theorem dotD_wf : DotDims.WF ShNF ShW ShNF [1] [0] [0] [1] [] [] := by decide

def dotD : DotDims ShNF ShW ShNF where
  lhsContracting := [1]
  rhsContracting := [0]
  lhsNonContracting := [0]
  rhsNonContracting := [1]
  lhsBatch := []
  rhsBatch := []
  wf := dotD_wf

theorem dotD_lhs_0 (i : ShNF.Idx) (q : dotD.contr.Idx) : (dotD.lhsIdx i q 0).val = (i 0).val := by
  unfold DotDims.lhsIdx
  rw [dif_neg (show ¬(0 : Fin ShNF.rank) ∈ dotD.lhsBatch by decide), dif_pos (show (0 : Fin ShNF.rank) ∈ dotD.lhsNonContracting by decide)]
  rfl

theorem dotD_lhs_1 (i : ShNF.Idx) (q : dotD.contr.Idx) : (dotD.lhsIdx i q 1).val = (q ⟨0, by decide⟩).val :=
  dotD.lhsIdx_val_of_single rfl i q

theorem dotD_rhs_0 (i : ShNF.Idx) (q : dotD.contr.Idx) : (dotD.rhsIdx i q 0).val = (q ⟨0, by decide⟩).val :=
  dotD.rhsIdx_val_of_single rfl i q

theorem dotD_rhs_1 (i : ShNF.Idx) (q : dotD.contr.Idx) : (dotD.rhsIdx i q 1).val = (i 1).val := by
  unfold DotDims.rhsIdx
  rw [dif_neg (show ¬(1 : Fin ShW.rank) ∈ dotD.rhsBatch by decide), dif_pos (show (1 : Fin ShW.rank) ∈ dotD.rhsNonContracting by decide)]
  rfl

theorem dot_eq_mm (h : FVec Ideal ShNF .f32) (w : FVec Ideal ShW .f32) : Host.dotGeneral dotD none h w = mm h w := by
  funext i
  simp only [Host.dotGeneral]
  rw [Ideal.dotGeneral_apply, ← Equiv.sum_comp (contrEquiv1 dotD 96 rfl rfl).symm]
  unfold mm
  refine Finset.sum_congr rfl fun k _ => ?_
  have hk := contrEquiv1_symm_val dotD 96 rfl rfl k
  have el : dotD.lhsIdx i ((contrEquiv1 dotD 96 rfl rfl).symm k) = ix2 (i 0) k := funext fun a => Fin.ext (by
    match a with
    | ⟨0, _⟩ => exact dotD_lhs_0 _ _
    | ⟨1, _⟩ => exact (dotD_lhs_1 _ _).trans hk)
  have er : dotD.rhsIdx i ((contrEquiv1 dotD 96 rfl rfl).symm k) = ix2 k (i 1) := funext fun a => Fin.ext (by
    match a with
    | ⟨0, _⟩ => exact (dotD_rhs_0 _ _).trans hk
    | ⟨1, _⟩ => exact dotD_rhs_1 _ _)
  rw [el, er]
  rfl

theorem redCols : ShNF.ReducesTo [0] ShF := by decide
theorem sh0_pos : 0 < Sh0.numel := by decide
theorem bc0_F : Sh0.BroadcastsInDim ShF (![] : Fin 0 → Fin ShF.rank) := by decide

theorem colSum_apply (a : FVec Ideal ShNF .f32) (init : FVec Ideal Sh0 .f32) (j : ShF.Idx) :
    Host.reduceAdd a init redCols sh0_pos j = init (Shape.Idx.first sh0_pos) + ∑ n : Fin 50000, a (ix2 n (j 0)) := by
  simp only [Host.reduceAdd, Ideal.hostReduceAdd_def]
  rw [Ideal.hostReduceAdd_single redCols (by decide)]
  refine congrArg (_ + ·) (Finset.sum_congr rfl fun k _ => ?_)
  exact congrArg a (funext fun d => Fin.ext (by match d with | ⟨0, _⟩ => rfl | ⟨1, _⟩ => rfl))

def colMean (a : FVec Ideal ShNF .f32) : FVec Ideal ShF .f32 :=
  Host.divf (Host.reduceAdd a (constant (F := Ideal) Sh0 .f32 0x00000000#32) redCols sh0_pos)
    (broadcastInDim ShF ![] bc0_F (constant (F := Ideal) Sh0 .f32 0x47435000#32))
theorem colMean_apply (a : FVec Ideal ShNF .f32) (j : ShF.Idx) : colMean a j = mean a (j 0) := by
  show Ideal.div (Host.reduceAdd a (constant (F := Ideal) Sh0 .f32 0x00000000#32) redCols sh0_pos j)
      (broadcastInDim ShF ![] bc0_F (constant (F := Ideal) Sh0 .f32 0x47435000#32) j) = _
  rw [colSum_apply, scalar_apply]
  rfl

def centred (a : FVec Ideal ShNF .f32) : FVec Ideal ShNF .f32 := subf a (overNodes (colMean a))
theorem centred_apply (a : FVec Ideal ShNF .f32) (i : ShNF.Idx) : centred a i = a i - mean a (i 1) := by
  show a i - overNodes (colMean a) i = _
  rw [overNodes_apply, colMean_apply]

def colVar (a : FVec Ideal ShNF .f32) : FVec Ideal ShF .f32 :=
  Host.divf (Host.reduceAdd (mulf (centred a) (centred a)) (constant (F := Ideal) Sh0 .f32 0x00000000#32) redCols sh0_pos)
    (broadcastInDim ShF ![] bc0_F (constant (F := Ideal) Sh0 .f32 0x47435000#32))
theorem colVar_apply (a : FVec Ideal ShNF .f32) (j : ShF.Idx) : colVar a j = var a (j 0) := by
  show Ideal.div (Host.reduceAdd (mulf (centred a) (centred a)) (constant (F := Ideal) Sh0 .f32 0x00000000#32) redCols sh0_pos j)
      (broadcastInDim ShF ![] bc0_F (constant (F := Ideal) Sh0 .f32 0x47435000#32) j) = _
  rw [colSum_apply, scalar_apply]
  unfold var
  refine congrArg₂ Ideal.div (congrArg (_ + ·) (Finset.sum_congr rfl fun n _ => ?_)) rfl
  show centred a (ix2 n (j 0)) * centred a (ix2 n (j 0)) = _
  rw [centred_apply]

def bnChain (a : FVec Ideal ShNF .f32) (g bt : FVec Ideal ShF .f32) : FVec Ideal ShNF .f32 :=
  maximumf
    (addf
      (mulf
        (mulf (centred a)
          (overNodes (Host.rsqrt (addf (colVar a) (broadcastInDim ShF ![] bc0_F (constant (F := Ideal) Sh0 .f32 0x3727C5AC#32))))))
        (overNodes g))
      (overNodes bt))
    (broadcastInDim ShNF ![] bc0_NF (constant (F := Ideal) Sh0 .f32 0x00000000#32))

theorem bnChain_eq (a : FVec Ideal ShNF .f32) (g bt : FVec Ideal ShF .f32) : bnChain a g bt = bn a g bt := by
  funext i
  show max (centred a i * overNodes (Host.rsqrt (addf (colVar a) (broadcastInDim ShF ![] bc0_F (constant (F := Ideal) Sh0 .f32 0x3727C5AC#32)))) i
        * overNodes g i + overNodes bt i)
      (broadcastInDim ShNF ![] bc0_NF (constant (F := Ideal) Sh0 .f32 0x00000000#32) i) = _
  rw [centred_apply, overNodes_apply, overNodes_apply, overNodes_apply, scalar_apply]
  show max ((a i - mean a (i 1)) * Ideal.rsqrt (colVar a (ix1 (i 1)) + broadcastInDim ShF ![] bc0_F (constant (F := Ideal) Sh0 .f32 0x3727C5AC#32) (ix1 (i 1)))
        * g (ix1 (i 1)) + bt (ix1 (i 1))) _ = _
  rw [colVar_apply, scalar_apply]
  rfl

end Cert.Spec
-- ==== Proof.KI.WalkPrefix.lean ====
import proofs.«406641_j72756745994790_1_alg».proof.Proof.KI.Fold
import proofs.«406641_j72756745994790_1_alg».proof.Proof.Spec
import proofs.«406641_j72756745994790_1_alg».proof.Proof.SpecOps
import Idealize.ShloMosaic.Lib.StableHlo.Run

set_option maxRecDepth 16384

noncomputable section

namespace Cert.KernelIdeal.HandValue

open Cert.KernelIdeal Cert.KernelIdeal.Gen
open Idealize.ShloMosaic Idealize.ShloMosaic.TcCoe Idealize.ShloMosaic.Tactic Idealize.ShloMosaic.ValueIdx
open Cert.Spec (srcList dstList startIdx degree invSqrtDeg edgeNorm wOf rowOf meanOf)

section Stretch
variable (V : Valuation τ sig (Elt Ideal))

theorem after0_of (r : Ref sig .tc) (h : r ∉ hostOps0_W) :
    StableHlo.after hostOps0 V (Proc.devRef .tc r) = V (Proc.devRef .tc r) :=
  StableHlo.after_of_writes_sub hostOps0 _ hostOps0_writes h
theorem after01_of (r : Ref sig .tc) (h : r ∉ hostOps0_1_W) :
    StableHlo.after hostOps0_1 V (Proc.devRef .tc r) = V (Proc.devRef .tc r) :=
  StableHlo.after_of_writes_sub hostOps0_1 _ hostOps0_1_writes h
theorem after02_of (r : Ref sig .tc) (h : r ∉ hostOps0_2_W) :
    StableHlo.after hostOps0_2 V (Proc.devRef .tc r) = V (Proc.devRef .tc r) :=
  StableHlo.after_of_writes_sub hostOps0_2 _ hostOps0_2_writes h

theorem after0_v3 : StableHlo.after hostOps0 V (Proc.devRef .tc main_v3) = srcList (V (Proc.devRef .tc main_arg1)) := by
  after_results_simp <;> rfl

theorem after0_v6 : StableHlo.after hostOps0 V (Proc.devRef .tc main_v6) = dstList (V (Proc.devRef .tc main_arg1)) := by
  after_results_simp <;> rfl

theorem after0_v10 :
    StableHlo.after hostOps0 V (Proc.devRef .tc main_v10) = degree (dstList (V (Proc.devRef .tc main_arg1))) := by
  after_results_simp <;> rfl

theorem after0_v12 :
    StableHlo.after hostOps0 V (Proc.devRef .tc main_v12)
      = cmpf .ogt (degree (dstList (V (Proc.devRef .tc main_arg1))))
          (broadcastInDim Spec.ShN ![] Spec.bc0_N (constant (F := Ideal) Spec.Sh0 .f32 0x00000000#32)) := by
  after_results_simp <;> rfl

theorem after0_v15 :
    StableHlo.after hostOps0 V (Proc.devRef .tc main_v15)
      = Host.rsqrt (maximumf (degree (dstList (V (Proc.devRef .tc main_arg1))))
          (broadcastInDim Spec.ShN ![] Spec.bc0_N (constant (F := Ideal) Spec.Sh0 .f32 0x3F800000#32))) := by
  after_results_simp <;> rfl

theorem after0_cst_3 :
    StableHlo.after hostOps0 V (Proc.devRef .tc main_cst_3) = constant (F := Ideal) Spec.Sh0 .f32 0x00000000#32 := by
  after_results_simp <;> rfl

theorem after01_v16 :
    StableHlo.after hostOps0_1 V (Proc.devRef .tc main_v16)
      = select (V (Proc.devRef .tc main_v12)) (V (Proc.devRef .tc main_v15))
          (broadcastInDim Spec.ShN ![] Spec.bc0_N (id (V (Proc.devRef .tc main_cst_3)))) := by
  after_results_simp <;> rfl

theorem after02_v31 :
    StableHlo.after hostOps0_2 V (Proc.devRef .tc main_v31)
      = (mulf (Host.gather Spec.gatherN (V (Proc.devRef .tc main_v16) : FVec Ideal Spec.ShN .f32) (startIdx (V (Proc.devRef .tc main_v3))))
          (Host.gather Spec.gatherN (V (Proc.devRef .tc main_v16) : FVec Ideal Spec.ShN .f32) (startIdx (V (Proc.devRef .tc main_v6))))
          : FVec Ideal Spec.ShE .f32) := by
  after_results_simp <;> rfl

theorem after02_v32 :
    StableHlo.after hostOps0_2 V (Proc.devRef .tc main_v32)
      = broadcastInDim Spec.ShE1 ![0] Spec.bcE_E1
          (mulf (Host.gather Spec.gatherN (V (Proc.devRef .tc main_v16) : FVec Ideal Spec.ShN .f32) (startIdx (V (Proc.devRef .tc main_v3))))
            (Host.gather Spec.gatherN (V (Proc.devRef .tc main_v16) : FVec Ideal Spec.ShN .f32) (startIdx (V (Proc.devRef .tc main_v6))))
            : FVec Ideal Spec.ShE .f32) := by
  after_results_simp <;> rfl

theorem after02_v34 :
    StableHlo.after hostOps0_2 V (Proc.devRef .tc main_v34)
      = shapeCast S96x96 (extractStridedSlice S1x96x96 ![0, 0, 0] (V (Proc.devRef .tc main_arg3)) slices_S4x96x96_S1x96x96_0_0_0)
          shapeCasts_S1x96x96_S96x96 := by
  after_results_simp <;> rfl

end Stretch

end Cert.KernelIdeal.HandValue

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Cert.Spec (srcList dstList startIdx degree invSqrtDeg edgeNorm wOf rowOf meanOf)

section Prefix
variable (m : (ℓ : Loc nD τ sig) → Buf (Elt Ideal) ℓ)

theorem W1_v3 (c : Dev nD) :
    W1 m c (Proc.devRef .tc main_v3) = srcList (m ((c : Thread nD τ).loc main_arg1)) := after0_v3 (W0 m c)

theorem W1_v6 (c : Dev nD) :
    W1 m c (Proc.devRef .tc main_v6) = dstList (m ((c : Thread nD τ).loc main_arg1)) := after0_v6 (W0 m c)

theorem W1_v12 (c : Dev nD) :
    W1 m c (Proc.devRef .tc main_v12)
      = cmpf .ogt (degree (dstList (m ((c : Thread nD τ).loc main_arg1))))
          (broadcastInDim Spec.ShN ![] Spec.bc0_N (constant (F := Ideal) Spec.Sh0 .f32 0x00000000#32)) := after0_v12 (W0 m c)

theorem W1_v15 (c : Dev nD) :
    W1 m c (Proc.devRef .tc main_v15)
      = Host.rsqrt (maximumf (degree (dstList (m ((c : Thread nD τ).loc main_arg1))))
          (broadcastInDim Spec.ShN ![] Spec.bc0_N (constant (F := Ideal) Spec.Sh0 .f32 0x3F800000#32))) := after0_v15 (W0 m c)

theorem W1_cst_3 (c : Dev nD) :
    W1 m c (Proc.devRef .tc main_cst_3) = constant (F := Ideal) Spec.Sh0 .f32 0x00000000#32 := after0_cst_3 (W0 m c)

theorem W2_v16 (c : Dev nD) :
    W2 m c (Proc.devRef .tc main_v16) = invSqrtDeg (dstList (m ((c : Thread nD τ).loc main_arg1))) := by
  refine (after01_v16 (W1 m c)).trans ?_
  rw [W1_v12, W1_v15, W1_cst_3]
  rfl

theorem W2_v3 (c : Dev nD) :
    W2 m c (Proc.devRef .tc main_v3) = srcList (m ((c : Thread nD τ).loc main_arg1)) :=
  (after01_of (W1 m c) main_v3 (by decide)).trans (W1_v3 m c)
theorem W2_v6 (c : Dev nD) :
    W2 m c (Proc.devRef .tc main_v6) = dstList (m ((c : Thread nD τ).loc main_arg1)) :=
  (after01_of (W1 m c) main_v6 (by decide)).trans (W1_v6 m c)

theorem W3_v3 (c : Dev nD) :
    W3 m c (Proc.devRef .tc main_v3) = srcList (m ((c : Thread nD τ).loc main_arg1)) :=
  (after02_of (W2 m c) main_v3 (by decide)).trans (W2_v3 m c)

theorem W3_v6 (c : Dev nD) :
    W3 m c (Proc.devRef .tc main_v6) = dstList (m ((c : Thread nD τ).loc main_arg1)) :=
  (after02_of (W2 m c) main_v6 (by decide)).trans (W2_v6 m c)

theorem W3_v31 (c : Dev nD) :
    W3 m c (Proc.devRef .tc main_v31)
      = edgeNorm (srcList (m ((c : Thread nD τ).loc main_arg1))) (dstList (m ((c : Thread nD τ).loc main_arg1))) := by
  refine (after02_v31 (W2 m c)).trans ?_
  rw [W2_v16, W2_v3, W2_v6]
  rfl

theorem W3_arg (c : Dev nD) (r : Ref sig .tc) (h0 : r ∉ hostOps0_W) (h1 : r ∉ hostOps0_1_W) (h2 : r ∉ hostOps0_2_W) :
    W3 m c (Proc.devRef .tc r) = m ((c : Thread nD τ).loc r) :=
  (after02_of (W2 m c) r h2).trans ((after01_of (W1 m c) r h1).trans (after0_of (W0 m c) r h0))
theorem W3_arg0 (c : Dev nD) : W3 m c (Proc.devRef .tc main_arg0) = m ((c : Thread nD τ).loc main_arg0) :=
  W3_arg m c main_arg0 (by decide) (by decide) (by decide)
theorem W3_arg1 (c : Dev nD) : W3 m c (Proc.devRef .tc main_arg1) = m ((c : Thread nD τ).loc main_arg1) :=
  W3_arg m c main_arg1 (by decide) (by decide) (by decide)
theorem W3_arg2 (c : Dev nD) : W3 m c (Proc.devRef .tc main_arg2) = m ((c : Thread nD τ).loc main_arg2) :=
  W3_arg m c main_arg2 (by decide) (by decide) (by decide)
theorem W3_arg3 (c : Dev nD) : W3 m c (Proc.devRef .tc main_arg3) = m ((c : Thread nD τ).loc main_arg3) :=
  W3_arg m c main_arg3 (by decide) (by decide) (by decide)
theorem W3_arg4 (c : Dev nD) : W3 m c (Proc.devRef .tc main_arg4) = m ((c : Thread nD τ).loc main_arg4) :=
  W3_arg m c main_arg4 (by decide) (by decide) (by decide)
theorem W3_arg5 (c : Dev nD) : W3 m c (Proc.devRef .tc main_arg5) = m ((c : Thread nD τ).loc main_arg5) :=
  W3_arg m c main_arg5 (by decide) (by decide) (by decide)
theorem W3_arg6 (c : Dev nD) : W3 m c (Proc.devRef .tc main_arg6) = m ((c : Thread nD τ).loc main_arg6) :=
  W3_arg m c main_arg6 (by decide) (by decide) (by decide)

theorem W3_v32 (c : Dev nD) :
    W3 m c (Proc.devRef .tc main_v32)
      = broadcastInDim Spec.ShE1 ![0] Spec.bcE_E1
          (edgeNorm (srcList (m ((c : Thread nD τ).loc main_arg1))) (dstList (m ((c : Thread nD τ).loc main_arg1)))) := by
  refine (after02_v32 (W2 m c)).trans ?_
  rw [W2_v16, W2_v3, W2_v6]
  rfl

theorem W2_arg (c : Dev nD) (r : Ref sig .tc) (h0 : r ∉ hostOps0_W) (h1 : r ∉ hostOps0_1_W) :
    W2 m c (Proc.devRef .tc r) = m ((c : Thread nD τ).loc r) :=
  (after01_of (W1 m c) r h1).trans (after0_of (W0 m c) r h0)

theorem W3_v34 (c : Dev nD) :
    W3 m c (Proc.devRef .tc main_v34) = wOf (m ((c : Thread nD τ).loc main_arg3)) 0 := by
  refine (after02_v34 (W2 m c)).trans ?_
  rw [W2_arg m c main_arg3 (by decide) (by decide)]
  exact Spec.weight0 _

end Prefix

end Cert.KernelIdeal.HandValue

end
-- ==== Proof.KI.WalkL0.lean ====
import proofs.«406641_j72756745994790_1_alg».proof.Proof.KI.Fold
import proofs.«406641_j72756745994790_1_alg».proof.Proof.Spec
import proofs.«406641_j72756745994790_1_alg».proof.Proof.SpecOps
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.ShloMosaic.StableHlo (after_of_writes_sub)
open Cert.Spec (wOf rowOf agg)

variable (m : (ℓ : Loc nD τ sig) → Buf (Elt Ideal) ℓ)

section Stretch
variable (V : Valuation τ sig (Elt Ideal))

theorem agg0 (nrm : FVec Ideal Spec.ShE .f32)
    (hn : V (Proc.devRef .tc main_v32) = broadcastInDim Spec.ShE1 ![0] Spec.bcE_E1 nrm) :
    StableHlo.after hostOps1 V (Proc.devRef .tc main_v52) =
      agg (V (Proc.devRef .tc main_v35)) (V (Proc.devRef .tc main_v3)) (V (Proc.devRef .tc main_v6)) nrm
        (rowOf (V (Proc.devRef .tc main_arg4)) 0) := by
  refine Eq.trans ?_ (congrArg
    (agg (V (Proc.devRef .tc main_v35)) (V (Proc.devRef .tc main_v3)) (V (Proc.devRef .tc main_v6)) nrm)
    (Spec.row0 (V (Proc.devRef .tc main_arg4))))
  after_results_simp
  rw [hn]
  rfl

theorem mean0 :
    StableHlo.after hostOps2 V (Proc.devRef .tc main_v55) =
      Host.divf (V (Proc.devRef .tc main_v53_0))
        (broadcastInDim S1x96 ![] bcast_S_S1x96 (constant (F := Ideal) S_ .f32 0x47435000#32)) := by
  after_results

theorem var0 :
    StableHlo.after hostOps2 V (Proc.devRef .tc main_v59) =
      subf (Host.divf (V (Proc.devRef .tc main_v53_1))
          (broadcastInDim S1x96 ![] bcast_S_S1x96 (constant (F := Ideal) S_ .f32 0x47435000#32)))
        (mulf (StableHlo.after hostOps2 V (Proc.devRef .tc main_v55)) (StableHlo.after hostOps2 V (Proc.devRef .tc main_v55))) := by
  rw [mean0 V]
  after_results

theorem gamma0 :
    StableHlo.after hostOps2 V (Proc.devRef .tc main_v64) =
      shapeCast S1x96 (rowOf (V (Proc.devRef .tc main_arg5)) 0) shapeCasts_S96_S1x96 := by
  rw [← Spec.row0 (V (Proc.devRef .tc main_arg5))]
  after_results
  rfl

theorem beta0 :
    StableHlo.after hostOps2 V (Proc.devRef .tc main_v65) =
      shapeCast S1x96 (rowOf (V (Proc.devRef .tc main_arg6)) 0) shapeCasts_S96_S1x96 := by
  rw [← Spec.row0 (V (Proc.devRef .tc main_arg6))]
  after_results
  rfl

theorem nextWeight0 :
    StableHlo.after hostOps3 V (Proc.devRef .tc main_v68) = wOf (V (Proc.devRef .tc main_arg3)) 1 := by
  after_results
  exact Spec.weight1 (V (Proc.devRef .tc main_arg3))

end Stretch

theorem rowMatrix_apply0 (r : FVec Ideal Spec.ShF .f32) (i : S1x96.Idx) :
    shapeCast S1x96 r shapeCasts_S96_S1x96 i = r (ix1 (i 1)) := by
  have h0 : (i 0).val < 1 := (i 0).isLt
  refine shapeCast_apply r shapeCasts_S96_S1x96 i (ix1 (i 1)) ?_
  rw [Shape.rowMajor_val_one, Shape.rowMajor_val_two]
  show (i 1).val = (i 0).val * 96 + (i 1).val
  omega

section Keep
variable (c : Dev nD) (b : Ref sig .tc)

theorem keep4 (h0 : ∀ w, Pipeline.arrRef spec0 w ≠ b) :
    W4 m c (Proc.devRef .tc b) = W3 m c (Proc.devRef .tc b) := W4_of_ne m c b h0
theorem keep5 (h0 : ∀ w, Pipeline.arrRef spec0 w ≠ b) (h1 : b ∉ hostOps1_W) :
    W5 m c (Proc.devRef .tc b) = W3 m c (Proc.devRef .tc b) :=
  (after_of_writes_sub hostOps1 (W4 m c) hostOps1_writes h1).trans (keep4 m c b h0)
theorem keep6 (h0 : ∀ w, Pipeline.arrRef spec0 w ≠ b) (h1 : b ∉ hostOps1_W) (h2 : ∀ w, Pipeline.arrRef spec1 w ≠ b) :
    W6 m c (Proc.devRef .tc b) = W3 m c (Proc.devRef .tc b) :=
  (W6_of_ne m c b h2).trans (keep5 m c b h0 h1)
theorem keep7 (h0 : ∀ w, Pipeline.arrRef spec0 w ≠ b) (h1 : b ∉ hostOps1_W) (h2 : ∀ w, Pipeline.arrRef spec1 w ≠ b)
    (h3 : b ∉ hostOps2_W) : W7 m c (Proc.devRef .tc b) = W3 m c (Proc.devRef .tc b) :=
  (after_of_writes_sub hostOps2 (W6 m c) hostOps2_writes h3).trans (keep6 m c b h0 h1 h2)
theorem keep8 (h0 : ∀ w, Pipeline.arrRef spec0 w ≠ b) (h1 : b ∉ hostOps1_W) (h2 : ∀ w, Pipeline.arrRef spec1 w ≠ b)
    (h3 : b ∉ hostOps2_W) (h4 : ∀ w, Pipeline.arrRef spec2 w ≠ b) :
    W8 m c (Proc.devRef .tc b) = W3 m c (Proc.devRef .tc b) :=
  (W8_of_ne m c b h4).trans (keep7 m c b h0 h1 h2 h3)
theorem keep9 (h0 : ∀ w, Pipeline.arrRef spec0 w ≠ b) (h1 : b ∉ hostOps1_W) (h2 : ∀ w, Pipeline.arrRef spec1 w ≠ b)
    (h3 : b ∉ hostOps2_W) (h4 : ∀ w, Pipeline.arrRef spec2 w ≠ b) (h5 : b ∉ hostOps3_W) :
    W9 m c (Proc.devRef .tc b) = W3 m c (Proc.devRef .tc b) :=
  (after_of_writes_sub hostOps3 (W8 m c) hostOps3_writes h5).trans (keep8 m c b h0 h1 h2 h3 h4)
end Keep

theorem W9_v3 (c : Dev nD) : W9 m c (Proc.devRef .tc main_v3) = W3 m c (Proc.devRef .tc main_v3) :=
  keep9 m c main_v3 (by decide) (by decide) (by decide) (by decide) (by decide) (by decide)
theorem W9_v6 (c : Dev nD) : W9 m c (Proc.devRef .tc main_v6) = W3 m c (Proc.devRef .tc main_v6) :=
  keep9 m c main_v6 (by decide) (by decide) (by decide) (by decide) (by decide) (by decide)
theorem W9_v32 (c : Dev nD) : W9 m c (Proc.devRef .tc main_v32) = W3 m c (Proc.devRef .tc main_v32) :=
  keep9 m c main_v32 (by decide) (by decide) (by decide) (by decide) (by decide) (by decide)
theorem W9_arg2 (c : Dev nD) : W9 m c (Proc.devRef .tc main_arg2) = W3 m c (Proc.devRef .tc main_arg2) :=
  keep9 m c main_arg2 (by decide) (by decide) (by decide) (by decide) (by decide) (by decide)
theorem W9_arg3 (c : Dev nD) : W9 m c (Proc.devRef .tc main_arg3) = W3 m c (Proc.devRef .tc main_arg3) :=
  keep9 m c main_arg3 (by decide) (by decide) (by decide) (by decide) (by decide) (by decide)
theorem W9_arg4 (c : Dev nD) : W9 m c (Proc.devRef .tc main_arg4) = W3 m c (Proc.devRef .tc main_arg4) :=
  keep9 m c main_arg4 (by decide) (by decide) (by decide) (by decide) (by decide) (by decide)
theorem W9_arg5 (c : Dev nD) : W9 m c (Proc.devRef .tc main_arg5) = W3 m c (Proc.devRef .tc main_arg5) :=
  keep9 m c main_arg5 (by decide) (by decide) (by decide) (by decide) (by decide) (by decide)
theorem W9_arg6 (c : Dev nD) : W9 m c (Proc.devRef .tc main_arg6) = W3 m c (Proc.devRef .tc main_arg6) :=
  keep9 m c main_arg6 (by decide) (by decide) (by decide) (by decide) (by decide) (by decide)

theorem L0_agg (c : Dev nD) (nrm : FVec Ideal Spec.ShE .f32)
    (hn : W3 m c (Proc.devRef .tc main_v32) = broadcastInDim Spec.ShE1 ![0] Spec.bcE_E1 nrm) :
    W5 m c (Proc.devRef .tc main_v52) =
      agg (W4 m c (Proc.devRef .tc main_v35)) (W3 m c (Proc.devRef .tc main_v3)) (W3 m c (Proc.devRef .tc main_v6)) nrm
        (rowOf (W3 m c (Proc.devRef .tc main_arg4)) 0) := by
  have h := agg0 (W4 m c) nrm ((keep4 m c main_v32 (by decide)).trans hn)
  rw [keep4 m c main_v3 (by decide), keep4 m c main_v6 (by decide), keep4 m c main_arg4 (by decide)] at h
  exact h

theorem L0_mean (c : Dev nD) :
    W7 m c (Proc.devRef .tc main_v55) =
      Host.divf (W6 m c (Proc.devRef .tc main_v53_0))
        (broadcastInDim S1x96 ![] bcast_S_S1x96 (constant (F := Ideal) S_ .f32 0x47435000#32)) :=
  mean0 (W6 m c)

theorem L0_var (c : Dev nD) :
    W7 m c (Proc.devRef .tc main_v59) =
      subf (Host.divf (W6 m c (Proc.devRef .tc main_v53_1))
          (broadcastInDim S1x96 ![] bcast_S_S1x96 (constant (F := Ideal) S_ .f32 0x47435000#32)))
        (mulf (W7 m c (Proc.devRef .tc main_v55)) (W7 m c (Proc.devRef .tc main_v55))) :=
  var0 (W6 m c)

theorem L0_gamma (c : Dev nD) :
    W7 m c (Proc.devRef .tc main_v64) =
      shapeCast S1x96 (rowOf (W3 m c (Proc.devRef .tc main_arg5)) 0) shapeCasts_S96_S1x96 := by
  have h := gamma0 (W6 m c)
  rw [keep6 m c main_arg5 (by decide) (by decide) (by decide)] at h
  exact h
theorem L0_beta (c : Dev nD) :
    W7 m c (Proc.devRef .tc main_v65) =
      shapeCast S1x96 (rowOf (W3 m c (Proc.devRef .tc main_arg6)) 0) shapeCasts_S96_S1x96 := by
  have h := beta0 (W6 m c)
  rw [keep6 m c main_arg6 (by decide) (by decide) (by decide)] at h
  exact h

theorem L0_gamma_apply (c : Dev nD) (i : S1x96.Idx) :
    (W7 m c (Proc.devRef .tc main_v64) : FVec Ideal S1x96 .f32) i =
      rowOf (W3 m c (Proc.devRef .tc main_arg5)) 0 (ix1 (i 1)) := by
  rw [L0_gamma m c]; exact rowMatrix_apply0 _ i
theorem L0_beta_apply (c : Dev nD) (i : S1x96.Idx) :
    (W7 m c (Proc.devRef .tc main_v65) : FVec Ideal S1x96 .f32) i =
      rowOf (W3 m c (Proc.devRef .tc main_arg6)) 0 (ix1 (i 1)) := by
  rw [L0_beta m c]; exact rowMatrix_apply0 _ i

theorem L0_agg_kept (c : Dev nD) :
    W7 m c (Proc.devRef .tc main_v52) = W6 m c (Proc.devRef .tc main_v52) :=
  after_of_writes_sub hostOps2 (W6 m c) hostOps2_writes (by decide)

theorem L0_nextWeight (c : Dev nD) :
    W9 m c (Proc.devRef .tc main_v68) = wOf (W3 m c (Proc.devRef .tc main_arg3)) 1 := by
  have h := nextWeight0 (W8 m c)
  rw [keep8 m c main_arg3 (by decide) (by decide) (by decide) (by decide) (by decide)] at h
  exact h

theorem L0_out_kept (c : Dev nD) :
    W9 m c (Proc.devRef .tc main_v66) = W8 m c (Proc.devRef .tc main_v66) :=
  after_of_writes_sub hostOps3 (W8 m c) hostOps3_writes (by decide)

end Cert.KernelIdeal.HandValue
end
-- ==== Proof.KI.WalkL1.lean ====
import proofs.«406641_j72756745994790_1_alg».proof.Proof.KI.Fold
import proofs.«406641_j72756745994790_1_alg».proof.Proof.Spec
import proofs.«406641_j72756745994790_1_alg».proof.Proof.SpecOps
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.ShloMosaic.StableHlo (after_of_writes_sub)
open Cert.Spec (wOf rowOf agg)

variable (m : (ℓ : Loc nD τ sig) → Buf (Elt Ideal) ℓ)

section Stretch
variable (V : Valuation τ sig (Elt Ideal))

theorem agg1 (nrm : FVec Ideal Spec.ShE .f32)
    (hn : V (Proc.devRef .tc main_v32) = broadcastInDim Spec.ShE1 ![0] Spec.bcE_E1 nrm) :
    StableHlo.after hostOps4 V (Proc.devRef .tc main_v86) =
      agg (V (Proc.devRef .tc main_v69)) (V (Proc.devRef .tc main_v3)) (V (Proc.devRef .tc main_v6)) nrm
        (rowOf (V (Proc.devRef .tc main_arg4)) 1) := by
  refine Eq.trans ?_ (congrArg
    (agg (V (Proc.devRef .tc main_v69)) (V (Proc.devRef .tc main_v3)) (V (Proc.devRef .tc main_v6)) nrm)
    (Spec.row1 (V (Proc.devRef .tc main_arg4))))
  after_results_simp
  rw [hn]
  rfl

theorem mean1 :
    StableHlo.after hostOps5 V (Proc.devRef .tc main_v89) =
      Host.divf (V (Proc.devRef .tc main_v87_0))
        (broadcastInDim S1x96 ![] bcast_S_S1x96 (constant (F := Ideal) S_ .f32 0x47435000#32)) := by
  after_results

theorem var1 :
    StableHlo.after hostOps5 V (Proc.devRef .tc main_v93) =
      subf (Host.divf (V (Proc.devRef .tc main_v87_1))
          (broadcastInDim S1x96 ![] bcast_S_S1x96 (constant (F := Ideal) S_ .f32 0x47435000#32)))
        (mulf (StableHlo.after hostOps5 V (Proc.devRef .tc main_v89)) (StableHlo.after hostOps5 V (Proc.devRef .tc main_v89))) := by
  rw [mean1 V]
  after_results

theorem gamma1 :
    StableHlo.after hostOps5 V (Proc.devRef .tc main_v98) =
      shapeCast S1x96 (rowOf (V (Proc.devRef .tc main_arg5)) 1) shapeCasts_S96_S1x96 := by
  rw [← Spec.row1 (V (Proc.devRef .tc main_arg5))]
  after_results
  rfl

theorem beta1 :
    StableHlo.after hostOps5 V (Proc.devRef .tc main_v99) =
      shapeCast S1x96 (rowOf (V (Proc.devRef .tc main_arg6)) 1) shapeCasts_S96_S1x96 := by
  rw [← Spec.row1 (V (Proc.devRef .tc main_arg6))]
  after_results
  rfl

theorem nextWeight1 :
    StableHlo.after hostOps6 V (Proc.devRef .tc main_v102) = wOf (V (Proc.devRef .tc main_arg3)) 2 := by
  after_results
  exact Spec.weight2 (V (Proc.devRef .tc main_arg3))

end Stretch

theorem rowMatrix_apply1 (r : FVec Ideal Spec.ShF .f32) (i : S1x96.Idx) :
    shapeCast S1x96 r shapeCasts_S96_S1x96 i = r (ix1 (i 1)) := by
  have h0 : (i 0).val < 1 := (i 0).isLt
  refine shapeCast_apply r shapeCasts_S96_S1x96 i (ix1 (i 1)) ?_
  rw [Shape.rowMajor_val_one, Shape.rowMajor_val_two]
  show (i 1).val = (i 0).val * 96 + (i 1).val
  omega

section Keep
variable (c : Dev nD) (b : Ref sig .tc)

theorem keep10 (h0 : ∀ w, Pipeline.arrRef spec3 w ≠ b) :
    W10 m c (Proc.devRef .tc b) = W9 m c (Proc.devRef .tc b) := W10_of_ne m c b h0
theorem keep11 (h0 : ∀ w, Pipeline.arrRef spec3 w ≠ b) (h1 : b ∉ hostOps4_W) :
    W11 m c (Proc.devRef .tc b) = W9 m c (Proc.devRef .tc b) :=
  (after_of_writes_sub hostOps4 (W10 m c) hostOps4_writes h1).trans (keep10 m c b h0)
theorem keep12 (h0 : ∀ w, Pipeline.arrRef spec3 w ≠ b) (h1 : b ∉ hostOps4_W) (h2 : ∀ w, Pipeline.arrRef spec4 w ≠ b) :
    W12 m c (Proc.devRef .tc b) = W9 m c (Proc.devRef .tc b) :=
  (W12_of_ne m c b h2).trans (keep11 m c b h0 h1)
theorem keep13 (h0 : ∀ w, Pipeline.arrRef spec3 w ≠ b) (h1 : b ∉ hostOps4_W) (h2 : ∀ w, Pipeline.arrRef spec4 w ≠ b)
    (h3 : b ∉ hostOps5_W) : W13 m c (Proc.devRef .tc b) = W9 m c (Proc.devRef .tc b) :=
  (after_of_writes_sub hostOps5 (W12 m c) hostOps5_writes h3).trans (keep12 m c b h0 h1 h2)
theorem keep14 (h0 : ∀ w, Pipeline.arrRef spec3 w ≠ b) (h1 : b ∉ hostOps4_W) (h2 : ∀ w, Pipeline.arrRef spec4 w ≠ b)
    (h3 : b ∉ hostOps5_W) (h4 : ∀ w, Pipeline.arrRef spec5 w ≠ b) :
    W14 m c (Proc.devRef .tc b) = W9 m c (Proc.devRef .tc b) :=
  (W14_of_ne m c b h4).trans (keep13 m c b h0 h1 h2 h3)
theorem keep15 (h0 : ∀ w, Pipeline.arrRef spec3 w ≠ b) (h1 : b ∉ hostOps4_W) (h2 : ∀ w, Pipeline.arrRef spec4 w ≠ b)
    (h3 : b ∉ hostOps5_W) (h4 : ∀ w, Pipeline.arrRef spec5 w ≠ b) (h5 : b ∉ hostOps6_W) :
    W15 m c (Proc.devRef .tc b) = W9 m c (Proc.devRef .tc b) :=
  (after_of_writes_sub hostOps6 (W14 m c) hostOps6_writes h5).trans (keep14 m c b h0 h1 h2 h3 h4)
end Keep

theorem W15_v3 (c : Dev nD) : W15 m c (Proc.devRef .tc main_v3) = W9 m c (Proc.devRef .tc main_v3) :=
  keep15 m c main_v3 (by decide) (by decide) (by decide) (by decide) (by decide) (by decide)
theorem W15_v6 (c : Dev nD) : W15 m c (Proc.devRef .tc main_v6) = W9 m c (Proc.devRef .tc main_v6) :=
  keep15 m c main_v6 (by decide) (by decide) (by decide) (by decide) (by decide) (by decide)
theorem W15_v32 (c : Dev nD) : W15 m c (Proc.devRef .tc main_v32) = W9 m c (Proc.devRef .tc main_v32) :=
  keep15 m c main_v32 (by decide) (by decide) (by decide) (by decide) (by decide) (by decide)
theorem W15_arg2 (c : Dev nD) : W15 m c (Proc.devRef .tc main_arg2) = W9 m c (Proc.devRef .tc main_arg2) :=
  keep15 m c main_arg2 (by decide) (by decide) (by decide) (by decide) (by decide) (by decide)
theorem W15_arg3 (c : Dev nD) : W15 m c (Proc.devRef .tc main_arg3) = W9 m c (Proc.devRef .tc main_arg3) :=
  keep15 m c main_arg3 (by decide) (by decide) (by decide) (by decide) (by decide) (by decide)
theorem W15_arg4 (c : Dev nD) : W15 m c (Proc.devRef .tc main_arg4) = W9 m c (Proc.devRef .tc main_arg4) :=
  keep15 m c main_arg4 (by decide) (by decide) (by decide) (by decide) (by decide) (by decide)
theorem W15_arg5 (c : Dev nD) : W15 m c (Proc.devRef .tc main_arg5) = W9 m c (Proc.devRef .tc main_arg5) :=
  keep15 m c main_arg5 (by decide) (by decide) (by decide) (by decide) (by decide) (by decide)
theorem W15_arg6 (c : Dev nD) : W15 m c (Proc.devRef .tc main_arg6) = W9 m c (Proc.devRef .tc main_arg6) :=
  keep15 m c main_arg6 (by decide) (by decide) (by decide) (by decide) (by decide) (by decide)

theorem L1_agg (c : Dev nD) (nrm : FVec Ideal Spec.ShE .f32)
    (hn : W9 m c (Proc.devRef .tc main_v32) = broadcastInDim Spec.ShE1 ![0] Spec.bcE_E1 nrm) :
    W11 m c (Proc.devRef .tc main_v86) =
      agg (W10 m c (Proc.devRef .tc main_v69)) (W9 m c (Proc.devRef .tc main_v3)) (W9 m c (Proc.devRef .tc main_v6)) nrm
        (rowOf (W9 m c (Proc.devRef .tc main_arg4)) 1) := by
  have h := agg1 (W10 m c) nrm ((keep10 m c main_v32 (by decide)).trans hn)
  rw [keep10 m c main_v3 (by decide), keep10 m c main_v6 (by decide), keep10 m c main_arg4 (by decide)] at h
  exact h

theorem L1_mean (c : Dev nD) :
    W13 m c (Proc.devRef .tc main_v89) =
      Host.divf (W12 m c (Proc.devRef .tc main_v87_0))
        (broadcastInDim S1x96 ![] bcast_S_S1x96 (constant (F := Ideal) S_ .f32 0x47435000#32)) :=
  mean1 (W12 m c)

theorem L1_var (c : Dev nD) :
    W13 m c (Proc.devRef .tc main_v93) =
      subf (Host.divf (W12 m c (Proc.devRef .tc main_v87_1))
          (broadcastInDim S1x96 ![] bcast_S_S1x96 (constant (F := Ideal) S_ .f32 0x47435000#32)))
        (mulf (W13 m c (Proc.devRef .tc main_v89)) (W13 m c (Proc.devRef .tc main_v89))) :=
  var1 (W12 m c)

theorem L1_gamma (c : Dev nD) :
    W13 m c (Proc.devRef .tc main_v98) =
      shapeCast S1x96 (rowOf (W9 m c (Proc.devRef .tc main_arg5)) 1) shapeCasts_S96_S1x96 := by
  have h := gamma1 (W12 m c)
  rw [keep12 m c main_arg5 (by decide) (by decide) (by decide)] at h
  exact h
theorem L1_beta (c : Dev nD) :
    W13 m c (Proc.devRef .tc main_v99) =
      shapeCast S1x96 (rowOf (W9 m c (Proc.devRef .tc main_arg6)) 1) shapeCasts_S96_S1x96 := by
  have h := beta1 (W12 m c)
  rw [keep12 m c main_arg6 (by decide) (by decide) (by decide)] at h
  exact h

theorem L1_gamma_apply (c : Dev nD) (i : S1x96.Idx) :
    (W13 m c (Proc.devRef .tc main_v98) : FVec Ideal S1x96 .f32) i =
      rowOf (W9 m c (Proc.devRef .tc main_arg5)) 1 (ix1 (i 1)) := by
  rw [L1_gamma m c]; exact rowMatrix_apply1 _ i
theorem L1_beta_apply (c : Dev nD) (i : S1x96.Idx) :
    (W13 m c (Proc.devRef .tc main_v99) : FVec Ideal S1x96 .f32) i =
      rowOf (W9 m c (Proc.devRef .tc main_arg6)) 1 (ix1 (i 1)) := by
  rw [L1_beta m c]; exact rowMatrix_apply1 _ i

theorem L1_agg_kept (c : Dev nD) :
    W13 m c (Proc.devRef .tc main_v86) = W12 m c (Proc.devRef .tc main_v86) :=
  after_of_writes_sub hostOps5 (W12 m c) hostOps5_writes (by decide)

theorem L1_nextWeight (c : Dev nD) :
    W15 m c (Proc.devRef .tc main_v102) = wOf (W9 m c (Proc.devRef .tc main_arg3)) 2 := by
  have h := nextWeight1 (W14 m c)
  rw [keep14 m c main_arg3 (by decide) (by decide) (by decide) (by decide) (by decide)] at h
  exact h

theorem L1_out_kept (c : Dev nD) :
    W15 m c (Proc.devRef .tc main_v100) = W14 m c (Proc.devRef .tc main_v100) :=
  after_of_writes_sub hostOps6 (W14 m c) hostOps6_writes (by decide)

end Cert.KernelIdeal.HandValue
end
-- ==== Proof.KI.WalkL2.lean ====
import proofs.«406641_j72756745994790_1_alg».proof.Proof.KI.Fold
import proofs.«406641_j72756745994790_1_alg».proof.Proof.Spec
import proofs.«406641_j72756745994790_1_alg».proof.Proof.SpecOps
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.ShloMosaic.StableHlo (after_of_writes_sub)
open Cert.Spec (wOf rowOf agg)

variable (m : (ℓ : Loc nD τ sig) → Buf (Elt Ideal) ℓ)

section Stretch
variable (V : Valuation τ sig (Elt Ideal))

theorem agg2 (nrm : FVec Ideal Spec.ShE .f32)
    (hn : V (Proc.devRef .tc main_v32) = broadcastInDim Spec.ShE1 ![0] Spec.bcE_E1 nrm) :
    StableHlo.after hostOps7 V (Proc.devRef .tc main_v120) =
      agg (V (Proc.devRef .tc main_v103)) (V (Proc.devRef .tc main_v3)) (V (Proc.devRef .tc main_v6)) nrm
        (rowOf (V (Proc.devRef .tc main_arg4)) 2) := by
  refine Eq.trans ?_ (congrArg
    (agg (V (Proc.devRef .tc main_v103)) (V (Proc.devRef .tc main_v3)) (V (Proc.devRef .tc main_v6)) nrm)
    (Spec.row2 (V (Proc.devRef .tc main_arg4))))
  after_results_simp
  rw [hn]
  rfl

theorem mean2 :
    StableHlo.after hostOps8 V (Proc.devRef .tc main_v123) =
      Host.divf (V (Proc.devRef .tc main_v121_0))
        (broadcastInDim S1x96 ![] bcast_S_S1x96 (constant (F := Ideal) S_ .f32 0x47435000#32)) := by
  after_results

theorem var2 :
    StableHlo.after hostOps8 V (Proc.devRef .tc main_v127) =
      subf (Host.divf (V (Proc.devRef .tc main_v121_1))
          (broadcastInDim S1x96 ![] bcast_S_S1x96 (constant (F := Ideal) S_ .f32 0x47435000#32)))
        (mulf (StableHlo.after hostOps8 V (Proc.devRef .tc main_v123)) (StableHlo.after hostOps8 V (Proc.devRef .tc main_v123))) := by
  rw [mean2 V]
  after_results

theorem gamma2 :
    StableHlo.after hostOps8 V (Proc.devRef .tc main_v132) =
      shapeCast S1x96 (rowOf (V (Proc.devRef .tc main_arg5)) 2) shapeCasts_S96_S1x96 := by
  rw [← Spec.row2 (V (Proc.devRef .tc main_arg5))]
  after_results
  rfl

theorem beta2 :
    StableHlo.after hostOps8 V (Proc.devRef .tc main_v133) =
      shapeCast S1x96 (rowOf (V (Proc.devRef .tc main_arg6)) 2) shapeCasts_S96_S1x96 := by
  rw [← Spec.row2 (V (Proc.devRef .tc main_arg6))]
  after_results
  rfl

theorem nextWeight2 :
    StableHlo.after hostOps9 V (Proc.devRef .tc main_v136) = wOf (V (Proc.devRef .tc main_arg3)) 3 := by
  after_results
  exact Spec.weight3 (V (Proc.devRef .tc main_arg3))

end Stretch

theorem rowMatrix_apply2 (r : FVec Ideal Spec.ShF .f32) (i : S1x96.Idx) :
    shapeCast S1x96 r shapeCasts_S96_S1x96 i = r (ix1 (i 1)) := by
  have h0 : (i 0).val < 1 := (i 0).isLt
  refine shapeCast_apply r shapeCasts_S96_S1x96 i (ix1 (i 1)) ?_
  rw [Shape.rowMajor_val_one, Shape.rowMajor_val_two]
  show (i 1).val = (i 0).val * 96 + (i 1).val
  omega

section Keep
variable (c : Dev nD) (b : Ref sig .tc)

theorem keep16 (h0 : ∀ w, Pipeline.arrRef spec6 w ≠ b) :
    W16 m c (Proc.devRef .tc b) = W15 m c (Proc.devRef .tc b) := W16_of_ne m c b h0
theorem keep17 (h0 : ∀ w, Pipeline.arrRef spec6 w ≠ b) (h1 : b ∉ hostOps7_W) :
    W17 m c (Proc.devRef .tc b) = W15 m c (Proc.devRef .tc b) :=
  (after_of_writes_sub hostOps7 (W16 m c) hostOps7_writes h1).trans (keep16 m c b h0)
theorem keep18 (h0 : ∀ w, Pipeline.arrRef spec6 w ≠ b) (h1 : b ∉ hostOps7_W) (h2 : ∀ w, Pipeline.arrRef spec7 w ≠ b) :
    W18 m c (Proc.devRef .tc b) = W15 m c (Proc.devRef .tc b) :=
  (W18_of_ne m c b h2).trans (keep17 m c b h0 h1)
theorem keep19 (h0 : ∀ w, Pipeline.arrRef spec6 w ≠ b) (h1 : b ∉ hostOps7_W) (h2 : ∀ w, Pipeline.arrRef spec7 w ≠ b)
    (h3 : b ∉ hostOps8_W) : W19 m c (Proc.devRef .tc b) = W15 m c (Proc.devRef .tc b) :=
  (after_of_writes_sub hostOps8 (W18 m c) hostOps8_writes h3).trans (keep18 m c b h0 h1 h2)
theorem keep20 (h0 : ∀ w, Pipeline.arrRef spec6 w ≠ b) (h1 : b ∉ hostOps7_W) (h2 : ∀ w, Pipeline.arrRef spec7 w ≠ b)
    (h3 : b ∉ hostOps8_W) (h4 : ∀ w, Pipeline.arrRef spec8 w ≠ b) :
    W20 m c (Proc.devRef .tc b) = W15 m c (Proc.devRef .tc b) :=
  (W20_of_ne m c b h4).trans (keep19 m c b h0 h1 h2 h3)
theorem keep21 (h0 : ∀ w, Pipeline.arrRef spec6 w ≠ b) (h1 : b ∉ hostOps7_W) (h2 : ∀ w, Pipeline.arrRef spec7 w ≠ b)
    (h3 : b ∉ hostOps8_W) (h4 : ∀ w, Pipeline.arrRef spec8 w ≠ b) (h5 : b ∉ hostOps9_W) :
    W21 m c (Proc.devRef .tc b) = W15 m c (Proc.devRef .tc b) :=
  (after_of_writes_sub hostOps9 (W20 m c) hostOps9_writes h5).trans (keep20 m c b h0 h1 h2 h3 h4)
end Keep

theorem W21_v3 (c : Dev nD) : W21 m c (Proc.devRef .tc main_v3) = W15 m c (Proc.devRef .tc main_v3) :=
  keep21 m c main_v3 (by decide) (by decide) (by decide) (by decide) (by decide) (by decide)
theorem W21_v6 (c : Dev nD) : W21 m c (Proc.devRef .tc main_v6) = W15 m c (Proc.devRef .tc main_v6) :=
  keep21 m c main_v6 (by decide) (by decide) (by decide) (by decide) (by decide) (by decide)
theorem W21_v32 (c : Dev nD) : W21 m c (Proc.devRef .tc main_v32) = W15 m c (Proc.devRef .tc main_v32) :=
  keep21 m c main_v32 (by decide) (by decide) (by decide) (by decide) (by decide) (by decide)
theorem W21_arg2 (c : Dev nD) : W21 m c (Proc.devRef .tc main_arg2) = W15 m c (Proc.devRef .tc main_arg2) :=
  keep21 m c main_arg2 (by decide) (by decide) (by decide) (by decide) (by decide) (by decide)
theorem W21_arg3 (c : Dev nD) : W21 m c (Proc.devRef .tc main_arg3) = W15 m c (Proc.devRef .tc main_arg3) :=
  keep21 m c main_arg3 (by decide) (by decide) (by decide) (by decide) (by decide) (by decide)
theorem W21_arg4 (c : Dev nD) : W21 m c (Proc.devRef .tc main_arg4) = W15 m c (Proc.devRef .tc main_arg4) :=
  keep21 m c main_arg4 (by decide) (by decide) (by decide) (by decide) (by decide) (by decide)
theorem W21_arg5 (c : Dev nD) : W21 m c (Proc.devRef .tc main_arg5) = W15 m c (Proc.devRef .tc main_arg5) :=
  keep21 m c main_arg5 (by decide) (by decide) (by decide) (by decide) (by decide) (by decide)
theorem W21_arg6 (c : Dev nD) : W21 m c (Proc.devRef .tc main_arg6) = W15 m c (Proc.devRef .tc main_arg6) :=
  keep21 m c main_arg6 (by decide) (by decide) (by decide) (by decide) (by decide) (by decide)

theorem L2_agg (c : Dev nD) (nrm : FVec Ideal Spec.ShE .f32)
    (hn : W15 m c (Proc.devRef .tc main_v32) = broadcastInDim Spec.ShE1 ![0] Spec.bcE_E1 nrm) :
    W17 m c (Proc.devRef .tc main_v120) =
      agg (W16 m c (Proc.devRef .tc main_v103)) (W15 m c (Proc.devRef .tc main_v3)) (W15 m c (Proc.devRef .tc main_v6)) nrm
        (rowOf (W15 m c (Proc.devRef .tc main_arg4)) 2) := by
  have h := agg2 (W16 m c) nrm ((keep16 m c main_v32 (by decide)).trans hn)
  rw [keep16 m c main_v3 (by decide), keep16 m c main_v6 (by decide), keep16 m c main_arg4 (by decide)] at h
  exact h

theorem L2_mean (c : Dev nD) :
    W19 m c (Proc.devRef .tc main_v123) =
      Host.divf (W18 m c (Proc.devRef .tc main_v121_0))
        (broadcastInDim S1x96 ![] bcast_S_S1x96 (constant (F := Ideal) S_ .f32 0x47435000#32)) :=
  mean2 (W18 m c)

theorem L2_var (c : Dev nD) :
    W19 m c (Proc.devRef .tc main_v127) =
      subf (Host.divf (W18 m c (Proc.devRef .tc main_v121_1))
          (broadcastInDim S1x96 ![] bcast_S_S1x96 (constant (F := Ideal) S_ .f32 0x47435000#32)))
        (mulf (W19 m c (Proc.devRef .tc main_v123)) (W19 m c (Proc.devRef .tc main_v123))) :=
  var2 (W18 m c)

theorem L2_gamma (c : Dev nD) :
    W19 m c (Proc.devRef .tc main_v132) =
      shapeCast S1x96 (rowOf (W15 m c (Proc.devRef .tc main_arg5)) 2) shapeCasts_S96_S1x96 := by
  have h := gamma2 (W18 m c)
  rw [keep18 m c main_arg5 (by decide) (by decide) (by decide)] at h
  exact h
theorem L2_beta (c : Dev nD) :
    W19 m c (Proc.devRef .tc main_v133) =
      shapeCast S1x96 (rowOf (W15 m c (Proc.devRef .tc main_arg6)) 2) shapeCasts_S96_S1x96 := by
  have h := beta2 (W18 m c)
  rw [keep18 m c main_arg6 (by decide) (by decide) (by decide)] at h
  exact h

theorem L2_gamma_apply (c : Dev nD) (i : S1x96.Idx) :
    (W19 m c (Proc.devRef .tc main_v132) : FVec Ideal S1x96 .f32) i =
      rowOf (W15 m c (Proc.devRef .tc main_arg5)) 2 (ix1 (i 1)) := by
  rw [L2_gamma m c]; exact rowMatrix_apply2 _ i
theorem L2_beta_apply (c : Dev nD) (i : S1x96.Idx) :
    (W19 m c (Proc.devRef .tc main_v133) : FVec Ideal S1x96 .f32) i =
      rowOf (W15 m c (Proc.devRef .tc main_arg6)) 2 (ix1 (i 1)) := by
  rw [L2_beta m c]; exact rowMatrix_apply2 _ i

theorem L2_agg_kept (c : Dev nD) :
    W19 m c (Proc.devRef .tc main_v120) = W18 m c (Proc.devRef .tc main_v120) :=
  after_of_writes_sub hostOps8 (W18 m c) hostOps8_writes (by decide)

theorem L2_nextWeight (c : Dev nD) :
    W21 m c (Proc.devRef .tc main_v136) = wOf (W15 m c (Proc.devRef .tc main_arg3)) 3 := by
  have h := nextWeight2 (W20 m c)
  rw [keep20 m c main_arg3 (by decide) (by decide) (by decide) (by decide) (by decide)] at h
  exact h

theorem L2_out_kept (c : Dev nD) :
    W21 m c (Proc.devRef .tc main_v134) = W20 m c (Proc.devRef .tc main_v134) :=
  after_of_writes_sub hostOps9 (W20 m c) hostOps9_writes (by decide)

end Cert.KernelIdeal.HandValue
end
-- ==== Proof.KI.WalkL3.lean ====
import proofs.«406641_j72756745994790_1_alg».proof.Proof.KI.Fold
import proofs.«406641_j72756745994790_1_alg».proof.Proof.Spec
import proofs.«406641_j72756745994790_1_alg».proof.Proof.SpecOps
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Idealize.ShloMosaic.StableHlo (after_of_writes_sub)
open Cert.Spec (wOf rowOf agg)

variable (m : (ℓ : Loc nD τ sig) → Buf (Elt Ideal) ℓ)

section Stretch
variable (V : Valuation τ sig (Elt Ideal))

theorem agg3 (nrm : FVec Ideal Spec.ShE .f32)
    (hn : V (Proc.devRef .tc main_v32) = broadcastInDim Spec.ShE1 ![0] Spec.bcE_E1 nrm) :
    StableHlo.after hostOps10 V (Proc.devRef .tc main_v154) =
      agg (V (Proc.devRef .tc main_v137)) (V (Proc.devRef .tc main_v3)) (V (Proc.devRef .tc main_v6)) nrm
        (rowOf (V (Proc.devRef .tc main_arg4)) 3) := by
  refine Eq.trans ?_ (congrArg
    (agg (V (Proc.devRef .tc main_v137)) (V (Proc.devRef .tc main_v3)) (V (Proc.devRef .tc main_v6)) nrm)
    (Spec.row3 (V (Proc.devRef .tc main_arg4))))
  after_results_simp
  rw [hn]
  rfl

theorem mean3 :
    StableHlo.after hostOps11 V (Proc.devRef .tc main_v157) =
      Host.divf (V (Proc.devRef .tc main_v155_0))
        (broadcastInDim S1x96 ![] bcast_S_S1x96 (constant (F := Ideal) S_ .f32 0x47435000#32)) := by
  after_results

theorem var3 :
    StableHlo.after hostOps11 V (Proc.devRef .tc main_v161) =
      subf (Host.divf (V (Proc.devRef .tc main_v155_1))
          (broadcastInDim S1x96 ![] bcast_S_S1x96 (constant (F := Ideal) S_ .f32 0x47435000#32)))
        (mulf (StableHlo.after hostOps11 V (Proc.devRef .tc main_v157)) (StableHlo.after hostOps11 V (Proc.devRef .tc main_v157))) := by
  rw [mean3 V]
  after_results

theorem gamma3 :
    StableHlo.after hostOps11 V (Proc.devRef .tc main_v166) =
      shapeCast S1x96 (rowOf (V (Proc.devRef .tc main_arg5)) 3) shapeCasts_S96_S1x96 := by
  rw [← Spec.row3 (V (Proc.devRef .tc main_arg5))]
  after_results
  rfl

theorem beta3 :
    StableHlo.after hostOps11 V (Proc.devRef .tc main_v167) =
      shapeCast S1x96 (rowOf (V (Proc.devRef .tc main_arg6)) 3) shapeCasts_S96_S1x96 := by
  rw [← Spec.row3 (V (Proc.devRef .tc main_arg6))]
  after_results
  rfl

end Stretch

theorem rowMatrix_apply3 (r : FVec Ideal Spec.ShF .f32) (i : S1x96.Idx) :
    shapeCast S1x96 r shapeCasts_S96_S1x96 i = r (ix1 (i 1)) := by
  have h0 : (i 0).val < 1 := (i 0).isLt
  refine shapeCast_apply r shapeCasts_S96_S1x96 i (ix1 (i 1)) ?_
  rw [Shape.rowMajor_val_one, Shape.rowMajor_val_two]
  show (i 1).val = (i 0).val * 96 + (i 1).val
  omega

section Keep
variable (c : Dev nD) (b : Ref sig .tc)

theorem keep22 (h0 : ∀ w, Pipeline.arrRef spec9 w ≠ b) :
    W22 m c (Proc.devRef .tc b) = W21 m c (Proc.devRef .tc b) := W22_of_ne m c b h0
theorem keep23 (h0 : ∀ w, Pipeline.arrRef spec9 w ≠ b) (h1 : b ∉ hostOps10_W) :
    W23 m c (Proc.devRef .tc b) = W21 m c (Proc.devRef .tc b) :=
  (after_of_writes_sub hostOps10 (W22 m c) hostOps10_writes h1).trans (keep22 m c b h0)
theorem keep24 (h0 : ∀ w, Pipeline.arrRef spec9 w ≠ b) (h1 : b ∉ hostOps10_W) (h2 : ∀ w, Pipeline.arrRef spec10 w ≠ b) :
    W24 m c (Proc.devRef .tc b) = W21 m c (Proc.devRef .tc b) :=
  (W24_of_ne m c b h2).trans (keep23 m c b h0 h1)
theorem keep25 (h0 : ∀ w, Pipeline.arrRef spec9 w ≠ b) (h1 : b ∉ hostOps10_W) (h2 : ∀ w, Pipeline.arrRef spec10 w ≠ b)
    (h3 : b ∉ hostOps11_W) : W25 m c (Proc.devRef .tc b) = W21 m c (Proc.devRef .tc b) :=
  (after_of_writes_sub hostOps11 (W24 m c) hostOps11_writes h3).trans (keep24 m c b h0 h1 h2)
theorem keep26 (h0 : ∀ w, Pipeline.arrRef spec9 w ≠ b) (h1 : b ∉ hostOps10_W) (h2 : ∀ w, Pipeline.arrRef spec10 w ≠ b)
    (h3 : b ∉ hostOps11_W) (h4 : ∀ w, Pipeline.arrRef spec11 w ≠ b) :
    W26 m c (Proc.devRef .tc b) = W21 m c (Proc.devRef .tc b) :=
  (W26_of_ne m c b h4).trans (keep25 m c b h0 h1 h2 h3)
theorem keep27 (h0 : ∀ w, Pipeline.arrRef spec9 w ≠ b) (h1 : b ∉ hostOps10_W) (h2 : ∀ w, Pipeline.arrRef spec10 w ≠ b)
    (h3 : b ∉ hostOps11_W) (h4 : ∀ w, Pipeline.arrRef spec11 w ≠ b) (h5 : b ∉ hostOps12_W) :
    W27 m c (Proc.devRef .tc b) = W21 m c (Proc.devRef .tc b) :=
  (after_of_writes_sub hostOps12 (W26 m c) hostOps12_writes h5).trans (keep26 m c b h0 h1 h2 h3 h4)
end Keep

theorem W27_v3 (c : Dev nD) : W27 m c (Proc.devRef .tc main_v3) = W21 m c (Proc.devRef .tc main_v3) :=
  keep27 m c main_v3 (by decide) (by decide) (by decide) (by decide) (by decide) (by decide)
theorem W27_v6 (c : Dev nD) : W27 m c (Proc.devRef .tc main_v6) = W21 m c (Proc.devRef .tc main_v6) :=
  keep27 m c main_v6 (by decide) (by decide) (by decide) (by decide) (by decide) (by decide)
theorem W27_v32 (c : Dev nD) : W27 m c (Proc.devRef .tc main_v32) = W21 m c (Proc.devRef .tc main_v32) :=
  keep27 m c main_v32 (by decide) (by decide) (by decide) (by decide) (by decide) (by decide)
theorem W27_arg2 (c : Dev nD) : W27 m c (Proc.devRef .tc main_arg2) = W21 m c (Proc.devRef .tc main_arg2) :=
  keep27 m c main_arg2 (by decide) (by decide) (by decide) (by decide) (by decide) (by decide)
theorem W27_arg3 (c : Dev nD) : W27 m c (Proc.devRef .tc main_arg3) = W21 m c (Proc.devRef .tc main_arg3) :=
  keep27 m c main_arg3 (by decide) (by decide) (by decide) (by decide) (by decide) (by decide)
theorem W27_arg4 (c : Dev nD) : W27 m c (Proc.devRef .tc main_arg4) = W21 m c (Proc.devRef .tc main_arg4) :=
  keep27 m c main_arg4 (by decide) (by decide) (by decide) (by decide) (by decide) (by decide)
theorem W27_arg5 (c : Dev nD) : W27 m c (Proc.devRef .tc main_arg5) = W21 m c (Proc.devRef .tc main_arg5) :=
  keep27 m c main_arg5 (by decide) (by decide) (by decide) (by decide) (by decide) (by decide)
theorem W27_arg6 (c : Dev nD) : W27 m c (Proc.devRef .tc main_arg6) = W21 m c (Proc.devRef .tc main_arg6) :=
  keep27 m c main_arg6 (by decide) (by decide) (by decide) (by decide) (by decide) (by decide)

theorem L3_agg (c : Dev nD) (nrm : FVec Ideal Spec.ShE .f32)
    (hn : W21 m c (Proc.devRef .tc main_v32) = broadcastInDim Spec.ShE1 ![0] Spec.bcE_E1 nrm) :
    W23 m c (Proc.devRef .tc main_v154) =
      agg (W22 m c (Proc.devRef .tc main_v137)) (W21 m c (Proc.devRef .tc main_v3)) (W21 m c (Proc.devRef .tc main_v6)) nrm
        (rowOf (W21 m c (Proc.devRef .tc main_arg4)) 3) := by
  have h := agg3 (W22 m c) nrm ((keep22 m c main_v32 (by decide)).trans hn)
  rw [keep22 m c main_v3 (by decide), keep22 m c main_v6 (by decide), keep22 m c main_arg4 (by decide)] at h
  exact h

theorem L3_mean (c : Dev nD) :
    W25 m c (Proc.devRef .tc main_v157) =
      Host.divf (W24 m c (Proc.devRef .tc main_v155_0))
        (broadcastInDim S1x96 ![] bcast_S_S1x96 (constant (F := Ideal) S_ .f32 0x47435000#32)) :=
  mean3 (W24 m c)

theorem L3_var (c : Dev nD) :
    W25 m c (Proc.devRef .tc main_v161) =
      subf (Host.divf (W24 m c (Proc.devRef .tc main_v155_1))
          (broadcastInDim S1x96 ![] bcast_S_S1x96 (constant (F := Ideal) S_ .f32 0x47435000#32)))
        (mulf (W25 m c (Proc.devRef .tc main_v157)) (W25 m c (Proc.devRef .tc main_v157))) :=
  var3 (W24 m c)

theorem L3_gamma (c : Dev nD) :
    W25 m c (Proc.devRef .tc main_v166) =
      shapeCast S1x96 (rowOf (W21 m c (Proc.devRef .tc main_arg5)) 3) shapeCasts_S96_S1x96 := by
  have h := gamma3 (W24 m c)
  rw [keep24 m c main_arg5 (by decide) (by decide) (by decide)] at h
  exact h
theorem L3_beta (c : Dev nD) :
    W25 m c (Proc.devRef .tc main_v167) =
      shapeCast S1x96 (rowOf (W21 m c (Proc.devRef .tc main_arg6)) 3) shapeCasts_S96_S1x96 := by
  have h := beta3 (W24 m c)
  rw [keep24 m c main_arg6 (by decide) (by decide) (by decide)] at h
  exact h

theorem L3_gamma_apply (c : Dev nD) (i : S1x96.Idx) :
    (W25 m c (Proc.devRef .tc main_v166) : FVec Ideal S1x96 .f32) i =
      rowOf (W21 m c (Proc.devRef .tc main_arg5)) 3 (ix1 (i 1)) := by
  rw [L3_gamma m c]; exact rowMatrix_apply3 _ i
theorem L3_beta_apply (c : Dev nD) (i : S1x96.Idx) :
    (W25 m c (Proc.devRef .tc main_v167) : FVec Ideal S1x96 .f32) i =
      rowOf (W21 m c (Proc.devRef .tc main_arg6)) 3 (ix1 (i 1)) := by
  rw [L3_beta m c]; exact rowMatrix_apply3 _ i

theorem L3_agg_kept (c : Dev nD) :
    W25 m c (Proc.devRef .tc main_v154) = W24 m c (Proc.devRef .tc main_v154) :=
  after_of_writes_sub hostOps11 (W24 m c) hostOps11_writes (by decide)

theorem L3_out_kept (c : Dev nD) :
    W27 m c (Proc.devRef .tc main_v168) = W26 m c (Proc.devRef .tc main_v168) :=
  after_of_writes_sub hostOps12 (W26 m c) hostOps12_writes (by decide)

end Cert.KernelIdeal.HandValue
end
-- ==== Proof.KI.WalkTail.lean ====
import proofs.«406641_j72756745994790_1_alg».proof.Proof.KI.Fold
import proofs.«406641_j72756745994790_1_alg».proof.Proof.Spec
import Idealize.ShloMosaic.Lib.StableHlo.Run

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Cert.Spec (meanOf)

section Stretch
variable (V : Valuation τ sig (Elt Ideal))

theorem after12_v169 :
    StableHlo.after hostOps12 V (Proc.devRef .tc main_v169)
      = shapeCast S50000x1 (V (Proc.devRef .tc main_arg2)) shapeCasts_S50000_S50000x1 := by
  after_results_simp <;> rfl

theorem after13_v179 :
    StableHlo.after hostOps13 V (Proc.devRef .tc main_v179)
      = meanOf (V (Proc.devRef .tc main_v170)) (V (Proc.devRef .tc main_arg2)) := by
  after_results_simp <;> rfl

end Stretch

section Tail
variable (m : (ℓ : Loc nD τ sig) → Buf (Elt Ideal) ℓ)

theorem W26_arg2 (c : Dev nD) : W26 m c (Proc.devRef .tc main_arg2) = m ((c : Thread nD τ).loc main_arg2) :=
  calc W26 m c (Proc.devRef .tc main_arg2)
    _ = W25 m c (Proc.devRef .tc main_arg2) := W26_of_ne m c main_arg2 (by decide)
    _ = W24 m c (Proc.devRef .tc main_arg2) := StableHlo.after_of_writes_sub hostOps11 _ hostOps11_writes (by decide)
    _ = W23 m c (Proc.devRef .tc main_arg2) := W24_of_ne m c main_arg2 (by decide)
    _ = W22 m c (Proc.devRef .tc main_arg2) := StableHlo.after_of_writes_sub hostOps10 _ hostOps10_writes (by decide)
    _ = W21 m c (Proc.devRef .tc main_arg2) := W22_of_ne m c main_arg2 (by decide)
    _ = W20 m c (Proc.devRef .tc main_arg2) := StableHlo.after_of_writes_sub hostOps9 _ hostOps9_writes (by decide)
    _ = W19 m c (Proc.devRef .tc main_arg2) := W20_of_ne m c main_arg2 (by decide)
    _ = W18 m c (Proc.devRef .tc main_arg2) := StableHlo.after_of_writes_sub hostOps8 _ hostOps8_writes (by decide)
    _ = W17 m c (Proc.devRef .tc main_arg2) := W18_of_ne m c main_arg2 (by decide)
    _ = W16 m c (Proc.devRef .tc main_arg2) := StableHlo.after_of_writes_sub hostOps7 _ hostOps7_writes (by decide)
    _ = W15 m c (Proc.devRef .tc main_arg2) := W16_of_ne m c main_arg2 (by decide)
    _ = W14 m c (Proc.devRef .tc main_arg2) := StableHlo.after_of_writes_sub hostOps6 _ hostOps6_writes (by decide)
    _ = W13 m c (Proc.devRef .tc main_arg2) := W14_of_ne m c main_arg2 (by decide)
    _ = W12 m c (Proc.devRef .tc main_arg2) := StableHlo.after_of_writes_sub hostOps5 _ hostOps5_writes (by decide)
    _ = W11 m c (Proc.devRef .tc main_arg2) := W12_of_ne m c main_arg2 (by decide)
    _ = W10 m c (Proc.devRef .tc main_arg2) := StableHlo.after_of_writes_sub hostOps4 _ hostOps4_writes (by decide)
    _ = W9 m c (Proc.devRef .tc main_arg2) := W10_of_ne m c main_arg2 (by decide)
    _ = W8 m c (Proc.devRef .tc main_arg2) := StableHlo.after_of_writes_sub hostOps3 _ hostOps3_writes (by decide)
    _ = W7 m c (Proc.devRef .tc main_arg2) := W8_of_ne m c main_arg2 (by decide)
    _ = W6 m c (Proc.devRef .tc main_arg2) := StableHlo.after_of_writes_sub hostOps2 _ hostOps2_writes (by decide)
    _ = W5 m c (Proc.devRef .tc main_arg2) := W6_of_ne m c main_arg2 (by decide)
    _ = W4 m c (Proc.devRef .tc main_arg2) := StableHlo.after_of_writes_sub hostOps1 _ hostOps1_writes (by decide)
    _ = W3 m c (Proc.devRef .tc main_arg2) := W4_of_ne m c main_arg2 (by decide)
    _ = W2 m c (Proc.devRef .tc main_arg2) := StableHlo.after_of_writes_sub hostOps0_2 _ hostOps0_2_writes (by decide)
    _ = W1 m c (Proc.devRef .tc main_arg2) := StableHlo.after_of_writes_sub hostOps0_1 _ hostOps0_1_writes (by decide)
    _ = W0 m c (Proc.devRef .tc main_arg2) := StableHlo.after_of_writes_sub hostOps0 _ hostOps0_writes (by decide)
    _ = m ((c : Thread nD τ).loc main_arg2) := rfl

theorem W27_v169 (c : Dev nD) :
    W27 m c (Proc.devRef .tc main_v169)
      = shapeCast S50000x1 (m ((c : Thread nD τ).loc main_arg2)) shapeCasts_S50000_S50000x1 := by
  refine (after12_v169 (W26 m c)).trans ?_
  rw [W26_arg2]

theorem W28_arg2 (c : Dev nD) : W28 m c (Proc.devRef .tc main_arg2) = m ((c : Thread nD τ).loc main_arg2) :=
  (W28_of_ne m c main_arg2 (by decide)).trans
    ((StableHlo.after_of_writes_sub hostOps12 _ hostOps12_writes (by decide)).trans (W26_arg2 m c))

theorem W29_v179 (c : Dev nD) :
    W29 m c (Proc.devRef .tc main_v179)
      = meanOf (W28 m c (Proc.devRef .tc main_v170)) (m ((c : Thread nD τ).loc main_arg2)) := by
  refine (after13_v179 (W28 m c)).trans ?_
  rw [W28_arg2]

end Tail

end Cert.KernelIdeal.HandValue

end
-- ==== Proof.LibRealArrays.lean ====
import Idealize.ShloMosaic.PureOps.Ideal
import Idealize.ShloMosaic.PureOps.Ideal.Laws
import Mathlib.Data.EReal.Inv
import Mathlib.Algebra.BigOperators.Group.Finset.Basic
import Mathlib.Analysis.SpecialFunctions.Pow.Real

noncomputable section

namespace RealArrays

open Idealize.ShloMosaic
open scoped BigOperators

def IsReal {ι : Type*} (x : ι → EReal) : Prop := ∀ i, ∃ r : ℝ, x i = (r : EReal)

theorem isReal_coe {ι : Type*} (a : ι → ℝ) : IsReal (fun i => (a i : EReal)) := fun i => ⟨a i, rfl⟩

theorem IsReal.exists_eq_coe {ι : Type*} {x : ι → EReal} (hx : IsReal x) :
    ∃ a : ι → ℝ, x = fun i => (a i : EReal) := by
  choose a ha using hx
  exact ⟨a, funext ha⟩

theorem isReal_const {ι : Type*} (r : ℝ) : IsReal (fun _ : ι => (r : EReal)) := fun _ => ⟨r, rfl⟩

theorem isReal_add {ι : Type*} {x y : ι → EReal} (hx : IsReal x) (hy : IsReal y) :
    IsReal (fun i => x i + y i) := fun i => by
  obtain ⟨r, hr⟩ := hx i; obtain ⟨t, ht⟩ := hy i
  exact ⟨r + t, by beta_reduce; rw [hr, ht, EReal.coe_add]⟩

theorem isReal_sub {ι : Type*} {x y : ι → EReal} (hx : IsReal x) (hy : IsReal y) :
    IsReal (fun i => x i - y i) := fun i => by
  obtain ⟨r, hr⟩ := hx i; obtain ⟨t, ht⟩ := hy i
  exact ⟨r - t, by beta_reduce; rw [hr, ht, EReal.coe_sub]⟩

theorem isReal_mul {ι : Type*} {x y : ι → EReal} (hx : IsReal x) (hy : IsReal y) :
    IsReal (fun i => x i * y i) := fun i => by
  obtain ⟨r, hr⟩ := hx i; obtain ⟨t, ht⟩ := hy i
  exact ⟨r * t, by beta_reduce; rw [hr, ht, EReal.coe_mul]⟩

theorem isReal_max {ι : Type*} {x y : ι → EReal} (hx : IsReal x) (hy : IsReal y) :
    IsReal (fun i => max (x i) (y i)) := fun i => by
  obtain ⟨r, hr⟩ := hx i; obtain ⟨t, ht⟩ := hy i
  exact ⟨max r t, by beta_reduce; rw [hr, ht]; exact (EReal.coe_strictMono.monotone.map_max).symm⟩

theorem isReal_comp {ι κ : Type*} {x : ι → EReal} (hx : IsReal x) (f : κ → ι) :
    IsReal (fun k => x (f k)) := fun k => hx (f k)

theorem coe_finset_sum {κ : Type*} (s : Finset κ) (f : κ → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

theorem IsReal.sum_eq_coe {κ : Type*} {u : κ → EReal} (hu : IsReal u) (s : Finset κ) :
    ∃ r : ℝ, ∑ k ∈ s, u k = (r : EReal) := by
  obtain ⟨a, rfl⟩ := hu.exists_eq_coe
  exact ⟨∑ k ∈ s, a k, (coe_finset_sum s a).symm⟩

theorem isReal_sum {ι κ : Type*} {u : κ → EReal} (hu : IsReal u) (s : ι → Finset κ) :
    IsReal (fun i => ∑ k ∈ s i, u k) := fun i => hu.sum_eq_coe (s i)

theorem isReal_add_sum {ι κ : Type*} {x : ι → EReal} {u : κ → EReal} (hx : IsReal x) (hu : IsReal u)
    (s : ι → Finset κ) : IsReal (fun i => x i + ∑ j ∈ s i, u j) :=
  isReal_add hx (isReal_sum hu s)

theorem isReal_hostScatterAdd {s si su : Shape} (d : ScatterDims s si su) {w : Nat} {x : s.Idx → EReal}
    (idx : IVec si w) {upd : su.Idx → EReal} (hx : IsReal x) (hu : IsReal upd) :
    IsReal (Ideal.hostScatterAdd d x idx upd) := by
  unfold Ideal.hostScatterAdd
  exact isReal_add_sum hx hu _

theorem div_coe_coe (r : ℝ) {c : ℝ} (hc : c ≠ 0) : Ideal.div (r : EReal) (c : EReal) = ((r / c : ℝ) : EReal) := by
  rw [Ideal.div_coe hc, ← EReal.coe_mul, mul_one_div]

theorem isReal_div_coe {ι : Type*} {x : ι → EReal} (hx : IsReal x) {c : ℝ} (hc : c ≠ 0) :
    IsReal (fun i => Ideal.div (x i) (c : EReal)) := fun i => by
  obtain ⟨r, hr⟩ := hx i
  exact ⟨r / c, by beta_reduce; rw [hr, div_coe_coe r hc]⟩

theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

theorem rsqrt_coe_pos' {r : ℝ} (hr : 0 < r) : ∃ t : ℝ, 0 < t ∧ Ideal.rsqrt (r : EReal) = (t : EReal) :=
  ⟨(Real.sqrt r)⁻¹, inv_pos.mpr (Real.sqrt_pos.mpr hr), rsqrt_coe_pos hr⟩

theorem isReal_rsqrt {ι : Type*} {x : ι → EReal} (hx : ∀ i, ∃ r : ℝ, 0 < r ∧ x i = (r : EReal)) :
    IsReal (fun i => Ideal.rsqrt (x i)) := fun i => by
  obtain ⟨r, hr, hxi⟩ := hx i
  exact ⟨(Real.sqrt r)⁻¹, by beta_reduce; rw [hxi, rsqrt_coe_pos hr]⟩

theorem zero_add_ereal (x : EReal) : (0 : EReal) + x = x := zero_add x

theorem ofBits_zero : Ideal.ofBits .f32 0x00000000#32 = ((0 : ℝ) : EReal) := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_50000 : Ideal.ofBits .f32 0x47435000#32 = ((50000 : ℝ) : EReal) := by
  simp [Ideal.ofBits, Ideal.ieee, -EReal.coe_mul]; norm_num

theorem ofBits_eps : Ideal.ofBits .f32 0x3727C5AC#32 = ((10995116 / 1099511627776 : ℝ) : EReal) := by
  simp [Ideal.ofBits, Ideal.ieee, -EReal.coe_mul]; norm_num

theorem ofBits_eps_pos : ∃ e : ℝ, 0 < e ∧ Ideal.ofBits .f32 0x3727C5AC#32 = (e : EReal) :=
  ⟨10995116 / 1099511627776, by norm_num, ofBits_eps⟩

end RealArrays

end
-- ==== Proof.LibVarianceLaw.lean ====
import proofs.«406641_j72756745994790_1_alg».proof.Proof.LibRealArrays
import Mathlib.Algebra.BigOperators.Ring.Finset
import Mathlib.Algebra.Order.BigOperators.Ring.Finset
import Mathlib.Tactic.Ring
import Mathlib.Tactic.FieldSimp
import Mathlib.Tactic.Positivity

noncomputable section

namespace VarianceLaw

open Idealize.ShloMosaic RealArrays
open scoped BigOperators

theorem real_var_eq {ι : Type*} (s : Finset ι) (a : ι → ℝ) {c : ℝ} (hcard : (s.card : ℝ) = c) (hc : c ≠ 0) :
    (∑ n ∈ s, (a n - (∑ k ∈ s, a k) / c) * (a n - (∑ k ∈ s, a k) / c)) / c
      = (∑ n ∈ s, a n * a n) / c - (∑ k ∈ s, a k) / c * ((∑ k ∈ s, a k) / c) := by
  set μ : ℝ := (∑ k ∈ s, a k) / c with hμ
  have hS : ∑ k ∈ s, a k = c * μ := by rw [hμ]; field_simp
  have hexp : ∑ n ∈ s, (a n - μ) * (a n - μ)
      = ∑ n ∈ s, a n * a n - 2 * μ * ∑ n ∈ s, a n + (s.card : ℝ) * (μ * μ) := by
    have : ∀ n ∈ s, (a n - μ) * (a n - μ) = a n * a n - 2 * μ * a n + μ * μ := fun n _ => by ring
    rw [Finset.sum_congr rfl this, Finset.sum_add_distrib, Finset.sum_sub_distrib, ← Finset.mul_sum,
      Finset.sum_const, nsmul_eq_mul]
  rw [hexp, hcard, hS]
  field_simp
  ring

theorem real_var_nonneg {ι : Type*} (s : Finset ι) (a : ι → ℝ) (μ : ℝ) {c : ℝ} (hc : 0 < c) :
    0 ≤ (∑ n ∈ s, (a n - μ) * (a n - μ)) / c :=
  div_nonneg (Finset.sum_nonneg fun n _ => mul_self_nonneg (a n - μ)) hc.le

theorem mean_coe {ι : Type*} (s : Finset ι) (a : ι → ℝ) {c : ℝ} (hc : c ≠ 0) :
    Ideal.div (∑ n ∈ s, (a n : EReal)) (c : EReal) = (((∑ n ∈ s, a n) / c : ℝ) : EReal) := by
  rw [← coe_finset_sum, div_coe_coe _ hc]

theorem meanSqDev_coe {ι : Type*} (s : Finset ι) (a : ι → ℝ) (μ : ℝ) {c : ℝ} (hc : c ≠ 0) :
    Ideal.div (∑ n ∈ s, ((a n : EReal) - (μ : EReal)) * ((a n : EReal) - (μ : EReal))) (c : EReal)
      = (((∑ n ∈ s, (a n - μ) * (a n - μ)) / c : ℝ) : EReal) := by
  have : ∀ n, ((a n : EReal) - (μ : EReal)) * ((a n : EReal) - (μ : EReal)) = (((a n - μ) * (a n - μ) : ℝ) : EReal) :=
    fun n => by rw [← EReal.coe_sub, ← EReal.coe_mul]
  simp only [this]
  rw [← coe_finset_sum, div_coe_coe _ hc]

theorem meanSq_sub_coe {ι : Type*} (s : Finset ι) (a : ι → ℝ) (μ : ℝ) {c : ℝ} (hc : c ≠ 0) :
    Ideal.div (∑ n ∈ s, (a n : EReal) * (a n : EReal)) (c : EReal) - (μ : EReal) * (μ : EReal)
      = (((∑ n ∈ s, a n * a n) / c - μ * μ : ℝ) : EReal) := by
  have : ∀ n, (a n : EReal) * (a n : EReal) = ((a n * a n : ℝ) : EReal) := fun n => by rw [← EReal.coe_mul]
  simp only [this]
  rw [← coe_finset_sum, div_coe_coe _ hc, ← EReal.coe_mul, ← EReal.coe_sub]

theorem var_eq_finset {ι : Type*} (s : Finset ι) (a : ι → ℝ) {c : ℝ} (hcard : (s.card : ℝ) = c) (hc : c ≠ 0) :
    Ideal.div (∑ n ∈ s, ((a n : EReal) - Ideal.div (∑ k ∈ s, (a k : EReal)) (c : EReal))
        * ((a n : EReal) - Ideal.div (∑ k ∈ s, (a k : EReal)) (c : EReal))) (c : EReal)
      = Ideal.div (∑ n ∈ s, (a n : EReal) * (a n : EReal)) (c : EReal)
        - Ideal.div (∑ k ∈ s, (a k : EReal)) (c : EReal) * Ideal.div (∑ k ∈ s, (a k : EReal)) (c : EReal) := by
  rw [mean_coe s a hc, meanSqDev_coe s a _ hc, meanSq_sub_coe s a _ hc, real_var_eq s a hcard hc]

theorem var_nonneg_finset {ι : Type*} (s : Finset ι) (a : ι → ℝ) {c : ℝ} (hc : 0 < c) :
    ∃ v : ℝ, 0 ≤ v ∧
      Ideal.div (∑ n ∈ s, ((a n : EReal) - Ideal.div (∑ k ∈ s, (a k : EReal)) (c : EReal))
        * ((a n : EReal) - Ideal.div (∑ k ∈ s, (a k : EReal)) (c : EReal))) (c : EReal) = (v : EReal) := by
  refine ⟨_, real_var_nonneg s a ((∑ k ∈ s, a k) / c) hc, ?_⟩
  rw [mean_coe s a hc.ne', meanSqDev_coe s a _ hc.ne']

theorem var_eq_finset_of_isReal {ι : Type*} (s : Finset ι) {x : ι → EReal} (hx : IsReal x) {c : ℝ}
    (hcard : (s.card : ℝ) = c) (hc : c ≠ 0) :
    Ideal.div (∑ n ∈ s, (x n - Ideal.div (∑ k ∈ s, x k) (c : EReal))
        * (x n - Ideal.div (∑ k ∈ s, x k) (c : EReal))) (c : EReal)
      = Ideal.div (∑ n ∈ s, x n * x n) (c : EReal)
        - Ideal.div (∑ k ∈ s, x k) (c : EReal) * Ideal.div (∑ k ∈ s, x k) (c : EReal) := by
  obtain ⟨a, rfl⟩ := hx.exists_eq_coe
  exact var_eq_finset s a hcard hc

theorem var_nonneg_finset_of_isReal {ι : Type*} (s : Finset ι) {x : ι → EReal} (hx : IsReal x) {c : ℝ} (hc : 0 < c) :
    ∃ v : ℝ, 0 ≤ v ∧
      Ideal.div (∑ n ∈ s, (x n - Ideal.div (∑ k ∈ s, x k) (c : EReal))
        * (x n - Ideal.div (∑ k ∈ s, x k) (c : EReal))) (c : EReal) = (v : EReal) := by
  obtain ⟨a, rfl⟩ := hx.exists_eq_coe
  exact var_nonneg_finset s a hc

theorem mean_isReal {ι : Type*} (s : Finset ι) {x : ι → EReal} (hx : IsReal x) {c : ℝ} (hc : c ≠ 0) :
    ∃ μ : ℝ, Ideal.div (∑ k ∈ s, x k) (c : EReal) = (μ : EReal) := by
  obtain ⟨a, rfl⟩ := hx.exists_eq_coe
  exact ⟨_, mean_coe s a hc⟩

theorem var_eq {N : ℕ} (hN : 0 < N) (a : Fin N → ℝ) :
    Ideal.div (∑ n, ((a n : EReal) - Ideal.div (∑ k, (a k : EReal)) ((N : ℝ) : EReal))
        * ((a n : EReal) - Ideal.div (∑ k, (a k : EReal)) ((N : ℝ) : EReal))) ((N : ℝ) : EReal)
      = Ideal.div (∑ n, (a n : EReal) * (a n : EReal)) ((N : ℝ) : EReal)
        - Ideal.div (∑ k, (a k : EReal)) ((N : ℝ) : EReal) * Ideal.div (∑ k, (a k : EReal)) ((N : ℝ) : EReal) :=
  var_eq_finset Finset.univ a (by simp) (by exact_mod_cast hN.ne')

theorem var_eq_zero_add {N : ℕ} (hN : 0 < N) (a : Fin N → ℝ) :
    Ideal.div (0 + ∑ n, ((a n : EReal) - Ideal.div (0 + ∑ k, (a k : EReal)) ((N : ℝ) : EReal))
        * ((a n : EReal) - Ideal.div (0 + ∑ k, (a k : EReal)) ((N : ℝ) : EReal))) ((N : ℝ) : EReal)
      = Ideal.div (0 + ∑ n, (a n : EReal) * (a n : EReal)) ((N : ℝ) : EReal)
        - Ideal.div (0 + ∑ k, (a k : EReal)) ((N : ℝ) : EReal)
          * Ideal.div (0 + ∑ k, (a k : EReal)) ((N : ℝ) : EReal) := by
  simp only [zero_add_ereal]
  exact var_eq hN a

theorem var_nonneg {N : ℕ} (hN : 0 < N) (a : Fin N → ℝ) :
    ∃ v : ℝ, 0 ≤ v ∧
      Ideal.div (∑ n, ((a n : EReal) - Ideal.div (∑ k, (a k : EReal)) ((N : ℝ) : EReal))
        * ((a n : EReal) - Ideal.div (∑ k, (a k : EReal)) ((N : ℝ) : EReal))) ((N : ℝ) : EReal) = (v : EReal) :=
  var_nonneg_finset Finset.univ a (by exact_mod_cast hN)

theorem var_nonneg_zero_add {N : ℕ} (hN : 0 < N) (a : Fin N → ℝ) :
    ∃ v : ℝ, 0 ≤ v ∧
      Ideal.div (0 + ∑ n, ((a n : EReal) - Ideal.div (0 + ∑ k, (a k : EReal)) ((N : ℝ) : EReal))
        * ((a n : EReal) - Ideal.div (0 + ∑ k, (a k : EReal)) ((N : ℝ) : EReal))) ((N : ℝ) : EReal) = (v : EReal) := by
  simp only [zero_add_ereal]
  exact var_nonneg hN a

theorem var_eq_of_isReal {N : ℕ} (hN : 0 < N) {x : Fin N → EReal} (hx : IsReal x) :
    Ideal.div (∑ n, (x n - Ideal.div (∑ k, x k) ((N : ℝ) : EReal))
        * (x n - Ideal.div (∑ k, x k) ((N : ℝ) : EReal))) ((N : ℝ) : EReal)
      = Ideal.div (∑ n, x n * x n) ((N : ℝ) : EReal)
        - Ideal.div (∑ k, x k) ((N : ℝ) : EReal) * Ideal.div (∑ k, x k) ((N : ℝ) : EReal) := by
  obtain ⟨a, rfl⟩ := hx.exists_eq_coe
  exact var_eq hN a

theorem var_eq_of_isReal_zero_add {N : ℕ} (hN : 0 < N) {x : Fin N → EReal} (hx : IsReal x) :
    Ideal.div (0 + ∑ n, (x n - Ideal.div (0 + ∑ k, x k) ((N : ℝ) : EReal))
        * (x n - Ideal.div (0 + ∑ k, x k) ((N : ℝ) : EReal))) ((N : ℝ) : EReal)
      = Ideal.div (0 + ∑ n, x n * x n) ((N : ℝ) : EReal)
        - Ideal.div (0 + ∑ k, x k) ((N : ℝ) : EReal) * Ideal.div (0 + ∑ k, x k) ((N : ℝ) : EReal) := by
  simp only [zero_add_ereal]
  exact var_eq_of_isReal hN hx

theorem var_nonneg_of_isReal {N : ℕ} (hN : 0 < N) {x : Fin N → EReal} (hx : IsReal x) :
    ∃ v : ℝ, 0 ≤ v ∧
      Ideal.div (∑ n, (x n - Ideal.div (∑ k, x k) ((N : ℝ) : EReal))
        * (x n - Ideal.div (∑ k, x k) ((N : ℝ) : EReal))) ((N : ℝ) : EReal) = (v : EReal) := by
  obtain ⟨a, rfl⟩ := hx.exists_eq_coe
  exact var_nonneg hN a

theorem var_nonneg_of_isReal_zero_add {N : ℕ} (hN : 0 < N) {x : Fin N → EReal} (hx : IsReal x) :
    ∃ v : ℝ, 0 ≤ v ∧
      Ideal.div (0 + ∑ n, (x n - Ideal.div (0 + ∑ k, x k) ((N : ℝ) : EReal))
        * (x n - Ideal.div (0 + ∑ k, x k) ((N : ℝ) : EReal))) ((N : ℝ) : EReal) = (v : EReal) := by
  simp only [zero_add_ereal]
  exact var_nonneg_of_isReal hN hx

end VarianceLaw

end
-- ==== Proof.LibRealOps.lean ====
import proofs.«406641_j72756745994790_1_alg».proof.Proof.LibRealArrays
import Idealize.ShloMosaic.PureOps.ShapeOps
import Idealize.ShloMosaic.PureOps.Contract

noncomputable section

namespace RealArrays

open Idealize.ShloMosaic
open scoped BigOperators

def IsPosReal {ι : Type*} (x : ι → EReal) : Prop := ∀ i, ∃ r : ℝ, 0 < r ∧ x i = (r : EReal)

def IsNonnegReal {ι : Type*} (x : ι → EReal) : Prop := ∀ i, ∃ r : ℝ, 0 ≤ r ∧ x i = (r : EReal)

theorem IsPosReal.isReal {ι : Type*} {x : ι → EReal} (hx : IsPosReal x) : IsReal x := fun i => by
  obtain ⟨r, _, hr⟩ := hx i; exact ⟨r, hr⟩

theorem IsNonnegReal.isReal {ι : Type*} {x : ι → EReal} (hx : IsNonnegReal x) : IsReal x := fun i => by
  obtain ⟨r, _, hr⟩ := hx i; exact ⟨r, hr⟩

theorem IsPosReal.isNonnegReal {ι : Type*} {x : ι → EReal} (hx : IsPosReal x) : IsNonnegReal x := fun i => by
  obtain ⟨r, h, hr⟩ := hx i; exact ⟨r, h.le, hr⟩

theorem isPosReal_const {ι : Type*} {r : ℝ} (hr : 0 < r) : IsPosReal (fun _ : ι => (r : EReal)) :=
  fun _ => ⟨r, hr, rfl⟩

theorem pos_add_of_nonneg_of_pos {v e : ℝ} (hv : 0 ≤ v) (he : 0 < e) :
    ∃ r : ℝ, 0 < r ∧ (v : EReal) + (e : EReal) = (r : EReal) :=
  ⟨v + e, add_pos_of_nonneg_of_pos hv he, (EReal.coe_add v e).symm⟩

theorem one_le_max_one (r : ℝ) : ∃ t : ℝ, 1 ≤ t ∧ max (r : EReal) ((1 : ℝ) : EReal) = (t : EReal) :=
  ⟨max r 1, le_max_right r 1, (EReal.coe_strictMono.monotone.map_max).symm⟩

theorem isReal_sum_dep {ι κ : Type*} {u : ι → κ → EReal} (hu : ∀ i, IsReal (u i)) (s : ι → Finset κ) :
    IsReal (fun i => ∑ k ∈ s i, u i k) := fun i => (hu i).sum_eq_coe (s i)

variable {s t : Shape} {φ : FTy}

theorem isReal_addf {x y : FVec Ideal s φ} (hx : IsReal x) (hy : IsReal y) : IsReal (addf x y) :=
  isReal_add hx hy

theorem isReal_subf {x y : FVec Ideal s φ} (hx : IsReal x) (hy : IsReal y) : IsReal (subf x y) :=
  isReal_sub hx hy

theorem isReal_mulf {x y : FVec Ideal s φ} (hx : IsReal x) (hy : IsReal y) : IsReal (mulf x y) :=
  isReal_mul hx hy

theorem isReal_maximumf {x y : FVec Ideal s φ} (hx : IsReal x) (hy : IsReal y) : IsReal (maximumf x y) :=
  isReal_max hx hy

theorem isPosReal_maximumf_right {x y : FVec Ideal s φ} (hx : IsReal x) (hy : IsPosReal y) :
    IsPosReal (maximumf x y) := fun i => by
  obtain ⟨r, hr⟩ := hx i; obtain ⟨u, hu, hyu⟩ := hy i
  refine ⟨max r u, lt_of_lt_of_le hu (le_max_right r u), ?_⟩
  show max (x i) (y i) = _
  rw [hr, hyu]; exact (EReal.coe_strictMono.monotone.map_max).symm

theorem one_le_maximumf_one {x y : FVec Ideal s φ} (hx : IsReal x) (hy : ∀ i, y i = ((1 : ℝ) : EReal)) :
    ∀ i, ∃ r : ℝ, 1 ≤ r ∧ maximumf x y i = (r : EReal) := fun i => by
  obtain ⟨r, hr⟩ := hx i
  obtain ⟨u, hu, hmax⟩ := one_le_max_one r
  exact ⟨u, hu, by show max (x i) (y i) = _; rw [hr, hy i, hmax]⟩

theorem isPosReal_addf_of_nonneg_pos {x y : FVec Ideal s φ} (hx : IsNonnegReal x) (hy : IsPosReal y) :
    IsPosReal (addf x y) := fun i => by
  obtain ⟨v, hv, hxv⟩ := hx i; obtain ⟨e, he, hye⟩ := hy i
  obtain ⟨r, hr, hsum⟩ := pos_add_of_nonneg_of_pos hv he
  exact ⟨r, hr, by show x i + y i = _; rw [hxv, hye, hsum]⟩

theorem isReal_hostDivf {x y : FVec Ideal s φ} (hx : IsReal x) (hy : ∀ i, ∃ c : ℝ, c ≠ 0 ∧ y i = (c : EReal)) :
    IsReal (Host.divf x y) := fun i => by
  obtain ⟨r, hr⟩ := hx i; obtain ⟨c, hc, hyc⟩ := hy i
  exact ⟨r / c, by show Ideal.div (x i) (y i) = _; rw [hr, hyc, div_coe_coe r hc]⟩

theorem isReal_hostDivf_const {x y : FVec Ideal s φ} (hx : IsReal x) {c : ℝ} (hc : c ≠ 0)
    (hy : ∀ i, y i = (c : EReal)) : IsReal (Host.divf x y) :=
  isReal_hostDivf hx fun i => ⟨c, hc, hy i⟩

theorem hostDivf_const_apply {x y : FVec Ideal s φ} {c : ℝ} (hc : c ≠ 0) (hy : ∀ i, y i = (c : EReal)) (i : s.Idx)
    {r : ℝ} (hr : x i = (r : EReal)) : Host.divf x y i = ((r / c : ℝ) : EReal) := by
  show Ideal.div (x i) (y i) = _; rw [hr, hy i, div_coe_coe r hc]

theorem isPosReal_rsqrt {x : FVec Ideal s φ} (hx : IsPosReal x) : IsPosReal (rsqrt x) := fun i => by
  obtain ⟨r, hr, hxr⟩ := hx i
  exact ⟨(Real.sqrt r)⁻¹, inv_pos.mpr (Real.sqrt_pos.mpr hr), by show Ideal.rsqrt (x i) = _; rw [hxr, rsqrt_coe_pos hr]⟩

theorem isReal_rsqrt_vec {x : FVec Ideal s φ} (hx : IsPosReal x) : IsReal (rsqrt x) := (isPosReal_rsqrt hx).isReal

theorem isPosReal_hostRsqrt {x : FVec Ideal s φ} (hx : IsPosReal x) : IsPosReal (Host.rsqrt x) := fun i => by
  obtain ⟨r, hr, hxr⟩ := hx i
  exact ⟨(Real.sqrt r)⁻¹, inv_pos.mpr (Real.sqrt_pos.mpr hr), by show Ideal.rsqrt (x i) = _; rw [hxr, rsqrt_coe_pos hr]⟩

theorem isReal_hostRsqrt {x : FVec Ideal s φ} (hx : IsPosReal x) : IsReal (Host.rsqrt x) := (isPosReal_hostRsqrt hx).isReal

theorem hostRsqrt_eq_rsqrt (x : FVec Ideal s φ) : Host.rsqrt x = rsqrt x := rfl

theorem isReal_truncf {ψ : FTy} {x : FVec Ideal s φ} (h : ψ.bits < φ.bits) (hx : IsReal x) : IsReal (truncf ψ x h) :=
  fun i => hx i

theorem isReal_extf {ψ : FTy} {x : FVec Ideal s φ} (h : φ.bits < ψ.bits) (hx : IsReal x) : IsReal (extf ψ x h) :=
  fun i => hx i

theorem isReal_sitofp {w : Nat} (x : IVec s w) : IsReal (sitofp (F := Ideal) φ x) :=
  fun i => ⟨((x i).toInt : ℝ), rfl⟩

theorem isReal_constant {b : BitVec φ.bits} {r : ℝ} (h : Ideal.ofBits φ b = (r : EReal)) :
    IsReal (constant (F := Ideal) s φ b) := fun _ => ⟨r, h⟩

theorem constant_apply (b : BitVec φ.bits) (i : s.Idx) : constant (F := Ideal) s φ b i = Ideal.ofBits φ b := rfl

theorem isPosReal_constant {b : BitVec φ.bits} {r : ℝ} (hr : 0 < r) (h : Ideal.ofBits φ b = (r : EReal)) :
    IsPosReal (constant (F := Ideal) s φ b) := fun _ => ⟨r, hr, h⟩

theorem isReal_constant_zero : IsReal (constant (F := Ideal) s .f32 0x00000000#32) := isReal_constant ofBits_zero

theorem isReal_constant_one : IsReal (constant (F := Ideal) s .f32 0x3F800000#32) := isReal_constant ofBits_one

theorem isReal_constant_50000 : IsReal (constant (F := Ideal) s .f32 0x47435000#32) := isReal_constant ofBits_50000

theorem isReal_constant_eps : IsReal (constant (F := Ideal) s .f32 0x3727C5AC#32) := isReal_constant ofBits_eps

theorem isPosReal_constant_one : IsPosReal (constant (F := Ideal) s .f32 0x3F800000#32) :=
  isPosReal_constant one_pos ofBits_one

theorem isPosReal_constant_eps : IsPosReal (constant (F := Ideal) s .f32 0x3727C5AC#32) :=
  isPosReal_constant (by norm_num) ofBits_eps

section Reindex
variable {α : Type} {P : α → Prop}

theorem broadcast_forall {a : α} (ha : P a) : ∀ j, P (broadcast t a j) := fun _ => ha

theorem broadcastTo_forall {x : s.Idx → α} (h : s.Broadcasts t) (hx : ∀ i, P (x i)) : ∀ j, P (broadcastTo t x h j) :=
  fun _ => hx _

theorem broadcastInDim_forall {x : s.Idx → α} (dims : Fin s.rank → Fin t.rank) (h : s.BroadcastsInDim t dims)
    (hx : ∀ i, P (x i)) : ∀ j, P (broadcastInDim t dims h x j) := fun _ => hx _

theorem shapeCast_forall {x : s.Idx → α} (h : s.ShapeCasts t) (hx : ∀ i, P (x i)) : ∀ j, P (shapeCast t x h j) :=
  fun _ => hx _

theorem extractStridedSlice_forall {x : s.Idx → α} (off : Fin s.rank → Nat) (h : s.Slices off t) (hx : ∀ i, P (x i)) :
    ∀ j, P (extractStridedSlice t off x h j) := fun _ => hx _

theorem hostSlice_forall {x : s.Idx → α} (start strides : Fin s.rank → Nat) (h : s.SlicesBy start strides t)
    (hx : ∀ i, P (x i)) : ∀ j, P (Host.slice t start strides x h j) := fun _ => hx _

theorem transpose_forall {x : s.Idx → α} (perm : List (Fin s.rank)) (h : s.Transposes perm t) (hx : ∀ i, P (x i)) :
    ∀ j, P (transpose t perm x h j) := fun _ => hx _

theorem hostGather_forall {si : Shape} {w : Nat} {x : s.Idx → α} (d : GatherDims s si t) (idx : IVec si w)
    (hx : ∀ i, P (x i)) : ∀ j, P (Host.gather d x idx j) := fun _ => hx _

theorem select_forall {a b : s.Idx → α} (c : IVec s 1) (ha : ∀ i, P (a i)) (hb : ∀ i, P (b i)) :
    ∀ j, P (select c a b j) := fun j => by
  show P (if c j = 1 then a j else b j)
  split
  · exact ha j
  · exact hb j

end Reindex

theorem isReal_broadcast {a : EReal} (ha : ∃ r : ℝ, a = (r : EReal)) : IsReal (broadcast t a) := broadcast_forall ha

theorem isReal_broadcastTo {x : s.Idx → EReal} (h : s.Broadcasts t) (hx : IsReal x) : IsReal (broadcastTo t x h) :=
  broadcastTo_forall h hx

theorem isReal_broadcastInDim {x : s.Idx → EReal} (dims : Fin s.rank → Fin t.rank) (h : s.BroadcastsInDim t dims)
    (hx : IsReal x) : IsReal (broadcastInDim t dims h x) := broadcastInDim_forall dims h hx

theorem isPosReal_broadcastInDim {x : s.Idx → EReal} (dims : Fin s.rank → Fin t.rank) (h : s.BroadcastsInDim t dims)
    (hx : IsPosReal x) : IsPosReal (broadcastInDim t dims h x) := broadcastInDim_forall dims h hx

theorem isPosReal_broadcastTo {x : s.Idx → EReal} (h : s.Broadcasts t) (hx : IsPosReal x) :
    IsPosReal (broadcastTo t x h) := broadcastTo_forall h hx

theorem broadcastInDim_const_apply {x : s.Idx → EReal} {a : EReal} (dims : Fin s.rank → Fin t.rank)
    (h : s.BroadcastsInDim t dims) (hx : ∀ i, x i = a) (j : t.Idx) : broadcastInDim t dims h x j = a :=
  broadcastInDim_forall (P := fun e => e = a) dims h hx j

theorem isReal_shapeCast {x : s.Idx → EReal} (h : s.ShapeCasts t) (hx : IsReal x) : IsReal (shapeCast t x h) :=
  shapeCast_forall h hx

theorem isPosReal_shapeCast {x : s.Idx → EReal} (h : s.ShapeCasts t) (hx : IsPosReal x) : IsPosReal (shapeCast t x h) :=
  shapeCast_forall h hx

theorem isReal_extractStridedSlice {x : s.Idx → EReal} (off : Fin s.rank → Nat) (h : s.Slices off t) (hx : IsReal x) :
    IsReal (extractStridedSlice t off x h) := extractStridedSlice_forall off h hx

theorem isReal_hostSlice {x : s.Idx → EReal} (start strides : Fin s.rank → Nat) (h : s.SlicesBy start strides t)
    (hx : IsReal x) : IsReal (Host.slice t start strides x h) := hostSlice_forall start strides h hx

theorem isReal_transpose {x : s.Idx → EReal} (perm : List (Fin s.rank)) (h : s.Transposes perm t) (hx : IsReal x) :
    IsReal (transpose t perm x h) := transpose_forall perm h hx

theorem isReal_hostGather {si : Shape} {w : Nat} {x : s.Idx → EReal} (d : GatherDims s si t) (idx : IVec si w)
    (hx : IsReal x) : IsReal (Host.gather d x idx) := hostGather_forall d idx hx

theorem isPosReal_hostGather {si : Shape} {w : Nat} {x : s.Idx → EReal} (d : GatherDims s si t) (idx : IVec si w)
    (hx : IsPosReal x) : IsPosReal (Host.gather d x idx) := hostGather_forall d idx hx

theorem isReal_select {a b : s.Idx → EReal} (c : IVec s 1) (ha : IsReal a) (hb : IsReal b) : IsReal (select c a b) :=
  select_forall (P := fun e => ∃ r : ℝ, e = (r : EReal)) c ha hb

theorem isReal_hostScatterAddOp {si u : Shape} {w : Nat} (d : ScatterDims s si u) {x : FVec Ideal s φ}
    (idx : IVec si w) {upd : FVec Ideal u φ} (hx : IsReal x) (hu : IsReal upd) :
    IsReal (Host.scatterAdd d x idx upd) :=
  isReal_hostScatterAdd d idx hx hu

theorem isReal_hostReduceAdd {axes : List (Fin s.rank)} {u : Shape} {x : FVec Ideal s φ} {init : u.Idx → Ideal φ}
    (h : s.ReducesTo axes t) (hu : 0 < u.numel) (hx : IsReal x) (hi : IsReal init) :
    IsReal (Host.reduceAdd x init h hu) := by
  have h0 : IsReal (fun _ : t.Idx => init (Shape.Idx.first hu)) := fun _ => hi _
  exact isReal_add h0 (isReal_sum hx _)

theorem isReal_multiReduction_add {axes : List (Fin s.rank)} {src : FVec Ideal s φ} (acc : BitVec φ.bits)
    (h : s.Reduces axes t) (hφ : FKind.Formats φ) (hacc : acc = FKind.add.neutral φ hφ) (hs : IsReal src) :
    IsReal (multiReduction .add axes t src acc h hφ hacc) := by
  show IsReal (Ideal.reduceAdd h src)
  unfold Ideal.reduceAdd
  exact isReal_sum hs _

theorem isReal_matmul {sl sr so : Shape} {φ₁ φ₂ : FTy} (d : DotDims sl sr so) (prec : Option ContractPrecision)
    {lhs : FVec Ideal sl φ₁} {rhs : FVec Ideal sr φ₂} {acc : FVec Ideal so .f32}
    (hl : IsReal lhs) (hr : IsReal rhs) (ha : IsReal acc) : IsReal (matmul d prec lhs rhs acc) :=
  isReal_add ha (isReal_sum_dep (fun j => isReal_mul (isReal_comp hl (d.lhsIdx j)) (isReal_comp hr (d.rhsIdx j)))
    (fun _ => Finset.univ))

theorem isReal_hostDotGeneral {sl sr so : Shape} {φ₁ φ₂ : FTy} (d : DotDims sl sr so) (prec : Option ContractPrecision)
    {lhs : FVec Ideal sl φ₁} {rhs : FVec Ideal sr φ₂} (hl : IsReal lhs) (hr : IsReal rhs) :
    IsReal (Host.dotGeneral d prec lhs rhs) := by
  have h0 : IsReal (fun _ : so.Idx => (0 : EReal)) := fun _ => ⟨0, EReal.coe_zero.symm⟩
  exact isReal_add h0 (isReal_sum_dep
    (fun j => isReal_mul (isReal_comp hl (d.lhsIdx j)) (isReal_comp hr (d.rhsIdx j))) (fun _ => Finset.univ))

end RealArrays

end
-- ==== Proof.SpecLaws.lean ====
import proofs.«406641_j72756745994790_1_alg».proof.Proof.Spec
import proofs.«406641_j72756745994790_1_alg».proof.Proof.LibRealArrays
import proofs.«406641_j72756745994790_1_alg».proof.Proof.LibVarianceLaw
import proofs.«406641_j72756745994790_1_alg».proof.Proof.LibRealOps
import Mathlib.Algebra.BigOperators.Group.Finset.Basic

noncomputable section

open scoped BigOperators

namespace Cert.SpecLaws

open Idealize.ShloMosaic Idealize.ShloMosaic.ValueIdx Cert.Spec RealArrays

theorem count_word : Ideal.ofBits .f32 0x47435000#32 = (((50000 : ℕ) : ℝ) : EReal) := by
  rw [ofBits_50000]; norm_num

theorem zero_word : Ideal.ofBits .f32 0x00000000#32 = (0 : EReal) := by
  rw [ofBits_zero, EReal.coe_zero]

theorem mean_eq_sum (a : FVec Ideal ShNF .f32) (j : Fin 96) :
    mean a j = Ideal.div (∑ n : Fin 50000, a (ix2 n j)) (Ideal.ofBits .f32 0x47435000#32) := by
  unfold mean
  rw [zero_word, zero_add_ereal]

theorem var_eq_sums (a : FVec Ideal ShNF .f32) (ha : IsReal a) (j : Fin 96) :
    var a j = Ideal.div (∑ n : Fin 50000, a (ix2 n j) * a (ix2 n j)) (Ideal.ofBits .f32 0x47435000#32)
      - Ideal.div (∑ n : Fin 50000, a (ix2 n j)) (Ideal.ofBits .f32 0x47435000#32)
        * Ideal.div (∑ n : Fin 50000, a (ix2 n j)) (Ideal.ofBits .f32 0x47435000#32) := by
  unfold var
  rw [mean_eq_sum, zero_word, zero_add_ereal, count_word]
  exact VarianceLaw.var_eq_of_isReal (N := 50000) (by norm_num) (x := fun n => a (ix2 n j)) (isReal_comp ha _)

theorem bn_of_sums_apply (a : FVec Ideal ShNF .f32) (ha : IsReal a) (γ β : FVec Ideal ShF .f32) (s1 s2 : Fin 96 → EReal)
    (h1 : ∀ j, s1 j = ∑ n : Fin 50000, a (ix2 n j))
    (h2 : ∀ j, s2 j = ∑ n : Fin 50000, a (ix2 n j) * a (ix2 n j)) (n : Fin 50000) (j : Fin 96) :
    max (((a (ix2 n j) - Ideal.div (s1 j) (Ideal.ofBits .f32 0x47435000#32))
            * Ideal.rsqrt ((Ideal.div (s2 j) (Ideal.ofBits .f32 0x47435000#32)
                - Ideal.div (s1 j) (Ideal.ofBits .f32 0x47435000#32)
                  * Ideal.div (s1 j) (Ideal.ofBits .f32 0x47435000#32))
              + Ideal.ofBits .f32 0x3727C5AC#32))
          * γ (ix1 j) + β (ix1 j))
        (Ideal.ofBits .f32 0x00000000#32) = bn a γ β (ix2 n j) := by
  rw [bn_apply, mean_eq_sum, var_eq_sums a ha, h1, h2]

theorem bn_of_sums (a : FVec Ideal ShNF .f32) (ha : IsReal a) (γ β : FVec Ideal ShF .f32) (s1 s2 : Fin 96 → EReal)
    (h1 : ∀ j, s1 j = ∑ n : Fin 50000, a (ix2 n j))
    (h2 : ∀ j, s2 j = ∑ n : Fin 50000, a (ix2 n j) * a (ix2 n j)) :
    (fun i : ShNF.Idx =>
      max (((a i - Ideal.div (s1 (i 1)) (Ideal.ofBits .f32 0x47435000#32))
            * Ideal.rsqrt ((Ideal.div (s2 (i 1)) (Ideal.ofBits .f32 0x47435000#32)
                - Ideal.div (s1 (i 1)) (Ideal.ofBits .f32 0x47435000#32)
                  * Ideal.div (s1 (i 1)) (Ideal.ofBits .f32 0x47435000#32))
              + Ideal.ofBits .f32 0x3727C5AC#32))
          * γ (ix1 (i 1)) + β (ix1 (i 1)))
        (Ideal.ofBits .f32 0x00000000#32)) = bn a γ β := by
  funext i
  obtain ⟨n, j, rfl⟩ : ∃ n j, i = ix2 n j := ⟨i 0, i 1, eq_ix2 i⟩
  exact bn_of_sums_apply a ha γ β s1 s2 h1 h2 n j

theorem isReal_wOf {W : FVec Ideal ShW4 .f32} (hW : IsReal W) (l : Fin 4) : IsReal (wOf W l) :=
  fun i => hW (ix3 l (i 0) (i 1))

theorem isReal_rowOf {p : FVec Ideal ShP4 .f32} (hp : IsReal p) (l : Fin 4) : IsReal (rowOf p l) :=
  fun j => hp (ix2 l (j 0))

theorem isReal_mm {h : FVec Ideal ShNF .f32} {w : FVec Ideal ShW .f32} (hh : IsReal h) (hw : IsReal w) :
    IsReal (mm h w) :=
  isReal_sum_dep (u := fun (i : ShNF.Idx) (k : Fin 96) => h (ix2 (i 0) k) * w (ix2 k (i 1)))
    (fun i => isReal_mul (isReal_comp hh fun k => ix2 (i 0) k) (isReal_comp hw fun k => ix2 k (i 1)))
    (fun _ => Finset.univ)

theorem isReal_agg {hw : FVec Ideal ShNF .f32} (srcL dstL : IVec ShE 32) {nrm : FVec Ideal ShE .f32}
    {brow : FVec Ideal ShF .f32} (hhw : IsReal hw) (hn : IsReal nrm) (hb : IsReal brow) :
    IsReal (agg hw srcL dstL nrm brow) :=
  isReal_addf
    (isReal_hostScatterAddOp scatterNF _ (isReal_broadcastInDim _ _ isReal_constant_zero)
      (isReal_mulf (isReal_hostGather gatherNF _ hhw)
        (isReal_broadcastInDim _ _ (isReal_broadcastInDim _ _ hn))))
    (isReal_broadcastInDim _ _ (isReal_broadcastInDim _ _ hb))

theorem mean_real {a : FVec Ideal ShNF .f32} (ha : IsReal a) (j : Fin 96) : ∃ μ : ℝ, mean a j = (μ : EReal) := by
  rw [mean_eq_sum, count_word]
  exact VarianceLaw.mean_isReal Finset.univ (x := fun n : Fin 50000 => a (ix2 n j)) (isReal_comp ha _) (by norm_num)

theorem var_nonneg_real {a : FVec Ideal ShNF .f32} (ha : IsReal a) (j : Fin 96) :
    ∃ v : ℝ, 0 ≤ v ∧ var a j = (v : EReal) := by
  unfold var
  rw [mean_eq_sum, zero_word, zero_add_ereal, count_word]
  exact VarianceLaw.var_nonneg_of_isReal (N := 50000) (by norm_num) (x := fun n => a (ix2 n j)) (isReal_comp ha _)

theorem isReal_bn {a : FVec Ideal ShNF .f32} {γ β : FVec Ideal ShF .f32} (ha : IsReal a) (hγ : IsReal γ)
    (hβ : IsReal β) : IsReal (bn a γ β) := fun i => by
  obtain ⟨r, hr⟩ := ha i
  obtain ⟨μ, hμ⟩ := mean_real ha (i 1)
  obtain ⟨v, hv, hvar⟩ := var_nonneg_real ha (i 1)
  obtain ⟨e, he, heps⟩ := ofBits_eps_pos
  obtain ⟨t, _, ht⟩ := rsqrt_coe_pos' (add_pos_of_nonneg_of_pos hv he)
  obtain ⟨g, hg⟩ := hγ (ix1 (i 1))
  obtain ⟨b, hb⟩ := hβ (ix1 (i 1))
  refine ⟨max (((r - μ) * t) * g + b) 0, ?_⟩
  show max (((a i - mean a (i 1)) * Ideal.rsqrt (var a (i 1) + Ideal.ofBits .f32 0x3727C5AC#32))
      * γ (ix1 (i 1)) + β (ix1 (i 1))) (Ideal.ofBits .f32 0x00000000#32) = _
  rw [hr, hμ, hvar, heps, ← EReal.coe_add, ht, hg, hb, ofBits_zero, ← EReal.coe_sub, ← EReal.coe_mul,
    ← EReal.coe_mul, ← EReal.coe_add]
  exact (EReal.coe_strictMono.monotone.map_max).symm

theorem isReal_layer (srcL dstL : IVec ShE 32) {nrm : FVec Ideal ShE .f32} {W : FVec Ideal ShW4 .f32}
    {b γ β : FVec Ideal ShP4 .f32} (hn : IsReal nrm) (hW : IsReal W) (hb : IsReal b) (hγ : IsReal γ) (hβ : IsReal β)
    (l : Fin 4) {h : FVec Ideal ShNF .f32} (hh : IsReal h) : IsReal (layer srcL dstL nrm W b γ β l h) :=
  isReal_bn (isReal_agg srcL dstL (isReal_mm hh (isReal_wOf hW l)) hn (isReal_rowOf hb l))
    (isReal_rowOf hγ l) (isReal_rowOf hβ l)

theorem isReal_encode (srcL dstL : IVec ShE 32) {nrm : FVec Ideal ShE .f32} {W : FVec Ideal ShW4 .f32}
    {b γ β : FVec Ideal ShP4 .f32} (hn : IsReal nrm) (hW : IsReal W) (hb : IsReal b) (hγ : IsReal γ) (hβ : IsReal β)
    {x : FVec Ideal ShNF .f32} (hx : IsReal x) : IsReal (encode srcL dstL nrm W b γ β x) :=
  isReal_layer srcL dstL hn hW hb hγ hβ 3 (isReal_layer srcL dstL hn hW hb hγ hβ 2
    (isReal_layer srcL dstL hn hW hb hγ hβ 1 (isReal_layer srcL dstL hn hW hb hγ hβ 0 hx)))

theorem isReal_degree (dstL : IVec ShE 32) : IsReal (degree dstL) :=
  isReal_hostScatterAddOp scatterN _ (isReal_broadcastInDim _ _ isReal_constant_zero)
    (isReal_broadcastInDim _ _ isReal_constant_one)

theorem isReal_invSqrtDeg (dstL : IVec ShE 32) : IsReal (invSqrtDeg dstL) :=
  isReal_select _
    (isReal_hostRsqrt (isPosReal_maximumf_right (isReal_degree dstL)
      (isPosReal_broadcastInDim _ _ isPosReal_constant_one)))
    (isReal_broadcastInDim _ _ isReal_constant_zero)

theorem isReal_edgeNorm (srcL dstL : IVec ShE 32) : IsReal (edgeNorm srcL dstL) :=
  isReal_mulf (isReal_hostGather gatherN _ (isReal_invSqrtDeg dstL))
    (isReal_hostGather gatherN _ (isReal_invSqrtDeg dstL))

theorem sum_onehot_mul (h : FVec Ideal ShNF .f32) (batch : IVec ShN 32) (g : Fin 256) (j : Fin 96) :
    ∑ n : Fin 50000, (if (batch (ix1 n)).toInt = (g.val : Int) then (1 : EReal) else 0) * h (ix2 n j)
      = ∑ n ∈ Finset.univ.filter (fun n : Fin 50000 => (batch (ix1 n)).toInt = (g.val : Int)), h (ix2 n j) := by
  rw [Finset.sum_filter]
  refine Finset.sum_congr rfl fun n _ => ?_
  by_cases hc : (batch (ix1 n)).toInt = (g.val : Int)
  · rw [if_pos hc, if_pos hc, one_mul]
  · rw [if_neg hc, if_neg hc, zero_mul]

theorem pool_of_onehot_apply (h : FVec Ideal ShNF .f32) (batch : IVec ShN 32) (e : Fin 50000 → Fin 256 → EReal)
    (he : ∀ n g, e n g = if (batch (ix1 n)).toInt = (g.val : Int) then (1 : EReal) else 0) (g : Fin 256) (j : Fin 96) :
    ∑ n : Fin 50000, e n g * h (ix2 n j) = poolSum h batch (ix2 g j) := by
  rw [poolSum_apply, zero_word, zero_add_ereal, ← sum_onehot_mul]
  exact Finset.sum_congr rfl fun n _ => by rw [he]

theorem pool_of_onehot (h : FVec Ideal ShNF .f32) (batch : IVec ShN 32) (e : Fin 50000 → Fin 256 → EReal)
    (he : ∀ n g, e n g = if (batch (ix1 n)).toInt = (g.val : Int) then (1 : EReal) else 0) :
    (fun i : ShGF.Idx => ∑ n : Fin 50000, e n (i 0) * h (ix2 n (i 1))) = poolSum h batch := by
  funext i
  obtain ⟨g, j, rfl⟩ : ∃ g j, i = ix2 g j := ⟨i 0, i 1, eq_ix2 i⟩
  exact pool_of_onehot_apply h batch e he g j

theorem pool_of_onehot_zero_add (h : FVec Ideal ShNF .f32) (batch : IVec ShN 32) (e : Fin 50000 → Fin 256 → EReal)
    (he : ∀ n g, e n g = if (batch (ix1 n)).toInt = (g.val : Int) then (1 : EReal) else 0) :
    (fun i : ShGF.Idx => Ideal.ofBits .f32 0x00000000#32 + ∑ n : Fin 50000, e n (i 0) * h (ix2 n (i 1)))
      = poolSum h batch := by
  rw [← pool_of_onehot h batch e he]
  funext i
  rw [zero_word, zero_add_ereal]

theorem layer_glue (srcL dstL : IVec ShE 32) (nrm : FVec Ideal ShE .f32) (hn : IsReal nrm)
    (x : FVec Ideal ShNF .f32) (hx : IsReal x) (w : FVec Ideal ShW .f32) (hw : IsReal w)
    (brow γrow βrow : FVec Ideal ShF .f32) (hb : IsReal brow) (hγ : IsReal γrow) (hβ : IsReal βrow)
    (hwv : FVec Ideal ShNF .f32) (Hhw : ∀ n j, hwv (ix2 n j) = ∑ k : Fin 96, x (ix2 n k) * w (ix2 k j))
    (av : FVec Ideal ShNF .f32) (Hav : av = agg hwv srcL dstL nrm brow)
    (s1 s2 mu va ga be : FVec Ideal Sh1F .f32)
    (H1 : ∀ j : Fin 96, s1 (ix2 (0 : Fin 1) j) = ∑ n : Fin 50000, av (ix2 n j))
    (H2 : ∀ j : Fin 96, s2 (ix2 (0 : Fin 1) j) = ∑ n : Fin 50000, av (ix2 n j) * av (ix2 n j))
    (Hmu : ∀ j : Fin 96, mu (ix2 (0 : Fin 1) j)
      = Ideal.div (s1 (ix2 (0 : Fin 1) j)) (Ideal.ofBits .f32 0x47435000#32))
    (Hva : ∀ j : Fin 96, va (ix2 (0 : Fin 1) j)
      = Ideal.div (s2 (ix2 (0 : Fin 1) j)) (Ideal.ofBits .f32 0x47435000#32)
        - mu (ix2 (0 : Fin 1) j) * mu (ix2 (0 : Fin 1) j))
    (Hga : ∀ j : Fin 96, ga (ix2 (0 : Fin 1) j) = γrow (ix1 j))
    (Hbe : ∀ j : Fin 96, be (ix2 (0 : Fin 1) j) = βrow (ix1 j))
    (out : FVec Ideal ShNF .f32)
    (Hout : ∀ n j, out (ix2 n j)
      = max (((av (ix2 n j) - mu (ix2 (0 : Fin 1) j))
            * Ideal.rsqrt (va (ix2 (0 : Fin 1) j) + Ideal.ofBits .f32 0x3727C5AC#32))
          * ga (ix2 (0 : Fin 1) j) + be (ix2 (0 : Fin 1) j))
        (Ideal.ofBits .f32 0x00000000#32)) :
    out = bn (agg (mm x w) srcL dstL nrm brow) γrow βrow ∧ IsReal out := by

  have hmm : hwv = mm x w := by
    funext i
    obtain ⟨n, j, rfl⟩ : ∃ n j, i = ix2 n j := ⟨i 0, i 1, eq_ix2 i⟩
    rw [Hhw, mm_apply]
  subst hmm
  subst Hav

  have hav : IsReal (agg (mm x w) srcL dstL nrm brow) := isReal_agg srcL dstL (isReal_mm hx hw) hn hb
  have hout : out = bn (agg (mm x w) srcL dstL nrm brow) γrow βrow := by
    funext i
    obtain ⟨n, j, rfl⟩ : ∃ n j, i = ix2 n j := ⟨i 0, i 1, eq_ix2 i⟩
    rw [Hout, Hva, Hmu, Hga, Hbe]
    exact bn_of_sums_apply _ hav γrow βrow (fun j => s1 (ix2 (0 : Fin 1) j)) (fun j => s2 (ix2 (0 : Fin 1) j))
      H1 H2 n j
  exact ⟨hout, hout ▸ isReal_bn hav hγ hβ⟩

theorem layer_glue' (srcL dstL : IVec ShE 32) (nrm : FVec Ideal ShE .f32) (hn : IsReal nrm)
    (W : FVec Ideal ShW4 .f32) (b γ β : FVec Ideal ShP4 .f32) (hW : IsReal W) (hb : IsReal b) (hγ : IsReal γ)
    (hβ : IsReal β) (l : Fin 4) (x : FVec Ideal ShNF .f32) (hx : IsReal x)
    (hwv : FVec Ideal ShNF .f32) (Hhw : ∀ n j, hwv (ix2 n j) = ∑ k : Fin 96, x (ix2 n k) * wOf W l (ix2 k j))
    (av : FVec Ideal ShNF .f32) (Hav : av = agg hwv srcL dstL nrm (rowOf b l))
    (s1 s2 mu va ga be : FVec Ideal Sh1F .f32)
    (H1 : ∀ j : Fin 96, s1 (ix2 (0 : Fin 1) j) = ∑ n : Fin 50000, av (ix2 n j))
    (H2 : ∀ j : Fin 96, s2 (ix2 (0 : Fin 1) j) = ∑ n : Fin 50000, av (ix2 n j) * av (ix2 n j))
    (Hmu : ∀ j : Fin 96, mu (ix2 (0 : Fin 1) j)
      = Ideal.div (s1 (ix2 (0 : Fin 1) j)) (Ideal.ofBits .f32 0x47435000#32))
    (Hva : ∀ j : Fin 96, va (ix2 (0 : Fin 1) j)
      = Ideal.div (s2 (ix2 (0 : Fin 1) j)) (Ideal.ofBits .f32 0x47435000#32)
        - mu (ix2 (0 : Fin 1) j) * mu (ix2 (0 : Fin 1) j))
    (Hga : ∀ j : Fin 96, ga (ix2 (0 : Fin 1) j) = rowOf γ l (ix1 j))
    (Hbe : ∀ j : Fin 96, be (ix2 (0 : Fin 1) j) = rowOf β l (ix1 j))
    (out : FVec Ideal ShNF .f32)
    (Hout : ∀ n j, out (ix2 n j)
      = max (((av (ix2 n j) - mu (ix2 (0 : Fin 1) j))
            * Ideal.rsqrt (va (ix2 (0 : Fin 1) j) + Ideal.ofBits .f32 0x3727C5AC#32))
          * ga (ix2 (0 : Fin 1) j) + be (ix2 (0 : Fin 1) j))
        (Ideal.ofBits .f32 0x00000000#32)) :
    out = layer srcL dstL nrm W b γ β l x ∧ IsReal out :=
  layer_glue srcL dstL nrm hn x hx (wOf W l) (isReal_wOf hW l) (rowOf b l) (rowOf γ l) (rowOf β l)
    (isReal_rowOf hb l) (isReal_rowOf hγ l) (isReal_rowOf hβ l) hwv Hhw av Hav s1 s2 mu va ga be H1 H2 Hmu Hva
    Hga Hbe out Hout

theorem pool_glue (batch : IVec ShN 32) (h : FVec Ideal ShNF .f32) (out : FVec Ideal ShGF .f32)
    (e : Fin 50000 → Fin 256 → EReal)
    (he : ∀ n g, e n g = if (batch (ix1 n)).toInt = (g.val : Int) then (1 : EReal) else 0)
    (Hout : ∀ g j, out (ix2 g j) = Ideal.ofBits .f32 0x00000000#32 + ∑ n : Fin 50000, e n g * h (ix2 n j)) :
    out = poolSum h batch := by
  funext i
  obtain ⟨g, j, rfl⟩ : ∃ g j, i = ix2 g j := ⟨i 0, i 1, eq_ix2 i⟩
  rw [Hout, zero_word, zero_add_ereal]
  exact pool_of_onehot_apply h batch e he g j

theorem pool_glue_bare (batch : IVec ShN 32) (h : FVec Ideal ShNF .f32) (out : FVec Ideal ShGF .f32)
    (e : Fin 50000 → Fin 256 → EReal)
    (he : ∀ n g, e n g = if (batch (ix1 n)).toInt = (g.val : Int) then (1 : EReal) else 0)
    (Hout : ∀ g j, out (ix2 g j) = ∑ n : Fin 50000, e n g * h (ix2 n j)) :
    out = poolSum h batch := by
  funext i
  obtain ⟨g, j, rfl⟩ : ∃ g j, i = ix2 g j := ⟨i 0, i 1, eq_ix2 i⟩
  rw [Hout]
  exact pool_of_onehot_apply h batch e he g j

end Cert.SpecLaws

end
-- ==== Proof.KI.Result.lean ====
import proofs.«406641_j72756745994790_1_alg».proof.Proof.KI.Fold
import proofs.«406641_j72756745994790_1_alg».proof.Proof.KI.Val0
import proofs.«406641_j72756745994790_1_alg».proof.Proof.KI.Val1
import proofs.«406641_j72756745994790_1_alg».proof.Proof.KI.Val2
import proofs.«406641_j72756745994790_1_alg».proof.Proof.KI.Val3
import proofs.«406641_j72756745994790_1_alg».proof.Proof.KI.Val4
import proofs.«406641_j72756745994790_1_alg».proof.Proof.KI.Val5
import proofs.«406641_j72756745994790_1_alg».proof.Proof.KI.Val6
import proofs.«406641_j72756745994790_1_alg».proof.Proof.KI.Val7
import proofs.«406641_j72756745994790_1_alg».proof.Proof.KI.Val8
import proofs.«406641_j72756745994790_1_alg».proof.Proof.KI.Val9
import proofs.«406641_j72756745994790_1_alg».proof.Proof.KI.Val10
import proofs.«406641_j72756745994790_1_alg».proof.Proof.KI.Val11
import proofs.«406641_j72756745994790_1_alg».proof.Proof.KI.Val12
import proofs.«406641_j72756745994790_1_alg».proof.Proof.KI.WalkPrefix
import proofs.«406641_j72756745994790_1_alg».proof.Proof.KI.WalkL0
import proofs.«406641_j72756745994790_1_alg».proof.Proof.KI.WalkL1
import proofs.«406641_j72756745994790_1_alg».proof.Proof.KI.WalkL2
import proofs.«406641_j72756745994790_1_alg».proof.Proof.KI.WalkL3
import proofs.«406641_j72756745994790_1_alg».proof.Proof.KI.WalkTail
import proofs.«406641_j72756745994790_1_alg».proof.Proof.Spec
import proofs.«406641_j72756745994790_1_alg».proof.Proof.SpecLaws
import proofs.«406641_j72756745994790_1_alg».proof.Proof.LibRealArrays
import Idealize.ShloMosaic.Lib.StableHlo.Run
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.Tactic Idealize.ShloMosaic.ValueIdx
open Cert.Spec (srcList dstList startIdx degree invSqrtDeg edgeNorm wOf rowOf agg meanOf poolSum layer encode)
open scoped BigOperators

section Result
variable (m : (ℓ : Loc nD τ sig) → Buf (Elt Ideal) ℓ) (c : Dev nD)

abbrev xArg : FVec Ideal Spec.ShNF .f32 := m ((c : Thread nD τ).loc main_arg0)
abbrev eiArg : IVec Spec.ShEI 32 := m ((c : Thread nD τ).loc main_arg1)
abbrev batchArg : IVec Spec.ShN 32 := m ((c : Thread nD τ).loc main_arg2)
abbrev wArg : FVec Ideal Spec.ShW4 .f32 := m ((c : Thread nD τ).loc main_arg3)
abbrev bArg : FVec Ideal Spec.ShP4 .f32 := m ((c : Thread nD τ).loc main_arg4)
abbrev gArg : FVec Ideal Spec.ShP4 .f32 := m ((c : Thread nD τ).loc main_arg5)
abbrev beArg : FVec Ideal Spec.ShP4 .f32 := m ((c : Thread nD τ).loc main_arg6)
abbrev srcL : IVec Spec.ShE 32 := srcList (eiArg m c)
abbrev dstL : IVec Spec.ShE 32 := dstList (eiArg m c)
abbrev nrmE : FVec Ideal Spec.ShE .f32 := edgeNorm (srcL m c) (dstL m c)

structure Base (Wx : Valuation τ sig (Elt Ideal)) : Prop where
  a3 : Wx (Proc.devRef .tc main_arg3) = wArg m c
  a4 : Wx (Proc.devRef .tc main_arg4) = bArg m c
  a5 : Wx (Proc.devRef .tc main_arg5) = gArg m c
  a6 : Wx (Proc.devRef .tc main_arg6) = beArg m c
  v3 : Wx (Proc.devRef .tc main_v3) = srcL m c
  v6 : Wx (Proc.devRef .tc main_v6) = dstL m c
  v32 : Wx (Proc.devRef .tc main_v32) = broadcastInDim Spec.ShE1 ![0] Spec.bcE_E1 (nrmE m c)

abbrev lin0 : FVec Ideal Spec.ShNF .f32 := W3 m c (Proc.devRef .tc main_arg0)
abbrev lout0 : FVec Ideal Spec.ShNF .f32 := W9 m c (Proc.devRef .tc main_v66)

abbrev lin1 : FVec Ideal Spec.ShNF .f32 := W9 m c (Proc.devRef .tc main_v66)
abbrev lout1 : FVec Ideal Spec.ShNF .f32 := W15 m c (Proc.devRef .tc main_v100)

abbrev lin2 : FVec Ideal Spec.ShNF .f32 := W15 m c (Proc.devRef .tc main_v100)
abbrev lout2 : FVec Ideal Spec.ShNF .f32 := W21 m c (Proc.devRef .tc main_v134)

abbrev lin3 : FVec Ideal Spec.ShNF .f32 := W21 m c (Proc.devRef .tc main_v134)
abbrev lout3 : FVec Ideal Spec.ShNF .f32 := W27 m c (Proc.devRef .tc main_v168)

variable {m c}

theorem layer0_eq (hB : Base m c (W3 m c)) (hh : RealArrays.IsReal (lin0 m c))
    (hwt : W3 m c (Proc.devRef .tc main_v34) = wOf (wArg m c) 0)
    (hW : RealArrays.IsReal (wArg m c)) (hb : RealArrays.IsReal (bArg m c)) (hγ : RealArrays.IsReal (gArg m c))
    (hβ : RealArrays.IsReal (beArg m c)) :
    Base m c (W9 m c)
      ∧ lout0 m c = layer (srcL m c) (dstL m c) (nrmE m c) (wArg m c) (bArg m c) (gArg m c) (beArg m c) 0 (lin0 m c)
      ∧ RealArrays.IsReal (lout0 m c) ∧ W9 m c (Proc.devRef .tc main_v68) = wOf (wArg m c) 1 := by

  have hhw : ∀ (n : Fin 50000) (j : Fin 96), (W4 m c (Proc.devRef .tc main_v35) : FVec Ideal Spec.ShNF .f32) (ix2 n j)
      = ∑ k : Fin 96, lin0 m c (ix2 n k) * wOf (wArg m c) 0 (ix2 k j) := fun n j => by
    rw [← hwt]
    exact (congrFun (W4_arr m c 2) (ix2 n j)).trans (final0_2_apply (V3 m) c n j)

  have hagg : (W5 m c (Proc.devRef .tc main_v52) : FVec Ideal Spec.ShNF .f32)
      = agg (W4 m c (Proc.devRef .tc main_v35) : FVec Ideal Spec.ShNF .f32) (srcL m c) (dstL m c) (nrmE m c) (rowOf (bArg m c) 0) := by
    have e := L0_agg m c (nrmE m c) hB.v32
    rw [hB.v3, hB.v6, hB.a4] at e
    exact e

  have hs1 := (W6_arr m c 1).trans (final1_1 (V5 m) c)
  have hs2 := (W6_arr m c 2).trans (final1_2 (V5 m) c)
  have hagg3 : W6 m c (Proc.devRef .tc main_v52) = W5 m c (Proc.devRef .tc main_v52) :=
    (W6_arr m c 0).trans (((dat1 (V5 m) c).arrAt_in 0 rfl _).trans (A_eq1 (V5 m) c 0))
  have hagg4 : W7 m c (Proc.devRef .tc main_v52) = W5 m c (Proc.devRef .tc main_v52) := (L0_agg_kept m c).trans hagg3

  have hout : (W8 m c (Proc.devRef .tc main_v66) : FVec Ideal Spec.ShNF .f32)
      = norm2 (W5 m c (Proc.devRef .tc main_v52) : FVec Ideal Spec.ShNF .f32) (W7 m c (Proc.devRef .tc main_v55)) (W7 m c (Proc.devRef .tc main_v59)) (W7 m c (Proc.devRef .tc main_v64)) (W7 m c (Proc.devRef .tc main_v65)) :=
    ((W8_arr m c 5).trans (final2_5 (V7 m) c)).trans (congrArg (fun a => norm2 a _ _ _ _) hagg4)

  obtain ⟨e, hr⟩ := Cert.SpecLaws.layer_glue' (srcL m c) (dstL m c) (nrmE m c) (Cert.SpecLaws.isReal_edgeNorm _ _)
    (wArg m c) (bArg m c) (gArg m c) (beArg m c) hW hb hγ hβ 0 (lin0 m c) hh
    (W4 m c (Proc.devRef .tc main_v35) : FVec Ideal Spec.ShNF .f32) hhw
    (W5 m c (Proc.devRef .tc main_v52) : FVec Ideal Spec.ShNF .f32) hagg
    (W6 m c (Proc.devRef .tc main_v53_0) : FVec Ideal Spec.Sh1F .f32) (W6 m c (Proc.devRef .tc main_v53_1) : FVec Ideal Spec.Sh1F .f32) (W7 m c (Proc.devRef .tc main_v55) : FVec Ideal Spec.Sh1F .f32) (W7 m c (Proc.devRef .tc main_v59) : FVec Ideal Spec.Sh1F .f32)
    (W7 m c (Proc.devRef .tc main_v64) : FVec Ideal Spec.Sh1F .f32) (W7 m c (Proc.devRef .tc main_v65) : FVec Ideal Spec.Sh1F .f32)
    (fun j => congrFun hs1 (ix2 (0 : Fin 1) j)) (fun j => congrFun hs2 (ix2 (0 : Fin 1) j))
    (fun j => congrFun (L0_mean m c) (ix2 (0 : Fin 1) j)) (fun j => congrFun (L0_var m c) (ix2 (0 : Fin 1) j))
    (fun j => by have e := L0_gamma_apply m c (ix2 (0 : Fin 1) j); rw [hB.a5] at e; exact e)
    (fun j => by have e := L0_beta_apply m c (ix2 (0 : Fin 1) j); rw [hB.a6] at e; exact e)
    (W8 m c (Proc.devRef .tc main_v66) : FVec Ideal Spec.ShNF .f32)
    (fun n j => by rw [hout, norm2_apply, Cert.SpecLaws.zero_word])
  have hout6 : lout0 m c = (W8 m c (Proc.devRef .tc main_v66) : FVec Ideal Spec.ShNF .f32) := L0_out_kept m c
  refine ⟨⟨(W9_arg3 m c).trans hB.a3, (W9_arg4 m c).trans hB.a4, (W9_arg5 m c).trans hB.a5,
      (W9_arg6 m c).trans hB.a6, (W9_v3 m c).trans hB.v3, (W9_v6 m c).trans hB.v6,
      (W9_v32 m c).trans hB.v32⟩, hout6.trans e, hout6 ▸ hr, ?_⟩
  have hwn := L0_nextWeight m c
  rw [hB.a3] at hwn
  exact hwn

theorem layer1_eq (hB : Base m c (W9 m c)) (hh : RealArrays.IsReal (lin1 m c))
    (hwt : W9 m c (Proc.devRef .tc main_v68) = wOf (wArg m c) 1)
    (hW : RealArrays.IsReal (wArg m c)) (hb : RealArrays.IsReal (bArg m c)) (hγ : RealArrays.IsReal (gArg m c))
    (hβ : RealArrays.IsReal (beArg m c)) :
    Base m c (W15 m c)
      ∧ lout1 m c = layer (srcL m c) (dstL m c) (nrmE m c) (wArg m c) (bArg m c) (gArg m c) (beArg m c) 1 (lin1 m c)
      ∧ RealArrays.IsReal (lout1 m c) ∧ W15 m c (Proc.devRef .tc main_v102) = wOf (wArg m c) 2 := by

  have hhw : ∀ (n : Fin 50000) (j : Fin 96), (W10 m c (Proc.devRef .tc main_v69) : FVec Ideal Spec.ShNF .f32) (ix2 n j)
      = ∑ k : Fin 96, lin1 m c (ix2 n k) * wOf (wArg m c) 1 (ix2 k j) := fun n j => by
    rw [← hwt]
    exact (congrFun (W10_arr m c 2) (ix2 n j)).trans (final3_2_apply (V9 m) c n j)

  have hagg : (W11 m c (Proc.devRef .tc main_v86) : FVec Ideal Spec.ShNF .f32)
      = agg (W10 m c (Proc.devRef .tc main_v69) : FVec Ideal Spec.ShNF .f32) (srcL m c) (dstL m c) (nrmE m c) (rowOf (bArg m c) 1) := by
    have e := L1_agg m c (nrmE m c) hB.v32
    rw [hB.v3, hB.v6, hB.a4] at e
    exact e

  have hs1 := (W12_arr m c 1).trans (final4_1 (V11 m) c)
  have hs2 := (W12_arr m c 2).trans (final4_2 (V11 m) c)
  have hagg3 : W12 m c (Proc.devRef .tc main_v86) = W11 m c (Proc.devRef .tc main_v86) :=
    (W12_arr m c 0).trans (((dat4 (V11 m) c).arrAt_in 0 rfl _).trans (A_eq4 (V11 m) c 0))
  have hagg4 : W13 m c (Proc.devRef .tc main_v86) = W11 m c (Proc.devRef .tc main_v86) := (L1_agg_kept m c).trans hagg3

  have hout : (W14 m c (Proc.devRef .tc main_v100) : FVec Ideal Spec.ShNF .f32)
      = norm5 (W11 m c (Proc.devRef .tc main_v86) : FVec Ideal Spec.ShNF .f32) (W13 m c (Proc.devRef .tc main_v89)) (W13 m c (Proc.devRef .tc main_v93)) (W13 m c (Proc.devRef .tc main_v98)) (W13 m c (Proc.devRef .tc main_v99)) :=
    ((W14_arr m c 5).trans (final5_5 (V13 m) c)).trans (congrArg (fun a => norm5 a _ _ _ _) hagg4)

  obtain ⟨e, hr⟩ := Cert.SpecLaws.layer_glue' (srcL m c) (dstL m c) (nrmE m c) (Cert.SpecLaws.isReal_edgeNorm _ _)
    (wArg m c) (bArg m c) (gArg m c) (beArg m c) hW hb hγ hβ 1 (lin1 m c) hh
    (W10 m c (Proc.devRef .tc main_v69) : FVec Ideal Spec.ShNF .f32) hhw
    (W11 m c (Proc.devRef .tc main_v86) : FVec Ideal Spec.ShNF .f32) hagg
    (W12 m c (Proc.devRef .tc main_v87_0) : FVec Ideal Spec.Sh1F .f32) (W12 m c (Proc.devRef .tc main_v87_1) : FVec Ideal Spec.Sh1F .f32) (W13 m c (Proc.devRef .tc main_v89) : FVec Ideal Spec.Sh1F .f32) (W13 m c (Proc.devRef .tc main_v93) : FVec Ideal Spec.Sh1F .f32)
    (W13 m c (Proc.devRef .tc main_v98) : FVec Ideal Spec.Sh1F .f32) (W13 m c (Proc.devRef .tc main_v99) : FVec Ideal Spec.Sh1F .f32)
    (fun j => congrFun hs1 (ix2 (0 : Fin 1) j)) (fun j => congrFun hs2 (ix2 (0 : Fin 1) j))
    (fun j => congrFun (L1_mean m c) (ix2 (0 : Fin 1) j)) (fun j => congrFun (L1_var m c) (ix2 (0 : Fin 1) j))
    (fun j => by have e := L1_gamma_apply m c (ix2 (0 : Fin 1) j); rw [hB.a5] at e; exact e)
    (fun j => by have e := L1_beta_apply m c (ix2 (0 : Fin 1) j); rw [hB.a6] at e; exact e)
    (W14 m c (Proc.devRef .tc main_v100) : FVec Ideal Spec.ShNF .f32)
    (fun n j => by rw [hout, norm5_apply, Cert.SpecLaws.zero_word])
  have hout6 : lout1 m c = (W14 m c (Proc.devRef .tc main_v100) : FVec Ideal Spec.ShNF .f32) := L1_out_kept m c
  refine ⟨⟨(W15_arg3 m c).trans hB.a3, (W15_arg4 m c).trans hB.a4, (W15_arg5 m c).trans hB.a5,
      (W15_arg6 m c).trans hB.a6, (W15_v3 m c).trans hB.v3, (W15_v6 m c).trans hB.v6,
      (W15_v32 m c).trans hB.v32⟩, hout6.trans e, hout6 ▸ hr, ?_⟩
  have hwn := L1_nextWeight m c
  rw [hB.a3] at hwn
  exact hwn

theorem layer2_eq (hB : Base m c (W15 m c)) (hh : RealArrays.IsReal (lin2 m c))
    (hwt : W15 m c (Proc.devRef .tc main_v102) = wOf (wArg m c) 2)
    (hW : RealArrays.IsReal (wArg m c)) (hb : RealArrays.IsReal (bArg m c)) (hγ : RealArrays.IsReal (gArg m c))
    (hβ : RealArrays.IsReal (beArg m c)) :
    Base m c (W21 m c)
      ∧ lout2 m c = layer (srcL m c) (dstL m c) (nrmE m c) (wArg m c) (bArg m c) (gArg m c) (beArg m c) 2 (lin2 m c)
      ∧ RealArrays.IsReal (lout2 m c) ∧ W21 m c (Proc.devRef .tc main_v136) = wOf (wArg m c) 3 := by

  have hhw : ∀ (n : Fin 50000) (j : Fin 96), (W16 m c (Proc.devRef .tc main_v103) : FVec Ideal Spec.ShNF .f32) (ix2 n j)
      = ∑ k : Fin 96, lin2 m c (ix2 n k) * wOf (wArg m c) 2 (ix2 k j) := fun n j => by
    rw [← hwt]
    exact (congrFun (W16_arr m c 2) (ix2 n j)).trans (final6_2_apply (V15 m) c n j)

  have hagg : (W17 m c (Proc.devRef .tc main_v120) : FVec Ideal Spec.ShNF .f32)
      = agg (W16 m c (Proc.devRef .tc main_v103) : FVec Ideal Spec.ShNF .f32) (srcL m c) (dstL m c) (nrmE m c) (rowOf (bArg m c) 2) := by
    have e := L2_agg m c (nrmE m c) hB.v32
    rw [hB.v3, hB.v6, hB.a4] at e
    exact e

  have hs1 := (W18_arr m c 1).trans (final7_1 (V17 m) c)
  have hs2 := (W18_arr m c 2).trans (final7_2 (V17 m) c)
  have hagg3 : W18 m c (Proc.devRef .tc main_v120) = W17 m c (Proc.devRef .tc main_v120) :=
    (W18_arr m c 0).trans (((dat7 (V17 m) c).arrAt_in 0 rfl _).trans (A_eq7 (V17 m) c 0))
  have hagg4 : W19 m c (Proc.devRef .tc main_v120) = W17 m c (Proc.devRef .tc main_v120) := (L2_agg_kept m c).trans hagg3

  have hout : (W20 m c (Proc.devRef .tc main_v134) : FVec Ideal Spec.ShNF .f32)
      = norm8 (W17 m c (Proc.devRef .tc main_v120) : FVec Ideal Spec.ShNF .f32) (W19 m c (Proc.devRef .tc main_v123)) (W19 m c (Proc.devRef .tc main_v127)) (W19 m c (Proc.devRef .tc main_v132)) (W19 m c (Proc.devRef .tc main_v133)) :=
    ((W20_arr m c 5).trans (final8_5 (V19 m) c)).trans (congrArg (fun a => norm8 a _ _ _ _) hagg4)

  obtain ⟨e, hr⟩ := Cert.SpecLaws.layer_glue' (srcL m c) (dstL m c) (nrmE m c) (Cert.SpecLaws.isReal_edgeNorm _ _)
    (wArg m c) (bArg m c) (gArg m c) (beArg m c) hW hb hγ hβ 2 (lin2 m c) hh
    (W16 m c (Proc.devRef .tc main_v103) : FVec Ideal Spec.ShNF .f32) hhw
    (W17 m c (Proc.devRef .tc main_v120) : FVec Ideal Spec.ShNF .f32) hagg
    (W18 m c (Proc.devRef .tc main_v121_0) : FVec Ideal Spec.Sh1F .f32) (W18 m c (Proc.devRef .tc main_v121_1) : FVec Ideal Spec.Sh1F .f32) (W19 m c (Proc.devRef .tc main_v123) : FVec Ideal Spec.Sh1F .f32) (W19 m c (Proc.devRef .tc main_v127) : FVec Ideal Spec.Sh1F .f32)
    (W19 m c (Proc.devRef .tc main_v132) : FVec Ideal Spec.Sh1F .f32) (W19 m c (Proc.devRef .tc main_v133) : FVec Ideal Spec.Sh1F .f32)
    (fun j => congrFun hs1 (ix2 (0 : Fin 1) j)) (fun j => congrFun hs2 (ix2 (0 : Fin 1) j))
    (fun j => congrFun (L2_mean m c) (ix2 (0 : Fin 1) j)) (fun j => congrFun (L2_var m c) (ix2 (0 : Fin 1) j))
    (fun j => by have e := L2_gamma_apply m c (ix2 (0 : Fin 1) j); rw [hB.a5] at e; exact e)
    (fun j => by have e := L2_beta_apply m c (ix2 (0 : Fin 1) j); rw [hB.a6] at e; exact e)
    (W20 m c (Proc.devRef .tc main_v134) : FVec Ideal Spec.ShNF .f32)
    (fun n j => by rw [hout, norm8_apply, Cert.SpecLaws.zero_word])
  have hout6 : lout2 m c = (W20 m c (Proc.devRef .tc main_v134) : FVec Ideal Spec.ShNF .f32) := L2_out_kept m c
  refine ⟨⟨(W21_arg3 m c).trans hB.a3, (W21_arg4 m c).trans hB.a4, (W21_arg5 m c).trans hB.a5,
      (W21_arg6 m c).trans hB.a6, (W21_v3 m c).trans hB.v3, (W21_v6 m c).trans hB.v6,
      (W21_v32 m c).trans hB.v32⟩, hout6.trans e, hout6 ▸ hr, ?_⟩
  have hwn := L2_nextWeight m c
  rw [hB.a3] at hwn
  exact hwn

theorem layer3_eq (hB : Base m c (W21 m c)) (hh : RealArrays.IsReal (lin3 m c))
    (hwt : W21 m c (Proc.devRef .tc main_v136) = wOf (wArg m c) 3)
    (hW : RealArrays.IsReal (wArg m c)) (hb : RealArrays.IsReal (bArg m c)) (hγ : RealArrays.IsReal (gArg m c))
    (hβ : RealArrays.IsReal (beArg m c)) :
    Base m c (W27 m c)
      ∧ lout3 m c = layer (srcL m c) (dstL m c) (nrmE m c) (wArg m c) (bArg m c) (gArg m c) (beArg m c) 3 (lin3 m c)
      ∧ RealArrays.IsReal (lout3 m c)  := by

  have hhw : ∀ (n : Fin 50000) (j : Fin 96), (W22 m c (Proc.devRef .tc main_v137) : FVec Ideal Spec.ShNF .f32) (ix2 n j)
      = ∑ k : Fin 96, lin3 m c (ix2 n k) * wOf (wArg m c) 3 (ix2 k j) := fun n j => by
    rw [← hwt]
    exact (congrFun (W22_arr m c 2) (ix2 n j)).trans (final9_2_apply (V21 m) c n j)

  have hagg : (W23 m c (Proc.devRef .tc main_v154) : FVec Ideal Spec.ShNF .f32)
      = agg (W22 m c (Proc.devRef .tc main_v137) : FVec Ideal Spec.ShNF .f32) (srcL m c) (dstL m c) (nrmE m c) (rowOf (bArg m c) 3) := by
    have e := L3_agg m c (nrmE m c) hB.v32
    rw [hB.v3, hB.v6, hB.a4] at e
    exact e

  have hs1 := (W24_arr m c 1).trans (final10_1 (V23 m) c)
  have hs2 := (W24_arr m c 2).trans (final10_2 (V23 m) c)
  have hagg3 : W24 m c (Proc.devRef .tc main_v154) = W23 m c (Proc.devRef .tc main_v154) :=
    (W24_arr m c 0).trans (((dat10 (V23 m) c).arrAt_in 0 rfl _).trans (A_eq10 (V23 m) c 0))
  have hagg4 : W25 m c (Proc.devRef .tc main_v154) = W23 m c (Proc.devRef .tc main_v154) := (L3_agg_kept m c).trans hagg3

  have hout : (W26 m c (Proc.devRef .tc main_v168) : FVec Ideal Spec.ShNF .f32)
      = norm11 (W23 m c (Proc.devRef .tc main_v154) : FVec Ideal Spec.ShNF .f32) (W25 m c (Proc.devRef .tc main_v157)) (W25 m c (Proc.devRef .tc main_v161)) (W25 m c (Proc.devRef .tc main_v166)) (W25 m c (Proc.devRef .tc main_v167)) :=
    ((W26_arr m c 5).trans (final11_5 (V25 m) c)).trans (congrArg (fun a => norm11 a _ _ _ _) hagg4)

  obtain ⟨e, hr⟩ := Cert.SpecLaws.layer_glue' (srcL m c) (dstL m c) (nrmE m c) (Cert.SpecLaws.isReal_edgeNorm _ _)
    (wArg m c) (bArg m c) (gArg m c) (beArg m c) hW hb hγ hβ 3 (lin3 m c) hh
    (W22 m c (Proc.devRef .tc main_v137) : FVec Ideal Spec.ShNF .f32) hhw
    (W23 m c (Proc.devRef .tc main_v154) : FVec Ideal Spec.ShNF .f32) hagg
    (W24 m c (Proc.devRef .tc main_v155_0) : FVec Ideal Spec.Sh1F .f32) (W24 m c (Proc.devRef .tc main_v155_1) : FVec Ideal Spec.Sh1F .f32) (W25 m c (Proc.devRef .tc main_v157) : FVec Ideal Spec.Sh1F .f32) (W25 m c (Proc.devRef .tc main_v161) : FVec Ideal Spec.Sh1F .f32)
    (W25 m c (Proc.devRef .tc main_v166) : FVec Ideal Spec.Sh1F .f32) (W25 m c (Proc.devRef .tc main_v167) : FVec Ideal Spec.Sh1F .f32)
    (fun j => congrFun hs1 (ix2 (0 : Fin 1) j)) (fun j => congrFun hs2 (ix2 (0 : Fin 1) j))
    (fun j => congrFun (L3_mean m c) (ix2 (0 : Fin 1) j)) (fun j => congrFun (L3_var m c) (ix2 (0 : Fin 1) j))
    (fun j => by have e := L3_gamma_apply m c (ix2 (0 : Fin 1) j); rw [hB.a5] at e; exact e)
    (fun j => by have e := L3_beta_apply m c (ix2 (0 : Fin 1) j); rw [hB.a6] at e; exact e)
    (W26 m c (Proc.devRef .tc main_v168) : FVec Ideal Spec.ShNF .f32)
    (fun n j => by rw [hout, norm11_apply, Cert.SpecLaws.zero_word])
  have hout6 : lout3 m c = (W26 m c (Proc.devRef .tc main_v168) : FVec Ideal Spec.ShNF .f32) := L3_out_kept m c
  refine ⟨⟨(W27_arg3 m c).trans hB.a3, (W27_arg4 m c).trans hB.a4, (W27_arg5 m c).trans hB.a5,
      (W27_arg6 m c).trans hB.a6, (W27_v3 m c).trans hB.v3, (W27_v6 m c).trans hB.v6,
      (W27_v32 m c).trans hB.v32⟩, hout6.trans e, hout6 ▸ hr⟩

theorem batchCol_read (n : Fin 50000) :
    (shapeCast S50000x1 (batchArg m c) shapeCasts_S50000_S50000x1 : S50000x1.Idx → BitVec 32) (ix2 n (0 : Fin 1))
      = batchArg m c (ix1 n) := by
  refine shapeCast_apply _ _ _ (ix1 n) ?_
  simp [Shape.rowMajor_val_one, Shape.rowMajor_val_two]

theorem pool_eq : (W28 m c (Proc.devRef .tc main_v170) : FVec Ideal Spec.ShGF .f32) = poolSum (lout3 m c) (batchArg m c) := by
  refine Cert.SpecLaws.pool_glue_bare (batchArg m c) (lout3 m c) _
    (fun n g => e12 (shapeCast S50000x1 (batchArg m c) shapeCasts_S50000_S50000x1) n g) (fun n g => ?_) (fun g j => ?_)
  · rw [e12_eq, batchCol_read]
  · rw [← W27_v169 m c]
    exact (congrFun (W28_arr m c 2) (ix2 g j)).trans (final12_2_apply (V27 m) c g j)

theorem result_eq (m : (ℓ : Loc nD τ sig) → Buf (Elt Ideal) ℓ) (c : Dev nD)
    (hx : RealArrays.IsReal (m ((c.tc : Thread nD τ).loc main_arg0)))
    (hW : RealArrays.IsReal (m ((c.tc : Thread nD τ).loc main_arg3)))
    (hb : RealArrays.IsReal (m ((c.tc : Thread nD τ).loc main_arg4)))
    (hγ : RealArrays.IsReal (m ((c.tc : Thread nD τ).loc main_arg5)))
    (hβ : RealArrays.IsReal (m ((c.tc : Thread nD τ).loc main_arg6))) :
    W29 m c main_v179 = Spec.result (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := by
  have hB : Base m c (W3 m c) :=
    ⟨W3_arg3 m c, W3_arg4 m c, W3_arg5 m c, W3_arg6 m c, W3_v3 m c, W3_v6 m c, W3_v32 m c⟩
  have hx0 : RealArrays.IsReal (lin0 m c) := by
    have e : lin0 m c = xArg m c := W3_arg0 m c
    rw [e]; exact hx
  obtain ⟨hB0, e0, r0, w1⟩ := layer0_eq hB hx0 (W3_v34 m c) hW hb hγ hβ
  obtain ⟨hB1, e1, r1, w2⟩ := layer1_eq hB0 r0 w1 hW hb hγ hβ
  obtain ⟨hB2, e2, r2, w3⟩ := layer2_eq hB1 r1 w2 hW hb hγ hβ
  obtain ⟨hB3, e3, r3⟩ := layer3_eq hB2 r2 w3 hW hb hγ hβ
  refine (W29_v179 m c).trans ?_
  rw [pool_eq, e3]
  show meanOf (poolSum (layer _ _ _ _ _ _ _ 3 (lout2 m c)) _) _ = _
  rw [e2]
  show meanOf (poolSum (layer _ _ _ _ _ _ _ 3 (layer _ _ _ _ _ _ _ 2 (lout1 m c))) _) _ = _
  rw [e1]
  show meanOf (poolSum (layer _ _ _ _ _ _ _ 3 (layer _ _ _ _ _ _ _ 2 (layer _ _ _ _ _ _ _ 1 (lout0 m c)))) _) _ = _
  rw [e0, show lin0 m c = xArg m c from W3_arg0 m c]
  rfl
end Result

end Cert.KernelIdeal.HandValue

end
-- ==== Proof.RefRun.Ops.lean ====
import proofs.«406641_j72756745994790_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

theorem after_append {τ : Topo} {sig : RefSig} {Val : EltTy → Type} :
    ∀ (l₁ l₂ : List (HloOp τ sig Val)) (V : Valuation τ sig Val), after (l₁ ++ l₂) V = after l₂ (after l₁ V)
  | [], _, _ => rfl
  | op :: l, l₂, V => by rw [List.cons_append, after_cons, after_cons, after_append l l₂]

variable {F : FTy → Type} [FloatOps F]

abbrev opsP1 : List (HloOp τ sig (Elt F)) :=
  [ nullary main_v0 (iotaInDim S50000 32 0),
    unary main_arg1 main_v1 ((extractStridedSlice S1x800000 ![0, 0] · slices_S2x800000_S1x800000_0_0)),
    reshape main_v1 main_v2 rfl shapeCasts_S1x800000_S800000,
    binary main_v2 main_v0 main_v3 ((fun a b => concatenate S850000 0 [⟨S800000, a⟩, ⟨S50000, b⟩] concatenates_S800000_S50000_S850000_d0)),
    unary main_arg1 main_v4 ((extractStridedSlice S1x800000 ![1, 0] · slices_S2x800000_S1x800000_1_0)),
    reshape main_v4 main_v5 rfl shapeCasts_S1x800000_S800000,
    binary main_v5 main_v0 main_v6 ((fun a b => concatenate S850000 0 [⟨S800000, a⟩, ⟨S50000, b⟩] concatenates_S800000_S50000_S850000_d0)) ]
theorem opsP1_sub : (opsP1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub ..⟩
theorem opsP1_fresh : ∀ op ∈ (opsP1 : List (HloOp τ sig (Elt F))), op.fresh = ∅ := by
  intro _ h; (repeat (cases h with | head => rfl | tail _ h => ?_)); exact nomatch h

abbrev opsP2 : List (HloOp τ sig (Elt F)) :=
  [ nullary main_cst (constant S_ .f32 0x3F800000#32),
    unary main_cst main_v7 (broadcastInDim S850000 ![] bcast_S_S850000),
    nullary main_cst_0 (constant S_ .f32 0x00000000#32),
    unary main_cst_0 main_v8 (broadcastInDim S50000 ![] bcast_S_S50000),
    unary main_v6 main_v9 (broadcastInDim S850000x1 ![0] bcast_S850000_S850000x1_0),
    ternary main_v8 main_v9 main_v7 main_v10 ((fun x i u => Host.scatterAdd scatter_S50000_S850000x1_S850000_n_0_0_1 x i u)),
    nullary main_cst_1 (constant S_ .f32 0x00000000#32),
    unary main_cst_1 main_v11 (broadcastInDim S50000 ![] bcast_S_S50000),
    binary main_v10 main_v11 main_v12 (cmpf .ogt),
    nullary main_cst_2 (constant S_ .f32 0x3F800000#32),
    unary main_cst_2 main_v13 (broadcastInDim S50000 ![] bcast_S_S50000),
    binary main_v10 main_v13 main_v14 (maximumf),
    unary main_v14 main_v15 (Host.rsqrt),
    nullary main_cst_3 (constant S_ .f32 0x00000000#32),
    TRef.unary (TRef.of (T := ⟨S_, .f32⟩) main_cst_3) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v15) (TRef.of (T := ⟨S50000, .f32⟩) main_call0_v1) (TRef.of (T := ⟨S50000, .f32⟩) main_v16) select,
    nullary main_c (constantI S_ 32 0#32),
    unary main_c main_v17 (broadcastInDim S850000 ![] bcast_S_S850000),
    binary main_v3 main_v17 main_v18 (cmpi .slt),
    nullary main_c_4 (constantI S_ 32 50000#32),
    unary main_c_4 main_v19 (broadcastInDim S850000 ![] bcast_S_S850000),
    binary main_v3 main_v19 main_v20 (addi),
    ternary main_v18 main_v20 main_v3 main_v21 (select),
    unary main_v21 main_v22 (broadcastInDim S850000x1 ![0] bcast_S850000_S850000x1_0),
    binary main_v16 main_v22 main_v23 ((fun x i => Host.gather gather_S50000_S850000x1_S850000_n_0_n_n_0_1_1 x i)),
    nullary main_c_5 (constantI S_ 32 0#32),
    unary main_c_5 main_v24 (broadcastInDim S850000 ![] bcast_S_S850000),
    binary main_v6 main_v24 main_v25 (cmpi .slt),
    nullary main_c_6 (constantI S_ 32 50000#32),
    unary main_c_6 main_v26 (broadcastInDim S850000 ![] bcast_S_S850000),
    binary main_v6 main_v26 main_v27 (addi),
    ternary main_v25 main_v27 main_v6 main_v28 (select),
    unary main_v28 main_v29 (broadcastInDim S850000x1 ![0] bcast_S850000_S850000x1_0),
    binary main_v16 main_v29 main_v30 ((fun x i => Host.gather gather_S50000_S850000x1_S850000_n_0_n_n_0_1_1 x i)),
    binary main_v23 main_v30 main_v31 (mulf) ]
theorem opsP2_sub : (opsP2 : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub ..⟩
theorem opsP2_fresh : ∀ op ∈ (opsP2 : List (HloOp τ sig (Elt F))), op.fresh = ∅ := by
  intro _ h; (repeat (cases h with | head => rfl | tail _ h => ?_)); exact nomatch h

abbrev opsA0 : List (HloOp τ sig (Elt F)) :=
  [ unary main_arg3 main_v32 ((extractStridedSlice S1x96x96 ![0, 0, 0] · slices_S4x96x96_S1x96x96_0_0_0)),
    reshape main_v32 main_v33 rfl shapeCasts_S1x96x96_S96x96,
    binary main_arg0 main_v33 main_v34 ((fun l r => Host.dotGeneral dot_S50000x96_S96x96_S50000x96_1_0_0_1_n_n none l r)),
    nullary main_c_7 (constantI S_ 32 0#32),
    unary main_c_7 main_v35 (broadcastInDim S850000 ![] bcast_S_S850000),
    binary main_v3 main_v35 main_v36 (cmpi .slt),
    nullary main_c_8 (constantI S_ 32 50000#32),
    unary main_c_8 main_v37 (broadcastInDim S850000 ![] bcast_S_S850000),
    binary main_v3 main_v37 main_v38 (addi),
    ternary main_v36 main_v38 main_v3 main_v39 (select),
    unary main_v39 main_v40 (broadcastInDim S850000x1 ![0] bcast_S850000_S850000x1_0),
    binary main_v34 main_v40 main_v41 ((fun x i => Host.gather gather_S50000x96_S850000x1_S850000x96_1_0_n_n_0_1_196 x i)),
    unary main_v31 main_v42 (broadcastInDim S850000x1 ![0] bcast_S850000_S850000x1_0),
    unary main_v42 main_v43 (broadcastInDim S850000x96 ![0, 1] bcast_S850000x1_S850000x96_0_1),
    binary main_v41 main_v43 main_v44 (mulf),
    nullary main_cst_9 (constant S_ .f32 0x00000000#32),
    unary main_cst_9 main_v45 (broadcastInDim S50000x96 ![] bcast_S_S50000x96),
    unary main_v6 main_v46 (broadcastInDim S850000x1 ![0] bcast_S850000_S850000x1_0),
    ternary main_v45 main_v46 main_v44 main_v47 ((fun x i u => Host.scatterAdd scatter_S50000x96_S850000x1_S850000x96_1_0_0_1 x i u)),
    unary main_arg4 main_v48 ((extractStridedSlice S1x96 ![0, 0] · slices_S4x96_S1x96_0_0)),
    reshape main_v48 main_v49 rfl shapeCasts_S1x96_S96,
    unary main_v49 main_v50 (broadcastInDim S1x96 ![1] bcast_S96_S1x96_1),
    unary main_v50 main_v51 (broadcastInDim S50000x96 ![0, 1] bcast_S1x96_S50000x96_0_1),
    binary main_v47 main_v51 main_v52 (addf) ]
theorem opsA0_sub : (opsA0 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩
theorem opsA0_fresh : ∀ op ∈ (opsA0 : List (HloOp τ sig (Elt F))), op.fresh = ∅ := by
  intro _ h; (repeat (cases h with | head => rfl | tail _ h => ?_)); exact nomatch h

abbrev opsB0 : List (HloOp τ sig (Elt F)) :=
  [ nullary main_cst_10 (constant S_ .f32 0x00000000#32),
    binary main_v52 main_cst_10 main_v53 ((fun x v => Host.reduceAdd x v reducesTo_S50000x96_S96_d0 h_S_)),
    nullary main_cst_11 (constant S_ .f32 0x47435000#32),
    unary main_cst_11 main_v54 (broadcastInDim S96 ![] bcast_S_S96),
    binary main_v53 main_v54 main_v55 (Host.divf),
    unary main_v55 main_v56 (broadcastInDim S1x96 ![1] bcast_S96_S1x96_1),
    unary main_v56 main_v57 (broadcastInDim S50000x96 ![0, 1] bcast_S1x96_S50000x96_0_1),
    binary main_v52 main_v57 main_v58 (subf),
    binary main_v58 main_v58 main_v59 (mulf),
    nullary main_cst_12 (constant S_ .f32 0x00000000#32),
    binary main_v59 main_cst_12 main_v60 ((fun x v => Host.reduceAdd x v reducesTo_S50000x96_S96_d0 h_S_)),
    nullary main_cst_13 (constant S_ .f32 0x47435000#32),
    unary main_cst_13 main_v61 (broadcastInDim S96 ![] bcast_S_S96),
    binary main_v60 main_v61 main_v62 (Host.divf),
    unary main_v55 main_v63 (broadcastInDim S1x96 ![1] bcast_S96_S1x96_1),
    unary main_v63 main_v64 (broadcastInDim S50000x96 ![0, 1] bcast_S1x96_S50000x96_0_1),
    binary main_v52 main_v64 main_v65 (subf),
    nullary main_cst_14 (constant S_ .f32 0x3727C5AC#32),
    unary main_cst_14 main_v66 (broadcastInDim S96 ![] bcast_S_S96),
    binary main_v62 main_v66 main_v67 (addf),
    unary main_v67 main_v68 (Host.rsqrt),
    unary main_v68 main_v69 (broadcastInDim S1x96 ![1] bcast_S96_S1x96_1),
    unary main_v69 main_v70 (broadcastInDim S50000x96 ![0, 1] bcast_S1x96_S50000x96_0_1),
    binary main_v65 main_v70 main_v71 (mulf),
    unary main_arg5 main_v72 ((extractStridedSlice S1x96 ![0, 0] · slices_S4x96_S1x96_0_0)),
    reshape main_v72 main_v73 rfl shapeCasts_S1x96_S96,
    unary main_v73 main_v74 (broadcastInDim S1x96 ![1] bcast_S96_S1x96_1),
    unary main_v74 main_v75 (broadcastInDim S50000x96 ![0, 1] bcast_S1x96_S50000x96_0_1),
    binary main_v71 main_v75 main_v76 (mulf),
    unary main_arg6 main_v77 ((extractStridedSlice S1x96 ![0, 0] · slices_S4x96_S1x96_0_0)),
    reshape main_v77 main_v78 rfl shapeCasts_S1x96_S96,
    unary main_v78 main_v79 (broadcastInDim S1x96 ![1] bcast_S96_S1x96_1),
    unary main_v79 main_v80 (broadcastInDim S50000x96 ![0, 1] bcast_S1x96_S50000x96_0_1),
    binary main_v76 main_v80 main_v81 (addf),
    TRef.nullary (TRef.of (T := ⟨S_, .f32⟩) main_call1_cst) (constant S_ .f32 0x00000000#32),
    TRef.unary (TRef.of (T := ⟨S_, .f32⟩) main_call1_cst) (TRef.of (T := ⟨S50000x96, .f32⟩) main_call1_v0) (broadcastInDim S50000x96 ![] bcast_S_S50000x96),
    TRef.binary (TRef.of (T := ⟨S50000x96, .f32⟩) main_v81) (TRef.of (T := ⟨S50000x96, .f32⟩) main_call1_v0) (TRef.of (T := ⟨S50000x96, .f32⟩) main_v82) maximumf ]
theorem opsB0_sub : (opsB0 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem opsB0_fresh : ∀ op ∈ (opsB0 : List (HloOp τ sig (Elt F))), op.fresh = ∅ := by
  intro _ h; (repeat (cases h with | head => rfl | tail _ h => ?_)); exact nomatch h

abbrev opsA1 : List (HloOp τ sig (Elt F)) :=
  [ unary main_arg3 main_v83 ((extractStridedSlice S1x96x96 ![1, 0, 0] · slices_S4x96x96_S1x96x96_1_0_0)),
    reshape main_v83 main_v84 rfl shapeCasts_S1x96x96_S96x96,
    binary main_v82 main_v84 main_v85 ((fun l r => Host.dotGeneral dot_S50000x96_S96x96_S50000x96_1_0_0_1_n_n none l r)),
    nullary main_c_15 (constantI S_ 32 0#32),
    unary main_c_15 main_v86 (broadcastInDim S850000 ![] bcast_S_S850000),
    binary main_v3 main_v86 main_v87 (cmpi .slt),
    nullary main_c_16 (constantI S_ 32 50000#32),
    unary main_c_16 main_v88 (broadcastInDim S850000 ![] bcast_S_S850000),
    binary main_v3 main_v88 main_v89 (addi),
    ternary main_v87 main_v89 main_v3 main_v90 (select),
    unary main_v90 main_v91 (broadcastInDim S850000x1 ![0] bcast_S850000_S850000x1_0),
    binary main_v85 main_v91 main_v92 ((fun x i => Host.gather gather_S50000x96_S850000x1_S850000x96_1_0_n_n_0_1_196 x i)),
    unary main_v31 main_v93 (broadcastInDim S850000x1 ![0] bcast_S850000_S850000x1_0),
    unary main_v93 main_v94 (broadcastInDim S850000x96 ![0, 1] bcast_S850000x1_S850000x96_0_1),
    binary main_v92 main_v94 main_v95 (mulf),
    nullary main_cst_17 (constant S_ .f32 0x00000000#32),
    unary main_cst_17 main_v96 (broadcastInDim S50000x96 ![] bcast_S_S50000x96),
    unary main_v6 main_v97 (broadcastInDim S850000x1 ![0] bcast_S850000_S850000x1_0),
    ternary main_v96 main_v97 main_v95 main_v98 ((fun x i u => Host.scatterAdd scatter_S50000x96_S850000x1_S850000x96_1_0_0_1 x i u)),
    unary main_arg4 main_v99 ((extractStridedSlice S1x96 ![1, 0] · slices_S4x96_S1x96_1_0)),
    reshape main_v99 main_v100 rfl shapeCasts_S1x96_S96,
    unary main_v100 main_v101 (broadcastInDim S1x96 ![1] bcast_S96_S1x96_1),
    unary main_v101 main_v102 (broadcastInDim S50000x96 ![0, 1] bcast_S1x96_S50000x96_0_1),
    binary main_v98 main_v102 main_v103 (addf) ]
theorem opsA1_sub : (opsA1 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩
theorem opsA1_fresh : ∀ op ∈ (opsA1 : List (HloOp τ sig (Elt F))), op.fresh = ∅ := by
  intro _ h; (repeat (cases h with | head => rfl | tail _ h => ?_)); exact nomatch h

abbrev opsB1 : List (HloOp τ sig (Elt F)) :=
  [ nullary main_cst_18 (constant S_ .f32 0x00000000#32),
    binary main_v103 main_cst_18 main_v104 ((fun x v => Host.reduceAdd x v reducesTo_S50000x96_S96_d0 h_S_)),
    nullary main_cst_19 (constant S_ .f32 0x47435000#32),
    unary main_cst_19 main_v105 (broadcastInDim S96 ![] bcast_S_S96),
    binary main_v104 main_v105 main_v106 (Host.divf),
    unary main_v106 main_v107 (broadcastInDim S1x96 ![1] bcast_S96_S1x96_1),
    unary main_v107 main_v108 (broadcastInDim S50000x96 ![0, 1] bcast_S1x96_S50000x96_0_1),
    binary main_v103 main_v108 main_v109 (subf),
    binary main_v109 main_v109 main_v110 (mulf),
    nullary main_cst_20 (constant S_ .f32 0x00000000#32),
    binary main_v110 main_cst_20 main_v111 ((fun x v => Host.reduceAdd x v reducesTo_S50000x96_S96_d0 h_S_)),
    nullary main_cst_21 (constant S_ .f32 0x47435000#32),
    unary main_cst_21 main_v112 (broadcastInDim S96 ![] bcast_S_S96),
    binary main_v111 main_v112 main_v113 (Host.divf),
    unary main_v106 main_v114 (broadcastInDim S1x96 ![1] bcast_S96_S1x96_1),
    unary main_v114 main_v115 (broadcastInDim S50000x96 ![0, 1] bcast_S1x96_S50000x96_0_1),
    binary main_v103 main_v115 main_v116 (subf),
    nullary main_cst_22 (constant S_ .f32 0x3727C5AC#32),
    unary main_cst_22 main_v117 (broadcastInDim S96 ![] bcast_S_S96),
    binary main_v113 main_v117 main_v118 (addf),
    unary main_v118 main_v119 (Host.rsqrt),
    unary main_v119 main_v120 (broadcastInDim S1x96 ![1] bcast_S96_S1x96_1),
    unary main_v120 main_v121 (broadcastInDim S50000x96 ![0, 1] bcast_S1x96_S50000x96_0_1),
    binary main_v116 main_v121 main_v122 (mulf),
    unary main_arg5 main_v123 ((extractStridedSlice S1x96 ![1, 0] · slices_S4x96_S1x96_1_0)),
    reshape main_v123 main_v124 rfl shapeCasts_S1x96_S96,
    unary main_v124 main_v125 (broadcastInDim S1x96 ![1] bcast_S96_S1x96_1),
    unary main_v125 main_v126 (broadcastInDim S50000x96 ![0, 1] bcast_S1x96_S50000x96_0_1),
    binary main_v122 main_v126 main_v127 (mulf),
    unary main_arg6 main_v128 ((extractStridedSlice S1x96 ![1, 0] · slices_S4x96_S1x96_1_0)),
    reshape main_v128 main_v129 rfl shapeCasts_S1x96_S96,
    unary main_v129 main_v130 (broadcastInDim S1x96 ![1] bcast_S96_S1x96_1),
    unary main_v130 main_v131 (broadcastInDim S50000x96 ![0, 1] bcast_S1x96_S50000x96_0_1),
    binary main_v127 main_v131 main_v132 (addf),
    TRef.nullary (TRef.of (T := ⟨S_, .f32⟩) main_call2_cst) (constant S_ .f32 0x00000000#32),
    TRef.unary (TRef.of (T := ⟨S_, .f32⟩) main_call2_cst) (TRef.of (T := ⟨S50000x96, .f32⟩) main_call2_v0) (broadcastInDim S50000x96 ![] bcast_S_S50000x96),
    TRef.binary (TRef.of (T := ⟨S50000x96, .f32⟩) main_v132) (TRef.of (T := ⟨S50000x96, .f32⟩) main_call2_v0) (TRef.of (T := ⟨S50000x96, .f32⟩) main_v133) maximumf ]
theorem opsB1_sub : (opsB1 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem opsB1_fresh : ∀ op ∈ (opsB1 : List (HloOp τ sig (Elt F))), op.fresh = ∅ := by
  intro _ h; (repeat (cases h with | head => rfl | tail _ h => ?_)); exact nomatch h

abbrev opsA2 : List (HloOp τ sig (Elt F)) :=
  [ unary main_arg3 main_v134 ((extractStridedSlice S1x96x96 ![2, 0, 0] · slices_S4x96x96_S1x96x96_2_0_0)),
    reshape main_v134 main_v135 rfl shapeCasts_S1x96x96_S96x96,
    binary main_v133 main_v135 main_v136 ((fun l r => Host.dotGeneral dot_S50000x96_S96x96_S50000x96_1_0_0_1_n_n none l r)),
    nullary main_c_23 (constantI S_ 32 0#32),
    unary main_c_23 main_v137 (broadcastInDim S850000 ![] bcast_S_S850000),
    binary main_v3 main_v137 main_v138 (cmpi .slt),
    nullary main_c_24 (constantI S_ 32 50000#32),
    unary main_c_24 main_v139 (broadcastInDim S850000 ![] bcast_S_S850000),
    binary main_v3 main_v139 main_v140 (addi),
    ternary main_v138 main_v140 main_v3 main_v141 (select),
    unary main_v141 main_v142 (broadcastInDim S850000x1 ![0] bcast_S850000_S850000x1_0),
    binary main_v136 main_v142 main_v143 ((fun x i => Host.gather gather_S50000x96_S850000x1_S850000x96_1_0_n_n_0_1_196 x i)),
    unary main_v31 main_v144 (broadcastInDim S850000x1 ![0] bcast_S850000_S850000x1_0),
    unary main_v144 main_v145 (broadcastInDim S850000x96 ![0, 1] bcast_S850000x1_S850000x96_0_1),
    binary main_v143 main_v145 main_v146 (mulf),
    nullary main_cst_25 (constant S_ .f32 0x00000000#32),
    unary main_cst_25 main_v147 (broadcastInDim S50000x96 ![] bcast_S_S50000x96),
    unary main_v6 main_v148 (broadcastInDim S850000x1 ![0] bcast_S850000_S850000x1_0),
    ternary main_v147 main_v148 main_v146 main_v149 ((fun x i u => Host.scatterAdd scatter_S50000x96_S850000x1_S850000x96_1_0_0_1 x i u)),
    unary main_arg4 main_v150 ((extractStridedSlice S1x96 ![2, 0] · slices_S4x96_S1x96_2_0)),
    reshape main_v150 main_v151 rfl shapeCasts_S1x96_S96,
    unary main_v151 main_v152 (broadcastInDim S1x96 ![1] bcast_S96_S1x96_1),
    unary main_v152 main_v153 (broadcastInDim S50000x96 ![0, 1] bcast_S1x96_S50000x96_0_1),
    binary main_v149 main_v153 main_v154 (addf) ]
theorem opsA2_sub : (opsA2 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩
theorem opsA2_fresh : ∀ op ∈ (opsA2 : List (HloOp τ sig (Elt F))), op.fresh = ∅ := by
  intro _ h; (repeat (cases h with | head => rfl | tail _ h => ?_)); exact nomatch h

abbrev opsB2 : List (HloOp τ sig (Elt F)) :=
  [ nullary main_cst_26 (constant S_ .f32 0x00000000#32),
    binary main_v154 main_cst_26 main_v155 ((fun x v => Host.reduceAdd x v reducesTo_S50000x96_S96_d0 h_S_)),
    nullary main_cst_27 (constant S_ .f32 0x47435000#32),
    unary main_cst_27 main_v156 (broadcastInDim S96 ![] bcast_S_S96),
    binary main_v155 main_v156 main_v157 (Host.divf),
    unary main_v157 main_v158 (broadcastInDim S1x96 ![1] bcast_S96_S1x96_1),
    unary main_v158 main_v159 (broadcastInDim S50000x96 ![0, 1] bcast_S1x96_S50000x96_0_1),
    binary main_v154 main_v159 main_v160 (subf),
    binary main_v160 main_v160 main_v161 (mulf),
    nullary main_cst_28 (constant S_ .f32 0x00000000#32),
    binary main_v161 main_cst_28 main_v162 ((fun x v => Host.reduceAdd x v reducesTo_S50000x96_S96_d0 h_S_)),
    nullary main_cst_29 (constant S_ .f32 0x47435000#32),
    unary main_cst_29 main_v163 (broadcastInDim S96 ![] bcast_S_S96),
    binary main_v162 main_v163 main_v164 (Host.divf),
    unary main_v157 main_v165 (broadcastInDim S1x96 ![1] bcast_S96_S1x96_1),
    unary main_v165 main_v166 (broadcastInDim S50000x96 ![0, 1] bcast_S1x96_S50000x96_0_1),
    binary main_v154 main_v166 main_v167 (subf),
    nullary main_cst_30 (constant S_ .f32 0x3727C5AC#32),
    unary main_cst_30 main_v168 (broadcastInDim S96 ![] bcast_S_S96),
    binary main_v164 main_v168 main_v169 (addf),
    unary main_v169 main_v170 (Host.rsqrt),
    unary main_v170 main_v171 (broadcastInDim S1x96 ![1] bcast_S96_S1x96_1),
    unary main_v171 main_v172 (broadcastInDim S50000x96 ![0, 1] bcast_S1x96_S50000x96_0_1),
    binary main_v167 main_v172 main_v173 (mulf),
    unary main_arg5 main_v174 ((extractStridedSlice S1x96 ![2, 0] · slices_S4x96_S1x96_2_0)),
    reshape main_v174 main_v175 rfl shapeCasts_S1x96_S96,
    unary main_v175 main_v176 (broadcastInDim S1x96 ![1] bcast_S96_S1x96_1),
    unary main_v176 main_v177 (broadcastInDim S50000x96 ![0, 1] bcast_S1x96_S50000x96_0_1),
    binary main_v173 main_v177 main_v178 (mulf),
    unary main_arg6 main_v179 ((extractStridedSlice S1x96 ![2, 0] · slices_S4x96_S1x96_2_0)),
    reshape main_v179 main_v180 rfl shapeCasts_S1x96_S96,
    unary main_v180 main_v181 (broadcastInDim S1x96 ![1] bcast_S96_S1x96_1),
    unary main_v181 main_v182 (broadcastInDim S50000x96 ![0, 1] bcast_S1x96_S50000x96_0_1),
    binary main_v178 main_v182 main_v183 (addf),
    TRef.nullary (TRef.of (T := ⟨S_, .f32⟩) main_call3_cst) (constant S_ .f32 0x00000000#32),
    TRef.unary (TRef.of (T := ⟨S_, .f32⟩) main_call3_cst) (TRef.of (T := ⟨S50000x96, .f32⟩) main_call3_v0) (broadcastInDim S50000x96 ![] bcast_S_S50000x96),
    TRef.binary (TRef.of (T := ⟨S50000x96, .f32⟩) main_v183) (TRef.of (T := ⟨S50000x96, .f32⟩) main_call3_v0) (TRef.of (T := ⟨S50000x96, .f32⟩) main_v184) maximumf ]
theorem opsB2_sub : (opsB2 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem opsB2_fresh : ∀ op ∈ (opsB2 : List (HloOp τ sig (Elt F))), op.fresh = ∅ := by
  intro _ h; (repeat (cases h with | head => rfl | tail _ h => ?_)); exact nomatch h

abbrev opsA3 : List (HloOp τ sig (Elt F)) :=
  [ unary main_arg3 main_v185 ((extractStridedSlice S1x96x96 ![3, 0, 0] · slices_S4x96x96_S1x96x96_3_0_0)),
    reshape main_v185 main_v186 rfl shapeCasts_S1x96x96_S96x96,
    binary main_v184 main_v186 main_v187 ((fun l r => Host.dotGeneral dot_S50000x96_S96x96_S50000x96_1_0_0_1_n_n none l r)),
    nullary main_c_31 (constantI S_ 32 0#32),
    unary main_c_31 main_v188 (broadcastInDim S850000 ![] bcast_S_S850000),
    binary main_v3 main_v188 main_v189 (cmpi .slt),
    nullary main_c_32 (constantI S_ 32 50000#32),
    unary main_c_32 main_v190 (broadcastInDim S850000 ![] bcast_S_S850000),
    binary main_v3 main_v190 main_v191 (addi),
    ternary main_v189 main_v191 main_v3 main_v192 (select),
    unary main_v192 main_v193 (broadcastInDim S850000x1 ![0] bcast_S850000_S850000x1_0),
    binary main_v187 main_v193 main_v194 ((fun x i => Host.gather gather_S50000x96_S850000x1_S850000x96_1_0_n_n_0_1_196 x i)),
    unary main_v31 main_v195 (broadcastInDim S850000x1 ![0] bcast_S850000_S850000x1_0),
    unary main_v195 main_v196 (broadcastInDim S850000x96 ![0, 1] bcast_S850000x1_S850000x96_0_1),
    binary main_v194 main_v196 main_v197 (mulf),
    nullary main_cst_33 (constant S_ .f32 0x00000000#32),
    unary main_cst_33 main_v198 (broadcastInDim S50000x96 ![] bcast_S_S50000x96),
    unary main_v6 main_v199 (broadcastInDim S850000x1 ![0] bcast_S850000_S850000x1_0),
    ternary main_v198 main_v199 main_v197 main_v200 ((fun x i u => Host.scatterAdd scatter_S50000x96_S850000x1_S850000x96_1_0_0_1 x i u)),
    unary main_arg4 main_v201 ((extractStridedSlice S1x96 ![3, 0] · slices_S4x96_S1x96_3_0)),
    reshape main_v201 main_v202 rfl shapeCasts_S1x96_S96,
    unary main_v202 main_v203 (broadcastInDim S1x96 ![1] bcast_S96_S1x96_1),
    unary main_v203 main_v204 (broadcastInDim S50000x96 ![0, 1] bcast_S1x96_S50000x96_0_1),
    binary main_v200 main_v204 main_v205 (addf) ]
theorem opsA3_sub : (opsA3 : List (HloOp τ sig (Elt F))).Forall fun op => op.bufs ⊆ tcRefs τ sig :=
  ⟨unary_bufs_sub .., reshape_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., reshape_bufs_sub .., unary_bufs_sub .., unary_bufs_sub .., binary_bufs_sub ..⟩
theorem opsA3_fresh : ∀ op ∈ (opsA3 : List (HloOp τ sig (Elt F))), op.fresh = ∅ := by
  intro _ h; (repeat (cases h with | head => rfl | tail _ h => ?_)); exact nomatch h

abbrev opsB3 : List (HloOp τ sig (Elt F)) :=
  [ nullary main_cst_34 (constant S_ .f32 0x00000000#32),
    binary main_v205 main_cst_34 main_v206 ((fun x v => Host.reduceAdd x v reducesTo_S50000x96_S96_d0 h_S_)),
    nullary main_cst_35 (constant S_ .f32 0x47435000#32),
    unary main_cst_35 main_v207 (broadcastInDim S96 ![] bcast_S_S96),
    binary main_v206 main_v207 main_v208 (Host.divf),
    unary main_v208 main_v209 (broadcastInDim S1x96 ![1] bcast_S96_S1x96_1),
    unary main_v209 main_v210 (broadcastInDim S50000x96 ![0, 1] bcast_S1x96_S50000x96_0_1),
    binary main_v205 main_v210 main_v211 (subf),
    binary main_v211 main_v211 main_v212 (mulf),
    nullary main_cst_36 (constant S_ .f32 0x00000000#32),
    binary main_v212 main_cst_36 main_v213 ((fun x v => Host.reduceAdd x v reducesTo_S50000x96_S96_d0 h_S_)),
    nullary main_cst_37 (constant S_ .f32 0x47435000#32),
    unary main_cst_37 main_v214 (broadcastInDim S96 ![] bcast_S_S96),
    binary main_v213 main_v214 main_v215 (Host.divf),
    unary main_v208 main_v216 (broadcastInDim S1x96 ![1] bcast_S96_S1x96_1),
    unary main_v216 main_v217 (broadcastInDim S50000x96 ![0, 1] bcast_S1x96_S50000x96_0_1),
    binary main_v205 main_v217 main_v218 (subf),
    nullary main_cst_38 (constant S_ .f32 0x3727C5AC#32),
    unary main_cst_38 main_v219 (broadcastInDim S96 ![] bcast_S_S96),
    binary main_v215 main_v219 main_v220 (addf),
    unary main_v220 main_v221 (Host.rsqrt),
    unary main_v221 main_v222 (broadcastInDim S1x96 ![1] bcast_S96_S1x96_1),
    unary main_v222 main_v223 (broadcastInDim S50000x96 ![0, 1] bcast_S1x96_S50000x96_0_1),
    binary main_v218 main_v223 main_v224 (mulf),
    unary main_arg5 main_v225 ((extractStridedSlice S1x96 ![3, 0] · slices_S4x96_S1x96_3_0)),
    reshape main_v225 main_v226 rfl shapeCasts_S1x96_S96,
    unary main_v226 main_v227 (broadcastInDim S1x96 ![1] bcast_S96_S1x96_1),
    unary main_v227 main_v228 (broadcastInDim S50000x96 ![0, 1] bcast_S1x96_S50000x96_0_1),
    binary main_v224 main_v228 main_v229 (mulf),
    unary main_arg6 main_v230 ((extractStridedSlice S1x96 ![3, 0] · slices_S4x96_S1x96_3_0)),
    reshape main_v230 main_v231 rfl shapeCasts_S1x96_S96,
    unary main_v231 main_v232 (broadcastInDim S1x96 ![1] bcast_S96_S1x96_1),
    unary main_v232 main_v233 (broadcastInDim S50000x96 ![0, 1] bcast_S1x96_S50000x96_0_1),
    binary main_v229 main_v233 main_v234 (addf),
    TRef.nullary (TRef.of (T := ⟨S_, .f32⟩) main_call4_cst) (constant S_ .f32 0x00000000#32),
    TRef.unary (TRef.of (T := ⟨S_, .f32⟩) main_call4_cst) (TRef.of (T := ⟨S50000x96, .f32⟩) main_call4_v0) (broadcastInDim S50000x96 ![] bcast_S_S50000x96),
    TRef.binary (TRef.of (T := ⟨S50000x96, .f32⟩) main_v234) (TRef.of (T := ⟨S50000x96, .f32⟩) main_call4_v0) (TRef.of (T := ⟨S50000x96, .f32⟩) main_v235) maximumf ]
theorem opsB3_sub : (opsB3 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., unary_bufs_sub .., binary_bufs_sub ..⟩
theorem opsB3_fresh : ∀ op ∈ (opsB3 : List (HloOp τ sig (Elt F))), op.fresh = ∅ := by
  intro _ h; (repeat (cases h with | head => rfl | tail _ h => ?_)); exact nomatch h

abbrev opsT : List (HloOp τ sig (Elt F)) :=
  [ nullary main_cst_39 (constant S_ .f32 0x00000000#32),
    unary main_cst_39 main_v236 (broadcastInDim S256x96 ![] bcast_S_S256x96),
    unary main_arg2 main_v237 (broadcastInDim S50000x1 ![0] bcast_S50000_S50000x1_0),
    ternary main_v236 main_v237 main_v235 main_v238 ((fun x i u => Host.scatterAdd scatter_S256x96_S50000x1_S50000x96_1_0_0_1 x i u)),
    nullary main_cst_40 (constant S_ .f32 0x3F800000#32),
    unary main_cst_40 main_v239 (broadcastInDim S50000 ![] bcast_S_S50000),
    nullary main_cst_41 (constant S_ .f32 0x00000000#32),
    unary main_cst_41 main_v240 (broadcastInDim S256 ![] bcast_S_S256),
    unary main_arg2 main_v241 (broadcastInDim S50000x1 ![0] bcast_S50000_S50000x1_0),
    ternary main_v240 main_v241 main_v239 main_v242 ((fun x i u => Host.scatterAdd scatter_S256_S50000x1_S50000_n_0_0_1 x i u)),
    nullary main_cst_42 (constant S_ .f32 0x3F800000#32),
    unary main_cst_42 main_v243 (broadcastInDim S256 ![] bcast_S_S256),
    binary main_v242 main_v243 main_v244 (maximumf),
    unary main_v244 main_v245 (broadcastInDim S256x1 ![0] bcast_S256_S256x1_0),
    unary main_v245 main_v246 (broadcastInDim S256x96 ![0, 1] bcast_S256x1_S256x96_0_1),
    binary main_v238 main_v246 main_v247 (Host.divf) ]
theorem opsT_sub : (opsT : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩
theorem opsT_fresh : ∀ op ∈ (opsT : List (HloOp τ sig (Elt F))), op.fresh = ∅ := by
  intro _ h; (repeat (cases h with | head => rfl | tail _ h => ?_)); exact nomatch h

end Cert.ReferenceIdeal.HandRun
-- ==== Proof.RefRun.Edges.lean ====
import proofs.«406641_j72756745994790_1_alg».proof.Proof.RefRun.Ops
import proofs.«406641_j72756745994790_1_alg».proof.Proof.SpecOps

noncomputable section

namespace Cert.ReferenceIdeal.HandRun

open Cert.ReferenceIdeal Cert.ReferenceIdeal.Gen Idealize.ShloMosaic Idealize.ShloMosaic.TcCoe Idealize.SL.Sem Idealize.ShloMosaic.StableHlo

theorem afterP1_src (V : Valuation τ sig (Elt Ideal)) :
    after (opsP1 (F := Ideal)) V (Proc.devRef .tc main_v3) = Spec.srcList (V (Proc.devRef .tc main_arg1)) := by
  after_results
  rfl
theorem afterP1_dst (V : Valuation τ sig (Elt Ideal)) :
    after (opsP1 (F := Ideal)) V (Proc.devRef .tc main_v6) = Spec.dstList (V (Proc.devRef .tc main_arg1)) := by
  after_results
  rfl
theorem afterP1_main_arg0 (V : Valuation τ sig (Elt Ideal)) :
    after (opsP1 (F := Ideal)) V (Proc.devRef .tc main_arg0) = V (Proc.devRef .tc main_arg0) := by
  after_results_simp
theorem afterP1_main_arg1 (V : Valuation τ sig (Elt Ideal)) :
    after (opsP1 (F := Ideal)) V (Proc.devRef .tc main_arg1) = V (Proc.devRef .tc main_arg1) := by
  after_results_simp
theorem afterP1_main_arg2 (V : Valuation τ sig (Elt Ideal)) :
    after (opsP1 (F := Ideal)) V (Proc.devRef .tc main_arg2) = V (Proc.devRef .tc main_arg2) := by
  after_results_simp
theorem afterP1_main_arg3 (V : Valuation τ sig (Elt Ideal)) :
    after (opsP1 (F := Ideal)) V (Proc.devRef .tc main_arg3) = V (Proc.devRef .tc main_arg3) := by
  after_results_simp
theorem afterP1_main_arg4 (V : Valuation τ sig (Elt Ideal)) :
    after (opsP1 (F := Ideal)) V (Proc.devRef .tc main_arg4) = V (Proc.devRef .tc main_arg4) := by
  after_results_simp
theorem afterP1_main_arg5 (V : Valuation τ sig (Elt Ideal)) :
    after (opsP1 (F := Ideal)) V (Proc.devRef .tc main_arg5) = V (Proc.devRef .tc main_arg5) := by
  after_results_simp
theorem afterP1_main_arg6 (V : Valuation τ sig (Elt Ideal)) :
    after (opsP1 (F := Ideal)) V (Proc.devRef .tc main_arg6) = V (Proc.devRef .tc main_arg6) := by
  after_results_simp

section AnyInstance

variable {F : FTy → Type} [FloatOps F]

def startIdxF (l : IVec S850000 32) : IVec S850000x1 32 :=
  broadcastInDim S850000x1 ![0] bcast_S850000_S850000x1_0
    (select (cmpi .slt l (broadcastInDim S850000 ![] bcast_S_S850000 (constantI S_ 32 0#32)))
      (addi l (broadcastInDim S850000 ![] bcast_S_S850000 (constantI S_ 32 50000#32))) l)

def degreeF (dstL : IVec S850000 32) : FVec F S50000 .f32 :=
  Host.scatterAdd scatter_S50000_S850000x1_S850000_n_0_0_1 (broadcastInDim S50000 ![] bcast_S_S50000 (constant (F := F) S_ .f32 0x00000000#32))
    (broadcastInDim S850000x1 ![0] bcast_S850000_S850000x1_0 dstL) (broadcastInDim S850000 ![] bcast_S_S850000 (constant (F := F) S_ .f32 0x3F800000#32))

def invSqrtDegF (dstL : IVec S850000 32) : FVec F S50000 .f32 :=
  select (cmpf .ogt (degreeF (F := F) dstL) (broadcastInDim S50000 ![] bcast_S_S50000 (constant (F := F) S_ .f32 0x00000000#32)))
    (Host.rsqrt (maximumf (degreeF (F := F) dstL) (broadcastInDim S50000 ![] bcast_S_S50000 (constant (F := F) S_ .f32 0x3F800000#32))))
    (broadcastInDim S50000 ![] bcast_S_S50000 (id (constant (F := F) S_ .f32 0x00000000#32)))

def edgeNormF (srcL dstL : IVec S850000 32) : FVec F S850000 .f32 :=
  mulf (Host.gather gather_S50000_S850000x1_S850000_n_0_n_n_0_1_1 (invSqrtDegF (F := F) dstL) (startIdxF srcL))
    (Host.gather gather_S50000_S850000x1_S850000_n_0_n_n_0_1_1 (invSqrtDegF (F := F) dstL) (startIdxF dstL))

theorem afterP2_normF (V : Valuation τ sig (Elt F)) :
    after (opsP2 (F := F)) V (Proc.devRef .tc main_v31) = edgeNormF (F := F) (V (Proc.devRef .tc main_v3)) (V (Proc.devRef .tc main_v6)) := by
  after_results_simp
  rfl

end AnyInstance

theorem startIdxF_eq (l : IVec S850000 32) : startIdxF l = Spec.startIdx l := rfl
theorem degreeF_eq (dstL : IVec S850000 32) : degreeF (F := Ideal) dstL = Spec.degree dstL := rfl
theorem invSqrtDegF_eq (dstL : IVec S850000 32) : invSqrtDegF (F := Ideal) dstL = Spec.invSqrtDeg dstL := by
  unfold invSqrtDegF Spec.invSqrtDeg
  rw [degreeF_eq]
theorem edgeNormF_eq (srcL dstL : IVec S850000 32) : edgeNormF (F := Ideal) srcL dstL = Spec.edgeNorm srcL dstL := by
  unfold edgeNormF Spec.edgeNorm
  rw [invSqrtDegF_eq, startIdxF_eq, startIdxF_eq]
  rfl

theorem afterP2_norm (V : Valuation τ sig (Elt Ideal)) :
    after (opsP2 (F := Ideal)) V (Proc.devRef .tc main_v31) = Spec.edgeNorm (V (Proc.devRef .tc main_v3)) (V (Proc.devRef .tc main_v6)) :=
  (afterP2_normF V).trans (edgeNormF_eq _ _)
theorem afterP2_main_v3 (V : Valuation τ sig (Elt Ideal)) :
    after (opsP2 (F := Ideal)) V (Proc.devRef .tc main_v3) = V (Proc.devRef .tc main_v3) := by
  after_results_simp
theorem afterP2_main_v6 (V : Valuation τ sig (Elt Ideal)) :
    after (opsP2 (F := Ideal)) V (Proc.devRef .tc main_v6) = V (Proc.devRef .tc main_v6) := by
  after_results_simp
theorem afterP2_main_arg0 (V : Valuation τ sig (Elt Ideal)) :
    after (opsP2 (F := Ideal)) V (Proc.devRef .tc main_arg0) = V (Proc.devRef .tc main_arg0) := by
  after_results_simp
theorem afterP2_main_arg1 (V : Valuation τ sig (Elt Ideal)) :
    after (opsP2 (F := Ideal)) V (Proc.devRef .tc main_arg1) = V (Proc.devRef .tc main_arg1) := by
  after_results_simp
theorem afterP2_main_arg2 (V : Valuation τ sig (Elt Ideal)) :
    after (opsP2 (F := Ideal)) V (Proc.devRef .tc main_arg2) = V (Proc.devRef .tc main_arg2) := by
  after_results_simp
theorem afterP2_main_arg3 (V : Valuation τ sig (Elt Ideal)) :
    after (opsP2 (F := Ideal)) V (Proc.devRef .tc main_arg3) = V (Proc.devRef .tc main_arg3) := by
  after_results_simp
theorem afterP2_main_arg4 (V : Valuation τ sig (Elt Ideal)) :
    after (opsP2 (F := Ideal)) V (Proc.devRef .tc main_arg4) = V (Proc.devRef .tc main_arg4) := by
  after_results_simp
theorem afterP2_main_arg5 (V : Valuation τ sig (Elt Ideal)) :
    after (opsP2 (F := Ideal)) V (Proc.devRef .tc main_arg5) = V (Proc.devRef .tc main_arg5) := by
  after_results_simp
theorem afterP2_main_arg6 (V : Valuation τ sig (Elt Ideal)) :
    after (opsP2 (F := Ideal)) V (Proc.devRef .tc main_arg6) = V (Proc.devRef .tc main_arg6) := by
  after_results_simp

end Cert.ReferenceIdeal.HandRun
-- ==== Proof.RefRun.Layer0.lean ====
import proofs.«406641_j72756745994790_1_alg».proof.Proof.RefRun.Ops
import proofs.«406641_j72756745994790_1_alg».proof.Proof.SpecOps

noncomputable section

namespace Cert.ReferenceIdeal.HandRun

open Cert.ReferenceIdeal Cert.ReferenceIdeal.Gen Idealize.ShloMosaic Idealize.ShloMosaic.TcCoe Idealize.SL.Sem Idealize.ShloMosaic.StableHlo

theorem afterA0_result (V : Valuation τ sig (Elt Ideal)) :
    after (opsA0 (F := Ideal)) V (Proc.devRef .tc main_v52)
      = Spec.agg (Spec.mm (V (Proc.devRef .tc main_arg0)) (Spec.wOf (V (Proc.devRef .tc main_arg3)) 0)) (V (Proc.devRef .tc main_v3)) (V (Proc.devRef .tc main_v6))
          (V (Proc.devRef .tc main_v31)) (Spec.rowOf (V (Proc.devRef .tc main_arg4)) 0) := by
  after_results_simp
  rw [← Spec.dot_eq_mm, ← Spec.weight0 (V (Proc.devRef .tc main_arg3)), ← Spec.row0 (V (Proc.devRef .tc main_arg4))]
  rfl
theorem afterA0_main_v3 (V : Valuation τ sig (Elt Ideal)) :
    after (opsA0 (F := Ideal)) V (Proc.devRef .tc main_v3) = V (Proc.devRef .tc main_v3) := by
  after_results_simp
theorem afterA0_main_v6 (V : Valuation τ sig (Elt Ideal)) :
    after (opsA0 (F := Ideal)) V (Proc.devRef .tc main_v6) = V (Proc.devRef .tc main_v6) := by
  after_results_simp
theorem afterA0_main_v31 (V : Valuation τ sig (Elt Ideal)) :
    after (opsA0 (F := Ideal)) V (Proc.devRef .tc main_v31) = V (Proc.devRef .tc main_v31) := by
  after_results_simp
theorem afterA0_main_arg0 (V : Valuation τ sig (Elt Ideal)) :
    after (opsA0 (F := Ideal)) V (Proc.devRef .tc main_arg0) = V (Proc.devRef .tc main_arg0) := by
  after_results_simp
theorem afterA0_main_arg1 (V : Valuation τ sig (Elt Ideal)) :
    after (opsA0 (F := Ideal)) V (Proc.devRef .tc main_arg1) = V (Proc.devRef .tc main_arg1) := by
  after_results_simp
theorem afterA0_main_arg2 (V : Valuation τ sig (Elt Ideal)) :
    after (opsA0 (F := Ideal)) V (Proc.devRef .tc main_arg2) = V (Proc.devRef .tc main_arg2) := by
  after_results_simp
theorem afterA0_main_arg3 (V : Valuation τ sig (Elt Ideal)) :
    after (opsA0 (F := Ideal)) V (Proc.devRef .tc main_arg3) = V (Proc.devRef .tc main_arg3) := by
  after_results_simp
theorem afterA0_main_arg4 (V : Valuation τ sig (Elt Ideal)) :
    after (opsA0 (F := Ideal)) V (Proc.devRef .tc main_arg4) = V (Proc.devRef .tc main_arg4) := by
  after_results_simp
theorem afterA0_main_arg5 (V : Valuation τ sig (Elt Ideal)) :
    after (opsA0 (F := Ideal)) V (Proc.devRef .tc main_arg5) = V (Proc.devRef .tc main_arg5) := by
  after_results_simp
theorem afterA0_main_arg6 (V : Valuation τ sig (Elt Ideal)) :
    after (opsA0 (F := Ideal)) V (Proc.devRef .tc main_arg6) = V (Proc.devRef .tc main_arg6) := by
  after_results_simp

theorem afterB0_result (V : Valuation τ sig (Elt Ideal)) :
    after (opsB0 (F := Ideal)) V (Proc.devRef .tc main_v82)
      = Spec.bn (V (Proc.devRef .tc main_v52)) (Spec.rowOf (V (Proc.devRef .tc main_arg5)) 0) (Spec.rowOf (V (Proc.devRef .tc main_arg6)) 0) := by
  after_results_simp
  rw [← Spec.bnChain_eq, ← Spec.row0 (V (Proc.devRef .tc main_arg5)), ← Spec.row0 (V (Proc.devRef .tc main_arg6))]
  rfl
theorem afterB0_main_v3 (V : Valuation τ sig (Elt Ideal)) :
    after (opsB0 (F := Ideal)) V (Proc.devRef .tc main_v3) = V (Proc.devRef .tc main_v3) := by
  after_results_simp
theorem afterB0_main_v6 (V : Valuation τ sig (Elt Ideal)) :
    after (opsB0 (F := Ideal)) V (Proc.devRef .tc main_v6) = V (Proc.devRef .tc main_v6) := by
  after_results_simp
theorem afterB0_main_v31 (V : Valuation τ sig (Elt Ideal)) :
    after (opsB0 (F := Ideal)) V (Proc.devRef .tc main_v31) = V (Proc.devRef .tc main_v31) := by
  after_results_simp
theorem afterB0_main_arg0 (V : Valuation τ sig (Elt Ideal)) :
    after (opsB0 (F := Ideal)) V (Proc.devRef .tc main_arg0) = V (Proc.devRef .tc main_arg0) := by
  after_results_simp
theorem afterB0_main_arg1 (V : Valuation τ sig (Elt Ideal)) :
    after (opsB0 (F := Ideal)) V (Proc.devRef .tc main_arg1) = V (Proc.devRef .tc main_arg1) := by
  after_results_simp
theorem afterB0_main_arg2 (V : Valuation τ sig (Elt Ideal)) :
    after (opsB0 (F := Ideal)) V (Proc.devRef .tc main_arg2) = V (Proc.devRef .tc main_arg2) := by
  after_results_simp
theorem afterB0_main_arg3 (V : Valuation τ sig (Elt Ideal)) :
    after (opsB0 (F := Ideal)) V (Proc.devRef .tc main_arg3) = V (Proc.devRef .tc main_arg3) := by
  after_results_simp
theorem afterB0_main_arg4 (V : Valuation τ sig (Elt Ideal)) :
    after (opsB0 (F := Ideal)) V (Proc.devRef .tc main_arg4) = V (Proc.devRef .tc main_arg4) := by
  after_results_simp
theorem afterB0_main_arg5 (V : Valuation τ sig (Elt Ideal)) :
    after (opsB0 (F := Ideal)) V (Proc.devRef .tc main_arg5) = V (Proc.devRef .tc main_arg5) := by
  after_results_simp
theorem afterB0_main_arg6 (V : Valuation τ sig (Elt Ideal)) :
    after (opsB0 (F := Ideal)) V (Proc.devRef .tc main_arg6) = V (Proc.devRef .tc main_arg6) := by
  after_results_simp

end Cert.ReferenceIdeal.HandRun
-- ==== Proof.RefRun.Layer1.lean ====
import proofs.«406641_j72756745994790_1_alg».proof.Proof.RefRun.Ops
import proofs.«406641_j72756745994790_1_alg».proof.Proof.SpecOps

noncomputable section

namespace Cert.ReferenceIdeal.HandRun

open Cert.ReferenceIdeal Cert.ReferenceIdeal.Gen Idealize.ShloMosaic Idealize.ShloMosaic.TcCoe Idealize.SL.Sem Idealize.ShloMosaic.StableHlo

theorem afterA1_result (V : Valuation τ sig (Elt Ideal)) :
    after (opsA1 (F := Ideal)) V (Proc.devRef .tc main_v103)
      = Spec.agg (Spec.mm (V (Proc.devRef .tc main_v82)) (Spec.wOf (V (Proc.devRef .tc main_arg3)) 1)) (V (Proc.devRef .tc main_v3)) (V (Proc.devRef .tc main_v6))
          (V (Proc.devRef .tc main_v31)) (Spec.rowOf (V (Proc.devRef .tc main_arg4)) 1) := by
  after_results_simp
  rw [← Spec.dot_eq_mm, ← Spec.weight1 (V (Proc.devRef .tc main_arg3)), ← Spec.row1 (V (Proc.devRef .tc main_arg4))]
  rfl
theorem afterA1_main_v3 (V : Valuation τ sig (Elt Ideal)) :
    after (opsA1 (F := Ideal)) V (Proc.devRef .tc main_v3) = V (Proc.devRef .tc main_v3) := by
  after_results_simp
theorem afterA1_main_v6 (V : Valuation τ sig (Elt Ideal)) :
    after (opsA1 (F := Ideal)) V (Proc.devRef .tc main_v6) = V (Proc.devRef .tc main_v6) := by
  after_results_simp
theorem afterA1_main_v31 (V : Valuation τ sig (Elt Ideal)) :
    after (opsA1 (F := Ideal)) V (Proc.devRef .tc main_v31) = V (Proc.devRef .tc main_v31) := by
  after_results_simp
theorem afterA1_main_arg0 (V : Valuation τ sig (Elt Ideal)) :
    after (opsA1 (F := Ideal)) V (Proc.devRef .tc main_arg0) = V (Proc.devRef .tc main_arg0) := by
  after_results_simp
theorem afterA1_main_arg1 (V : Valuation τ sig (Elt Ideal)) :
    after (opsA1 (F := Ideal)) V (Proc.devRef .tc main_arg1) = V (Proc.devRef .tc main_arg1) := by
  after_results_simp
theorem afterA1_main_arg2 (V : Valuation τ sig (Elt Ideal)) :
    after (opsA1 (F := Ideal)) V (Proc.devRef .tc main_arg2) = V (Proc.devRef .tc main_arg2) := by
  after_results_simp
theorem afterA1_main_arg3 (V : Valuation τ sig (Elt Ideal)) :
    after (opsA1 (F := Ideal)) V (Proc.devRef .tc main_arg3) = V (Proc.devRef .tc main_arg3) := by
  after_results_simp
theorem afterA1_main_arg4 (V : Valuation τ sig (Elt Ideal)) :
    after (opsA1 (F := Ideal)) V (Proc.devRef .tc main_arg4) = V (Proc.devRef .tc main_arg4) := by
  after_results_simp
theorem afterA1_main_arg5 (V : Valuation τ sig (Elt Ideal)) :
    after (opsA1 (F := Ideal)) V (Proc.devRef .tc main_arg5) = V (Proc.devRef .tc main_arg5) := by
  after_results_simp
theorem afterA1_main_arg6 (V : Valuation τ sig (Elt Ideal)) :
    after (opsA1 (F := Ideal)) V (Proc.devRef .tc main_arg6) = V (Proc.devRef .tc main_arg6) := by
  after_results_simp

theorem afterB1_result (V : Valuation τ sig (Elt Ideal)) :
    after (opsB1 (F := Ideal)) V (Proc.devRef .tc main_v133)
      = Spec.bn (V (Proc.devRef .tc main_v103)) (Spec.rowOf (V (Proc.devRef .tc main_arg5)) 1) (Spec.rowOf (V (Proc.devRef .tc main_arg6)) 1) := by
  after_results_simp
  rw [← Spec.bnChain_eq, ← Spec.row1 (V (Proc.devRef .tc main_arg5)), ← Spec.row1 (V (Proc.devRef .tc main_arg6))]
  rfl
theorem afterB1_main_v3 (V : Valuation τ sig (Elt Ideal)) :
    after (opsB1 (F := Ideal)) V (Proc.devRef .tc main_v3) = V (Proc.devRef .tc main_v3) := by
  after_results_simp
theorem afterB1_main_v6 (V : Valuation τ sig (Elt Ideal)) :
    after (opsB1 (F := Ideal)) V (Proc.devRef .tc main_v6) = V (Proc.devRef .tc main_v6) := by
  after_results_simp
theorem afterB1_main_v31 (V : Valuation τ sig (Elt Ideal)) :
    after (opsB1 (F := Ideal)) V (Proc.devRef .tc main_v31) = V (Proc.devRef .tc main_v31) := by
  after_results_simp
theorem afterB1_main_arg0 (V : Valuation τ sig (Elt Ideal)) :
    after (opsB1 (F := Ideal)) V (Proc.devRef .tc main_arg0) = V (Proc.devRef .tc main_arg0) := by
  after_results_simp
theorem afterB1_main_arg1 (V : Valuation τ sig (Elt Ideal)) :
    after (opsB1 (F := Ideal)) V (Proc.devRef .tc main_arg1) = V (Proc.devRef .tc main_arg1) := by
  after_results_simp
theorem afterB1_main_arg2 (V : Valuation τ sig (Elt Ideal)) :
    after (opsB1 (F := Ideal)) V (Proc.devRef .tc main_arg2) = V (Proc.devRef .tc main_arg2) := by
  after_results_simp
theorem afterB1_main_arg3 (V : Valuation τ sig (Elt Ideal)) :
    after (opsB1 (F := Ideal)) V (Proc.devRef .tc main_arg3) = V (Proc.devRef .tc main_arg3) := by
  after_results_simp
theorem afterB1_main_arg4 (V : Valuation τ sig (Elt Ideal)) :
    after (opsB1 (F := Ideal)) V (Proc.devRef .tc main_arg4) = V (Proc.devRef .tc main_arg4) := by
  after_results_simp
theorem afterB1_main_arg5 (V : Valuation τ sig (Elt Ideal)) :
    after (opsB1 (F := Ideal)) V (Proc.devRef .tc main_arg5) = V (Proc.devRef .tc main_arg5) := by
  after_results_simp
theorem afterB1_main_arg6 (V : Valuation τ sig (Elt Ideal)) :
    after (opsB1 (F := Ideal)) V (Proc.devRef .tc main_arg6) = V (Proc.devRef .tc main_arg6) := by
  after_results_simp

end Cert.ReferenceIdeal.HandRun
-- ==== Proof.RefRun.Layer2.lean ====
import proofs.«406641_j72756745994790_1_alg».proof.Proof.RefRun.Ops
import proofs.«406641_j72756745994790_1_alg».proof.Proof.SpecOps

noncomputable section

namespace Cert.ReferenceIdeal.HandRun

open Cert.ReferenceIdeal Cert.ReferenceIdeal.Gen Idealize.ShloMosaic Idealize.ShloMosaic.TcCoe Idealize.SL.Sem Idealize.ShloMosaic.StableHlo

theorem afterA2_result (V : Valuation τ sig (Elt Ideal)) :
    after (opsA2 (F := Ideal)) V (Proc.devRef .tc main_v154)
      = Spec.agg (Spec.mm (V (Proc.devRef .tc main_v133)) (Spec.wOf (V (Proc.devRef .tc main_arg3)) 2)) (V (Proc.devRef .tc main_v3)) (V (Proc.devRef .tc main_v6))
          (V (Proc.devRef .tc main_v31)) (Spec.rowOf (V (Proc.devRef .tc main_arg4)) 2) := by
  after_results_simp
  rw [← Spec.dot_eq_mm, ← Spec.weight2 (V (Proc.devRef .tc main_arg3)), ← Spec.row2 (V (Proc.devRef .tc main_arg4))]
  rfl
theorem afterA2_main_v3 (V : Valuation τ sig (Elt Ideal)) :
    after (opsA2 (F := Ideal)) V (Proc.devRef .tc main_v3) = V (Proc.devRef .tc main_v3) := by
  after_results_simp
theorem afterA2_main_v6 (V : Valuation τ sig (Elt Ideal)) :
    after (opsA2 (F := Ideal)) V (Proc.devRef .tc main_v6) = V (Proc.devRef .tc main_v6) := by
  after_results_simp
theorem afterA2_main_v31 (V : Valuation τ sig (Elt Ideal)) :
    after (opsA2 (F := Ideal)) V (Proc.devRef .tc main_v31) = V (Proc.devRef .tc main_v31) := by
  after_results_simp
theorem afterA2_main_arg0 (V : Valuation τ sig (Elt Ideal)) :
    after (opsA2 (F := Ideal)) V (Proc.devRef .tc main_arg0) = V (Proc.devRef .tc main_arg0) := by
  after_results_simp
theorem afterA2_main_arg1 (V : Valuation τ sig (Elt Ideal)) :
    after (opsA2 (F := Ideal)) V (Proc.devRef .tc main_arg1) = V (Proc.devRef .tc main_arg1) := by
  after_results_simp
theorem afterA2_main_arg2 (V : Valuation τ sig (Elt Ideal)) :
    after (opsA2 (F := Ideal)) V (Proc.devRef .tc main_arg2) = V (Proc.devRef .tc main_arg2) := by
  after_results_simp
theorem afterA2_main_arg3 (V : Valuation τ sig (Elt Ideal)) :
    after (opsA2 (F := Ideal)) V (Proc.devRef .tc main_arg3) = V (Proc.devRef .tc main_arg3) := by
  after_results_simp
theorem afterA2_main_arg4 (V : Valuation τ sig (Elt Ideal)) :
    after (opsA2 (F := Ideal)) V (Proc.devRef .tc main_arg4) = V (Proc.devRef .tc main_arg4) := by
  after_results_simp
theorem afterA2_main_arg5 (V : Valuation τ sig (Elt Ideal)) :
    after (opsA2 (F := Ideal)) V (Proc.devRef .tc main_arg5) = V (Proc.devRef .tc main_arg5) := by
  after_results_simp
theorem afterA2_main_arg6 (V : Valuation τ sig (Elt Ideal)) :
    after (opsA2 (F := Ideal)) V (Proc.devRef .tc main_arg6) = V (Proc.devRef .tc main_arg6) := by
  after_results_simp

theorem afterB2_result (V : Valuation τ sig (Elt Ideal)) :
    after (opsB2 (F := Ideal)) V (Proc.devRef .tc main_v184)
      = Spec.bn (V (Proc.devRef .tc main_v154)) (Spec.rowOf (V (Proc.devRef .tc main_arg5)) 2) (Spec.rowOf (V (Proc.devRef .tc main_arg6)) 2) := by
  after_results_simp
  rw [← Spec.bnChain_eq, ← Spec.row2 (V (Proc.devRef .tc main_arg5)), ← Spec.row2 (V (Proc.devRef .tc main_arg6))]
  rfl
theorem afterB2_main_v3 (V : Valuation τ sig (Elt Ideal)) :
    after (opsB2 (F := Ideal)) V (Proc.devRef .tc main_v3) = V (Proc.devRef .tc main_v3) := by
  after_results_simp
theorem afterB2_main_v6 (V : Valuation τ sig (Elt Ideal)) :
    after (opsB2 (F := Ideal)) V (Proc.devRef .tc main_v6) = V (Proc.devRef .tc main_v6) := by
  after_results_simp
theorem afterB2_main_v31 (V : Valuation τ sig (Elt Ideal)) :
    after (opsB2 (F := Ideal)) V (Proc.devRef .tc main_v31) = V (Proc.devRef .tc main_v31) := by
  after_results_simp
theorem afterB2_main_arg0 (V : Valuation τ sig (Elt Ideal)) :
    after (opsB2 (F := Ideal)) V (Proc.devRef .tc main_arg0) = V (Proc.devRef .tc main_arg0) := by
  after_results_simp
theorem afterB2_main_arg1 (V : Valuation τ sig (Elt Ideal)) :
    after (opsB2 (F := Ideal)) V (Proc.devRef .tc main_arg1) = V (Proc.devRef .tc main_arg1) := by
  after_results_simp
theorem afterB2_main_arg2 (V : Valuation τ sig (Elt Ideal)) :
    after (opsB2 (F := Ideal)) V (Proc.devRef .tc main_arg2) = V (Proc.devRef .tc main_arg2) := by
  after_results_simp
theorem afterB2_main_arg3 (V : Valuation τ sig (Elt Ideal)) :
    after (opsB2 (F := Ideal)) V (Proc.devRef .tc main_arg3) = V (Proc.devRef .tc main_arg3) := by
  after_results_simp
theorem afterB2_main_arg4 (V : Valuation τ sig (Elt Ideal)) :
    after (opsB2 (F := Ideal)) V (Proc.devRef .tc main_arg4) = V (Proc.devRef .tc main_arg4) := by
  after_results_simp
theorem afterB2_main_arg5 (V : Valuation τ sig (Elt Ideal)) :
    after (opsB2 (F := Ideal)) V (Proc.devRef .tc main_arg5) = V (Proc.devRef .tc main_arg5) := by
  after_results_simp
theorem afterB2_main_arg6 (V : Valuation τ sig (Elt Ideal)) :
    after (opsB2 (F := Ideal)) V (Proc.devRef .tc main_arg6) = V (Proc.devRef .tc main_arg6) := by
  after_results_simp

end Cert.ReferenceIdeal.HandRun
-- ==== Proof.RefRun.Layer3.lean ====
import proofs.«406641_j72756745994790_1_alg».proof.Proof.RefRun.Ops
import proofs.«406641_j72756745994790_1_alg».proof.Proof.SpecOps

noncomputable section

namespace Cert.ReferenceIdeal.HandRun

open Cert.ReferenceIdeal Cert.ReferenceIdeal.Gen Idealize.ShloMosaic Idealize.ShloMosaic.TcCoe Idealize.SL.Sem Idealize.ShloMosaic.StableHlo

theorem afterA3_result (V : Valuation τ sig (Elt Ideal)) :
    after (opsA3 (F := Ideal)) V (Proc.devRef .tc main_v205)
      = Spec.agg (Spec.mm (V (Proc.devRef .tc main_v184)) (Spec.wOf (V (Proc.devRef .tc main_arg3)) 3)) (V (Proc.devRef .tc main_v3)) (V (Proc.devRef .tc main_v6))
          (V (Proc.devRef .tc main_v31)) (Spec.rowOf (V (Proc.devRef .tc main_arg4)) 3) := by
  after_results_simp
  rw [← Spec.dot_eq_mm, ← Spec.weight3 (V (Proc.devRef .tc main_arg3)), ← Spec.row3 (V (Proc.devRef .tc main_arg4))]
  rfl
theorem afterA3_main_v3 (V : Valuation τ sig (Elt Ideal)) :
    after (opsA3 (F := Ideal)) V (Proc.devRef .tc main_v3) = V (Proc.devRef .tc main_v3) := by
  after_results_simp
theorem afterA3_main_v6 (V : Valuation τ sig (Elt Ideal)) :
    after (opsA3 (F := Ideal)) V (Proc.devRef .tc main_v6) = V (Proc.devRef .tc main_v6) := by
  after_results_simp
theorem afterA3_main_v31 (V : Valuation τ sig (Elt Ideal)) :
    after (opsA3 (F := Ideal)) V (Proc.devRef .tc main_v31) = V (Proc.devRef .tc main_v31) := by
  after_results_simp
theorem afterA3_main_arg0 (V : Valuation τ sig (Elt Ideal)) :
    after (opsA3 (F := Ideal)) V (Proc.devRef .tc main_arg0) = V (Proc.devRef .tc main_arg0) := by
  after_results_simp
theorem afterA3_main_arg1 (V : Valuation τ sig (Elt Ideal)) :
    after (opsA3 (F := Ideal)) V (Proc.devRef .tc main_arg1) = V (Proc.devRef .tc main_arg1) := by
  after_results_simp
theorem afterA3_main_arg2 (V : Valuation τ sig (Elt Ideal)) :
    after (opsA3 (F := Ideal)) V (Proc.devRef .tc main_arg2) = V (Proc.devRef .tc main_arg2) := by
  after_results_simp
theorem afterA3_main_arg3 (V : Valuation τ sig (Elt Ideal)) :
    after (opsA3 (F := Ideal)) V (Proc.devRef .tc main_arg3) = V (Proc.devRef .tc main_arg3) := by
  after_results_simp
theorem afterA3_main_arg4 (V : Valuation τ sig (Elt Ideal)) :
    after (opsA3 (F := Ideal)) V (Proc.devRef .tc main_arg4) = V (Proc.devRef .tc main_arg4) := by
  after_results_simp
theorem afterA3_main_arg5 (V : Valuation τ sig (Elt Ideal)) :
    after (opsA3 (F := Ideal)) V (Proc.devRef .tc main_arg5) = V (Proc.devRef .tc main_arg5) := by
  after_results_simp
theorem afterA3_main_arg6 (V : Valuation τ sig (Elt Ideal)) :
    after (opsA3 (F := Ideal)) V (Proc.devRef .tc main_arg6) = V (Proc.devRef .tc main_arg6) := by
  after_results_simp

theorem afterB3_result (V : Valuation τ sig (Elt Ideal)) :
    after (opsB3 (F := Ideal)) V (Proc.devRef .tc main_v235)
      = Spec.bn (V (Proc.devRef .tc main_v205)) (Spec.rowOf (V (Proc.devRef .tc main_arg5)) 3) (Spec.rowOf (V (Proc.devRef .tc main_arg6)) 3) := by
  after_results_simp
  rw [← Spec.bnChain_eq, ← Spec.row3 (V (Proc.devRef .tc main_arg5)), ← Spec.row3 (V (Proc.devRef .tc main_arg6))]
  rfl
theorem afterB3_main_v3 (V : Valuation τ sig (Elt Ideal)) :
    after (opsB3 (F := Ideal)) V (Proc.devRef .tc main_v3) = V (Proc.devRef .tc main_v3) := by
  after_results_simp
theorem afterB3_main_v6 (V : Valuation τ sig (Elt Ideal)) :
    after (opsB3 (F := Ideal)) V (Proc.devRef .tc main_v6) = V (Proc.devRef .tc main_v6) := by
  after_results_simp
theorem afterB3_main_v31 (V : Valuation τ sig (Elt Ideal)) :
    after (opsB3 (F := Ideal)) V (Proc.devRef .tc main_v31) = V (Proc.devRef .tc main_v31) := by
  after_results_simp
theorem afterB3_main_arg0 (V : Valuation τ sig (Elt Ideal)) :
    after (opsB3 (F := Ideal)) V (Proc.devRef .tc main_arg0) = V (Proc.devRef .tc main_arg0) := by
  after_results_simp
theorem afterB3_main_arg1 (V : Valuation τ sig (Elt Ideal)) :
    after (opsB3 (F := Ideal)) V (Proc.devRef .tc main_arg1) = V (Proc.devRef .tc main_arg1) := by
  after_results_simp
theorem afterB3_main_arg2 (V : Valuation τ sig (Elt Ideal)) :
    after (opsB3 (F := Ideal)) V (Proc.devRef .tc main_arg2) = V (Proc.devRef .tc main_arg2) := by
  after_results_simp
theorem afterB3_main_arg3 (V : Valuation τ sig (Elt Ideal)) :
    after (opsB3 (F := Ideal)) V (Proc.devRef .tc main_arg3) = V (Proc.devRef .tc main_arg3) := by
  after_results_simp
theorem afterB3_main_arg4 (V : Valuation τ sig (Elt Ideal)) :
    after (opsB3 (F := Ideal)) V (Proc.devRef .tc main_arg4) = V (Proc.devRef .tc main_arg4) := by
  after_results_simp
theorem afterB3_main_arg5 (V : Valuation τ sig (Elt Ideal)) :
    after (opsB3 (F := Ideal)) V (Proc.devRef .tc main_arg5) = V (Proc.devRef .tc main_arg5) := by
  after_results_simp
theorem afterB3_main_arg6 (V : Valuation τ sig (Elt Ideal)) :
    after (opsB3 (F := Ideal)) V (Proc.devRef .tc main_arg6) = V (Proc.devRef .tc main_arg6) := by
  after_results_simp

end Cert.ReferenceIdeal.HandRun
-- ==== Proof.SpecPool.lean ====
import proofs.«406641_j72756745994790_1_alg».proof.Proof.SpecOps

noncomputable section

open scoped BigOperators

namespace Cert.Spec

open Idealize.ShloMosaic Idealize.ShloMosaic.ValueIdx

theorem batchCol_apply (batch : IVec ShN 32) (k : ShN1.Idx) :
    broadcastInDim ShN1 ![0] bcN_N1 batch k = batch (ix1 (k 0)) :=
  broadcastInDim_apply _ bcN_N1 batch k (ix1 (n := 50000) (k 0)) (fun a => match a with
    | ⟨0, _⟩ => by show (k 0).val = if (50000 : Nat) = 1 then 0 else (k 0).val; rw [if_neg (by decide)])

theorem scatterGF_start_0 (u : ShNF.Idx) (idx : IVec ShN1 32) :
    scatterGF.start u idx 0 = (idx (ix2 (n0 := 50000) (n1 := 1) (u 0) 0)).toInt := by
  unfold ScatterDims.start
  rw [dif_pos (show (0 : Fin ShGF.rank) ∈ scatterGF.scatterDimsToOperandDims by decide)]
  refine congrArg (fun k => (idx k).toInt) (funext fun b => Fin.ext ?_)
  match b with
  | ⟨0, _⟩ => rfl
  | ⟨1, _⟩ => rfl

theorem scatterGF_window_0 (u : ShNF.Idx) : scatterGF.window u 0 = 0 := by
  unfold ScatterDims.window
  rw [dif_neg (show ¬(0 : Fin ShGF.rank) ∈ scatterGF.sKept by decide)]

theorem scatterGF_start_1 (u : ShNF.Idx) (idx : IVec ShN1 32) : scatterGF.start u idx 1 = 0 := by
  unfold ScatterDims.start
  rw [dif_neg (show ¬(1 : Fin ShGF.rank) ∈ scatterGF.scatterDimsToOperandDims by decide)]

theorem scatterGF_window_1 (u : ShNF.Idx) : scatterGF.window u 1 = (u 1).val := by
  unfold ScatterDims.window
  rw [dif_pos (show (1 : Fin ShGF.rank) ∈ scatterGF.sKept by decide)]
  rfl

theorem lands_iff (u : ShNF.Idx) (idx : IVec ShN1 32) (i : ShGF.Idx) :
    scatterGF.resultIdx? u idx = some i ↔
      (idx (ix2 (n0 := 50000) (n1 := 1) (u 0) 0)).toInt = ((i 0).val : Int) ∧ u 1 = i 1 := by
  have h0 : scatterGF.start u idx 0 + (scatterGF.window u 0 : Int) = (idx (ix2 (n0 := 50000) (n1 := 1) (u 0) 0)).toInt := by
    rw [scatterGF_start_0, scatterGF_window_0]; simp
  have h1 : scatterGF.start u idx 1 + (scatterGF.window u 1 : Int) = ((u 1).val : Int) := by
    rw [scatterGF_start_1, scatterGF_window_1]; simp
  have hi0 : (i 0).val < 256 := (i 0).isLt
  have hi1 : (i 1).val < 96 := (i 1).isLt
  have hu1 : (u 1).val < 96 := (u 1).isLt
  unfold ScatterDims.resultIdx?
  constructor
  · intro hs
    split at hs
    · rename_i hc
      have hf := Option.some.inj hs
      have e0 : ((scatterGF.start u idx 0 + (scatterGF.window u 0 : Int)).toNat) = (i 0).val :=
        congrArg (fun f : ShGF.Idx => (f 0).val) hf
      have e1 : ((scatterGF.start u idx 1 + (scatterGF.window u 1 : Int)).toNat) = (i 1).val :=
        congrArg (fun f : ShGF.Idx => (f 1).val) hf
      have c0 := (hc 0).1
      rw [h0] at e0 c0
      rw [h1] at e1
      refine ⟨by omega, Fin.ext (by simpa using e1)⟩
    · exact absurd hs (by simp)
  · rintro ⟨hb, hf⟩
    have hc : ∀ a : Fin ShGF.rank, 0 ≤ scatterGF.start u idx a + (scatterGF.window u a : Int)
        ∧ scatterGF.start u idx a + (scatterGF.window u a : Int) < (ShGF.size a : Int) := fun a => by
      match a with
      | ⟨0, _⟩ =>
        show 0 ≤ scatterGF.start u idx 0 + (scatterGF.window u 0 : Int) ∧ scatterGF.start u idx 0 + (scatterGF.window u 0 : Int) < ((256 : Nat) : Int)
        rw [h0, hb]; omega
      | ⟨1, _⟩ =>
        show 0 ≤ scatterGF.start u idx 1 + (scatterGF.window u 1 : Int) ∧ scatterGF.start u idx 1 + (scatterGF.window u 1 : Int) < ((96 : Nat) : Int)
        rw [h1]; omega
    rw [dif_pos hc]
    refine congrArg some (funext fun a => Fin.ext ?_)
    match a with
    | ⟨0, _⟩ =>
      show (scatterGF.start u idx 0 + (scatterGF.window u 0 : Int)).toNat = (i 0).val
      rw [h0, hb]; omega
    | ⟨1, _⟩ =>
      show (scatterGF.start u idx 1 + (scatterGF.window u 1 : Int)).toNat = (i 1).val
      rw [h1, ← hf]; omega

theorem pool_lands (u : ShNF.Idx) (batch : IVec ShN 32) (i : ShGF.Idx) :
    scatterGF.resultIdx? u (broadcastInDim ShN1 ![0] bcN_N1 batch) = some i ↔
      (batch (ix1 (u 0))).toInt = ((i 0).val : Int) ∧ u 1 = i 1 := by
  rw [lands_iff, batchCol_apply]

theorem zeroGF_apply (i : ShGF.Idx) :
    broadcastInDim ShGF ![] bc0_GF (constant (F := Ideal) Sh0 .f32 0x00000000#32) i = Ideal.ofBits .f32 0x00000000#32 :=
  scalar_apply bc0_GF _ i

theorem scatter_eq_poolSum (h : FVec Ideal ShNF .f32) (batch : IVec ShN 32) :
    Host.scatterAdd scatterGF (broadcastInDim ShGF ![] bc0_GF (constant (F := Ideal) Sh0 .f32 0x00000000#32))
      (broadcastInDim ShN1 ![0] bcN_N1 batch) h = poolSum h batch := by
  funext i
  simp only [Host.scatterAdd, Ideal.hostScatterAdd_def]
  unfold Ideal.hostScatterAdd poolSum
  rw [zeroGF_apply]
  refine congrArg (_ + ·) ?_
  refine (Finset.sum_bij (fun (n : Fin 50000) _ => (ix2 n (i 1) : ShNF.Idx)) ?_ ?_ ?_ ?_).symm
  · intro n hn
    rw [Finset.mem_filter] at hn ⊢
    exact ⟨Finset.mem_univ _, (pool_lands _ batch i).mpr ⟨hn.2, rfl⟩⟩
  · intro n _ m _ hnm
    exact congrFun hnm 0
  · intro u hu
    rw [Finset.mem_filter] at hu
    have hl := (pool_lands u batch i).mp hu.2
    refine ⟨u 0, ?_, ?_⟩
    · exact Finset.mem_filter.mpr ⟨Finset.mem_univ _, hl.1⟩
    · rw [← hl.2]; exact (eq_ix2 u).symm
  · intro n _
    rfl

end Cert.Spec
-- ==== Proof.RefRun.Pool.lean ====
import proofs.«406641_j72756745994790_1_alg».proof.Proof.RefRun.Ops
import proofs.«406641_j72756745994790_1_alg».proof.Proof.SpecOps
import proofs.«406641_j72756745994790_1_alg».proof.Proof.SpecPool

noncomputable section

namespace Cert.ReferenceIdeal.HandRun

open Cert.ReferenceIdeal Cert.ReferenceIdeal.Gen Idealize.ShloMosaic Idealize.ShloMosaic.TcCoe Idealize.SL.Sem Idealize.ShloMosaic.StableHlo

theorem afterT_result (V : Valuation τ sig (Elt Ideal)) :
    after (opsT (F := Ideal)) V (Proc.devRef .tc main_v247)
      = Spec.meanOf (Spec.poolSum (V (Proc.devRef .tc main_v235)) (V (Proc.devRef .tc main_arg2))) (V (Proc.devRef .tc main_arg2)) := by
  after_results_simp
  rw [← Spec.scatter_eq_poolSum]
  rfl
theorem afterT_main_arg0 (V : Valuation τ sig (Elt Ideal)) :
    after (opsT (F := Ideal)) V (Proc.devRef .tc main_arg0) = V (Proc.devRef .tc main_arg0) := by
  after_results_simp
theorem afterT_main_arg1 (V : Valuation τ sig (Elt Ideal)) :
    after (opsT (F := Ideal)) V (Proc.devRef .tc main_arg1) = V (Proc.devRef .tc main_arg1) := by
  after_results_simp
theorem afterT_main_arg2 (V : Valuation τ sig (Elt Ideal)) :
    after (opsT (F := Ideal)) V (Proc.devRef .tc main_arg2) = V (Proc.devRef .tc main_arg2) := by
  after_results_simp
theorem afterT_main_arg3 (V : Valuation τ sig (Elt Ideal)) :
    after (opsT (F := Ideal)) V (Proc.devRef .tc main_arg3) = V (Proc.devRef .tc main_arg3) := by
  after_results_simp
theorem afterT_main_arg4 (V : Valuation τ sig (Elt Ideal)) :
    after (opsT (F := Ideal)) V (Proc.devRef .tc main_arg4) = V (Proc.devRef .tc main_arg4) := by
  after_results_simp
theorem afterT_main_arg5 (V : Valuation τ sig (Elt Ideal)) :
    after (opsT (F := Ideal)) V (Proc.devRef .tc main_arg5) = V (Proc.devRef .tc main_arg5) := by
  after_results_simp
theorem afterT_main_arg6 (V : Valuation τ sig (Elt Ideal)) :
    after (opsT (F := Ideal)) V (Proc.devRef .tc main_arg6) = V (Proc.devRef .tc main_arg6) := by
  after_results_simp

end Cert.ReferenceIdeal.HandRun
-- ==== Proof.RefRun.Run.lean ====
import proofs.«406641_j72756745994790_1_alg».proof.Proof.RefRun.Ops
import proofs.«406641_j72756745994790_1_alg».proof.Proof.RefRun.Edges
import proofs.«406641_j72756745994790_1_alg».proof.Proof.RefRun.Layer0
import proofs.«406641_j72756745994790_1_alg».proof.Proof.RefRun.Layer1
import proofs.«406641_j72756745994790_1_alg».proof.Proof.RefRun.Layer2
import proofs.«406641_j72756745994790_1_alg».proof.Proof.RefRun.Layer3
import proofs.«406641_j72756745994790_1_alg».proof.Proof.RefRun.Pool

noncomputable section

namespace Cert.ReferenceIdeal.HandRun

open Cert.ReferenceIdeal Cert.ReferenceIdeal.Gen Idealize.ShloMosaic Idealize.ShloMosaic.TcCoe Idealize.SL.Sem Idealize.ShloMosaic.StableHlo

theorem forall_append {α : Type} {p : α → Prop} {l₁ l₂ : List α} (h₁ : l₁.Forall p) (h₂ : l₂.Forall p) : (l₁ ++ l₂).Forall p :=
  List.forall_iff_forall_mem.2 fun a ha =>
    (List.mem_append.1 ha).elim (List.forall_iff_forall_mem.1 h₁ a) (List.forall_iff_forall_mem.1 h₂ a)
theorem mem_append_of {α : Type} {p : α → Prop} {l₁ l₂ : List α} (h₁ : ∀ a ∈ l₁, p a) (h₂ : ∀ a ∈ l₂, p a) : ∀ a ∈ l₁ ++ l₂, p a :=
  fun a ha => (List.mem_append.1 ha).elim (h₁ a) (h₂ a)

variable {F : FTy → Type} [FloatOps F]

abbrev ops : List (HloOp τ sig (Elt F)) :=
  opsP1 ++ (opsP2 ++ (opsA0 ++ (opsB0 ++ (opsA1 ++ (opsB1 ++ (opsA2 ++ (opsB2 ++ (opsA3 ++ (opsB3 ++ (opsT))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  forall_append opsP1_sub (forall_append opsP2_sub (forall_append opsA0_sub (forall_append opsB0_sub (forall_append opsA1_sub (forall_append opsB1_sub (forall_append opsA2_sub (forall_append opsB2_sub (forall_append opsA3_sub (forall_append opsB3_sub (opsT_sub))))))))))
theorem ops_fresh : ∀ op ∈ (ops : List (HloOp τ sig (Elt F))), op.fresh = ∅ :=
  mem_append_of opsP1_fresh (mem_append_of opsP2_fresh (mem_append_of opsA0_fresh (mem_append_of opsB0_fresh (mem_append_of opsA1_fresh (mem_append_of opsB1_fresh (mem_append_of opsA2_fresh (mem_append_of opsB2_fresh (mem_append_of opsA3_fresh (mem_append_of opsB3_fresh (opsT_fresh))))))))))

theorem after_ops (V : Valuation τ sig (Elt F)) :
    after ops V = after opsT (after opsB3 (after opsA3 (after opsB2 (after opsA2 (after opsB1 (after opsA1 (after opsB0 (after opsA0 (after opsP2 (after opsP1 (V))))))))))) := by
  simp only [ops, after_append]

theorem result_spec (V : Valuation τ sig (Elt Ideal)) :
    after (ops (F := Ideal)) V (Proc.devRef .tc main_v247)
      = Spec.result (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) := by
  rw [after_ops,
    afterT_result, afterB3_result, afterB3_main_arg2, afterA3_result, afterA3_main_arg5, afterA3_main_arg6,
    afterA3_main_arg2, afterB2_result, afterB2_main_arg3, afterB2_main_v3, afterB2_main_v6, afterB2_main_v31,
    afterB2_main_arg4, afterB2_main_arg5, afterB2_main_arg6, afterB2_main_arg2, afterA2_result, afterA2_main_arg5,
    afterA2_main_arg6, afterA2_main_arg3, afterA2_main_v3, afterA2_main_v6, afterA2_main_v31, afterA2_main_arg4,
    afterA2_main_arg2, afterB1_result, afterB1_main_arg3, afterB1_main_v3, afterB1_main_v6, afterB1_main_v31,
    afterB1_main_arg4, afterB1_main_arg5, afterB1_main_arg6, afterB1_main_arg2, afterA1_result, afterA1_main_arg5,
    afterA1_main_arg6, afterA1_main_arg3, afterA1_main_v3, afterA1_main_v6, afterA1_main_v31, afterA1_main_arg4,
    afterA1_main_arg2, afterB0_result, afterB0_main_arg3, afterB0_main_v3, afterB0_main_v6, afterB0_main_v31,
    afterB0_main_arg4, afterB0_main_arg5, afterB0_main_arg6, afterB0_main_arg2, afterA0_result, afterA0_main_arg5,
    afterA0_main_arg6, afterA0_main_arg3, afterA0_main_v3, afterA0_main_v6, afterA0_main_v31, afterA0_main_arg4,
    afterA0_main_arg2, afterP2_main_arg0, afterP2_main_arg3, afterP2_main_v3, afterP2_main_v6, afterP2_norm,
    afterP2_main_arg4, afterP2_main_arg5, afterP2_main_arg6, afterP2_main_arg2, afterP1_main_arg0, afterP1_main_arg3,
    afterP1_src, afterP1_dst, afterP1_main_arg4, afterP1_main_arg5, afterP1_main_arg6, afterP1_main_arg2]
  rfl
theorem keep_main_arg0 (V : Valuation τ sig (Elt Ideal)) :
    after (ops (F := Ideal)) V (Proc.devRef .tc main_arg0) = V (Proc.devRef .tc main_arg0) := by
  rw [after_ops,
    afterT_main_arg0, afterB3_main_arg0, afterA3_main_arg0, afterB2_main_arg0, afterA2_main_arg0, afterB1_main_arg0,
    afterA1_main_arg0, afterB0_main_arg0, afterA0_main_arg0, afterP2_main_arg0, afterP1_main_arg0]
theorem keep_main_arg1 (V : Valuation τ sig (Elt Ideal)) :
    after (ops (F := Ideal)) V (Proc.devRef .tc main_arg1) = V (Proc.devRef .tc main_arg1) := by
  rw [after_ops,
    afterT_main_arg1, afterB3_main_arg1, afterA3_main_arg1, afterB2_main_arg1, afterA2_main_arg1, afterB1_main_arg1,
    afterA1_main_arg1, afterB0_main_arg1, afterA0_main_arg1, afterP2_main_arg1, afterP1_main_arg1]
theorem keep_main_arg2 (V : Valuation τ sig (Elt Ideal)) :
    after (ops (F := Ideal)) V (Proc.devRef .tc main_arg2) = V (Proc.devRef .tc main_arg2) := by
  rw [after_ops,
    afterT_main_arg2, afterB3_main_arg2, afterA3_main_arg2, afterB2_main_arg2, afterA2_main_arg2, afterB1_main_arg2,
    afterA1_main_arg2, afterB0_main_arg2, afterA0_main_arg2, afterP2_main_arg2, afterP1_main_arg2]
theorem keep_main_arg3 (V : Valuation τ sig (Elt Ideal)) :
    after (ops (F := Ideal)) V (Proc.devRef .tc main_arg3) = V (Proc.devRef .tc main_arg3) := by
  rw [after_ops,
    afterT_main_arg3, afterB3_main_arg3, afterA3_main_arg3, afterB2_main_arg3, afterA2_main_arg3, afterB1_main_arg3,
    afterA1_main_arg3, afterB0_main_arg3, afterA0_main_arg3, afterP2_main_arg3, afterP1_main_arg3]
theorem keep_main_arg4 (V : Valuation τ sig (Elt Ideal)) :
    after (ops (F := Ideal)) V (Proc.devRef .tc main_arg4) = V (Proc.devRef .tc main_arg4) := by
  rw [after_ops,
    afterT_main_arg4, afterB3_main_arg4, afterA3_main_arg4, afterB2_main_arg4, afterA2_main_arg4, afterB1_main_arg4,
    afterA1_main_arg4, afterB0_main_arg4, afterA0_main_arg4, afterP2_main_arg4, afterP1_main_arg4]
theorem keep_main_arg5 (V : Valuation τ sig (Elt Ideal)) :
    after (ops (F := Ideal)) V (Proc.devRef .tc main_arg5) = V (Proc.devRef .tc main_arg5) := by
  rw [after_ops,
    afterT_main_arg5, afterB3_main_arg5, afterA3_main_arg5, afterB2_main_arg5, afterA2_main_arg5, afterB1_main_arg5,
    afterA1_main_arg5, afterB0_main_arg5, afterA0_main_arg5, afterP2_main_arg5, afterP1_main_arg5]
theorem keep_main_arg6 (V : Valuation τ sig (Elt Ideal)) :
    after (ops (F := Ideal)) V (Proc.devRef .tc main_arg6) = V (Proc.devRef .tc main_arg6) := by
  rw [after_ops,
    afterT_main_arg6, afterB3_main_arg6, afterA3_main_arg6, afterB2_main_arg6, afterA2_main_arg6, afterB1_main_arg6,
    afterA1_main_arg6, afterB0_main_arg6, afterA0_main_arg6, afterP2_main_arg6, afterP1_main_arg6]

theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v247)
        = Spec.result (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v247).trans (result_spec (launchContents m c)),
      (h c main_arg0).trans (keep_main_arg0 (launchContents m c)),
      (h c main_arg1).trans (keep_main_arg1 (launchContents m c)),
      (h c main_arg2).trans (keep_main_arg2 (launchContents m c)),
      (h c main_arg3).trans (keep_main_arg3 (launchContents m c)),
      (h c main_arg4).trans (keep_main_arg4 (launchContents m c)),
      (h c main_arg5).trans (keep_main_arg5 (launchContents m c)),
      (h c main_arg6).trans (keep_main_arg6 (launchContents m c))⟩)
    (run_seq scopedRefs_eq scopedSems_eq defs main (fun _ => ops) main_eq (fun _ => ops_sub) m ρ (fun _ => ops_fresh))

end Cert.ReferenceIdeal.HandRun
-- ==== Proof.FiniteArgs.lean ====
import proofs.«406641_j72756745994790_1_alg».proof.Pre_finite_inputs
import proofs.«406641_j72756745994790_1_alg».proof.Proof.LibRealArrays
import Idealize.ShloMosaic.Lib.ReduceAll
import Idealize.ShloMosaic.Lib.ValueIdx
import Idealize.ShloMosaic.PureOps.Ideal

noncomputable section

namespace Cert.FiniteArgs

open Idealize.ShloMosaic RealArrays Cert.Pre_finite_inputs

instance : Subsingleton S_.Idx := ⟨fun _ _ => funext fun d => d.elim0⟩

theorem ofBits_inf : Ideal.ofBits .f32 0x7F800000#32 = ⊤ := by
  simp [Ideal.ofBits, Ideal.ieee]

theorem real_of_abs_lt_top {e : EReal} (h : max e (-e) < ⊤) : ∃ r : ℝ, e = (r : EReal) := by
  induction e using EReal.rec with
  | bot => simp at h
  | coe r => exact ⟨r, rfl⟩
  | top => simp at h

theorem real_of_test {s : Shape} (x y : FVec Ideal s .f32) (hy : ∀ i, y i = ⊤) (i : s.Idx)
    (h : cmpf .olt (Host.absf x) y i = 1#1) : ∃ r : ℝ, x i = (r : EReal) := by
  have h' : BitVec.ofBool (decide (max (x i) (-(x i)) < y i)) = 1#1 := h
  rw [hy i] at h'
  by_cases hlt : max (x i) (-(x i)) < ⊤
  · exact real_of_abs_lt_top hlt
  · rw [decide_eq_false hlt] at h'; exact absurd h' (by decide)

theorem isReal_of_all {s : Shape} {axes : List (Fin s.rank)} (x : FVec Ideal s .f32)
    (dims : Fin S_.rank → Fin s.rank) (hb : S_.BroadcastsInDim s dims) (init : IVec S_ 1)
    (hr : s.ReducesTo axes S_) (hu : 0 < S_.numel)
    (h : Host.reduce IntOp.andi (cmpf .olt (Host.absf x)
      (broadcastInDim s dims hb (constant (F := Ideal) S_ .f32 0x7F800000#32))) init hr hu ValueIdx.ix0 = 1#1) :
    IsReal x := fun i =>
  real_of_test x _ (fun _ => ofBits_inf) i (Host.reduce_andi_all _ init hr hu ValueIdx.ix0 h i)

theorem args_real [Facts] (x : FVec Ideal S50000x96 .f32) (ei : IVec S2x800000 32) (batch : IVec S50000 32)
    (W : FVec Ideal S4x96x96 .f32) (b γ β : FVec Ideal S4x96 .f32)
    (h : fn (F := Ideal) x ei batch W b γ β = (fun _ => 1#1)) :
    IsReal x ∧ IsReal W ∧ IsReal b ∧ IsReal γ ∧ IsReal β := by
  have h0 := congrFun h ValueIdx.ix0
  dsimp only [fn, fn_part1] at h0
  simp only [Idealize.ShloMosaic.andi, IntOp.andi_eq_one] at h0
  obtain ⟨⟨⟨⟨hx, hW⟩, hb⟩, hγ⟩, hβ⟩ := h0
  exact ⟨isReal_of_all x _ _ _ _ _ hx, isReal_of_all W _ _ _ _ _ hW, isReal_of_all b _ _ _ _ _ hb,
    isReal_of_all γ _ _ _ _ _ hγ, isReal_of_all β _ _ _ _ _ hβ⟩

end Cert.FiniteArgs

end
-- ==== Proof.lean ====
/-
  A four-layer graph-convolution encoder over 50000 nodes and 96 features, then a mean pool over 256 graphs.
  The kernel takes each layer's variance as the mean of the squares less the squared mean and the pool as a product with a
  one-hot matrix; the reference takes the mean of the squared deviations and an accumulating scatter. On real entries
  the two agree over the extended reals, and realness is carried from the arguments through every layer.
-/
import proofs.«406641_j72756745994790_1_alg».proof.Defs
import proofs.«406641_j72756745994790_1_alg».proof.Proof.Gen.Kernel
import proofs.«406641_j72756745994790_1_alg».proof.Proof.Gen.KernelIdeal
import proofs.«406641_j72756745994790_1_alg».proof.Proof.Gen.ReferenceIdeal
import proofs.«406641_j72756745994790_1_alg».proof.Proof.Gen.Pre_finite_inputs
import proofs.«406641_j72756745994790_1_alg».proof.Proof.KI.Main
import proofs.«406641_j72756745994790_1_alg».proof.Proof.KI.Result
import proofs.«406641_j72756745994790_1_alg».proof.Proof.RefRun.Run
import proofs.«406641_j72756745994790_1_alg».proof.Proof.FiniteArgs
import Idealize.ShloMosaic.Adequacy
import Idealize.ShloMosaic.Init
import Lean.Elab.Term

noncomputable section

namespace Cert.Proof

open Idealize.ShloMosaic Idealize.SL.Sem
open Cert.KernelIdeal Cert.KernelIdeal.Hand

open Lean Elab Term Meta in
/-- `Eq.refl` of the left side, for two sides that are equal by unfolding definitions. -/
elab "kernel_rfl" : term <= ty => do
  let ty ← instantiateMVars ty
  let some (α, lhs, _) := ty.eq? | throwError "kernel_rfl: not an equation"
  return mkApp2 (mkConst ``id [levelZero]) ty (mkApp2 (mkConst ``Eq.refl [← getLevel α]) α lhs)

section
variable {F : FTy → Type} [FloatOps F]

set_option maxHeartbeats 1000000 in
/-- The idealization rewrote nothing: the program as printed is the idealized program's own text, definition by definition. -/
theorem defs_same : defs (F := F) = Cert.Kernel.defs := kernel_rfl
set_option maxHeartbeats 1000000 in
theorem main_same : main (F := F) = Cert.Kernel.main := kernel_rfl
end

set_option maxHeartbeats 1000000 in
/-- So the frame proved at every float instance is the printed program's frame. -/
theorem frame_p : Cert.frame_Kernel := fun m ρ _ => by
  have h := frame_args (F := Bits) m ρ
  rw [defs_same, main_same] at h
  exact h

theorem frame_pi : Cert.frame_KernelIdeal := fun m ρ _ => frame_args m ρ

theorem frame_ri : Cert.frame_ReferenceIdeal := fun m ρ _ =>
  (θ_run Cert.ReferenceIdeal.defs _ _).mono (fun _ h c => (h c).2) (Cert.ReferenceIdeal.HandRun.run_spec m ρ)

theorem algebraic : Cert.algebraic_KernelIdeal_ReferenceIdeal := by
  intro m ρ m' ρ' hpre hagree
  refine ⟨fun c => Cert.Spec.result
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)), ?_, ?_⟩
  · refine (θ_run defs _ _).mono (fun r h c => ?_) (run_all (F := Ideal) m ρ)
    obtain ⟨hx, hW, hb, hγ, hβ⟩ := Cert.FiniteArgs.args_real _ _ _ _ _ _ _ (hpre c)
    exact ⟨(h c _ (mem_uc main_v179 (by decide))).trans (Cert.KernelIdeal.HandValue.result_eq m c hx hW hb hγ hβ),
      args_kept m c r.2.mem (h c)⟩
  · refine (θ_run Cert.ReferenceIdeal.defs _ _).mono (fun _ h c => ⟨(h c).1.trans ?_, (h c).2⟩)
      (Cert.ReferenceIdeal.HandRun.run_spec m' ρ')
    rw [(hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
